-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000x128 : Shape := ⟨2, ![1000, 128]⟩
abbrev S1600000 : Shape := ⟨1, ![1600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg4 : IVec S1600000 32) (main_arg5 : IVec S1600000 32) (main_v64 : IVec S_ 1) (main_v66 : IVec S1600000 1) : IVec S_ 1 :=
  let main_c_27 : IVec S_ 1 := constantI S_ 1 1#1
  let main_v67 : IVec S_ 1 := (fun x v => Host.reduce IntOp.andi x v reducesTo_S1600000_S_d0 h_S_) main_v66 main_c_27
  let main_v68 : IVec S_ 1 := andi main_v64 main_v67
  let main_c_28 : IVec S_ 32 := constantI S_ 32 1000#32
  let main_v69 : IVec S1600000 32 := broadcastInDim S1600000 ![] bcast_S_S1600000 main_c_28
  let main_v70 : IVec S1600000 1 := cmpi .slt main_arg4 main_v69
  let main_c_29 : IVec S_ 1 := constantI S_ 1 1#1
  let main_v71 : IVec S_ 1 := (fun x v => Host.reduce IntOp.andi x v reducesTo_S1600000_S_d0 h_S_) main_v70 main_c_29
  let main_v72 : IVec S_ 1 := andi main_v68 main_v71
  let main_c_30 : IVec S_ 32 := constantI S_ 32 0#32
  let main_v73 : IVec S1600000 32 := broadcastInDim S1600000 ![] bcast_S_S1600000 main_c_30
  let main_v74 : IVec S1600000 1 := cmpi .sge main_arg5 main_v73
  let main_c_31 : IVec S_ 1 := constantI S_ 1 1#1
  let main_v75 : IVec S_ 1 := (fun x v => Host.reduce IntOp.andi x v reducesTo_S1600000_S_d0 h_S_) main_v74 main_c_31
  let main_v76 : IVec S_ 1 := andi main_v72 main_v75
  let main_c_32 : IVec S_ 32 := constantI S_ 32 100000#32
  let main_v77 : IVec S1600000 32 := broadcastInDim S1600000 ![] bcast_S_S1600000 main_c_32
  let main_v78 : IVec S1600000 1 := cmpi .slt main_arg5 main_v77
  let main_c_33 : IVec S_ 1 := constantI S_ 1 1#1
  let main_v79 : IVec S_ 1 := (fun x v => Host.reduce IntOp.andi x v reducesTo_S1600000_S_d0 h_S_) main_v78 main_c_33
  let main_v80 : IVec S_ 1 := andi main_v76 main_v79
  main_v80

def fn_part3 {F : FTy → Type} [FloatOps F] (main_arg2 : IVec S1600000 32) (main_arg3 : IVec S1600000 32) (main_arg4 : IVec S1600000 32) (main_arg5 : IVec S1600000 32) (main_v48 : IVec S_ 1) (main_v50 : IVec S1600000 1) : IVec S_ 1 :=
  let main_c_19 : IVec S_ 1 := constantI S_ 1 1#1
  let main_v51 : IVec S_ 1 := (fun x v => Host.reduce IntOp.andi x v reducesTo_S1600000_S_d0 h_S_) main_v50 main_c_19
  let main_v52 : IVec S_ 1 := andi main_v48 main_v51
  let main_c_20 : IVec S_ 32 := constantI S_ 32 100000#32
  let main_v53 : IVec S1600000 32 := broadcastInDim S1600000 ![] bcast_S_S1600000 main_c_20
  let main_v54 : IVec S1600000 1 := cmpi .slt main_arg2 main_v53
  let main_c_21 : IVec S_ 1 := constantI S_ 1 1#1
  let main_v55 : IVec S_ 1 := (fun x v => Host.reduce IntOp.andi x v reducesTo_S1600000_S_d0 h_S_) main_v54 main_c_21
  let main_v56 : IVec S_ 1 := andi main_v52 main_v55
  let main_c_22 : IVec S_ 32 := constantI S_ 32 0#32
  let main_v57 : IVec S1600000 32 := broadcastInDim S1600000 ![] bcast_S_S1600000 main_c_22
  let main_v58 : IVec S1600000 1 := cmpi .sge main_arg3 main_v57
  let main_c_23 : IVec S_ 1 := constantI S_ 1 1#1
  let main_v59 : IVec S_ 1 := (fun x v => Host.reduce IntOp.andi x v reducesTo_S1600000_S_d0 h_S_) main_v58 main_c_23
  let main_v60 : IVec S_ 1 := andi main_v56 main_v59
  let main_c_24 : IVec S_ 32 := constantI S_ 32 1000#32
  let main_v61 : IVec S1600000 32 := broadcastInDim S1600000 ![] bcast_S_S1600000 main_c_24
  let main_v62 : IVec S1600000 1 := cmpi .slt main_arg3 main_v61
  let main_c_25 : IVec S_ 1 := constantI S_ 1 1#1
  let main_v63 : IVec S_ 1 := (fun x v => Host.reduce IntOp.andi x v reducesTo_S1600000_S_d0 h_S_) main_v62 main_c_25
  let main_v64 : IVec S_ 1 := andi main_v60 main_v63
  let main_c_26 : IVec S_ 32 := constantI S_ 32 0#32
  let main_v65 : IVec S1600000 32 := broadcastInDim S1600000 ![] bcast_S_S1600000 main_c_26
  let main_v66 : IVec S1600000 1 := cmpi .sge main_arg4 main_v65
  fn_part4 (F := F) main_arg4 main_arg5 main_v64 main_v66

def fn_part2 {F : FTy → Type} [FloatOps F] (main_arg2 : IVec S1600000 32) (main_arg3 : IVec S1600000 32) (main_arg4 : IVec S1600000 32) (main_arg5 : IVec S1600000 32) (main_arg11 : FVec F S3x128 .f32) (main_arg12 : FVec F S128x1 .f32) (main_arg13 : FVec F S1 .f32) (main_v33 : IVec S_ 1) : IVec S_ 1 :=
  let main_v34 : FVec F S3x128 .f32 := Host.absf main_arg11
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x1 .f32 := Host.absf main_arg12
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg13
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S1600000 32 := broadcastInDim S1600000 ![] bcast_S_S1600000 main_c_18
  let main_v50 : IVec S1600000 1 := cmpi .sge main_arg2 main_v49
  fn_part3 (F := F) main_arg2 main_arg3 main_arg4 main_arg5 main_v48 main_v50

def fn_part1 {F : FTy → Type} [FloatOps F] (main_arg2 : IVec S1600000 32) (main_arg3 : IVec S1600000 32) (main_arg4 : IVec S1600000 32) (main_arg5 : IVec S1600000 32) (main_arg8 : FVec F S3x128 .f32) (main_arg9 : FVec F S3x128x128 .f32) (main_arg10 : FVec F S3x128x128 .f32) (main_arg11 : FVec F S3x128 .f32) (main_arg12 : FVec F S128x1 .f32) (main_arg13 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg8
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg9
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128x128 .f32 := Host.absf main_arg10
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg2 main_arg3 main_arg4 main_arg5 main_arg11 main_arg12 main_arg13 main_v33

def fn {F : FTy → Type} [FloatOps F] (main_arg0 : FVec F S100000x128 .f32) (main_arg1 : FVec F S1000x128 .f32) (main_arg2 : IVec S1600000 32) (main_arg3 : IVec S1600000 32) (main_arg4 : IVec S1600000 32) (main_arg5 : IVec S1600000 32) (main_arg6 : FVec F S3x128x128 .f32) (main_arg7 : FVec F S3x128x128 .f32) (main_arg8 : FVec F S3x128 .f32) (main_arg9 : FVec F S3x128x128 .f32) (main_arg10 : FVec F S3x128x128 .f32) (main_arg11 : FVec F S3x128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S3x128x128 .f32 := Host.absf main_arg6
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg7
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg2 main_arg3 main_arg4 main_arg5 main_arg8 main_arg9 main_arg10 main_arg11 main_arg12 main_arg13 main_v13 main_v16
-- ==== Kernel.lean ====
abbrev S100000x128 : Shape := ⟨2, ![100000, 128]⟩
abbrev S1000x128 : Shape := ⟨2, ![1000, 128]⟩
abbrev S1600000 : Shape := ⟨1, ![1600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩
abbrev S100096x128 : Shape := ⟨2, ![100096, 128]⟩
abbrev S1024x128 : Shape := ⟨2, ![1024, 128]⟩
abbrev S782x1024x128 : Shape := ⟨3, ![782, 1024, 128]⟩
abbrev S1600000x1 : Shape := ⟨2, ![1600000, 1]⟩
abbrev S1600000x3 : Shape := ⟨2, ![1600000, 3]⟩
abbrev S1024 : Shape := ⟨1, ![1024]⟩
abbrev S1x1024x1 : Shape := ⟨3, ![1, 1024, 1]⟩
abbrev S782x128x1024 : Shape := ⟨3, ![782, 128, 1024]⟩
abbrev S782x128 : Shape := ⟨2, ![782, 128]⟩
abbrev S782x128x1 : Shape := ⟨3, ![782, 128, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2x1024x128 : Shape := ⟨3, ![2, 1024, 128]⟩
abbrev S1x1024x128 : Shape := ⟨3, ![1, 1024, 128]⟩
abbrev S1x128x1024 : Shape := ⟨3, ![1, 128, 1024]⟩
abbrev S128x1024 : Shape := ⟨2, ![128, 1024]⟩
abbrev S100000x1 : Shape := ⟨2, ![100000, 1]⟩
abbrev S1x1 : Shape := ⟨2, ![1, 1]⟩
abbrev S100000 : Shape := ⟨1, ![100000]⟩

abbrev nBuf : Space → Nat
  | .hbm => 235
  | .vmem => 69
  | .smem => 0
  | _ => 0

abbrev hbmTy0_0 (i : Nat) : BufTy := match i % 128 with
  | 0 => ⟨S100000x128, .f32⟩
  | 1 => ⟨S1000x128, .f32⟩
  | 2 => ⟨S1600000, .i32⟩
  | 3 => ⟨S1600000, .i32⟩
  | 4 => ⟨S1600000, .i32⟩
  | 5 => ⟨S1600000, .i32⟩
  | 6 => ⟨S3x128x128, .f32⟩
  | 7 => ⟨S3x128x128, .f32⟩
  | 8 => ⟨S3x128, .f32⟩
  | 9 => ⟨S3x128x128, .f32⟩
  | 10 => ⟨S3x128x128, .f32⟩
  | 11 => ⟨S3x128, .f32⟩
  | 12 => ⟨S128x1, .f32⟩
  | 13 => ⟨S1, .f32⟩
  | 14 => ⟨S_, .i32⟩
  | 15 => ⟨S_, .f32⟩
  | 16 => ⟨S100096x128, .f32⟩
  | 17 => ⟨S_, .i32⟩
  | 18 => ⟨S_, .f32⟩
  | 19 => ⟨S1024x128, .f32⟩
  | 20 => ⟨S_, .i32⟩
  | 21 => ⟨S_, .i32⟩
  | 22 => ⟨S1600000, .i32⟩
  | 23 => ⟨S1600000, .i32⟩
  | 24 => ⟨S1600000, .i32⟩
  | 25 => ⟨S_, .i32⟩
  | 26 => ⟨S1600000, .i32⟩
  | 27 => ⟨S1600000, .i1⟩
  | 28 => ⟨S1600000, .i32⟩
  | 29 => ⟨S1600000, .i32⟩
  | 30 => ⟨S_, .i32⟩
  | 31 => ⟨S1600000, .i32⟩
  | 32 => ⟨S1600000, .i1⟩
  | 33 => ⟨S1600000, .i1⟩
  | 34 => ⟨S_, .i32⟩
  | 35 => ⟨S1600000, .i32⟩
  | 36 => ⟨S1600000, .i32⟩
  | 37 => ⟨S1600000, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S1600000, .i32⟩
  | 45 => ⟨S1600000, .i32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i1⟩
  | 52 => ⟨S_, .i32⟩
  | 53 => ⟨S_, .i1⟩
  | 54 => ⟨S1600000, .i1⟩
  | 55 => ⟨S1600000, .i1⟩
  | 56 => ⟨S1600000, .i1⟩
  | 57 => ⟨S1600000, .i32⟩
  | 58 => ⟨S1600000, .i32⟩
  | 59 => ⟨S1600000, .i32⟩
  | 60 => ⟨S_, .f32⟩
  | 61 => ⟨S782x1024x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x1, .i32⟩
  | 85 => ⟨S1600000x1, .i32⟩
  | 86 => ⟨S1600000x3, .i32⟩
  | 87 => ⟨S_, .f32⟩
  | 88 => ⟨S1600000, .f32⟩
  | 89 => ⟨S782x1024x128, .f32⟩
  | 90 => ⟨S_, .f32⟩
  | 91 => ⟨S1024, .f32⟩
  | 92 => ⟨S_, .f32⟩
  | 93 => ⟨S1024, .f32⟩
  | 94 => ⟨S1024, .f32⟩
  | 95 => ⟨S1x1024x1, .f32⟩
  | 96 => ⟨S782x1024x128, .f32⟩
  | 97 => ⟨S782x1024x128, .f32⟩
  | 98 => ⟨S782x1024x128, .bf16⟩
  | 99 => ⟨S_, .i32⟩
  | 100 => ⟨S_, .i32⟩
  | 101 => ⟨S1600000, .i32⟩
  | 102 => ⟨S1600000, .i32⟩
  | 103 => ⟨S1600000, .i32⟩
  | 104 => ⟨S_, .i32⟩
  | 105 => ⟨S1600000, .i32⟩
  | 106 => ⟨S1600000, .i1⟩
  | 107 => ⟨S1600000, .i32⟩
  | 108 => ⟨S1600000, .i32⟩
  | 109 => ⟨S_, .i32⟩
  | 110 => ⟨S1600000, .i32⟩
  | 111 => ⟨S1600000, .i1⟩
  | 112 => ⟨S1600000, .i1⟩
  | 113 => ⟨S_, .i32⟩
  | 114 => ⟨S1600000, .i32⟩
  | 115 => ⟨S1600000, .i32⟩
  | 116 => ⟨S1600000, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S1600000, .i32⟩
  | 124 => ⟨S1600000, .i32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S_, .i1⟩
  | 5 => ⟨S1600000, .i1⟩
  | 6 => ⟨S1600000, .i1⟩
  | 7 => ⟨S1600000, .i1⟩
  | 8 => ⟨S1600000, .i32⟩
  | 9 => ⟨S1600000, .i32⟩
  | 10 => ⟨S1600000, .i32⟩
  | 11 => ⟨S_, .f32⟩
  | 12 => ⟨S782x128x1024, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x1, .i32⟩
  | 36 => ⟨S1600000x1, .i32⟩
  | 37 => ⟨S1600000x3, .i32⟩
  | 38 => ⟨S_, .f32⟩
  | 39 => ⟨S1600000, .f32⟩
  | 40 => ⟨S782x128x1024, .f32⟩
  | 41 => ⟨S_, .f32⟩
  | 42 => ⟨S782x128, .f32⟩
  | 43 => ⟨S_, .f32⟩
  | 44 => ⟨S782x128, .f32⟩
  | 45 => ⟨S782x128, .f32⟩
  | 46 => ⟨S782x128x1, .f32⟩
  | 47 => ⟨S782x128x1024, .f32⟩
  | 48 => ⟨S782x128x1024, .f32⟩
  | 49 => ⟨S782x128x1024, .bf16⟩
  | 50 => ⟨S1x128x128, .f32⟩
  | 51 => ⟨S128x128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S1x128x128, .f32⟩
  | 58 => ⟨S128x128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S2x1024x128, .f32⟩
  | 65 => ⟨S1024x128, .f32⟩
  | 66 => ⟨S100096x128, .f32⟩
  | 67 => ⟨S1x128x128, .f32⟩
  | 68 => ⟨S128x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S1x128x128, .f32⟩
  | 75 => ⟨S128x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S2x1024x128, .f32⟩
  | 82 => ⟨S1024x128, .f32⟩
  | 83 => ⟨S100096x128, .f32⟩
  | 84 => ⟨S1x128x128, .f32⟩
  | 85 => ⟨S128x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S1x128x128, .f32⟩
  | 92 => ⟨S128x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S2x1024x128, .f32⟩
  | 99 => ⟨S1024x128, .f32⟩
  | 100 => ⟨S100096x128, .f32⟩
  | 101 => ⟨S100000x128, .f32⟩
  | 102 => ⟨S100000x1, .f32⟩
  | 103 => ⟨S1x1, .f32⟩
  | 104 => ⟨S100000x1, .f32⟩
  | 105 => ⟨S100000x1, .f32⟩
  | 106 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S1x1024x128, .bf16⟩
  | .local _ .vmem, ⟨1, _⟩ => ⟨S1x1024x128, .bf16⟩
  | .local _ .vmem, ⟨2, _⟩ => ⟨S128x128, .f32⟩
  | .local _ .vmem, ⟨3, _⟩ => ⟨S128x128, .f32⟩
  | .local _ .vmem, ⟨4, _⟩ => ⟨S1x1024x128, .f32⟩
  | .local _ .vmem, ⟨5, _⟩ => ⟨S1x1024x128, .f32⟩
  | .local _ .vmem, ⟨6, _⟩ => ⟨S1024x128, .f32⟩
  | .local _ .vmem, ⟨7, _⟩ => ⟨S2x1024x128, .f32⟩
  | .local _ .vmem, ⟨8, _⟩ => ⟨S1024x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S1024x128, .f32⟩
  | .local _ .vmem, ⟨13, _⟩ => ⟨S1x128x1024, .bf16⟩
  | .local _ .vmem, ⟨14, _⟩ => ⟨S1x128x1024, .bf16⟩
  | .local _ .vmem, ⟨15, _⟩ => ⟨S128x128, .f32⟩
  | .local _ .vmem, ⟨16, _⟩ => ⟨S128x128, .f32⟩
  | .local _ .vmem, ⟨17, _⟩ => ⟨S1024x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S128x128, .f32⟩
  | .local _ .vmem, ⟨23, _⟩ => ⟨S1x1024x128, .bf16⟩
  | .local _ .vmem, ⟨24, _⟩ => ⟨S1x1024x128, .bf16⟩
  | .local _ .vmem, ⟨25, _⟩ => ⟨S128x128, .f32⟩
  | .local _ .vmem, ⟨26, _⟩ => ⟨S128x128, .f32⟩
  | .local _ .vmem, ⟨27, _⟩ => ⟨S1x1024x128, .f32⟩
  | .local _ .vmem, ⟨28, _⟩ => ⟨S1x1024x128, .f32⟩
  | .local _ .vmem, ⟨29, _⟩ => ⟨S1024x128, .f32⟩
  | .local _ .vmem, ⟨30, _⟩ => ⟨S2x1024x128, .f32⟩
  | .local _ .vmem, ⟨31, _⟩ => ⟨S1024x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S1024x128, .f32⟩
  | .local _ .vmem, ⟨36, _⟩ => ⟨S1x128x1024, .bf16⟩
  | .local _ .vmem, ⟨37, _⟩ => ⟨S1x128x1024, .bf16⟩
  | .local _ .vmem, ⟨38, _⟩ => ⟨S128x128, .f32⟩
  | .local _ .vmem, ⟨39, _⟩ => ⟨S128x128, .f32⟩
  | .local _ .vmem, ⟨40, _⟩ => ⟨S1024x128, .f32⟩
  | .local _ .vmem, ⟨41, _⟩ => ⟨S128x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S128x128, .f32⟩
  | .local _ .vmem, ⟨46, _⟩ => ⟨S1x1024x128, .bf16⟩
  | .local _ .vmem, ⟨47, _⟩ => ⟨S1x1024x128, .bf16⟩
  | .local _ .vmem, ⟨48, _⟩ => ⟨S128x128, .f32⟩
  | .local _ .vmem, ⟨49, _⟩ => ⟨S128x128, .f32⟩
  | .local _ .vmem, ⟨50, _⟩ => ⟨S1x1024x128, .f32⟩
  | .local _ .vmem, ⟨51, _⟩ => ⟨S1x1024x128, .f32⟩
  | .local _ .vmem, ⟨52, _⟩ => ⟨S1024x128, .f32⟩
  | .local _ .vmem, ⟨53, _⟩ => ⟨S2x1024x128, .f32⟩
  | .local _ .vmem, ⟨54, _⟩ => ⟨S1024x128, .f32⟩
  | .local _ .vmem, ⟨55, _⟩ => ⟨S128x128, .f32⟩
  | .local _ .vmem, ⟨56, _⟩ => ⟨S128x128, .f32⟩
  | .local _ .vmem, ⟨57, _⟩ => ⟨S1x128, .f32⟩
  | .local _ .vmem, ⟨58, _⟩ => ⟨S1024x128, .f32⟩
  | .local _ .vmem, ⟨59, _⟩ => ⟨S1x128x1024, .bf16⟩
  | .local _ .vmem, ⟨60, _⟩ => ⟨S1x128x1024, .bf16⟩
  | .local _ .vmem, ⟨61, _⟩ => ⟨S128x128, .f32⟩
  | .local _ .vmem, ⟨62, _⟩ => ⟨S128x128, .f32⟩
  | .local _ .vmem, ⟨63, _⟩ => ⟨S1024x128, .f32⟩
  | .local _ .vmem, ⟨64, _⟩ => ⟨S128x128, .f32⟩
  | .local _ .vmem, ⟨65, _⟩ => ⟨S128x128, .f32⟩
  | .local _ .vmem, ⟨66, _⟩ => ⟨S1x128, .f32⟩
  | .local _ .vmem, ⟨67, _⟩ => ⟨S128x128, .f32⟩
  | .local _ .vmem, ⟨68, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_c_0 : Ref sig .tc := ⟨.hbm, 17, rfl⟩
abbrev main_call1_v0 : Ref sig .tc := ⟨.hbm, 18, rfl⟩
abbrev main_v1 : Ref sig .tc := ⟨.hbm, 19, rfl⟩
abbrev main_c_1 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_c : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_0 : Ref sig .tc := ⟨.hbm, 34, rfl⟩
abbrev main_call2_v12 : Ref sig .tc := ⟨.hbm, 35, rfl⟩
abbrev main_call2_v13 : Ref sig .tc := ⟨.hbm, 36, rfl⟩
abbrev main_v2 : Ref sig .tc := ⟨.hbm, 37, rfl⟩
abbrev main_c_2 : Ref sig .tc := ⟨.hbm, 38, rfl⟩
abbrev main_call3_v0 : Ref sig .tc := ⟨.hbm, 39, rfl⟩
abbrev main_call3_c : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_c_1 : Ref sig .tc := ⟨.hbm, 46, rfl⟩
abbrev main_call3_v5 : Ref sig .tc := ⟨.hbm, 47, rfl⟩
abbrev main_call3_v6 : Ref sig .tc := ⟨.hbm, 48, rfl⟩
abbrev main_call3_c_2 : Ref sig .tc := ⟨.hbm, 49, rfl⟩
abbrev main_call3_v7 : Ref sig .tc := ⟨.hbm, 50, rfl⟩
abbrev main_call3_v8 : Ref sig .tc := ⟨.hbm, 51, rfl⟩
abbrev main_call3_c_3 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_v12 : Ref sig .tc := ⟨.hbm, 56, rfl⟩
abbrev main_call3_v13 : Ref sig .tc := ⟨.hbm, 57, rfl⟩
abbrev main_call3_v14 : Ref sig .tc := ⟨.hbm, 58, rfl⟩
abbrev main_v3 : Ref sig .tc := ⟨.hbm, 59, rfl⟩
abbrev main_cst : Ref sig .tc := ⟨.hbm, 60, rfl⟩
abbrev main_v4 : Ref sig .tc := ⟨.hbm, 61, rfl⟩
abbrev main_c_3 : Ref sig .tc := ⟨.hbm, 62, rfl⟩
abbrev main_v5 : Ref sig .tc := ⟨.hbm, 63, rfl⟩
abbrev main_v6 : Ref sig .tc := ⟨.hbm, 64, rfl⟩
abbrev main_c_4 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_c_5 : Ref sig .tc := ⟨.hbm, 69, rfl⟩
abbrev main_v10 : Ref sig .tc := ⟨.hbm, 70, rfl⟩
abbrev main_v11 : Ref sig .tc := ⟨.hbm, 71, rfl⟩
abbrev main_c_6 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_c_7 : Ref sig .tc := ⟨.hbm, 76, rfl⟩
abbrev main_v15 : Ref sig .tc := ⟨.hbm, 77, rfl⟩
abbrev main_v16 : Ref sig .tc := ⟨.hbm, 78, rfl⟩
abbrev main_c_8 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst_9 : Ref sig .tc := ⟨.hbm, 87, rfl⟩
abbrev main_v24 : Ref sig .tc := ⟨.hbm, 88, rfl⟩
abbrev main_v25 : Ref sig .tc := ⟨.hbm, 89, rfl⟩
abbrev main_cst_10 : Ref sig .tc := ⟨.hbm, 90, rfl⟩
abbrev main_v26 : Ref sig .tc := ⟨.hbm, 91, rfl⟩
abbrev main_cst_11 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_c_12 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_c : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_0 : Ref sig .tc := ⟨.hbm, 113, rfl⟩
abbrev main_call4_v12 : Ref sig .tc := ⟨.hbm, 114, rfl⟩
abbrev main_call4_v13 : Ref sig .tc := ⟨.hbm, 115, rfl⟩
abbrev main_v33 : Ref sig .tc := ⟨.hbm, 116, rfl⟩
abbrev main_c_13 : Ref sig .tc := ⟨.hbm, 117, rfl⟩
abbrev main_call5_v0 : Ref sig .tc := ⟨.hbm, 118, rfl⟩
abbrev main_call5_c : Ref sig .tc := ⟨.hbm, 119, rfl⟩
abbrev main_call5_v1 : Ref sig .tc := ⟨.hbm, 120, rfl⟩
abbrev main_call5_c_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_c_1 : Ref sig .tc := ⟨.hbm, 125, rfl⟩
abbrev main_call5_v5 : Ref sig .tc := ⟨.hbm, 126, rfl⟩
abbrev main_call5_v6 : Ref sig .tc := ⟨.hbm, 127, rfl⟩
abbrev main_call5_c_2 : Ref sig .tc := ⟨.hbm, 128, rfl⟩
abbrev main_call5_v7 : Ref sig .tc := ⟨.hbm, 129, rfl⟩
abbrev main_call5_v8 : Ref sig .tc := ⟨.hbm, 130, rfl⟩
abbrev main_call5_c_3 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_v12 : Ref sig .tc := ⟨.hbm, 135, rfl⟩
abbrev main_call5_v13 : Ref sig .tc := ⟨.hbm, 136, rfl⟩
abbrev main_call5_v14 : Ref sig .tc := ⟨.hbm, 137, rfl⟩
abbrev main_v34 : Ref sig .tc := ⟨.hbm, 138, rfl⟩
abbrev main_cst_14 : Ref sig .tc := ⟨.hbm, 139, rfl⟩
abbrev main_v35 : Ref sig .tc := ⟨.hbm, 140, rfl⟩
abbrev main_c_15 : Ref sig .tc := ⟨.hbm, 141, rfl⟩
abbrev main_v36 : Ref sig .tc := ⟨.hbm, 142, rfl⟩
abbrev main_v37 : Ref sig .tc := ⟨.hbm, 143, rfl⟩
abbrev main_c_16 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_c_17 : Ref sig .tc := ⟨.hbm, 148, rfl⟩
abbrev main_v41 : Ref sig .tc := ⟨.hbm, 149, rfl⟩
abbrev main_v42 : Ref sig .tc := ⟨.hbm, 150, rfl⟩
abbrev main_c_18 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_c_19 : Ref sig .tc := ⟨.hbm, 155, rfl⟩
abbrev main_v46 : Ref sig .tc := ⟨.hbm, 156, rfl⟩
abbrev main_v47 : Ref sig .tc := ⟨.hbm, 157, rfl⟩
abbrev main_c_20 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_cst_21 : Ref sig .tc := ⟨.hbm, 166, rfl⟩
abbrev main_v55 : Ref sig .tc := ⟨.hbm, 167, rfl⟩
abbrev main_v56 : Ref sig .tc := ⟨.hbm, 168, rfl⟩
abbrev main_cst_22 : Ref sig .tc := ⟨.hbm, 169, rfl⟩
abbrev main_v57 : Ref sig .tc := ⟨.hbm, 170, rfl⟩
abbrev main_cst_23 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_scratch0 : Ref sig .tc := ⟨.vmem, 52, rfl⟩
abbrev cc7_stg0_0 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg5_0 : Ref sig .tc := ⟨.vmem, 66, rfl⟩
abbrev cc8_stg6_0 : Ref sig .tc := ⟨.vmem, 67, rfl⟩
abbrev cc8_stg6_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc7_sem0_0 : DmaSem sig := 50
abbrev cc7_sem1_0 : DmaSem sig := 51
abbrev cc7_sem2_0 : DmaSem sig := 52
abbrev cc7_sem3_0 : DmaSem sig := 53
abbrev cc7_sem4_0 : DmaSem sig := 54
abbrev cc7_sem5_0 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem5_0 : DmaSem sig := 63
abbrev cc8_sem6_0 : DmaSem sig := 64
abbrev cc8_sem6_1 : DmaSem sig := 65

abbrev nD : Nat := 1
abbrev τ : Topo := Topo.v7x

variable {F : FTy → Type} [FloatOps F]

abbrev grid0 : Pipeline.Grid := ⟨2, ![2, 391], ![false, false]⟩

def k0_cond2 (i : grid0.Coords) : BitVec 1 :=
  let arg1 : BitVec 32 := BitVec.ofNat 32 (i 1).val
  let c390_i32 : BitVec 32 := 390#32
  let v14 : BitVec 1 := Scalar.cmpi .eq arg1 c390_i32
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![782], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![2, 391], ![false, false]⟩

def k3_cond2 (i : grid3.Coords) : BitVec 1 :=
  let arg1 : BitVec 32 := BitVec.ofNat 32 (i 1).val
  let c390_i32 : BitVec 32 := 390#32
  let v14 : BitVec 1 := Scalar.cmpi .eq arg1 c390_i32
  let v15 : BitVec 32 := Scalar.extui v14
  let c0_i32_9 : BitVec 32 := 0#32
  let v16 : BitVec 1 := Scalar.cmpi .ne v15 c0_i32_9
  v16

def cc3_transform_0 (i : grid3.Coords) : Fin 3 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2x1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1024x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![782], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1x128x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S128x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨2, ![2, 391], ![false, false]⟩

def k6_cond2 (i : grid6.Coords) : BitVec 1 :=
  let arg1 : BitVec 32 := BitVec.ofNat 32 (i 1).val
  let c390_i32 : BitVec 32 := 390#32
  let v14 : BitVec 1 := Scalar.cmpi .eq arg1 c390_i32
  let v15 : BitVec 32 := Scalar.extui v14
  let c0_i32_9 : BitVec 32 := 0#32
  let v16 : BitVec 1 := Scalar.cmpi .ne v15 c0_i32_9
  v16

def cc6_transform_0 (i : grid6.Coords) : Fin 3 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1024x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S128x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![1], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S2x1024x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1024x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1024x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![782], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1x128x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1024x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S128x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  pads_S100000x128_S100096x128_0960_000 : S100000x128.Pads (![0, 0] : Fin 2 → Nat) ![96, 0] ![0, 0] S100096x128
  h_S_ : 0 < S_.numel
  pads_S1000x128_S1024x128_0240_000 : S1000x128.Pads (![0, 0] : Fin 2 → Nat) ![24, 0] ![0, 0] S1024x128
  bcast_S_S1600000 : S_.BroadcastsInDim S1600000 (![] : Fin 0 → Fin S1600000.rank)
  bcast_S_S782x1024x128 : S_.BroadcastsInDim S782x1024x128 (![] : Fin 0 → Fin S782x1024x128.rank)
  bcast_S1600000_S1600000x1_0 : S1600000.BroadcastsInDim S1600000x1 (![0] : Fin 1 → Fin S1600000x1.rank)
  concatenates_S1600000x1_S1600000x1_S1600000x1_S1600000x3_d1 : Shape.Concatenates [S1600000x1, S1600000x1, S1600000x1] S1600000x3 1
  reducesTo_S782x1024x128_S1024_d0_2 : S782x1024x128.ReducesTo [0, 2] S1024
  bcast_S_S1024 : S_.BroadcastsInDim S1024 (![] : Fin 0 → Fin S1024.rank)
  bcast_S1024_S1x1024x1_1 : S1024.BroadcastsInDim S1x1024x1 (![1] : Fin 1 → Fin S1x1024x1.rank)
  bcast_S1x1024x1_S782x1024x128_0_1_2 : S1x1024x1.BroadcastsInDim S782x1024x128 (![0, 1, 2] : Fin 3 → Fin S782x1024x128.rank)
  bitsLt_bf16_f32 : FTy.bits .bf16 < FTy.bits .f32
  bcast_S_S782x128x1024 : S_.BroadcastsInDim S782x128x1024 (![] : Fin 0 → Fin S782x128x1024.rank)
  reducesTo_S782x128x1024_S782x128_d2 : S782x128x1024.ReducesTo [2] S782x128
  bcast_S_S782x128 : S_.BroadcastsInDim S782x128 (![] : Fin 0 → Fin S782x128.rank)
  bcast_S782x128_S782x128x1_0_1 : S782x128.BroadcastsInDim S782x128x1 (![0, 1] : Fin 2 → Fin S782x128x1.rank)
  bcast_S782x128x1_S782x128x1024_0_1_2 : S782x128x1.BroadcastsInDim S782x128x1024 (![0, 1, 2] : Fin 3 → Fin S782x128x1024.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1024x128_S1x1024x128 : S1024x128.ShapeCasts S1x1024x128
  inb_S2x1024x128_S1x1024x128_0_0_0 : ∀ a, (![0, 0, 0] : Fin 3 → Nat) a + S1x1024x128.size a ≤ S2x1024x128.size a
  inb_S2x1024x128_S1x1024x128_1_0_0 : ∀ a, (![1, 0, 0] : Fin 3 → Nat) a + S1x1024x128.size a ≤ S2x1024x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  iota_S1024x128_d0_w32 : S1024x128.Iotas .tc 32 [0]
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  broadcasts_S1x128_S128x128 : S1x128.Broadcasts S128x128
  iota_S128x128_d0_w32 : S128x128.Iotas .tc 32 [0]
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S100096x128_S100000x128_0_0 : S100096x128.Slices ![0, 0] S100000x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S782x1024x128_S1600000x3_S1600000_n_012_012_1_wf : ScatterDims.WF S782x1024x128 S1600000x3 S1600000 [] [0, 1, 2] [0, 1, 2] 1
  scatter_S782x128x1024_S1600000x3_S1600000_n_012_012_1_wf : ScatterDims.WF S782x128x1024 S1600000x3 S1600000 [] [0, 1, 2] [0, 1, 2] 1
  dot_S1024x128_S128x128_S1024x128_1_0_0_1_n_n_wf : DotDims.WF S1024x128 S128x128 S1024x128 [1] [0] [0] [1] [] []
  dot_S128x1024_S1024x128_S128x128_1_0_0_1_n_n_wf : DotDims.WF S128x1024 S1024x128 S128x128 [1] [0] [0] [1] [] []
  dot_S128x128_S128x128_S128x128_1_0_0_1_n_n_wf : DotDims.WF S128x128 S128x128 S128x128 [1] [0] [0] [1] [] []
  dot_S100000x128_S128x1_S100000x1_1_0_0_1_n_n_wf : DotDims.WF S100000x128 S128x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S782x1024x128.size a
  hwx0_0 : ∀ i : grid0.Coords, EltTy.bits .bf16 = 32 ∨ (Rect.block (s := S782x1024x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S100096x128.size a
  hwx0_1 : ∀ i : grid0.Coords, EltTy.bits .f32 = 32 ∨ (Rect.block (s := S100096x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x1024x128.size a
  hwx0_2 : ∀ i : grid0.Coords, EltTy.bits .f32 = 32 ∨ (Rect.block (s := S2x1024x128) S1x1024x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x1024x128.size a ≤ S2x1024x128.size a
  hwx1_0 : ∀ i : grid1.Coords, EltTy.bits .f32 = 32 ∨ (Rect.block (s := S2x1024x128) S2x1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .f32 = 32 ∨ (Rect.block (s := S1024x128) S1024x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x1024.size a ≤ S782x128x1024.size a
  hwx2_0 : ∀ i : grid2.Coords, EltTy.bits .bf16 = 32 ∨ (Rect.block (s := S782x128x1024) S1x128x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S100096x128.size a
  hwx2_1 : ∀ i : grid2.Coords, EltTy.bits .f32 = 32 ∨ (Rect.block (s := S100096x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S1024x128.size a
  hwx2_2 : ∀ i : grid2.Coords, EltTy.bits .f32 = 32 ∨ (Rect.block (s := S1024x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S100096x128.size a
  hwx2_6 : ∀ i : grid2.Coords, EltTy.bits .f32 = 32 ∨ (Rect.block (s := S100096x128) S128x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x128.size a ≤ S782x1024x128.size a
  hwx3_0 : ∀ i : grid3.Coords, EltTy.bits .bf16 = 32 ∨ (Rect.block (s := S782x1024x128) S1x1024x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S100096x128.size a
  hwx3_1 : ∀ i : grid3.Coords, EltTy.bits .f32 = 32 ∨ (Rect.block (s := S100096x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x128.size a ≤ S2x1024x128.size a
  hwx3_2 : ∀ i : grid3.Coords, EltTy.bits .f32 = 32 ∨ (Rect.block (s := S2x1024x128) S1x1024x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2x1024x128.size a ≤ S2x1024x128.size a
  hwx4_0 : ∀ i : grid4.Coords, EltTy.bits .f32 = 32 ∨ (Rect.block (s := S2x1024x128) S2x1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S1024x128.size a
  hwx4_1 : ∀ i : grid4.Coords, EltTy.bits .f32 = 32 ∨ (Rect.block (s := S1024x128) S1024x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x128.size a ≤ S1024x128.size a
  hwx4_5 : ∀ i : grid4.Coords, EltTy.bits .f32 = 32 ∨ (Rect.block (s := S1024x128) S1024x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x128x1024.size a ≤ S782x128x1024.size a
  hwx5_0 : ∀ i : grid5.Coords, EltTy.bits .bf16 = 32 ∨ (Rect.block (s := S782x128x1024) S1x128x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S100096x128.size a
  hwx5_1 : ∀ i : grid5.Coords, EltTy.bits .f32 = 32 ∨ (Rect.block (s := S100096x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S1024x128.size a
  hwx5_2 : ∀ i : grid5.Coords, EltTy.bits .f32 = 32 ∨ (Rect.block (s := S1024x128) S1024x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S100096x128.size a
  hwx5_6 : ∀ i : grid5.Coords, EltTy.bits .f32 = 32 ∨ (Rect.block (s := S100096x128) S128x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x1024x128.size a ≤ S782x1024x128.size a
  hwx6_0 : ∀ i : grid6.Coords, EltTy.bits .bf16 = 32 ∨ (Rect.block (s := S782x1024x128) S1x1024x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S100096x128.size a
  hwx6_1 : ∀ i : grid6.Coords, EltTy.bits .f32 = 32 ∨ (Rect.block (s := S100096x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1024x128.size a ≤ S2x1024x128.size a
  hwx6_2 : ∀ i : grid6.Coords, EltTy.bits .f32 = 32 ∨ (Rect.block (s := S2x1024x128) S1x1024x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S2x1024x128.size a ≤ S2x1024x128.size a
  hwx7_0 : ∀ i : grid7.Coords, EltTy.bits .f32 = 32 ∨ (Rect.block (s := S2x1024x128) S2x1024x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S1024x128.size a
  hwx7_1 : ∀ i : grid7.Coords, EltTy.bits .f32 = 32 ∨ (Rect.block (s := S1024x128) S1024x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1024x128.size a ≤ S1024x128.size a
  hwx7_5 : ∀ i : grid7.Coords, EltTy.bits .f32 = 32 ∨ (Rect.block (s := S1024x128) S1024x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x128x1024.size a ≤ S782x128x1024.size a
  hwx8_0 : ∀ i : grid8.Coords, EltTy.bits .bf16 = 32 ∨ (Rect.block (s := S782x128x1024) S1x128x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S100096x128.size a
  hwx8_1 : ∀ i : grid8.Coords, EltTy.bits .f32 = 32 ∨ (Rect.block (s := S100096x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S1024x128.size a
  hwx8_2 : ∀ i : grid8.Coords, EltTy.bits .f32 = 32 ∨ (Rect.block (s := S1024x128) S1024x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S100096x128.size a
  hwx8_6 : ∀ i : grid8.Coords, EltTy.bits .f32 = 32 ∨ (Rect.block (s := S100096x128) S128x128.size (cc8_transform_6 i) (hinb8_6 i)).WholeWords (EltTy.packing .f32)

variable [Facts₀]

def scatter_S782x1024x128_S1600000x3_S1600000_n_012_012_1 : ScatterDims S782x1024x128 S1600000x3 S1600000 where
  updateWindowDims := []
  insertedWindowDims := [0, 1, 2]
  scatterDimsToOperandDims := [0, 1, 2]
  indexVectorDim := 1
  wf := scatter_S782x1024x128_S1600000x3_S1600000_n_012_012_1_wf
def scatter_S782x128x1024_S1600000x3_S1600000_n_012_012_1 : ScatterDims S782x128x1024 S1600000x3 S1600000 where
  updateWindowDims := []
  insertedWindowDims := [0, 1, 2]
  scatterDimsToOperandDims := [0, 1, 2]
  indexVectorDim := 1
  wf := scatter_S782x128x1024_S1600000x3_S1600000_n_012_012_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

abbrev win0_0 : Pipeline.Window sig grid0 :=
  Pipeline.Window.ofSpec (Memref.whole main_v32) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v78) S2x1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S1024x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S1x128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1024x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S128x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S1x1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S128x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S1x1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v95) S2x1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v79) S1024x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S1024x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v63) S1x128x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S128x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1024x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v94) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v97) S128x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v32) S1x1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S128x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v112) S1x1024x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v112) S2x1024x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1024x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v104) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v113) S1024x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v63) S1x128x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v97) S128x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v96) S1024x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v106) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v108) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v114) S128x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x128 : Shape := ⟨2, ![100000, 128]⟩
abbrev S1000x128 : Shape := ⟨2, ![1000, 128]⟩
abbrev S1600000 : Shape := ⟨1, ![1600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1000x1 : Shape := ⟨2, ![1000, 1]⟩
abbrev S100000x1 : Shape := ⟨2, ![100000, 1]⟩
abbrev S1x1 : Shape := ⟨2, ![1, 1]⟩
abbrev S100000 : Shape := ⟨1, ![100000]⟩

abbrev nBuf : Space → Nat
  | .hbm => 277
  | .vmem => 0
  | .smem => 0
  | _ => 0

abbrev hbmTy0_0 (i : Nat) : BufTy := match i % 128 with
  | 0 => ⟨S100000x128, .f32⟩
  | 1 => ⟨S1000x128, .f32⟩
  | 2 => ⟨S1600000, .i32⟩
  | 3 => ⟨S1600000, .i32⟩
  | 4 => ⟨S1600000, .i32⟩
  | 5 => ⟨S1600000, .i32⟩
  | 6 => ⟨S3x128x128, .f32⟩
  | 7 => ⟨S3x128x128, .f32⟩
  | 8 => ⟨S3x128, .f32⟩
  | 9 => ⟨S3x128x128, .f32⟩
  | 10 => ⟨S3x128x128, .f32⟩
  | 11 => ⟨S3x128, .f32⟩
  | 12 => ⟨S128x1, .f32⟩
  | 13 => ⟨S1, .f32⟩
  | 14 => ⟨S1x128x128, .f32⟩
  | 15 => ⟨S128x128, .f32⟩
  | 16 => ⟨S1x128x128, .f32⟩
  | 17 => ⟨S128x128, .f32⟩
  | 18 => ⟨S1x128, .f32⟩
  | 19 => ⟨S128, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S1000x128, .f32⟩
  | 31 => ⟨S1600000x1, .i32⟩
  | 32 => ⟨S1000x128, .f32⟩
  | 33 => ⟨S_, .f32⟩
  | 34 => ⟨S1600000x1, .f32⟩
  | 35 => ⟨S_, .f32⟩
  | 36 => ⟨S1000x1, .f32⟩
  | 37 => ⟨S1600000x1, .i32⟩
  | 38 => ⟨S1000x1, .f32⟩
  | 39 => ⟨S_, .f32⟩
  | 40 => ⟨S1000x1, .f32⟩
  | 41 => ⟨S1000x1, .f32⟩
  | 42 => ⟨S1000x128, .f32⟩
  | 43 => ⟨S1000x128, .f32⟩
  | 44 => ⟨S1000x128, .f32⟩
  | 45 => ⟨S1000x128, .f32⟩
  | 46 => ⟨S1000x128, .f32⟩
  | 47 => ⟨S1x128, .f32⟩
  | 48 => ⟨S1000x128, .f32⟩
  | 49 => ⟨S1000x128, .f32⟩
  | 50 => ⟨S1x128x128, .f32⟩
  | 51 => ⟨S128x128, .f32⟩
  | 52 => ⟨S1x128x128, .f32⟩
  | 53 => ⟨S128x128, .f32⟩
  | 54 => ⟨S1x128, .f32⟩
  | 55 => ⟨S128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S_, .f32⟩
  | 70 => ⟨S1600000x1, .f32⟩
  | 71 => ⟨S_, .f32⟩
  | 72 => ⟨S100000x1, .f32⟩
  | 73 => ⟨S1600000x1, .i32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S1000x128, .f32⟩
  | 88 => ⟨S1000x128, .i1⟩
  | 89 => ⟨S_, .f32⟩
  | 90 => ⟨S1000x128, .f32⟩
  | 91 => ⟨S1000x128, .f32⟩
  | 92 => ⟨S1000x128, .f32⟩
  | 93 => ⟨S_, .f32⟩
  | 94 => ⟨S100000x128, .f32⟩
  | 95 => ⟨S100000x128, .i1⟩
  | 96 => ⟨S_, .f32⟩
  | 97 => ⟨S100000x128, .f32⟩
  | 98 => ⟨S100000x128, .f32⟩
  | 99 => ⟨S100000x128, .f32⟩
  | 100 => ⟨S1x128x128, .f32⟩
  | 101 => ⟨S128x128, .f32⟩
  | 102 => ⟨S1x128x128, .f32⟩
  | 103 => ⟨S128x128, .f32⟩
  | 104 => ⟨S1x128, .f32⟩
  | 105 => ⟨S128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .f32⟩
  | 116 => ⟨S1000x128, .f32⟩
  | 117 => ⟨S1600000x1, .i32⟩
  | 118 => ⟨S1000x128, .f32⟩
  | 119 => ⟨S_, .f32⟩
  | 120 => ⟨S1600000x1, .f32⟩
  | 121 => ⟨S_, .f32⟩
  | 122 => ⟨S1000x1, .f32⟩
  | 123 => ⟨S1600000x1, .i32⟩
  | 124 => ⟨S1000x1, .f32⟩
  | 125 => ⟨S_, .f32⟩
  | 126 => ⟨S1000x1, .f32⟩
  | 127 => ⟨S1000x1, .f32⟩
  | _ => ⟨S100000x128, .f32⟩

abbrev hbmTy0_1 (i : Nat) : BufTy := match i % 128 with
  | 0 => ⟨S1000x128, .f32⟩
  | 1 => ⟨S1000x128, .f32⟩
  | 2 => ⟨S1000x128, .f32⟩
  | 3 => ⟨S1000x128, .f32⟩
  | 4 => ⟨S1000x128, .f32⟩
  | 5 => ⟨S1x128, .f32⟩
  | 6 => ⟨S1000x128, .f32⟩
  | 7 => ⟨S1000x128, .f32⟩
  | 8 => ⟨S1x128x128, .f32⟩
  | 9 => ⟨S128x128, .f32⟩
  | 10 => ⟨S1x128x128, .f32⟩
  | 11 => ⟨S128x128, .f32⟩
  | 12 => ⟨S1x128, .f32⟩
  | 13 => ⟨S128, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S_, .f32⟩
  | 28 => ⟨S1600000x1, .f32⟩
  | 29 => ⟨S_, .f32⟩
  | 30 => ⟨S100000x1, .f32⟩
  | 31 => ⟨S1600000x1, .i32⟩
  | 32 => ⟨S100000x1, .f32⟩
  | 33 => ⟨S_, .f32⟩
  | 34 => ⟨S100000x1, .f32⟩
  | 35 => ⟨S100000x1, .f32⟩
  | 36 => ⟨S100000x128, .f32⟩
  | 37 => ⟨S100000x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S1000x128, .f32⟩
  | 46 => ⟨S1000x128, .i1⟩
  | 47 => ⟨S_, .f32⟩
  | 48 => ⟨S1000x128, .f32⟩
  | 49 => ⟨S1000x128, .f32⟩
  | 50 => ⟨S1000x128, .f32⟩
  | 51 => ⟨S_, .f32⟩
  | 52 => ⟨S100000x128, .f32⟩
  | 53 => ⟨S100000x128, .i1⟩
  | 54 => ⟨S_, .f32⟩
  | 55 => ⟨S100000x128, .f32⟩
  | 56 => ⟨S100000x128, .f32⟩
  | 57 => ⟨S100000x128, .f32⟩
  | 58 => ⟨S1x128x128, .f32⟩
  | 59 => ⟨S128x128, .f32⟩
  | 60 => ⟨S1x128x128, .f32⟩
  | 61 => ⟨S128x128, .f32⟩
  | 62 => ⟨S1x128, .f32⟩
  | 63 => ⟨S128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S1000x128, .f32⟩
  | 75 => ⟨S1600000x1, .i32⟩
  | 76 => ⟨S1000x128, .f32⟩
  | 77 => ⟨S_, .f32⟩
  | 78 => ⟨S1600000x1, .f32⟩
  | 79 => ⟨S_, .f32⟩
  | 80 => ⟨S1000x1, .f32⟩
  | 81 => ⟨S1600000x1, .i32⟩
  | 82 => ⟨S1000x1, .f32⟩
  | 83 => ⟨S_, .f32⟩
  | 84 => ⟨S1000x1, .f32⟩
  | 85 => ⟨S1000x1, .f32⟩
  | 86 => ⟨S1000x128, .f32⟩
  | 87 => ⟨S1000x128, .f32⟩
  | 88 => ⟨S1000x128, .f32⟩
  | 89 => ⟨S1000x128, .f32⟩
  | 90 => ⟨S1000x128, .f32⟩
  | 91 => ⟨S1x128, .f32⟩
  | 92 => ⟨S1000x128, .f32⟩
  | 93 => ⟨S1000x128, .f32⟩
  | 94 => ⟨S1x128x128, .f32⟩
  | 95 => ⟨S128x128, .f32⟩
  | 96 => ⟨S1x128x128, .f32⟩
  | 97 => ⟨S128x128, .f32⟩
  | 98 => ⟨S1x128, .f32⟩
  | 99 => ⟨S128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S_, .f32⟩
  | 114 => ⟨S1600000x1, .f32⟩
  | 115 => ⟨S_, .f32⟩
  | 116 => ⟨S100000x1, .f32⟩
  | 117 => ⟨S1600000x1, .i32⟩
  | 118 => ⟨S100000x1, .f32⟩
  | 119 => ⟨S_, .f32⟩
  | 120 => ⟨S100000x1, .f32⟩
  | 121 => ⟨S100000x1, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S_, .f32⟩
  | 3 => ⟨S1000x128, .f32⟩
  | 4 => ⟨S1000x128, .i1⟩
  | 5 => ⟨S_, .f32⟩
  | 6 => ⟨S1000x128, .f32⟩
  | 7 => ⟨S1000x128, .f32⟩
  | 8 => ⟨S1000x128, .f32⟩
  | 9 => ⟨S_, .f32⟩
  | 10 => ⟨S100000x128, .f32⟩
  | 11 => ⟨S100000x128, .i1⟩
  | 12 => ⟨S_, .f32⟩
  | 13 => ⟨S100000x128, .f32⟩
  | 14 => ⟨S100000x128, .f32⟩
  | 15 => ⟨S100000x128, .f32⟩
  | 16 => ⟨S100000x1, .f32⟩
  | 17 => ⟨S1x1, .f32⟩
  | 18 => ⟨S100000x1, .f32⟩
  | 19 => ⟨S100000x1, .f32⟩
  | 20 => ⟨S100000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_14 : Ref sig .tc := ⟨.hbm, 106, rfl⟩
abbrev main_v76 : Ref sig .tc := ⟨.hbm, 107, rfl⟩
abbrev main_v77 : Ref sig .tc := ⟨.hbm, 108, rfl⟩
abbrev main_c_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_20 : Ref sig .tc := ⟨.hbm, 142, rfl⟩
abbrev main_v106 : Ref sig .tc := ⟨.hbm, 143, rfl⟩
abbrev main_v107 : Ref sig .tc := ⟨.hbm, 144, rfl⟩
abbrev main_c_21 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_22 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_23 : Ref sig .tc := ⟨.hbm, 155, rfl⟩
abbrev main_v116 : Ref sig .tc := ⟨.hbm, 156, rfl⟩
abbrev main_cst_24 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_25 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_26 : Ref sig .tc := ⟨.hbm, 172, rfl⟩
abbrev main_v130 : Ref sig .tc := ⟨.hbm, 173, rfl⟩
abbrev main_v131 : Ref sig .tc := ⟨.hbm, 174, rfl⟩
abbrev main_cst_27 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_28 : Ref sig .tc := ⟨.hbm, 179, rfl⟩
abbrev main_v135 : Ref sig .tc := ⟨.hbm, 180, rfl⟩
abbrev main_v136 : Ref sig .tc := ⟨.hbm, 181, rfl⟩
abbrev main_cst_29 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_c_30 : Ref sig .tc := ⟨.hbm, 192, rfl⟩
abbrev main_v146 : Ref sig .tc := ⟨.hbm, 193, rfl⟩
abbrev main_v147 : Ref sig .tc := ⟨.hbm, 194, rfl⟩
abbrev main_c_31 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_32 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_33 : Ref sig .tc := ⟨.hbm, 205, rfl⟩
abbrev main_v156 : Ref sig .tc := ⟨.hbm, 206, rfl⟩
abbrev main_cst_34 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_35 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_c_36 : Ref sig .tc := ⟨.hbm, 228, rfl⟩
abbrev main_v176 : Ref sig .tc := ⟨.hbm, 229, rfl⟩
abbrev main_v177 : Ref sig .tc := ⟨.hbm, 230, rfl⟩
abbrev main_c_37 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_cst_38 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_39 : Ref sig .tc := ⟨.hbm, 241, rfl⟩
abbrev main_v186 : Ref sig .tc := ⟨.hbm, 242, rfl⟩
abbrev main_cst_40 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_41 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_42 : Ref sig .tc := ⟨.hbm, 258, rfl⟩
abbrev main_v200 : Ref sig .tc := ⟨.hbm, 259, rfl⟩
abbrev main_v201 : Ref sig .tc := ⟨.hbm, 260, rfl⟩
abbrev main_cst_43 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_44 : Ref sig .tc := ⟨.hbm, 265, rfl⟩
abbrev main_v205 : Ref sig .tc := ⟨.hbm, 266, rfl⟩
abbrev main_v206 : Ref sig .tc := ⟨.hbm, 267, rfl⟩
abbrev main_cst_45 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1000x128 : S_.BroadcastsInDim S1000x128 (![] : Fin 0 → Fin S1000x128.rank)
  bcast_S_S1600000x1 : S_.BroadcastsInDim S1600000x1 (![] : Fin 0 → Fin S1600000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S1000x128_S1600000x1_S1600000x128_1_0_0_1_wf : ScatterDims.WF S1000x128 S1600000x1 S1600000x128 [1] [0] [0] 1
  scatter_S1000x1_S1600000x1_S1600000x1_1_0_0_1_wf : ScatterDims.WF S1000x1 S1600000x1 S1600000x1 [1] [0] [0] 1
  dot_S1000x128_S128x128_S1000x128_1_0_0_1_n_n_wf : DotDims.WF S1000x128 S128x128 S1000x128 [1] [0] [0] [1] [] []
  gather_S1000x128_S1600000x1_S1600000x128_1_0_n_n_0_1_1128_wf : GatherDims.WF S1000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S1000x128_S1600000x1_S1600000x128_1_0_0_1 : ScatterDims S1000x128 S1600000x1 S1600000x128 where
  updateWindowDims := [1]
  insertedWindowDims := [0]
  scatterDimsToOperandDims := [0]
  indexVectorDim := 1
  wf := scatter_S1000x128_S1600000x1_S1600000x128_1_0_0_1_wf
def scatter_S1000x1_S1600000x1_S1600000x1_1_0_0_1 : ScatterDims S1000x1 S1600000x1 S1600000x1 where
  updateWindowDims := [1]
  insertedWindowDims := [0]
  scatterDimsToOperandDims := [0]
  indexVectorDim := 1
  wf := scatter_S1000x1_S1600000x1_S1600000x1_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S1000x128_S1600000x1_S1600000x128_1_0_n_n_0_1_1128 : GatherDims S1000x128 S1600000x1 S1600000x128 where
  offsetDims := [1]
  collapsedSliceDims := [0]
  operandBatchingDims := []
  startIndicesBatchingDims := []
  startIndexMap := [0]
  indexVectorDim := 1
  sliceSizes := ![1, 128]
  wf := gather_S1000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KI.Reduce0.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

theorem hcond0_0 : ∀ t : Fin grid0.N, cond0_0 (grid0.coords t) ↔ (grid0.coords t 1).val = 0 := by decide +kernel
theorem hcond0_1 : ∀ t : Fin cfg0.N, cond0_1 (grid0.coords t) ↔ (cfg0.grid.coords t 1).val = 390 := by decide +kernel
theorem first0_j : ∀ t : Fin cfg0.N, t.val = 0 → (cfg0.grid.coords t 1).val = 0 := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S1x1024x128 .bf16 := win0_0.stage (cfg0.slots t 0)
abbrev ms0_1 (t : Fin cfg0.N) : Memref sig .tc .vmem S128x128 .f32 := win0_1.stage (cfg0.slots t 1)
abbrev ms0_2 (t : Fin cfg0.N) : Memref sig .tc .vmem S1x1024x128 .f32 := win0_2.stage (cfg0.slots t 2)
abbrev scM0_0 : Memref sig .tc .vmem S1024x128 .f32 := Memref.whole cc0_scratch0

/-- The launch's invariant with the scratch held as `P`. -/
private def Inv (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

theorem PhiA0_eq (c : Dev nD) : (Pipeline.ΦA spec0 c : sProp 𝕄) = Inv c iprop(∃ d, owns (c : Thread nD τ) scM0_0 fullShare d) := by
  unfold Pipeline.ΦA Inv; rw [scopedRest0_split]; simp only [scM0_0, owns_whole]; try rfl

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Reading every index of a whole memref gives back what it holds. -/
private theorem readAt_whole {sp : Space} {S : Shape} {e : EltTy} (m : Memref sig .tc sp S e) (hm : m.IsWhole)
    {off : Fin S.rank → Nat} (h : off = fun _ => 0) (inb : ∀ a, off a + S.size a ≤ S.size a) (x : S.Idx → Elt F e) :
    m.view.readAt (Elt F) (Rect.unit off S.size inb).toLoadRect (hm.unread x) = x := by
  have e := View.readAt_eq_ld (Val := Elt F) m.view (hm.unread x) (Rect.unit off S.size inb)
  rw [hm.read_unread, View.ld_unit_zero h] at e
  exact e

/-- The last store covers every index, so nothing older shows. -/
private theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole memref owned at `x` is its elements held at the contents that read `x`. -/
private theorem owns_unread {sp : Space} {S : Shape} {e : EltTy} (c : Dev nD) (m : Memref sig .tc sp S e) (hm : m.IsWhole) (x : S.Idx → Elt F e) :
    (owns (c : Thread nD τ) m fullShare x : sProp 𝕄) = (m.view.loc (c : Thread nD τ) ↦[m.view.set]{fullShare} hm.unread x) := by
  rw [owns_eq_rep, hm.eq_unread (View.read_rep _ _)]

section
variable (c : Dev nD) (i : grid0.Coords) (arg2 : Memref sig .tc .vmem S1x1024x128 .bf16) (harg2 : arg2.IsWhole) (arg3 : Memref sig .tc .vmem S128x128 .f32) (harg3 : arg3.IsWhole) (arg4 : Memref sig .tc .vmem S1x1024x128 .f32) (harg4 : arg4.IsWhole) (arg5 : Memref sig .tc .vmem S1024x128 .f32) (harg5 : arg5.IsWhole)
  (x0 : Vec F S1x1024x128 .bf16) (x1 : Vec F S128x128 .f32) (x2 : Vec F S1x1024x128 .f32) (xs : Vec F S1024x128 .f32)

set_option maxHeartbeats 1000000 in
/-- One step of the reduction: the product is added to the sum (zero first where `j = 0`); where `j = 390` the reshaped sum is also the output. -/
private theorem kernelRun (E : Set ℕ) (K : PUnit → sProp 𝕄) (h : cond0_0 i → ¬cond0_1 i) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if cond0_1 i then k0_pay3 (k0_pay2 x0 x1 xs) else x2)
            ∗ owns (c : Thread nD τ) arg5 fullShare (k0_pay2 x0 x1 (if cond0_0 i then k0_pay1 else xs))) -∗ K ⟨⟩))
      ⊢ wp frame (wpE (defs₀ (F := F)) Variants.none c none) E (cc0_kernel_c2a_reduce i arg2 harg2 arg3 harg3 arg4 harg4 arg5 harg5) K := by
  simp only [cc0_kernel_c2a_reduce_eq_skeleton]; unfold cc0_kernel_c2a_reduce_skel
  rw [owns_unread c arg2 harg2, owns_unread c arg3 harg3]; unfold owns
  by_cases hc0 : cond0_0 i <;> by_cases hc1 : cond0_1 i
  · exact absurd hc1 (h hc0)
  all_goals
    first | rw [if_pos hc0] | rw [if_neg hc0]
    first | rw [if_pos hc1] | rw [if_neg hc1]
    iintro ⟨H0, H1, ⟨%f2, %hf2, H2⟩, ⟨%fs, %hfs, HS⟩, Hk⟩
    obtain rfl := harg4.eq_unread hf2; obtain rfl := harg5.eq_unread hfs
    sl_exec (disch := first | exact hc0 | exact hc1)
    sl_step
    iapply Hk
    iframe H0 H1
    isplitl [H2]
    · iexists _; isplitr
      swap; · iexact H2
      ipureintro
      first
      | (sl_unfold_run_names
         rw [read_writes_whole _ _ zeros3, View.readCov_unit_zero _ zeros2, readAt_whole arg2 harg2 zeros3, readAt_whole arg3 harg3 zeros2, readAt_whole arg5 harg5 zeros2])
      | exact harg4.read_unread _
    iexists _; isplitr
    swap; · iexact HS
    ipureintro
    try sl_unfold_run_names
    rw [read_writes_whole _ _ zeros2, readAt_whole arg2 harg2 zeros3, readAt_whole arg3 harg3 zeros2]
    first | rw [View.readCov_unit_zero _ zeros2] | rw [readAt_whole arg5 harg5 zeros2]

end
variable (V : (c : Dev nD) → (b : Ref sig .tc) → Buf (Elt F) ((c : Thread nD τ).loc b))

/-- The block of array `w` that point `t` works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum after point `n`; it restarts from zero where `j = 0`. -/
def acc0 (c : Dev nD) : (n : ℕ) → n < cfg0.N → Vec F S1024x128 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (cfg0.grid.coords ⟨n + 1, hn⟩ 1).val = 0 then k0_pay1 else acc0 c n (Nat.lt_of_succ_lt hn))

theorem acc0_zero_j (c : Dev nD) (t : Fin cfg0.N) (h : (cfg0.grid.coords t 1).val = 0) :
    acc0 V c t.val t.isLt = k0_pay2 (iblk0 V c 0 t) (iblk0 V c 1 t) k0_pay1 := by
  obtain ⟨n, hn⟩ := t
  cases n with
  | zero => rfl
  | succ n => exact congrArg (k0_pay2 (iblk0 V c 0 ⟨n + 1, hn⟩) (iblk0 V c 1 ⟨n + 1, hn⟩)) (if_pos h)

theorem acc0_succ_j (c : Dev nD) (t : Fin cfg0.N) (h : (cfg0.grid.coords t 1).val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (first0_j ⟨0, hn⟩ rfl) h
  | succ n => exact congrArg (k0_pay2 (iblk0 V c 0 ⟨n + 1, hn⟩) (iblk0 V c 1 ⟨n + 1, hn⟩)) (if_neg h)

/-- Before point `n` the scratch holds the running sum so far; before the first point, anything. -/
def PhiS0 (c : Dev nD) : (n : ℕ) → n ≤ cfg0.N → sProp 𝕄
  | 0, _ => Pipeline.ΦA spec0 c
  | n + 1, hn => Inv c (owns (c : Thread nD τ) scM0_0 fullShare (acc0 V c n hn))

theorem PhiS0_pos (c : Dev nD) (n : ℕ) (h : n ≤ cfg0.N) (hz : n ≠ 0) :
    PhiS0 V c n h = Inv c (owns (c : Thread nD τ) scM0_0 fullShare (acc0 V c (n - 1) (by omega))) := by
  cases n with
  | zero => exact absurd rfl hz
  | succ n => rfl

theorem PhiS0_weaken (c : Dev nD) (n : ℕ) (h : n ≤ cfg0.N) : PhiS0 V c n h ⊢ Pipeline.ΦA spec0 c := by
  cases n with
  | zero => exact Idealize.SL.BI.Entails.refl _
  | succ n =>
    rw [PhiA0_eq]; unfold PhiS0 Inv
    iintro ⟨⟨HS, HR⟩, Hg⟩
    iframe HR Hg
    iexists _; iexact HS

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = k0_pay3 (acc0 V c t.val t.isLt) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

set_option maxHeartbeats 4800000 in
/-- By cases on `j`: the first, the last or an inner point of a reduction. -/
theorem sound_body0 (c : Dev nD) (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop(Inv c (owns (c : Thread nD τ) scM0_0 fullShare (acc0 V c t.val t.isLt)) ∗ (dat0 V c).owesAt () t.castSucc
        ∗ owns (c : Thread nD τ) (ms0_0 t) fullShare (iblk0 V c 0 t) ∗ owns (c : Thread nD τ) (ms0_1 t) fullShare (iblk0 V c 1 t) ∗ (dat0 V c).leavesExact 2 t)) := by
  unfold bodyAt0
  simp only [before0_0, before0_1]
  by_cases h0 : (cfg0.grid.coords t 1).val = 0
  · have hc0 := (hcond0_0 t).mpr h0
    have hc1 : ¬cond0_1 (grid0.coords t) := fun h => by have := (hcond0_1 t).mp h; omega
    rw [Dat.leavesExact_idle (dat0 V c) 2 t (idleAt0_2 t hc1) (noFlush0_2 t hc1), acc0_zero_j V c t h0]
    refine BIBase.Entails.trans (Laws.sep_mono_left (PhiS0_weaken V c _ _)) ?_
    rw [PhiA0_eq]; unfold Inv
    iintro ⟨⟨⟨⟨%ds, HS⟩, HR⟩, Hg⟩, Ho, ⟨%d0, H0⟩, ⟨%d1, H1⟩, ⟨%d2, H2⟩⟩
    iapply (kernelRun c (grid0.coords t) _ _ _ _ _ _ _ _ (iblk0 V c 0 t) (iblk0 V c 1 t) ((dat0 V c).before 2 t d2) ds Set.univ _ fun _ => hc1)
    rw [if_pos hc0, if_neg hc1]
    iframe H0 H1 H2 HS
    iintro ⟨H0, H1, H2, HS⟩
    iframe
    iexists _; iexact H2
  · have hc0 : ¬cond0_0 (grid0.coords t) := fun h => h0 ((hcond0_0 t).mp h)
    rw [PhiS0_pos V c _ _ fun h => h0 (first0_j t h), acc0_succ_j V c t h0]; unfold Inv
    by_cases h1 : (cfg0.grid.coords t 1).val = 390
    · have hc1 := (hcond0_1 t).mpr h1
      rw [show (dat0 V c).leavesExact 2 t = owns (c : Thread nD τ) (ms0_2 t) fullShare ((dat0 V c).after 2 t) from by
        unfold Dat.leavesExact; rw [liveAt0_2 t hc1], after0_2, acc0_succ_j V c t h0]
      iintro ⟨⟨⟨HS, HR⟩, Hg⟩, Ho, ⟨%d0, H0⟩, ⟨%d1, H1⟩, ⟨%d2, H2⟩⟩
      iapply (kernelRun c (grid0.coords t) _ _ _ _ _ _ _ _ (iblk0 V c 0 t) (iblk0 V c 1 t) ((dat0 V c).before 2 t d2) _ Set.univ _ fun h => absurd h hc0)
      rw [if_neg hc0, if_pos hc1]
      iframe H0 H1 H2 HS
      iintro ⟨H0, H1, H2, HS⟩
      iframe
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, HR⟩, Hg⟩, Ho, ⟨%d0, H0⟩, ⟨%d1, H1⟩, ⟨%d2, H2⟩⟩
      iapply (kernelRun c (grid0.coords t) _ _ _ _ _ _ _ _ (iblk0 V c 0 t) (iblk0 V c 1 t) ((dat0 V c).before 2 t d2) _ Set.univ _ fun _ => hc1)
      rw [if_neg hc0, if_neg hc1]
      iframe H0 H1 H2 HS
      iintro ⟨H0, H1, H2, HS⟩
      iframe
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c := PhiS0_weaken V c _ (Nat.le_refl _)

end Cert.KernelIdeal.Hand
end
-- ==== Proof.KI.Final1.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

local notation "rA" => Rect.unit (s := S2x1024x128) ![0, 0, 0] S1x1024x128.size inb_S2x1024x128_S1x1024x128_0_0_0
local notation "rB" => Rect.unit (s := S2x1024x128) ![1, 0, 0] S1x1024x128.size inb_S2x1024x128_S1x1024x128_1_0_0
local notation "rM" => Rect.unit (s := S1024x128) ![0, 0] S1024x128.size inb_S1024x128_S1024x128_0_0
local notation "rS" => Rect.unit (s := S128x128) ![0, 0] S128x128.size inb_S128x128_S128x128_0_0
local notation "rL" => Rect.unit (s := S1x128) ![0, 0] S1x128.size inb_S1x128_S1x128_0_0

def out1_5 (x0 : Vec F S2x1024x128 .f32) (x1 : Vec F S1024x128 .f32) (x2 : Vec F S128x128 .f32) (x3 : Vec F S128x128 .f32)
    (x4 : Vec F S1x128 .f32) : Vec F S1024x128 .f32 :=
  View.canon [⟨rM, k1_pay1 (View.ld x0 rA) (View.ld x0 rB) (View.ld x1 rM) (View.ld x2 rS) (View.ld x3 rS) (View.ld x4 rL)⟩]

theorem cover1_5 (p0 : Vec F S1024x128 .f32) (y : S1024x128.Idx) :
    ∃ pc ∈ ([⟨rM, p0⟩] : List (View.Piece (Elt F) S1024x128 .f32)), y ∈ pc.1.set :=
  View.cover_of_tiled [⟨rM, p0⟩] S1024x128.size (by rfl) y

-- The body's one store covers the output whole, so what it leaves there is `out1_5` of what the five inputs hold.
theorem sound_kernel1 (E : Set ℕ) (i : cfg1.grid.Coords)
    (arg1 : Memref sig .tc .vmem S2x1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1024x128 .f32) (harg6 : arg6.IsWhole)
    (x0 : Vec F S2x1024x128 .f32) (x1 : Vec F S1024x128 .f32) (x2 : Vec F S128x128 .f32) (x3 : Vec F S128x128 .f32) (x4 : Vec F S1x128 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)) -∗ K ⟨⟩))
      ⊢ wp frame (wpE (defs₀ (F := F)) Variants.none c none) E
          (cc1_kernel_c2a_finalize i arg1 harg1 arg2 harg2 arg3 harg3 arg4 harg4 arg5 harg5 arg6 harg6) K := by
  simp only [cc1_kernel_c2a_finalize_eq_skeleton]; unfold cc1_kernel_c2a_finalize_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (w : Fin cfg1.W) : (dat1 V c).A w = V c (Pipeline.arrRef spec1 w) := rfl

variable (t : Fin cfg1.N)

theorem after1_5 :
    (dat1 V c).after 5 t = out1_5 (iblk1 V c 0 t) (iblk1 V c 1 t) (iblk1 V c 2 t) (iblk1 V c 3 t) (iblk1 V c 4 t) := by dsimp only [dat1]

theorem before1_0 (d) : (dat1 V c).before 0 t d = iblk1 V c 0 t :=
  (Dat.before_in_eq_fetched _ 0 rfl (fun _ => rfl) (fun _ _ _ => rfl) (fun _ => rfl) t d).trans rfl
theorem before1_1 (d) : (dat1 V c).before 1 t d = iblk1 V c 1 t :=
  (Dat.before_in_eq_fetched _ 1 rfl (fun _ => rfl) (fun _ _ _ => rfl) (fun _ => rfl) t d).trans rfl
theorem before1_2 (d) : (dat1 V c).before 2 t d = iblk1 V c 2 t :=
  (Dat.before_in_eq_fetched _ 2 rfl (fun _ => rfl) (fun _ _ _ => rfl) (fun _ => rfl) t d).trans rfl
theorem before1_3 (d) : (dat1 V c).before 3 t d = iblk1 V c 3 t :=
  (Dat.before_in_eq_fetched _ 3 rfl (fun _ => rfl) (fun _ _ _ => rfl) (fun _ => rfl) t d).trans rfl
theorem before1_4 (d) : (dat1 V c).before 4 t d = iblk1 V c 4 t :=
  (Dat.before_in_eq_fetched _ 4 rfl (fun _ => rfl) (fun _ _ _ => rfl) (fun _ => rfl) t d).trans rfl

def bodyPre1 : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d)))

def bodyPost1 : sProp 𝕄 :=
  iprop((dat1 V c).Φ t.succ ∗ (dat1 V c).owesAt () t.succ
    ∗ owns c (st1_0 t) fullShare ((dat1 V c).after 0 t)
    ∗ owns c (st1_1 t) fullShare ((dat1 V c).after 1 t)
    ∗ owns c (st1_2 t) fullShare ((dat1 V c).after 2 t)
    ∗ owns c (st1_3 t) fullShare ((dat1 V c).after 3 t)
    ∗ owns c (st1_4 t) fullShare ((dat1 V c).after 4 t)
    ∗ owns c (st1_5 t) fullShare ((dat1 V c).after 5 t))

theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  iintro ⟨HΦ, Ho, ⟨%d0, H0⟩, ⟨%d1, H1⟩, ⟨%d2, H2⟩, ⟨%d3, H3⟩, ⟨%d4, H4⟩, ⟨%d5, H5⟩⟩
  dsimp only [dat1]
  iapply sound_kernel1 c Set.univ
  iframe H0 H1 H2 H3 H4
  isplitl [H5]; · iexists _; iexact H5
  iintro ⟨H0, H1, H2, H3, H4, H5⟩
  iframe
  iexact Ho

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := Entails.refl _

theorem hout1 : (dat1 V c).Φ (Fin.last cfg1.N) ⊢ Pipeline.ΦA spec1 c := Entails.refl _

end Cert.KernelIdeal.Hand
-- ==== Proof.KI.A2c2.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

local notation "rA" => (Rect.unit (s := S1x128x1024) ![0, 0, 0] S1x128x1024.size inb_S1x128x1024_S1x128x1024_0_0_0)
local notation "rB" => (Rect.unit (s := S1024x128) ![0, 0] S1024x128.size inb_S1024x128_S1024x128_0_0)
local notation "rC" => (Rect.unit (s := S128x128) ![0, 0] S128x128.size inb_S128x128_S128x128_0_0)
local notation "rD" => (Rect.unit (s := S1x128) ![0, 0] S1x128.size inb_S1x128_S1x128_0_0)

def out2_6 (i : grid2.Coords) (x0 : Vec F S1x128x1024 .bf16) (x1 : Vec F S128x128 .f32) (x2 : Vec F S1024x128 .f32)
    (x3 : Vec F S128x128 .f32) (x4 : Vec F S128x128 .f32) (x5 : Vec F S1x128 .f32) : Vec F S128x128 .f32 :=
  View.canon [⟨rC, k2_pay1 i (View.ld x0 rA) (View.ld x2 rB) (View.ld x1 rC) (View.ld x3 rC) (View.ld x4 rC) (View.ld x5 rD)⟩]

theorem cover2_6 (p0 : Vec F S128x128 .f32) (y : S128x128.Idx) :
    ∃ pc ∈ ([⟨rC, p0⟩] : List (View.Piece (Elt F) S128x128 .f32)), y ∈ pc.1.set :=
  View.cover_of_tiled [⟨rC, p0⟩] S128x128.size (by rfl) y

-- The body's one store covers the output whole, so what it leaves there is `out2_6` of what the six inputs hold.
theorem sound_kernel2 (E : Set ℕ) (i : grid2.Coords)
    (arg1 : Memref sig .tc .vmem S1x128x1024 .bf16) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole)
    (x0 : Vec F S1x128x1024 .bf16) (x1 : Vec F S128x128 .f32) (x2 : Vec F S1024x128 .f32) (x3 : Vec F S128x128 .f32)
    (x4 : Vec F S128x128 .f32) (x5 : Vec F S1x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare (out2_6 i x0 x1 x2 x3 x4 x5)) -∗ K ⟨⟩))
      ⊢ wp frame (wpE (defs₀ (F := F)) Variants.none c none) E
          (cc2_kernel_a2c i arg1 harg1 arg2 harg2 arg3 harg3 arg4 harg4 arg5 harg5 arg6 harg6 arg7 harg7) K := by
  simp only [cc2_kernel_a2c_eq_skeleton]; unfold cc2_kernel_a2c_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (cfg2.grid.coords t) (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (w : Fin cfg2.W) : (dat2 V c).A w = V c (Pipeline.arrRef spec2 w) := rfl

variable (t : Fin cfg2.N)

theorem after2_6 :
    (dat2 V c).after 6 t = out2_6 (cfg2.grid.coords t) (iblk2 V c 0 t) (iblk2 V c 1 t) (iblk2 V c 2 t) (iblk2 V c 3 t) (iblk2 V c 4 t) (iblk2 V c 5 t) := by dsimp only [dat2]

theorem before2_0 (d) : (dat2 V c).before 0 t d = iblk2 V c 0 t :=
  (Dat.before_in_eq_fetched _ 0 rfl (fun _ => rfl) (fun _ _ _ => rfl) (fun _ => rfl) t d).trans rfl
theorem before2_1 (d) : (dat2 V c).before 1 t d = iblk2 V c 1 t :=
  (Dat.before_in_eq_fetched _ 1 rfl (fun _ => rfl) (fun _ _ _ => rfl) (fun _ => rfl) t d).trans rfl
theorem before2_2 (d) : (dat2 V c).before 2 t d = iblk2 V c 2 t :=
  (Dat.before_in_eq_fetched _ 2 rfl (fun _ => rfl) (fun _ _ _ => rfl) (fun _ => rfl) t d).trans rfl
theorem before2_3 (d) : (dat2 V c).before 3 t d = iblk2 V c 3 t :=
  (Dat.before_in_eq_fetched _ 3 rfl (fun _ => rfl) (fun _ _ _ => rfl) (fun _ => rfl) t d).trans rfl
theorem before2_4 (d) : (dat2 V c).before 4 t d = iblk2 V c 4 t :=
  (Dat.before_in_eq_fetched _ 4 rfl (fun _ => rfl) (fun _ _ _ => rfl) (fun _ => rfl) t d).trans rfl
theorem before2_5 (d) : (dat2 V c).before 5 t d = iblk2 V c 5 t :=
  (Dat.before_in_eq_fetched _ 5 rfl (fun _ => rfl) (fun _ _ _ => rfl) (fun _ => rfl) t d).trans rfl

def bodyPre2 : sProp 𝕄 :=
  iprop((dat2 V c).Φ t.castSucc ∗ (dat2 V c).owesAt () t.castSucc
    ∗ (∃ d, owns c (st2_0 t) fullShare ((dat2 V c).before 0 t d))
    ∗ (∃ d, owns c (st2_1 t) fullShare ((dat2 V c).before 1 t d))
    ∗ (∃ d, owns c (st2_2 t) fullShare ((dat2 V c).before 2 t d))
    ∗ (∃ d, owns c (st2_3 t) fullShare ((dat2 V c).before 3 t d))
    ∗ (∃ d, owns c (st2_4 t) fullShare ((dat2 V c).before 4 t d))
    ∗ (∃ d, owns c (st2_5 t) fullShare ((dat2 V c).before 5 t d))
    ∗ (∃ d, owns c (st2_6 t) fullShare ((dat2 V c).before 6 t d)))

def bodyPost2 : sProp 𝕄 :=
  iprop((dat2 V c).Φ t.succ ∗ (dat2 V c).owesAt () t.succ
    ∗ owns c (st2_0 t) fullShare ((dat2 V c).after 0 t)
    ∗ owns c (st2_1 t) fullShare ((dat2 V c).after 1 t)
    ∗ owns c (st2_2 t) fullShare ((dat2 V c).after 2 t)
    ∗ owns c (st2_3 t) fullShare ((dat2 V c).after 3 t)
    ∗ owns c (st2_4 t) fullShare ((dat2 V c).after 4 t)
    ∗ owns c (st2_5 t) fullShare ((dat2 V c).after 5 t)
    ∗ owns c (st2_6 t) fullShare ((dat2 V c).after 6 t))

theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  iintro ⟨HΦ, Ho, ⟨%d0, H0⟩, ⟨%d1, H1⟩, ⟨%d2, H2⟩, ⟨%d3, H3⟩, ⟨%d4, H4⟩, ⟨%d5, H5⟩, ⟨%d6, H6⟩⟩
  dsimp only [dat2]
  iapply sound_kernel2 c Set.univ
  iframe H0 H1 H2 H3 H4 H5
  isplitl [H6]; · iexists _; iexact H6
  iintro ⟨H0, H1, H2, H3, H4, H5, H6⟩
  iframe
  iexact Ho

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := Entails.refl _

theorem hout2 : (dat2 V c).Φ (Fin.last cfg2.N) ⊢ Pipeline.ΦA spec2 c := Entails.refl _

end Cert.KernelIdeal.Hand
-- ==== Proof.KI.Reduce3.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

theorem hcond3_0 : ∀ t : Fin grid3.N, cond3_0 (grid3.coords t) ↔ (grid3.coords t 1).val = 0 := by decide +kernel
theorem hcond3_1 : ∀ t : Fin cfg3.N, cond3_1 (grid3.coords t) ↔ (cfg3.grid.coords t 1).val = 390 := by decide +kernel
theorem first3_j : ∀ t : Fin cfg3.N, t.val = 0 → (cfg3.grid.coords t 1).val = 0 := by decide +kernel

theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev ms3_0 (t : Fin cfg3.N) : Memref sig .tc .vmem S1x1024x128 .bf16 := win3_0.stage (cfg3.slots t 0)
abbrev ms3_1 (t : Fin cfg3.N) : Memref sig .tc .vmem S128x128 .f32 := win3_1.stage (cfg3.slots t 1)
abbrev ms3_2 (t : Fin cfg3.N) : Memref sig .tc .vmem S1x1024x128 .f32 := win3_2.stage (cfg3.slots t 2)
abbrev scM3_0 : Memref sig .tc .vmem S1024x128 .f32 := Memref.whole cc3_scratch0

/-- The launch's invariant with the scratch held as `P`. -/
private def Inv (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = Inv c iprop(∃ d, owns (c : Thread nD τ) scM3_0 fullShare d) := by
  unfold Pipeline.ΦA Inv; rw [scopedRest3_split]; simp only [scM3_0, owns_whole]; try rfl

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Reading every index of a whole memref gives back what it holds. -/
private theorem readAt_whole {sp : Space} {S : Shape} {e : EltTy} (m : Memref sig .tc sp S e) (hm : m.IsWhole)
    {off : Fin S.rank → Nat} (h : off = fun _ => 0) (inb : ∀ a, off a + S.size a ≤ S.size a) (x : S.Idx → Elt F e) :
    m.view.readAt (Elt F) (Rect.unit off S.size inb).toLoadRect (hm.unread x) = x := by
  have e := View.readAt_eq_ld (Val := Elt F) m.view (hm.unread x) (Rect.unit off S.size inb)
  rw [hm.read_unread, View.ld_unit_zero h] at e
  exact e

/-- The last store covers every index, so nothing older shows. -/
private theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole memref owned at `x` is its elements held at the contents that read `x`. -/
private theorem owns_unread {sp : Space} {S : Shape} {e : EltTy} (c : Dev nD) (m : Memref sig .tc sp S e) (hm : m.IsWhole) (x : S.Idx → Elt F e) :
    (owns (c : Thread nD τ) m fullShare x : sProp 𝕄) = (m.view.loc (c : Thread nD τ) ↦[m.view.set]{fullShare} hm.unread x) := by
  rw [owns_eq_rep, hm.eq_unread (View.read_rep _ _)]

section
variable (c : Dev nD) (i : grid3.Coords) (arg2 : Memref sig .tc .vmem S1x1024x128 .bf16) (harg2 : arg2.IsWhole) (arg3 : Memref sig .tc .vmem S128x128 .f32) (harg3 : arg3.IsWhole) (arg4 : Memref sig .tc .vmem S1x1024x128 .f32) (harg4 : arg4.IsWhole) (arg5 : Memref sig .tc .vmem S1024x128 .f32) (harg5 : arg5.IsWhole)
  (x0 : Vec F S1x1024x128 .bf16) (x1 : Vec F S128x128 .f32) (x2 : Vec F S1x1024x128 .f32) (xs : Vec F S1024x128 .f32)

set_option maxHeartbeats 1000000 in
/-- One step of the reduction: the product is added to the sum (zero first where `j = 0`); where `j = 390` the reshaped sum is also the output. -/
private theorem kernelRun (E : Set ℕ) (K : PUnit → sProp 𝕄) (h : cond3_0 i → ¬cond3_1 i) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if cond3_1 i then k3_pay3 (k3_pay2 x0 x1 xs) else x2)
            ∗ owns (c : Thread nD τ) arg5 fullShare (k3_pay2 x0 x1 (if cond3_0 i then k3_pay1 else xs))) -∗ K ⟨⟩))
      ⊢ wp frame (wpE (defs₀ (F := F)) Variants.none c none) E (cc3_kernel_c2a_reduce i arg2 harg2 arg3 harg3 arg4 harg4 arg5 harg5) K := by
  simp only [cc3_kernel_c2a_reduce_eq_skeleton]; unfold cc3_kernel_c2a_reduce_skel
  rw [owns_unread c arg2 harg2, owns_unread c arg3 harg3]; unfold owns
  by_cases hc0 : cond3_0 i <;> by_cases hc1 : cond3_1 i
  · exact absurd hc1 (h hc0)
  all_goals
    first | rw [if_pos hc0] | rw [if_neg hc0]
    first | rw [if_pos hc1] | rw [if_neg hc1]
    iintro ⟨H0, H1, ⟨%f2, %hf2, H2⟩, ⟨%fs, %hfs, HS⟩, Hk⟩
    obtain rfl := harg4.eq_unread hf2; obtain rfl := harg5.eq_unread hfs
    sl_exec (disch := first | exact hc0 | exact hc1)
    sl_step
    iapply Hk
    iframe H0 H1
    isplitl [H2]
    · iexists _; isplitr
      swap; · iexact H2
      ipureintro
      first
      | (sl_unfold_run_names
         rw [read_writes_whole _ _ zeros3, View.readCov_unit_zero _ zeros2, readAt_whole arg2 harg2 zeros3, readAt_whole arg3 harg3 zeros2, readAt_whole arg5 harg5 zeros2])
      | exact harg4.read_unread _
    iexists _; isplitr
    swap; · iexact HS
    ipureintro
    try sl_unfold_run_names
    rw [read_writes_whole _ _ zeros2, readAt_whole arg2 harg2 zeros3, readAt_whole arg3 harg3 zeros2]
    first | rw [View.readCov_unit_zero _ zeros2] | rw [readAt_whole arg5 harg5 zeros2]

end
variable (V : (c : Dev nD) → (b : Ref sig .tc) → Buf (Elt F) ((c : Thread nD τ).loc b))

/-- The block of array `w` that point `t` works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum after point `n`; it restarts from zero where `j = 0`. -/
def acc3 (c : Dev nD) : (n : ℕ) → n < cfg3.N → Vec F S1024x128 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩)
      (if (cfg3.grid.coords ⟨n + 1, hn⟩ 1).val = 0 then k3_pay1 else acc3 c n (Nat.lt_of_succ_lt hn))

theorem acc3_zero_j (c : Dev nD) (t : Fin cfg3.N) (h : (cfg3.grid.coords t 1).val = 0) :
    acc3 V c t.val t.isLt = k3_pay2 (iblk3 V c 0 t) (iblk3 V c 1 t) k3_pay1 := by
  obtain ⟨n, hn⟩ := t
  cases n with
  | zero => rfl
  | succ n => exact congrArg (k3_pay2 (iblk3 V c 0 ⟨n + 1, hn⟩) (iblk3 V c 1 ⟨n + 1, hn⟩)) (if_pos h)

theorem acc3_succ_j (c : Dev nD) (t : Fin cfg3.N) (h : (cfg3.grid.coords t 1).val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd (first3_j ⟨0, hn⟩ rfl) h
  | succ n => exact congrArg (k3_pay2 (iblk3 V c 0 ⟨n + 1, hn⟩) (iblk3 V c 1 ⟨n + 1, hn⟩)) (if_neg h)

/-- Before point `n` the scratch holds the running sum so far; before the first point, anything. -/
def PhiS3 (c : Dev nD) : (n : ℕ) → n ≤ cfg3.N → sProp 𝕄
  | 0, _ => Pipeline.ΦA spec3 c
  | n + 1, hn => Inv c (owns (c : Thread nD τ) scM3_0 fullShare (acc3 V c n hn))

theorem PhiS3_pos (c : Dev nD) (n : ℕ) (h : n ≤ cfg3.N) (hz : n ≠ 0) :
    PhiS3 V c n h = Inv c (owns (c : Thread nD τ) scM3_0 fullShare (acc3 V c (n - 1) (by omega))) := by
  cases n with
  | zero => exact absurd rfl hz
  | succ n => rfl

theorem PhiS3_weaken (c : Dev nD) (n : ℕ) (h : n ≤ cfg3.N) : PhiS3 V c n h ⊢ Pipeline.ΦA spec3 c := by
  cases n with
  | zero => exact Idealize.SL.BI.Entails.refl _
  | succ n =>
    rw [PhiA3_eq]; unfold PhiS3 Inv
    iintro ⟨⟨HS, HR⟩, Hg⟩
    iframe HR Hg
    iexists _; iexact HS

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = k3_pay3 (acc3 V c t.val t.isLt) := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

set_option maxHeartbeats 4800000 in
/-- By cases on `j`: the first, the last or an inner point of a reduction. -/
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d)))
    ⊢ wp frame (wpE (defs₀ (F := F)) Variants.none c none) Set.univ (bodyAt3 t) (fun _ =>
      iprop(Inv c (owns (c : Thread nD τ) scM3_0 fullShare (acc3 V c t.val t.isLt)) ∗ (dat3 V c).owesAt () t.castSucc
        ∗ owns (c : Thread nD τ) (ms3_0 t) fullShare (iblk3 V c 0 t) ∗ owns (c : Thread nD τ) (ms3_1 t) fullShare (iblk3 V c 1 t) ∗ (dat3 V c).leavesExact 2 t)) := by
  unfold bodyAt3
  simp only [before3_0, before3_1]
  by_cases h0 : (cfg3.grid.coords t 1).val = 0
  · have hc0 := (hcond3_0 t).mpr h0
    have hc1 : ¬cond3_1 (grid3.coords t) := fun h => by have := (hcond3_1 t).mp h; omega
    rw [Dat.leavesExact_idle (dat3 V c) 2 t (idleAt3_2 t hc1) (noFlush3_2 t hc1), acc3_zero_j V c t h0]
    refine BIBase.Entails.trans (Laws.sep_mono_left (PhiS3_weaken V c _ _)) ?_
    rw [PhiA3_eq]; unfold Inv
    iintro ⟨⟨⟨⟨%ds, HS⟩, HR⟩, Hg⟩, Ho, ⟨%d0, H0⟩, ⟨%d1, H1⟩, ⟨%d2, H2⟩⟩
    iapply (kernelRun c (grid3.coords t) _ _ _ _ _ _ _ _ (iblk3 V c 0 t) (iblk3 V c 1 t) ((dat3 V c).before 2 t d2) ds Set.univ _ fun _ => hc1)
    rw [if_pos hc0, if_neg hc1]
    iframe H0 H1 H2 HS
    iintro ⟨H0, H1, H2, HS⟩
    iframe
    iexists _; iexact H2
  · have hc0 : ¬cond3_0 (grid3.coords t) := fun h => h0 ((hcond3_0 t).mp h)
    rw [PhiS3_pos V c _ _ fun h => h0 (first3_j t h), acc3_succ_j V c t h0]; unfold Inv
    by_cases h1 : (cfg3.grid.coords t 1).val = 390
    · have hc1 := (hcond3_1 t).mpr h1
      rw [show (dat3 V c).leavesExact 2 t = owns (c : Thread nD τ) (ms3_2 t) fullShare ((dat3 V c).after 2 t) from by
        unfold Dat.leavesExact; rw [liveAt3_2 t hc1], after3_2, acc3_succ_j V c t h0]
      iintro ⟨⟨⟨HS, HR⟩, Hg⟩, Ho, ⟨%d0, H0⟩, ⟨%d1, H1⟩, ⟨%d2, H2⟩⟩
      iapply (kernelRun c (grid3.coords t) _ _ _ _ _ _ _ _ (iblk3 V c 0 t) (iblk3 V c 1 t) ((dat3 V c).before 2 t d2) _ Set.univ _ fun h => absurd h hc0)
      rw [if_neg hc0, if_pos hc1]
      iframe H0 H1 H2 HS
      iintro ⟨H0, H1, H2, HS⟩
      iframe
    · have hc1 : ¬cond3_1 (grid3.coords t) := fun h => h1 ((hcond3_1 t).mp h)
      rw [Dat.leavesExact_idle (dat3 V c) 2 t (idleAt3_2 t hc1) (noFlush3_2 t hc1)]
      iintro ⟨⟨⟨HS, HR⟩, Hg⟩, Ho, ⟨%d0, H0⟩, ⟨%d1, H1⟩, ⟨%d2, H2⟩⟩
      iapply (kernelRun c (grid3.coords t) _ _ _ _ _ _ _ _ (iblk3 V c 0 t) (iblk3 V c 1 t) ((dat3 V c).before 2 t d2) _ Set.univ _ fun _ => hc1)
      rw [if_neg hc0, if_neg hc1]
      iframe H0 H1 H2 HS
      iintro ⟨H0, H1, H2, HS⟩
      iframe
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := PhiS3_weaken V c _ (Nat.le_refl _)

end Cert.KernelIdeal.Hand
end
-- ==== Proof.KI.Final4.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

local notation "rA" => Rect.unit (s := S2x1024x128) ![0, 0, 0] S1x1024x128.size inb_S2x1024x128_S1x1024x128_0_0_0
local notation "rB" => Rect.unit (s := S2x1024x128) ![1, 0, 0] S1x1024x128.size inb_S2x1024x128_S1x1024x128_1_0_0
local notation "rM" => Rect.unit (s := S1024x128) ![0, 0] S1024x128.size inb_S1024x128_S1024x128_0_0
local notation "rS" => Rect.unit (s := S128x128) ![0, 0] S128x128.size inb_S128x128_S128x128_0_0
local notation "rL" => Rect.unit (s := S1x128) ![0, 0] S1x128.size inb_S1x128_S1x128_0_0

def out4_5 (x0 : Vec F S2x1024x128 .f32) (x1 : Vec F S1024x128 .f32) (x2 : Vec F S128x128 .f32) (x3 : Vec F S128x128 .f32)
    (x4 : Vec F S1x128 .f32) : Vec F S1024x128 .f32 :=
  View.canon [⟨rM, k4_pay1 (View.ld x0 rA) (View.ld x0 rB) (View.ld x1 rM) (View.ld x2 rS) (View.ld x3 rS) (View.ld x4 rL)⟩]

theorem cover4_5 (p0 : Vec F S1024x128 .f32) (y : S1024x128.Idx) :
    ∃ pc ∈ ([⟨rM, p0⟩] : List (View.Piece (Elt F) S1024x128 .f32)), y ∈ pc.1.set :=
  View.cover_of_tiled [⟨rM, p0⟩] S1024x128.size (by rfl) y

-- The body's one store covers the output whole, so what it leaves there is `out4_5` of what the five inputs hold.
theorem sound_kernel4 (E : Set ℕ) (i : cfg4.grid.Coords)
    (arg1 : Memref sig .tc .vmem S2x1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1024x128 .f32) (harg6 : arg6.IsWhole)
    (x0 : Vec F S2x1024x128 .f32) (x1 : Vec F S1024x128 .f32) (x2 : Vec F S128x128 .f32) (x3 : Vec F S128x128 .f32) (x4 : Vec F S1x128 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out4_5 x0 x1 x2 x3 x4)) -∗ K ⟨⟩))
      ⊢ wp frame (wpE (defs₀ (F := F)) Variants.none c none) E
          (cc4_kernel_c2a_finalize i arg1 harg1 arg2 harg2 arg3 harg3 arg4 harg4 arg5 harg5 arg6 harg6) K := by
  simp only [cc4_kernel_c2a_finalize_eq_skeleton]; unfold cc4_kernel_c2a_finalize_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (w : Fin cfg4.W) : (dat4 V c).A w = V c (Pipeline.arrRef spec4 w) := rfl

variable (t : Fin cfg4.N)

theorem after4_5 :
    (dat4 V c).after 5 t = out4_5 (iblk4 V c 0 t) (iblk4 V c 1 t) (iblk4 V c 2 t) (iblk4 V c 3 t) (iblk4 V c 4 t) := by dsimp only [dat4]

theorem before4_0 (d) : (dat4 V c).before 0 t d = iblk4 V c 0 t :=
  (Dat.before_in_eq_fetched _ 0 rfl (fun _ => rfl) (fun _ _ _ => rfl) (fun _ => rfl) t d).trans rfl
theorem before4_1 (d) : (dat4 V c).before 1 t d = iblk4 V c 1 t :=
  (Dat.before_in_eq_fetched _ 1 rfl (fun _ => rfl) (fun _ _ _ => rfl) (fun _ => rfl) t d).trans rfl
theorem before4_2 (d) : (dat4 V c).before 2 t d = iblk4 V c 2 t :=
  (Dat.before_in_eq_fetched _ 2 rfl (fun _ => rfl) (fun _ _ _ => rfl) (fun _ => rfl) t d).trans rfl
theorem before4_3 (d) : (dat4 V c).before 3 t d = iblk4 V c 3 t :=
  (Dat.before_in_eq_fetched _ 3 rfl (fun _ => rfl) (fun _ _ _ => rfl) (fun _ => rfl) t d).trans rfl
theorem before4_4 (d) : (dat4 V c).before 4 t d = iblk4 V c 4 t :=
  (Dat.before_in_eq_fetched _ 4 rfl (fun _ => rfl) (fun _ _ _ => rfl) (fun _ => rfl) t d).trans rfl

def bodyPre4 : sProp 𝕄 :=
  iprop((dat4 V c).Φ t.castSucc ∗ (dat4 V c).owesAt () t.castSucc
    ∗ (∃ d, owns c (st4_0 t) fullShare ((dat4 V c).before 0 t d))
    ∗ (∃ d, owns c (st4_1 t) fullShare ((dat4 V c).before 1 t d))
    ∗ (∃ d, owns c (st4_2 t) fullShare ((dat4 V c).before 2 t d))
    ∗ (∃ d, owns c (st4_3 t) fullShare ((dat4 V c).before 3 t d))
    ∗ (∃ d, owns c (st4_4 t) fullShare ((dat4 V c).before 4 t d))
    ∗ (∃ d, owns c (st4_5 t) fullShare ((dat4 V c).before 5 t d)))

def bodyPost4 : sProp 𝕄 :=
  iprop((dat4 V c).Φ t.succ ∗ (dat4 V c).owesAt () t.succ
    ∗ owns c (st4_0 t) fullShare ((dat4 V c).after 0 t)
    ∗ owns c (st4_1 t) fullShare ((dat4 V c).after 1 t)
    ∗ owns c (st4_2 t) fullShare ((dat4 V c).after 2 t)
    ∗ owns c (st4_3 t) fullShare ((dat4 V c).after 3 t)
    ∗ owns c (st4_4 t) fullShare ((dat4 V c).after 4 t)
    ∗ owns c (st4_5 t) fullShare ((dat4 V c).after 5 t))

theorem sound_body4 :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  iintro ⟨HΦ, Ho, ⟨%d0, H0⟩, ⟨%d1, H1⟩, ⟨%d2, H2⟩, ⟨%d3, H3⟩, ⟨%d4, H4⟩, ⟨%d5, H5⟩⟩
  dsimp only [dat4]
  iapply sound_kernel4 c Set.univ
  iframe H0 H1 H2 H3 H4
  isplitl [H5]; · iexists _; iexact H5
  iintro ⟨H0, H1, H2, H3, H4, H5⟩
  iframe
  iexact Ho

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := Entails.refl _

theorem hout4 : (dat4 V c).Φ (Fin.last cfg4.N) ⊢ Pipeline.ΦA spec4 c := Entails.refl _

end Cert.KernelIdeal.Hand
-- ==== Proof.KI.A2c5.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

local notation "rA" => (Rect.unit (s := S1x128x1024) ![0, 0, 0] S1x128x1024.size inb_S1x128x1024_S1x128x1024_0_0_0)
local notation "rB" => (Rect.unit (s := S1024x128) ![0, 0] S1024x128.size inb_S1024x128_S1024x128_0_0)
local notation "rC" => (Rect.unit (s := S128x128) ![0, 0] S128x128.size inb_S128x128_S128x128_0_0)
local notation "rD" => (Rect.unit (s := S1x128) ![0, 0] S1x128.size inb_S1x128_S1x128_0_0)

def out5_6 (i : grid5.Coords) (x0 : Vec F S1x128x1024 .bf16) (x1 : Vec F S128x128 .f32) (x2 : Vec F S1024x128 .f32)
    (x3 : Vec F S128x128 .f32) (x4 : Vec F S128x128 .f32) (x5 : Vec F S1x128 .f32) : Vec F S128x128 .f32 :=
  View.canon [⟨rC, k5_pay1 i (View.ld x0 rA) (View.ld x2 rB) (View.ld x1 rC) (View.ld x3 rC) (View.ld x4 rC) (View.ld x5 rD)⟩]

theorem cover5_6 (p0 : Vec F S128x128 .f32) (y : S128x128.Idx) :
    ∃ pc ∈ ([⟨rC, p0⟩] : List (View.Piece (Elt F) S128x128 .f32)), y ∈ pc.1.set :=
  View.cover_of_tiled [⟨rC, p0⟩] S128x128.size (by rfl) y

-- The body's one store covers the output whole, so what it leaves there is `out5_6` of what the six inputs hold.
theorem sound_kernel5 (E : Set ℕ) (i : grid5.Coords)
    (arg1 : Memref sig .tc .vmem S1x128x1024 .bf16) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole)
    (x0 : Vec F S1x128x1024 .bf16) (x1 : Vec F S128x128 .f32) (x2 : Vec F S1024x128 .f32) (x3 : Vec F S128x128 .f32)
    (x4 : Vec F S128x128 .f32) (x5 : Vec F S1x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare (out5_6 i x0 x1 x2 x3 x4 x5)) -∗ K ⟨⟩))
      ⊢ wp frame (wpE (defs₀ (F := F)) Variants.none c none) E
          (cc5_kernel_a2c i arg1 harg1 arg2 harg2 arg3 harg3 arg4 harg4 arg5 harg5 arg6 harg6 arg7 harg7) K := by
  simp only [cc5_kernel_a2c_eq_skeleton]; unfold cc5_kernel_a2c_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (cfg5.grid.coords t) (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (w : Fin cfg5.W) : (dat5 V c).A w = V c (Pipeline.arrRef spec5 w) := rfl

variable (t : Fin cfg5.N)

theorem after5_6 :
    (dat5 V c).after 6 t = out5_6 (cfg5.grid.coords t) (iblk5 V c 0 t) (iblk5 V c 1 t) (iblk5 V c 2 t) (iblk5 V c 3 t) (iblk5 V c 4 t) (iblk5 V c 5 t) := by dsimp only [dat5]

theorem before5_0 (d) : (dat5 V c).before 0 t d = iblk5 V c 0 t :=
  (Dat.before_in_eq_fetched _ 0 rfl (fun _ => rfl) (fun _ _ _ => rfl) (fun _ => rfl) t d).trans rfl
theorem before5_1 (d) : (dat5 V c).before 1 t d = iblk5 V c 1 t :=
  (Dat.before_in_eq_fetched _ 1 rfl (fun _ => rfl) (fun _ _ _ => rfl) (fun _ => rfl) t d).trans rfl
theorem before5_2 (d) : (dat5 V c).before 2 t d = iblk5 V c 2 t :=
  (Dat.before_in_eq_fetched _ 2 rfl (fun _ => rfl) (fun _ _ _ => rfl) (fun _ => rfl) t d).trans rfl
theorem before5_3 (d) : (dat5 V c).before 3 t d = iblk5 V c 3 t :=
  (Dat.before_in_eq_fetched _ 3 rfl (fun _ => rfl) (fun _ _ _ => rfl) (fun _ => rfl) t d).trans rfl
theorem before5_4 (d) : (dat5 V c).before 4 t d = iblk5 V c 4 t :=
  (Dat.before_in_eq_fetched _ 4 rfl (fun _ => rfl) (fun _ _ _ => rfl) (fun _ => rfl) t d).trans rfl
theorem before5_5 (d) : (dat5 V c).before 5 t d = iblk5 V c 5 t :=
  (Dat.before_in_eq_fetched _ 5 rfl (fun _ => rfl) (fun _ _ _ => rfl) (fun _ => rfl) t d).trans rfl

def bodyPre5 : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d))
    ∗ (∃ d, owns c (st5_4 t) fullShare ((dat5 V c).before 4 t d))
    ∗ (∃ d, owns c (st5_5 t) fullShare ((dat5 V c).before 5 t d))
    ∗ (∃ d, owns c (st5_6 t) fullShare ((dat5 V c).before 6 t d)))

def bodyPost5 : sProp 𝕄 :=
  iprop((dat5 V c).Φ t.succ ∗ (dat5 V c).owesAt () t.succ
    ∗ owns c (st5_0 t) fullShare ((dat5 V c).after 0 t)
    ∗ owns c (st5_1 t) fullShare ((dat5 V c).after 1 t)
    ∗ owns c (st5_2 t) fullShare ((dat5 V c).after 2 t)
    ∗ owns c (st5_3 t) fullShare ((dat5 V c).after 3 t)
    ∗ owns c (st5_4 t) fullShare ((dat5 V c).after 4 t)
    ∗ owns c (st5_5 t) fullShare ((dat5 V c).after 5 t)
    ∗ owns c (st5_6 t) fullShare ((dat5 V c).after 6 t))

theorem sound_body5 :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  iintro ⟨HΦ, Ho, ⟨%d0, H0⟩, ⟨%d1, H1⟩, ⟨%d2, H2⟩, ⟨%d3, H3⟩, ⟨%d4, H4⟩, ⟨%d5, H5⟩, ⟨%d6, H6⟩⟩
  dsimp only [dat5]
  iapply sound_kernel5 c Set.univ
  iframe H0 H1 H2 H3 H4 H5
  isplitl [H6]; · iexists _; iexact H6
  iintro ⟨H0, H1, H2, H3, H4, H5, H6⟩
  iframe
  iexact Ho

theorem body_obligation5 : BodyObligation (dat5 (F := F) V c) (defs₀ (F := F)) Variants.none () Set.univ := fun t => by
  rw [bigSep_W5, bigSep_W5]
  exact sound_body5 V c t

theorem hin5 : Pipeline.ΦA spec5 c ⊢ (dat5 V c).Φ 0 := Entails.refl _

theorem hout5 : (dat5 V c).Φ (Fin.last cfg5.N) ⊢ Pipeline.ΦA spec5 c := Entails.refl _

end Cert.KernelIdeal.Hand
-- ==== Proof.KI.Reduce6.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 1).val) 0#32)) 0#32) = 1#1
abbrev cond6_1 (i : grid6.Coords) : Prop := k6_cond2 i = 1#1

theorem hcond6_0 : ∀ t : Fin grid6.N, cond6_0 (grid6.coords t) ↔ (grid6.coords t 1).val = 0 := by decide +kernel
theorem hcond6_1 : ∀ t : Fin cfg6.N, cond6_1 (grid6.coords t) ↔ (cfg6.grid.coords t 1).val = 390 := by decide +kernel
theorem first6_j : ∀ t : Fin cfg6.N, t.val = 0 → (cfg6.grid.coords t 1).val = 0 := by decide +kernel

theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

abbrev ms6_0 (t : Fin cfg6.N) : Memref sig .tc .vmem S1x1024x128 .bf16 := win6_0.stage (cfg6.slots t 0)
abbrev ms6_1 (t : Fin cfg6.N) : Memref sig .tc .vmem S128x128 .f32 := win6_1.stage (cfg6.slots t 1)
abbrev ms6_2 (t : Fin cfg6.N) : Memref sig .tc .vmem S1x1024x128 .f32 := win6_2.stage (cfg6.slots t 2)
abbrev scM6_0 : Memref sig .tc .vmem S1024x128 .f32 := Memref.whole cc6_scratch0

/-- The launch's invariant with the scratch held as `P`. -/
private def Inv (c : Dev nD) (P : sProp 𝕄) : sProp 𝕄 :=
  iprop(iprop(P ∗ Pipeline.scopedRestBut (Ix := Unit) (Name := ℕ) (U := UR sig nD τ) (Lvl := ℕ) (Val := Elt F) spec6 c [cc6_scratch0]) ∗ (∃ r, prngReg c r))

theorem PhiA6_eq (c : Dev nD) : (Pipeline.ΦA spec6 c : sProp 𝕄) = Inv c iprop(∃ d, owns (c : Thread nD τ) scM6_0 fullShare d) := by
  unfold Pipeline.ΦA Inv; rw [scopedRest6_split]; simp only [scM6_0, owns_whole]; try rfl

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Reading every index of a whole memref gives back what it holds. -/
private theorem readAt_whole {sp : Space} {S : Shape} {e : EltTy} (m : Memref sig .tc sp S e) (hm : m.IsWhole)
    {off : Fin S.rank → Nat} (h : off = fun _ => 0) (inb : ∀ a, off a + S.size a ≤ S.size a) (x : S.Idx → Elt F e) :
    m.view.readAt (Elt F) (Rect.unit off S.size inb).toLoadRect (hm.unread x) = x := by
  have e := View.readAt_eq_ld (Val := Elt F) m.view (hm.unread x) (Rect.unit off S.size inb)
  rw [hm.read_unread, View.ld_unit_zero h] at e
  exact e

/-- The last store covers every index, so nothing older shows. -/
private theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole memref owned at `x` is its elements held at the contents that read `x`. -/
private theorem owns_unread {sp : Space} {S : Shape} {e : EltTy} (c : Dev nD) (m : Memref sig .tc sp S e) (hm : m.IsWhole) (x : S.Idx → Elt F e) :
    (owns (c : Thread nD τ) m fullShare x : sProp 𝕄) = (m.view.loc (c : Thread nD τ) ↦[m.view.set]{fullShare} hm.unread x) := by
  rw [owns_eq_rep, hm.eq_unread (View.read_rep _ _)]

section
variable (c : Dev nD) (i : grid6.Coords) (arg2 : Memref sig .tc .vmem S1x1024x128 .bf16) (harg2 : arg2.IsWhole) (arg3 : Memref sig .tc .vmem S128x128 .f32) (harg3 : arg3.IsWhole) (arg4 : Memref sig .tc .vmem S1x1024x128 .f32) (harg4 : arg4.IsWhole) (arg5 : Memref sig .tc .vmem S1024x128 .f32) (harg5 : arg5.IsWhole)
  (x0 : Vec F S1x1024x128 .bf16) (x1 : Vec F S128x128 .f32) (x2 : Vec F S1x1024x128 .f32) (xs : Vec F S1024x128 .f32)

set_option maxHeartbeats 1000000 in
/-- One step of the reduction: the product is added to the sum (zero first where `j = 0`); where `j = 390` the reshaped sum is also the output. -/
private theorem kernelRun (E : Set ℕ) (K : PUnit → sProp 𝕄) (h : cond6_0 i → ¬cond6_1 i) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if cond6_1 i then k6_pay3 (k6_pay2 x0 x1 xs) else x2)
            ∗ owns (c : Thread nD τ) arg5 fullShare (k6_pay2 x0 x1 (if cond6_0 i then k6_pay1 else xs))) -∗ K ⟨⟩))
      ⊢ wp frame (wpE (defs₀ (F := F)) Variants.none c none) E (cc6_kernel_c2a_reduce i arg2 harg2 arg3 harg3 arg4 harg4 arg5 harg5) K := by
  simp only [cc6_kernel_c2a_reduce_eq_skeleton]; unfold cc6_kernel_c2a_reduce_skel
  rw [owns_unread c arg2 harg2, owns_unread c arg3 harg3]; unfold owns
  by_cases hc0 : cond6_0 i <;> by_cases hc1 : cond6_1 i
  · exact absurd hc1 (h hc0)
  all_goals
    first | rw [if_pos hc0] | rw [if_neg hc0]
    first | rw [if_pos hc1] | rw [if_neg hc1]
    iintro ⟨H0, H1, ⟨%f2, %hf2, H2⟩, ⟨%fs, %hfs, HS⟩, Hk⟩
    obtain rfl := harg4.eq_unread hf2; obtain rfl := harg5.eq_unread hfs
    sl_exec (disch := first | exact hc0 | exact hc1)
    sl_step
    iapply Hk
    iframe H0 H1
    isplitl [H2]
    · iexists _; isplitr
      swap; · iexact H2
      ipureintro
      first
      | (sl_unfold_run_names
         rw [read_writes_whole _ _ zeros3, View.readCov_unit_zero _ zeros2, readAt_whole arg2 harg2 zeros3, readAt_whole arg3 harg3 zeros2, readAt_whole arg5 harg5 zeros2])
      | exact harg4.read_unread _
    iexists _; isplitr
    swap; · iexact HS
    ipureintro
    try sl_unfold_run_names
    rw [read_writes_whole _ _ zeros2, readAt_whole arg2 harg2 zeros3, readAt_whole arg3 harg3 zeros2]
    first | rw [View.readCov_unit_zero _ zeros2] | rw [readAt_whole arg5 harg5 zeros2]

end
variable (V : (c : Dev nD) → (b : Ref sig .tc) → Buf (Elt F) ((c : Thread nD τ).loc b))

/-- The block of array `w` that point `t` works on. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The running sum after point `n`; it restarts from zero where `j = 0`. -/
def acc6 (c : Dev nD) : (n : ℕ) → n < cfg6.N → Vec F S1024x128 .f32
  | 0, hn => k6_pay2 (iblk6 V c 0 ⟨0, hn⟩) (iblk6 V c 1 ⟨0, hn⟩) k6_pay1
  | n + 1, hn => k6_pay2 (iblk6 V c 0 ⟨n + 1, hn⟩) (iblk6 V c 1 ⟨n + 1, hn⟩)
      (if (cfg6.grid.coords ⟨n + 1, hn⟩ 1).val = 0 then k6_pay1 else acc6 c n (Nat.lt_of_succ_lt hn))

theorem acc6_zero_j (c : Dev nD) (t : Fin cfg6.N) (h : (cfg6.grid.coords t 1).val = 0) :
    acc6 V c t.val t.isLt = k6_pay2 (iblk6 V c 0 t) (iblk6 V c 1 t) k6_pay1 := by
  obtain ⟨n, hn⟩ := t
  cases n with
  | zero => rfl
  | succ n => exact congrArg (k6_pay2 (iblk6 V c 0 ⟨n + 1, hn⟩) (iblk6 V c 1 ⟨n + 1, hn⟩)) (if_pos h)

theorem acc6_succ_j (c : Dev nD) (t : Fin cfg6.N) (h : (cfg6.grid.coords t 1).val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd (first6_j ⟨0, hn⟩ rfl) h
  | succ n => exact congrArg (k6_pay2 (iblk6 V c 0 ⟨n + 1, hn⟩) (iblk6 V c 1 ⟨n + 1, hn⟩)) (if_neg h)

/-- Before point `n` the scratch holds the running sum so far; before the first point, anything. -/
def PhiS6 (c : Dev nD) : (n : ℕ) → n ≤ cfg6.N → sProp 𝕄
  | 0, _ => Pipeline.ΦA spec6 c
  | n + 1, hn => Inv c (owns (c : Thread nD τ) scM6_0 fullShare (acc6 V c n hn))

theorem PhiS6_pos (c : Dev nD) (n : ℕ) (h : n ≤ cfg6.N) (hz : n ≠ 0) :
    PhiS6 V c n h = Inv c (owns (c : Thread nD τ) scM6_0 fullShare (acc6 V c (n - 1) (by omega))) := by
  cases n with
  | zero => exact absurd rfl hz
  | succ n => rfl

theorem PhiS6_weaken (c : Dev nD) (n : ℕ) (h : n ≤ cfg6.N) : PhiS6 V c n h ⊢ Pipeline.ΦA spec6 c := by
  cases n with
  | zero => exact Idealize.SL.BI.Entails.refl _
  | succ n =>
    rw [PhiA6_eq]; unfold PhiS6 Inv
    iintro ⟨⟨HS, HR⟩, Hg⟩
    iframe HR Hg
    iexists _; iexact HS

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (acc6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = k6_pay3 (acc6 V c t.val t.isLt) := rfl

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

set_option maxHeartbeats 4800000 in
/-- By cases on `j`: the first, the last or an inner point of a reduction. -/
theorem sound_body6 (c : Dev nD) (t : Fin cfg6.N) :
    iprop(PhiS6 V c t.val (Nat.le_of_lt t.isLt) ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d)))
    ⊢ wp frame (wpE (defs₀ (F := F)) Variants.none c none) Set.univ (bodyAt6 t) (fun _ =>
      iprop(Inv c (owns (c : Thread nD τ) scM6_0 fullShare (acc6 V c t.val t.isLt)) ∗ (dat6 V c).owesAt () t.castSucc
        ∗ owns (c : Thread nD τ) (ms6_0 t) fullShare (iblk6 V c 0 t) ∗ owns (c : Thread nD τ) (ms6_1 t) fullShare (iblk6 V c 1 t) ∗ (dat6 V c).leavesExact 2 t)) := by
  unfold bodyAt6
  simp only [before6_0, before6_1]
  by_cases h0 : (cfg6.grid.coords t 1).val = 0
  · have hc0 := (hcond6_0 t).mpr h0
    have hc1 : ¬cond6_1 (grid6.coords t) := fun h => by have := (hcond6_1 t).mp h; omega
    rw [Dat.leavesExact_idle (dat6 V c) 2 t (idleAt6_2 t hc1) (noFlush6_2 t hc1), acc6_zero_j V c t h0]
    refine BIBase.Entails.trans (Laws.sep_mono_left (PhiS6_weaken V c _ _)) ?_
    rw [PhiA6_eq]; unfold Inv
    iintro ⟨⟨⟨⟨%ds, HS⟩, HR⟩, Hg⟩, Ho, ⟨%d0, H0⟩, ⟨%d1, H1⟩, ⟨%d2, H2⟩⟩
    iapply (kernelRun c (grid6.coords t) _ _ _ _ _ _ _ _ (iblk6 V c 0 t) (iblk6 V c 1 t) ((dat6 V c).before 2 t d2) ds Set.univ _ fun _ => hc1)
    rw [if_pos hc0, if_neg hc1]
    iframe H0 H1 H2 HS
    iintro ⟨H0, H1, H2, HS⟩
    iframe
    iexists _; iexact H2
  · have hc0 : ¬cond6_0 (grid6.coords t) := fun h => h0 ((hcond6_0 t).mp h)
    rw [PhiS6_pos V c _ _ fun h => h0 (first6_j t h), acc6_succ_j V c t h0]; unfold Inv
    by_cases h1 : (cfg6.grid.coords t 1).val = 390
    · have hc1 := (hcond6_1 t).mpr h1
      rw [show (dat6 V c).leavesExact 2 t = owns (c : Thread nD τ) (ms6_2 t) fullShare ((dat6 V c).after 2 t) from by
        unfold Dat.leavesExact; rw [liveAt6_2 t hc1], after6_2, acc6_succ_j V c t h0]
      iintro ⟨⟨⟨HS, HR⟩, Hg⟩, Ho, ⟨%d0, H0⟩, ⟨%d1, H1⟩, ⟨%d2, H2⟩⟩
      iapply (kernelRun c (grid6.coords t) _ _ _ _ _ _ _ _ (iblk6 V c 0 t) (iblk6 V c 1 t) ((dat6 V c).before 2 t d2) _ Set.univ _ fun h => absurd h hc0)
      rw [if_neg hc0, if_pos hc1]
      iframe H0 H1 H2 HS
      iintro ⟨H0, H1, H2, HS⟩
      iframe
    · have hc1 : ¬cond6_1 (grid6.coords t) := fun h => h1 ((hcond6_1 t).mp h)
      rw [Dat.leavesExact_idle (dat6 V c) 2 t (idleAt6_2 t hc1) (noFlush6_2 t hc1)]
      iintro ⟨⟨⟨HS, HR⟩, Hg⟩, Ho, ⟨%d0, H0⟩, ⟨%d1, H1⟩, ⟨%d2, H2⟩⟩
      iapply (kernelRun c (grid6.coords t) _ _ _ _ _ _ _ _ (iblk6 V c 0 t) (iblk6 V c 1 t) ((dat6 V c).before 2 t d2) _ Set.univ _ fun _ => hc1)
      rw [if_neg hc0, if_neg hc1]
      iframe H0 H1 H2 HS
      iintro ⟨H0, H1, H2, HS⟩
      iframe
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Idealize.SL.BI.Entails.refl _

theorem hout6 (c : Dev nD) : (dat6 V c).Φ (Fin.last cfg6.N) ⊢ Pipeline.ΦA spec6 c := PhiS6_weaken V c _ (Nat.le_refl _)

end Cert.KernelIdeal.Hand
end
-- ==== Proof.KI.Final7.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

local notation "rA" => Rect.unit (s := S2x1024x128) ![0, 0, 0] S1x1024x128.size inb_S2x1024x128_S1x1024x128_0_0_0
local notation "rB" => Rect.unit (s := S2x1024x128) ![1, 0, 0] S1x1024x128.size inb_S2x1024x128_S1x1024x128_1_0_0
local notation "rM" => Rect.unit (s := S1024x128) ![0, 0] S1024x128.size inb_S1024x128_S1024x128_0_0
local notation "rS" => Rect.unit (s := S128x128) ![0, 0] S128x128.size inb_S128x128_S128x128_0_0
local notation "rL" => Rect.unit (s := S1x128) ![0, 0] S1x128.size inb_S1x128_S1x128_0_0

def out7_5 (x0 : Vec F S2x1024x128 .f32) (x1 : Vec F S1024x128 .f32) (x2 : Vec F S128x128 .f32) (x3 : Vec F S128x128 .f32)
    (x4 : Vec F S1x128 .f32) : Vec F S1024x128 .f32 :=
  View.canon [⟨rM, k7_pay1 (View.ld x0 rA) (View.ld x0 rB) (View.ld x1 rM) (View.ld x2 rS) (View.ld x3 rS) (View.ld x4 rL)⟩]

theorem cover7_5 (p0 : Vec F S1024x128 .f32) (y : S1024x128.Idx) :
    ∃ pc ∈ ([⟨rM, p0⟩] : List (View.Piece (Elt F) S1024x128 .f32)), y ∈ pc.1.set :=
  View.cover_of_tiled [⟨rM, p0⟩] S1024x128.size (by rfl) y

-- The body's one store covers the output whole, so what it leaves there is `out7_5` of what the five inputs hold.
theorem sound_kernel7 (E : Set ℕ) (i : cfg7.grid.Coords)
    (arg1 : Memref sig .tc .vmem S2x1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1024x128 .f32) (harg6 : arg6.IsWhole)
    (x0 : Vec F S2x1024x128 .f32) (x1 : Vec F S1024x128 .f32) (x2 : Vec F S128x128 .f32) (x3 : Vec F S128x128 .f32) (x4 : Vec F S1x128 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out7_5 x0 x1 x2 x3 x4)) -∗ K ⟨⟩))
      ⊢ wp frame (wpE (defs₀ (F := F)) Variants.none c none) E
          (cc7_kernel_c2a_finalize i arg1 harg1 arg2 harg2 arg3 harg3 arg4 harg4 arg5 harg5 arg6 harg6) K := by
  simp only [cc7_kernel_c2a_finalize_eq_skeleton]; unfold cc7_kernel_c2a_finalize_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (w : Fin cfg7.W) : (dat7 V c).A w = V c (Pipeline.arrRef spec7 w) := rfl

variable (t : Fin cfg7.N)

theorem after7_5 :
    (dat7 V c).after 5 t = out7_5 (iblk7 V c 0 t) (iblk7 V c 1 t) (iblk7 V c 2 t) (iblk7 V c 3 t) (iblk7 V c 4 t) := by dsimp only [dat7]

theorem before7_0 (d) : (dat7 V c).before 0 t d = iblk7 V c 0 t :=
  (Dat.before_in_eq_fetched _ 0 rfl (fun _ => rfl) (fun _ _ _ => rfl) (fun _ => rfl) t d).trans rfl
theorem before7_1 (d) : (dat7 V c).before 1 t d = iblk7 V c 1 t :=
  (Dat.before_in_eq_fetched _ 1 rfl (fun _ => rfl) (fun _ _ _ => rfl) (fun _ => rfl) t d).trans rfl
theorem before7_2 (d) : (dat7 V c).before 2 t d = iblk7 V c 2 t :=
  (Dat.before_in_eq_fetched _ 2 rfl (fun _ => rfl) (fun _ _ _ => rfl) (fun _ => rfl) t d).trans rfl
theorem before7_3 (d) : (dat7 V c).before 3 t d = iblk7 V c 3 t :=
  (Dat.before_in_eq_fetched _ 3 rfl (fun _ => rfl) (fun _ _ _ => rfl) (fun _ => rfl) t d).trans rfl
theorem before7_4 (d) : (dat7 V c).before 4 t d = iblk7 V c 4 t :=
  (Dat.before_in_eq_fetched _ 4 rfl (fun _ => rfl) (fun _ _ _ => rfl) (fun _ => rfl) t d).trans rfl

def bodyPre7 : sProp 𝕄 :=
  iprop((dat7 V c).Φ t.castSucc ∗ (dat7 V c).owesAt () t.castSucc
    ∗ (∃ d, owns c (st7_0 t) fullShare ((dat7 V c).before 0 t d))
    ∗ (∃ d, owns c (st7_1 t) fullShare ((dat7 V c).before 1 t d))
    ∗ (∃ d, owns c (st7_2 t) fullShare ((dat7 V c).before 2 t d))
    ∗ (∃ d, owns c (st7_3 t) fullShare ((dat7 V c).before 3 t d))
    ∗ (∃ d, owns c (st7_4 t) fullShare ((dat7 V c).before 4 t d))
    ∗ (∃ d, owns c (st7_5 t) fullShare ((dat7 V c).before 5 t d)))

def bodyPost7 : sProp 𝕄 :=
  iprop((dat7 V c).Φ t.succ ∗ (dat7 V c).owesAt () t.succ
    ∗ owns c (st7_0 t) fullShare ((dat7 V c).after 0 t)
    ∗ owns c (st7_1 t) fullShare ((dat7 V c).after 1 t)
    ∗ owns c (st7_2 t) fullShare ((dat7 V c).after 2 t)
    ∗ owns c (st7_3 t) fullShare ((dat7 V c).after 3 t)
    ∗ owns c (st7_4 t) fullShare ((dat7 V c).after 4 t)
    ∗ owns c (st7_5 t) fullShare ((dat7 V c).after 5 t))

theorem sound_body7 :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  iintro ⟨HΦ, Ho, ⟨%d0, H0⟩, ⟨%d1, H1⟩, ⟨%d2, H2⟩, ⟨%d3, H3⟩, ⟨%d4, H4⟩, ⟨%d5, H5⟩⟩
  dsimp only [dat7]
  iapply sound_kernel7 c Set.univ
  iframe H0 H1 H2 H3 H4
  isplitl [H5]; · iexists _; iexact H5
  iintro ⟨H0, H1, H2, H3, H4, H5⟩
  iframe
  iexact Ho

theorem body_obligation7 : BodyObligation (dat7 (F := F) V c) (defs₀ (F := F)) Variants.none () Set.univ := fun t => by
  rw [bigSep_W7, bigSep_W7]
  exact sound_body7 V c t

theorem hin7 : Pipeline.ΦA spec7 c ⊢ (dat7 V c).Φ 0 := Entails.refl _

theorem hout7 : (dat7 V c).Φ (Fin.last cfg7.N) ⊢ Pipeline.ΦA spec7 c := Entails.refl _

end Cert.KernelIdeal.Hand
-- ==== Proof.KI.A2c8.lean ====
import proofs.«410443_j44109314130257_2_alg».proof.Proof.Gen.KernelIdeal.Launch
import proofs.«410443_j44109314130257_2_alg».proof.Proof.Gen.KernelIdeal.Skeleton
import proofs.«410443_j44109314130257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

local notation "rA" => (Rect.unit (s := S1x128x1024) ![0, 0, 0] S1x128x1024.size inb_S1x128x1024_S1x128x1024_0_0_0)
local notation "rB" => (Rect.unit (s := S1024x128) ![0, 0] S1024x128.size inb_S1024x128_S1024x128_0_0)
local notation "rC" => (Rect.unit (s := S128x128) ![0, 0] S128x128.size inb_S128x128_S128x128_0_0)
local notation "rD" => (Rect.unit (s := S1x128) ![0, 0] S1x128.size inb_S1x128_S1x128_0_0)

def out8_6 (i : grid8.Coords) (x0 : Vec F S1x128x1024 .bf16) (x1 : Vec F S128x128 .f32) (x2 : Vec F S1024x128 .f32)
    (x3 : Vec F S128x128 .f32) (x4 : Vec F S128x128 .f32) (x5 : Vec F S1x128 .f32) : Vec F S128x128 .f32 :=
  View.canon [⟨rC, k8_pay1 i (View.ld x0 rA) (View.ld x2 rB) (View.ld x1 rC) (View.ld x3 rC) (View.ld x4 rC) (View.ld x5 rD)⟩]

theorem cover8_6 (p0 : Vec F S128x128 .f32) (y : S128x128.Idx) :
    ∃ pc ∈ ([⟨rC, p0⟩] : List (View.Piece (Elt F) S128x128 .f32)), y ∈ pc.1.set :=
  View.cover_of_tiled [⟨rC, p0⟩] S128x128.size (by rfl) y

-- The body's one store covers the output whole, so what it leaves there is `out8_6` of what the six inputs hold.
theorem sound_kernel8 (E : Set ℕ) (i : grid8.Coords)
    (arg1 : Memref sig .tc .vmem S1x128x1024 .bf16) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole)
    (x0 : Vec F S1x128x1024 .bf16) (x1 : Vec F S128x128 .f32) (x2 : Vec F S1024x128 .f32) (x3 : Vec F S128x128 .f32)
    (x4 : Vec F S128x128 .f32) (x5 : Vec F S1x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare (out8_6 i x0 x1 x2 x3 x4 x5)) -∗ K ⟨⟩))
      ⊢ wp frame (wpE (defs₀ (F := F)) Variants.none c none) E
          (cc8_kernel_a2c i arg1 harg1 arg2 harg2 arg3 harg3 arg4 harg4 arg5 harg5 arg6 harg6 arg7 harg7) K := by
  simp only [cc8_kernel_a2c_eq_skeleton]; unfold cc8_kernel_a2c_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

def dat8 : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (cfg8.grid.coords t) (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (w : Fin cfg8.W) : (dat8 V c).A w = V c (Pipeline.arrRef spec8 w) := rfl

variable (t : Fin cfg8.N)

theorem after8_6 :
    (dat8 V c).after 6 t = out8_6 (cfg8.grid.coords t) (iblk8 V c 0 t) (iblk8 V c 1 t) (iblk8 V c 2 t) (iblk8 V c 3 t) (iblk8 V c 4 t) (iblk8 V c 5 t) := by dsimp only [dat8]

theorem before8_0 (d) : (dat8 V c).before 0 t d = iblk8 V c 0 t :=
  (Dat.before_in_eq_fetched _ 0 rfl (fun _ => rfl) (fun _ _ _ => rfl) (fun _ => rfl) t d).trans rfl
theorem before8_1 (d) : (dat8 V c).before 1 t d = iblk8 V c 1 t :=
  (Dat.before_in_eq_fetched _ 1 rfl (fun _ => rfl) (fun _ _ _ => rfl) (fun _ => rfl) t d).trans rfl
theorem before8_2 (d) : (dat8 V c).before 2 t d = iblk8 V c 2 t :=
  (Dat.before_in_eq_fetched _ 2 rfl (fun _ => rfl) (fun _ _ _ => rfl) (fun _ => rfl) t d).trans rfl
theorem before8_3 (d) : (dat8 V c).before 3 t d = iblk8 V c 3 t :=
  (Dat.before_in_eq_fetched _ 3 rfl (fun _ => rfl) (fun _ _ _ => rfl) (fun _ => rfl) t d).trans rfl
theorem before8_4 (d) : (dat8 V c).before 4 t d = iblk8 V c 4 t :=
  (Dat.before_in_eq_fetched _ 4 rfl (fun _ => rfl) (fun _ _ _ => rfl) (fun _ => rfl) t d).trans rfl
theorem before8_5 (d) : (dat8 V c).before 5 t d = iblk8 V c 5 t :=
  (Dat.before_in_eq_fetched _ 5 rfl (fun _ => rfl) (fun _ _ _ => rfl) (fun _ => rfl) t d).trans rfl

def bodyPre8 : sProp 𝕄 :=
  iprop((dat8 V c).Φ t.castSucc ∗ (dat8 V c).owesAt () t.castSucc
    ∗ (∃ d, owns c (st8_0 t) fullShare ((dat8 V c).before 0 t d))
    ∗ (∃ d, owns c (st8_1 t) fullShare ((dat8 V c).before 1 t d))
    ∗ (∃ d, owns c (st8_2 t) fullShare ((dat8 V c).before 2 t d))
    ∗ (∃ d, owns c (st8_3 t) fullShare ((dat8 V c).before 3 t d))
    ∗ (∃ d, owns c (st8_4 t) fullShare ((dat8 V c).before 4 t d))
    ∗ (∃ d, owns c (st8_5 t) fullShare ((dat8 V c).before 5 t d))
    ∗ (∃ d, owns c (st8_6 t) fullShare ((dat8 V c).before 6 t d)))

def bodyPost8 : sProp 𝕄 :=
  iprop((dat8 V c).Φ t.succ ∗ (dat8 V c).owesAt () t.succ
    ∗ owns c (st8_0 t) fullShare ((dat8 V c).after 0 t)
    ∗ owns c (st8_1 t) fullShare ((dat8 V c).after 1 t)
    ∗ owns c (st8_2 t) fullShare ((dat8 V c).after 2 t)
    ∗ owns c (st8_3 t) fullShare ((dat8 V c).after 3 t)
    ∗ owns c (st8_4 t) fullShare ((dat8 V c).after 4 t)
    ∗ owns c (st8_5 t) fullShare ((dat8 V c).after 5 t)
    ∗ owns c (st8_6 t) fullShare ((dat8 V c).after 6 t))

theorem sound_body8 :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  iintro ⟨HΦ, Ho, ⟨%d0, H0⟩, ⟨%d1, H1⟩, ⟨%d2, H2⟩, ⟨%d3, H3⟩, ⟨%d4, H4⟩, ⟨%d5, H5⟩, ⟨%d6, H6⟩⟩
  dsimp only [dat8]
  iapply sound_kernel8 c Set.univ
  iframe H0 H1 H2 H3 H4 H5
  isplitl [H6]; · iexists _; iexact H6
  iintro ⟨H0, H1, H2, H3, H4, H5, H6⟩
  iframe
  iexact Ho

theorem body_obligation8 : BodyObligation (dat8 (F := F) V c) (defs₀ (F := F)) Variants.none () Set.univ := fun t => by
  rw [bigSep_W8, bigSep_W8]
  exact sound_body8 V c t

theorem hin8 : Pipeline.ΦA spec8 c ⊢ (dat8 V c).Φ 0 := Entails.refl _

theorem hout8 : (dat8 V c).Φ (Fin.last cfg8.N) ⊢ Pipeline.ΦA spec8 c := Entails.refl _

end Cert.KernelIdeal.Hand
-- ==== Proof.KI.Common.lean ====
import proofs.«410443_j44109314130257_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

abbrev toV (W : Dev nD → Valuation τ sig (Elt F)) : (c : Dev nD) → (b : Ref sig .tc) → Buf (Elt F) ((c : Thread nD τ).loc b) :=
  fun c b => W c b

end Cert.KernelIdeal.Hand

end
-- ==== Proof.KI.OutGen.lean ====
import proofs.«410443_j44109314130257_2_alg».proof.Proof.KI.Common

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]

/-- Writing back at `a` the entry an update at `a` already has there changes nothing. -/
theorem update_update_self {α : Sort*} [DecidableEq α] {β : α → Sort*} {f g : ∀ a, β a} {a : α} {v : β a} (h : f = g) :
    Function.update f a (Function.update g a v a) = Function.update g a v := by
  rw [h, Function.update_self]

variable {cfg : Pipeline.Cfg sig Λ₀} {c : Dev nD} (dat : Dat τ (Elt F) Unit ℕ (UR sig nD τ) ℕ cfg c)
  (W : Valuation τ sig (Elt F)) (o : Fin cfg.W)

/-- The contents `W` with the array of window `o` replaced by its final contents. -/
abbrev exitVal : Valuation τ sig (Elt F) :=
  Function.update W (Proc.devRef .tc (Pipeline.arrRef cfg.spec o) : DevRef τ sig) (dat.arrAt o cfg.N)

/-- Distinct windows have distinct arrays and every window but `o` is an input, so each array ends as `exitVal` has it. -/
theorem arrAt_exitVal (hinj : Function.Injective (Pipeline.arrRef cfg.spec))
    (hin : ∀ w, w ≠ o → (cfg.win w).isOut = false) (hA : ∀ w, dat.A w = W (Pipeline.arrRef cfg.spec w))
    (w : Fin cfg.W) : dat.arrAt w cfg.N = exitVal dat W o (Pipeline.arrRef cfg.spec w) := by
  by_cases h : w = o
  · subst h; exact Eq.symm (Function.update_self ..)
  · exact (dat.arrAt_in w (hin w h) _).trans <| (hA w).trans <| Eq.symm <|
      Function.update_of_ne (fun e => h (hinj (Proc.devRef_injective _ e))) ..

/-- A buffer that is no window's array is not the one replaced. -/
theorem exitVal_rest (b : Ref sig .tc) (hb : b ∉ Finset.univ.image (Pipeline.arrRef cfg.spec)) :
    exitVal dat W o b = W b :=
  Function.update_of_ne (fun e => hb (Finset.mem_image.mpr ⟨o, Finset.mem_univ _, (Proc.devRef_injective _ e).symm⟩)) ..

end Cert.KernelIdeal.Hand

end
-- ==== Proof.KI.Chain.lean ====
import proofs.«410443_j44109314130257_2_alg».proof.Proof.KI.Reduce0
import proofs.«410443_j44109314130257_2_alg».proof.Proof.KI.Final1
import proofs.«410443_j44109314130257_2_alg».proof.Proof.KI.A2c2
import proofs.«410443_j44109314130257_2_alg».proof.Proof.KI.Reduce3
import proofs.«410443_j44109314130257_2_alg».proof.Proof.KI.Final4
import proofs.«410443_j44109314130257_2_alg».proof.Proof.KI.A2c5
import proofs.«410443_j44109314130257_2_alg».proof.Proof.KI.Reduce6
import proofs.«410443_j44109314130257_2_alg».proof.Proof.KI.Final7
import proofs.«410443_j44109314130257_2_alg».proof.Proof.KI.A2c8
import proofs.«410443_j44109314130257_2_alg».proof.Proof.KI.OutGen

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

section
variable (W : Dev nD → Valuation τ sig (Elt F))

abbrev outWin0 : Fin cfg0.W := 2
abbrev outRef0 : Ref sig .tc := Pipeline.arrRef spec0 outWin0
def o0 (c : Dev nD) : Buf (Elt F) ((c : Thread nD τ).loc outRef0) := (dat0 (toV W) c).arrAt outWin0 cfg0.N
abbrev WoutOf0 : Dev nD → Valuation τ sig (Elt F) := fun c => Function.update (W c) (Proc.devRef .tc outRef0 : DevRef τ sig) (o0 W c)
theorem hF0 (c : Dev nD) (w : Fin cfg0.W) : (dat0 (toV W) c).arrAt w cfg0.N = toV (WoutOf0 W) c (Pipeline.arrRef spec0 w) :=
  arrAt_exitVal (dat0 (toV W) c) (W c) outWin0 launch0.win.arr_inj (by decide) (A_eq0 _ c) w
theorem hrest0 (c : Dev nD) : ∀ b, b ∉ Finset.univ.image (Pipeline.arrRef spec0) → toV (WoutOf0 W) c b = toV W c b :=
  exitVal_rest (dat0 (toV W) c) (W c) outWin0

abbrev outWin1 : Fin cfg1.W := 5
abbrev outRef1 : Ref sig .tc := Pipeline.arrRef spec1 outWin1
def o1 (c : Dev nD) : Buf (Elt F) ((c : Thread nD τ).loc outRef1) := (dat1 (toV W) c).arrAt outWin1 cfg1.N
abbrev WoutOf1 : Dev nD → Valuation τ sig (Elt F) := fun c => Function.update (W c) (Proc.devRef .tc outRef1 : DevRef τ sig) (o1 W c)
theorem hF1 (c : Dev nD) (w : Fin cfg1.W) : (dat1 (toV W) c).arrAt w cfg1.N = toV (WoutOf1 W) c (Pipeline.arrRef spec1 w) :=
  arrAt_exitVal (dat1 (toV W) c) (W c) outWin1 launch1.win.arr_inj (by decide) (A_eq1 _ c) w
theorem hrest1 (c : Dev nD) : ∀ b, b ∉ Finset.univ.image (Pipeline.arrRef spec1) → toV (WoutOf1 W) c b = toV W c b :=
  exitVal_rest (dat1 (toV W) c) (W c) outWin1

abbrev outWin2 : Fin cfg2.W := 6
abbrev outRef2 : Ref sig .tc := Pipeline.arrRef spec2 outWin2
def o2 (c : Dev nD) : Buf (Elt F) ((c : Thread nD τ).loc outRef2) := (dat2 (toV W) c).arrAt outWin2 cfg2.N
abbrev WoutOf2 : Dev nD → Valuation τ sig (Elt F) := fun c => Function.update (W c) (Proc.devRef .tc outRef2 : DevRef τ sig) (o2 W c)
theorem hF2 (c : Dev nD) (w : Fin cfg2.W) : (dat2 (toV W) c).arrAt w cfg2.N = toV (WoutOf2 W) c (Pipeline.arrRef spec2 w) :=
  arrAt_exitVal (dat2 (toV W) c) (W c) outWin2 launch2.win.arr_inj (by decide) (A_eq2 _ c) w
theorem hrest2 (c : Dev nD) : ∀ b, b ∉ Finset.univ.image (Pipeline.arrRef spec2) → toV (WoutOf2 W) c b = toV W c b :=
  exitVal_rest (dat2 (toV W) c) (W c) outWin2

abbrev outWin3 : Fin cfg3.W := 2
abbrev outRef3 : Ref sig .tc := Pipeline.arrRef spec3 outWin3
def o3 (c : Dev nD) : Buf (Elt F) ((c : Thread nD τ).loc outRef3) := (dat3 (toV W) c).arrAt outWin3 cfg3.N
abbrev WoutOf3 : Dev nD → Valuation τ sig (Elt F) := fun c => Function.update (W c) (Proc.devRef .tc outRef3 : DevRef τ sig) (o3 W c)
theorem hF3 (c : Dev nD) (w : Fin cfg3.W) : (dat3 (toV W) c).arrAt w cfg3.N = toV (WoutOf3 W) c (Pipeline.arrRef spec3 w) :=
  arrAt_exitVal (dat3 (toV W) c) (W c) outWin3 launch3.win.arr_inj (by decide) (A_eq3 _ c) w
theorem hrest3 (c : Dev nD) : ∀ b, b ∉ Finset.univ.image (Pipeline.arrRef spec3) → toV (WoutOf3 W) c b = toV W c b :=
  exitVal_rest (dat3 (toV W) c) (W c) outWin3

abbrev outWin4 : Fin cfg4.W := 5
abbrev outRef4 : Ref sig .tc := Pipeline.arrRef spec4 outWin4
def o4 (c : Dev nD) : Buf (Elt F) ((c : Thread nD τ).loc outRef4) := (dat4 (toV W) c).arrAt outWin4 cfg4.N
abbrev WoutOf4 : Dev nD → Valuation τ sig (Elt F) := fun c => Function.update (W c) (Proc.devRef .tc outRef4 : DevRef τ sig) (o4 W c)
theorem hF4 (c : Dev nD) (w : Fin cfg4.W) : (dat4 (toV W) c).arrAt w cfg4.N = toV (WoutOf4 W) c (Pipeline.arrRef spec4 w) :=
  arrAt_exitVal (dat4 (toV W) c) (W c) outWin4 launch4.win.arr_inj (by decide) (A_eq4 _ c) w
theorem hrest4 (c : Dev nD) : ∀ b, b ∉ Finset.univ.image (Pipeline.arrRef spec4) → toV (WoutOf4 W) c b = toV W c b :=
  exitVal_rest (dat4 (toV W) c) (W c) outWin4

abbrev outWin5 : Fin cfg5.W := 6
abbrev outRef5 : Ref sig .tc := Pipeline.arrRef spec5 outWin5
def o5 (c : Dev nD) : Buf (Elt F) ((c : Thread nD τ).loc outRef5) := (dat5 (toV W) c).arrAt outWin5 cfg5.N
abbrev WoutOf5 : Dev nD → Valuation τ sig (Elt F) := fun c => Function.update (W c) (Proc.devRef .tc outRef5 : DevRef τ sig) (o5 W c)
theorem hF5 (c : Dev nD) (w : Fin cfg5.W) : (dat5 (toV W) c).arrAt w cfg5.N = toV (WoutOf5 W) c (Pipeline.arrRef spec5 w) :=
  arrAt_exitVal (dat5 (toV W) c) (W c) outWin5 launch5.win.arr_inj (by decide) (A_eq5 _ c) w
theorem hrest5 (c : Dev nD) : ∀ b, b ∉ Finset.univ.image (Pipeline.arrRef spec5) → toV (WoutOf5 W) c b = toV W c b :=
  exitVal_rest (dat5 (toV W) c) (W c) outWin5

abbrev outWin6 : Fin cfg6.W := 2
abbrev outRef6 : Ref sig .tc := Pipeline.arrRef spec6 outWin6
def o6 (c : Dev nD) : Buf (Elt F) ((c : Thread nD τ).loc outRef6) := (dat6 (toV W) c).arrAt outWin6 cfg6.N
abbrev WoutOf6 : Dev nD → Valuation τ sig (Elt F) := fun c => Function.update (W c) (Proc.devRef .tc outRef6 : DevRef τ sig) (o6 W c)
theorem hF6 (c : Dev nD) (w : Fin cfg6.W) : (dat6 (toV W) c).arrAt w cfg6.N = toV (WoutOf6 W) c (Pipeline.arrRef spec6 w) :=
  arrAt_exitVal (dat6 (toV W) c) (W c) outWin6 launch6.win.arr_inj (by decide) (A_eq6 _ c) w
theorem hrest6 (c : Dev nD) : ∀ b, b ∉ Finset.univ.image (Pipeline.arrRef spec6) → toV (WoutOf6 W) c b = toV W c b :=
  exitVal_rest (dat6 (toV W) c) (W c) outWin6

abbrev outWin7 : Fin cfg7.W := 5
abbrev outRef7 : Ref sig .tc := Pipeline.arrRef spec7 outWin7
def o7 (c : Dev nD) : Buf (Elt F) ((c : Thread nD τ).loc outRef7) := (dat7 (toV W) c).arrAt outWin7 cfg7.N
abbrev WoutOf7 : Dev nD → Valuation τ sig (Elt F) := fun c => Function.update (W c) (Proc.devRef .tc outRef7 : DevRef τ sig) (o7 W c)
theorem hF7 (c : Dev nD) (w : Fin cfg7.W) : (dat7 (toV W) c).arrAt w cfg7.N = toV (WoutOf7 W) c (Pipeline.arrRef spec7 w) :=
  arrAt_exitVal (dat7 (toV W) c) (W c) outWin7 launch7.win.arr_inj (by decide) (A_eq7 _ c) w
theorem hrest7 (c : Dev nD) : ∀ b, b ∉ Finset.univ.image (Pipeline.arrRef spec7) → toV (WoutOf7 W) c b = toV W c b :=
  exitVal_rest (dat7 (toV W) c) (W c) outWin7

abbrev outWin8 : Fin cfg8.W := 6
abbrev outRef8 : Ref sig .tc := Pipeline.arrRef spec8 outWin8
def o8 (c : Dev nD) : Buf (Elt F) ((c : Thread nD τ).loc outRef8) := (dat8 (toV W) c).arrAt outWin8 cfg8.N
abbrev WoutOf8 : Dev nD → Valuation τ sig (Elt F) := fun c => Function.update (W c) (Proc.devRef .tc outRef8 : DevRef τ sig) (o8 W c)
theorem hF8 (c : Dev nD) (w : Fin cfg8.W) : (dat8 (toV W) c).arrAt w cfg8.N = toV (WoutOf8 W) c (Pipeline.arrRef spec8 w) :=
  arrAt_exitVal (dat8 (toV W) c) (W c) outWin8 launch8.win.arr_inj (by decide) (A_eq8 _ c) w
theorem hrest8 (c : Dev nD) : ∀ b, b ∉ Finset.univ.image (Pipeline.arrRef spec8) → toV (WoutOf8 W) c b = toV W c b :=
  exitVal_rest (dat8 (toV W) c) (W c) outWin8

end

variable (m : (ℓ : Loc nD τ sig) → Buf (Elt F) ℓ)

abbrev Win0 : Dev nD → Valuation τ sig (Elt F) := fun c => V13 m c
abbrev Wout0 := WoutOf0 (Win0 m)
abbrev Win1 := Wout0 m
abbrev Wout1 := WoutOf1 (Win1 m)
abbrev Win2 := Wout1 m
abbrev Wout2 := WoutOf2 (Win2 m)
abbrev Win3 : Dev nD → Valuation τ sig (Elt F) := fun c => StableHlo.after hostOps3 (Wout2 m c)
abbrev Wout3 := WoutOf3 (Win3 m)
abbrev Win4 := Wout3 m
abbrev Wout4 := WoutOf4 (Win4 m)
abbrev Win5 := Wout4 m
abbrev Wout5 := WoutOf5 (Win5 m)
abbrev Win6 : Dev nD → Valuation τ sig (Elt F) := fun c => StableHlo.after hostOps6 (Wout5 m c)
abbrev Wout6 := WoutOf6 (Win6 m)
abbrev Win7 := Wout6 m
abbrev Wout7 := WoutOf7 (Win7 m)
abbrev Win8 := Wout7 m
abbrev Wout8 := WoutOf8 (Win8 m)
abbrev Wend : Dev nD → Valuation τ sig (Elt F) := fun c => StableHlo.after hostOps9 (Wout8 m c)

/-- What each region leaves in its output array: read off the contents after the region. -/
def outs : Outs (F := F) := fun J r c =>
  match J with
  | 14 => Wout0 m c r | 15 => Wout1 m c r | 16 => Wout2 m c r
  | 18 => Wout3 m c r | 19 => Wout4 m c r | 20 => Wout5 m c r
  | 22 => Wout6 m c r | 23 => Wout7 m c r | 24 => Wout8 m c r
  | _ => V13 m c r

theorem V14_eq (c : Dev nD) : V14 m (outs m) c = Wout0 m c := update_update_self rfl
theorem V15_eq (c : Dev nD) : V15 m (outs m) c = Wout1 m c := update_update_self (V14_eq m c)
theorem V16_eq (c : Dev nD) : V16 m (outs m) c = Wout2 m c := update_update_self (V15_eq m c)
theorem V17_eq (c : Dev nD) : V17 m (outs m) c = Win3 m c := congrArg (StableHlo.after hostOps3) (V16_eq m c)
theorem V18_eq (c : Dev nD) : V18 m (outs m) c = Wout3 m c := update_update_self (V17_eq m c)
theorem V19_eq (c : Dev nD) : V19 m (outs m) c = Wout4 m c := update_update_self (V18_eq m c)
theorem V20_eq (c : Dev nD) : V20 m (outs m) c = Wout5 m c := update_update_self (V19_eq m c)
theorem V21_eq (c : Dev nD) : V21 m (outs m) c = Win6 m c := congrArg (StableHlo.after hostOps6) (V20_eq m c)
theorem V22_eq (c : Dev nD) : V22 m (outs m) c = Wout6 m c := update_update_self (V21_eq m c)
theorem V23_eq (c : Dev nD) : V23 m (outs m) c = Wout7 m c := update_update_self (V22_eq m c)
theorem V24_eq (c : Dev nD) : V24 m (outs m) c = Wout8 m c := update_update_self (V23_eq m c)
theorem V25_eq (c : Dev nD) : V25 m (outs m) c = Wend m c := congrArg (StableHlo.after hostOps9) (V24_eq m c)

abbrev pIdx0 : Fin 9 := 0
abbrev pIdx1 : Fin 9 := 1
abbrev pIdx2 : Fin 9 := 2
abbrev pIdx3 : Fin 9 := 3
abbrev pIdx4 : Fin 9 := 4
abbrev pIdx5 : Fin 9 := 5
abbrev pIdx6 : Fin 9 := 6
abbrev pIdx7 : Fin 9 := 7
abbrev pIdx8 : Fin 9 := 8

/-- Every pipeline's proof data, each at the contents its region is entered from. -/
def pdats : (p : Fin 9) → (c : Dev nD) → Dat τ (Elt F) Unit ℕ (UR sig nD τ) ℕ (Pipeline.pin (pcfgs (F := F)) adm p) c
  | ⟨0, _⟩ => fun c => dat0 (toV (Win0 m)) c
  | ⟨1, _⟩ => fun c => dat1 (toV (Win1 m)) c
  | ⟨2, _⟩ => fun c => dat2 (toV (Win2 m)) c
  | ⟨3, _⟩ => fun c => dat3 (toV (Win3 m)) c
  | ⟨4, _⟩ => fun c => dat4 (toV (Win4 m)) c
  | ⟨5, _⟩ => fun c => dat5 (toV (Win5 m)) c
  | ⟨6, _⟩ => fun c => dat6 (toV (Win6 m)) c
  | ⟨7, _⟩ => fun c => dat7 (toV (Win7 m)) c
  | ⟨8, _⟩ => fun c => dat8 (toV (Win8 m)) c

abbrev 𝒱₀ : Variants := Variants.none
abbrev L : GSem nD τ sig → Finset Unit := fun _ => ∅
abbrev lv : GSem nD τ sig → Unit → ℕ := fun _ _ => 0
/-- Beside the buffers every item carries the generator register at some state and nothing owed. -/
abbrev Rr (c : Dev nD) : sProp 𝕄 := iprop((∃ r, prngReg c r) ∗ ∃ W, owes (c : Thread nD τ) (0 : CellTallies nD τ sig Unit) W)

end Cert.KernelIdeal.Hand

end
-- ==== Proof.KI.Seg.lean ====
import proofs.«410443_j44109314130257_2_alg».proof.Proof.KI.Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev pc (p : Fin 9) := Pipeline.pin (pcfgs (F := F)) adm p

-- A region is one segment of the program: its arrays are split out of the core's buffers at the entry contents `Wi` and put back at the exit
-- contents `Wo`, the generator register passes through the region's invariant, and the kernel owes nothing.
set_option backward.isDefEq.respectTransparency.types false in
def regOf (p : Fin 9) (launch : Pipeline.LaunchFacts (nD := nD) (τ := τ) cfgs p) (Wi Wo : Dev nD → Valuation τ sig (Elt F))
    (hbody : ∀ c, Pipeline.BodyObligationLoose (pdats m p c) (defs₀ (F := F)) 𝒱₀ () Set.univ)
    (howed : ∀ c t, (pdats m p c).owed t = 0) (hrec : ∀ c x, x ∈ (pdats m p c).recorded 0)
    (hq : ∀ c w, (pdats m p c).q w = fullShare)
    (hA : ∀ c w, (pdats m p c).A w = toV Wi c (Pipeline.arrRef (pc (F := F) p).spec w))
    (hin : ∀ c, (Pipeline.ΦA (pc (F := F) p).spec c : sProp 𝕄) ⊢ (pdats m p c).Φ 0)
    (hout : ∀ c, (pdats m p c).Φ (Fin.last (pc (F := F) p).N) ⊢ (Pipeline.ΦA (pc (F := F) p).spec c : sProp 𝕄))
    (hF : ∀ c w, (pdats m p c).arrAt w (pc (F := F) p).N = toV Wo c (Pipeline.arrRef (pc (F := F) p).spec w))
    (hrest : ∀ c b, b ∉ Finset.univ.image (Pipeline.arrRef (pc (F := F) p).spec) → toV Wo c b = toV Wi c b) :
    RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ Rr c)
  post c := iprop(StableHlo.held (c : Thread nD τ) (Pipeline.ucRefs τ sig) (Wo c) ∗ Rr c)
  X c := iprop(∃ r, prngReg c r)
  Y c := iprop(∃ r, prngReg c r)
  Z c := Pipeline.unscopedRest (Ix := Unit) (Name := ℕ) (U := UR sig nD τ) (Lvl := ℕ) (pc (F := F) p).spec c (toV Wi c)
  hentry c := by
    rw [Pipeline.ownSems0_none]
    have hsplit := Pipeline.arrays_of_unscopedBufs (p := p) (pcfgs (F := F)) adm (pdats m) launch.win launch.arr_whole c
      ((pdats m p c).share_full (hq c)) (toV Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (toV Wi c) (toV Wo c) ((pdats m p c).arrAt · (pc (F := F) p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : RegionSeg (pcfgs (F := F)) adm (pdats m) () defs₀ 𝒱₀ L lv pIdx0 :=
  regOf m pIdx0 launch0 (Win0 m) (Wout0 m) (fun c => (body_obligation0 (toV (Win0 m)) c).loose) (fun _ _ => rfl) (fun _ _ => trivial)
    (fun _ _ => rfl) (fun _ _ => rfl) (hin0 (toV (Win0 m))) (hout0 (toV (Win0 m))) (hF0 (Win0 m)) (hrest0 (Win0 m))
def reg1 : RegionSeg (pcfgs (F := F)) adm (pdats m) () defs₀ 𝒱₀ L lv pIdx1 :=
  regOf m pIdx1 launch1 (Win1 m) (Wout1 m) (fun c => (body_obligation1 (toV (Win1 m)) c).loose) (fun _ _ => rfl) (fun _ _ => trivial)
    (fun _ _ => rfl) (fun _ _ => rfl) (hin1 (toV (Win1 m))) (hout1 (toV (Win1 m))) (hF1 (Win1 m)) (hrest1 (Win1 m))
def reg2 : RegionSeg (pcfgs (F := F)) adm (pdats m) () defs₀ 𝒱₀ L lv pIdx2 :=
  regOf m pIdx2 launch2 (Win2 m) (Wout2 m) (fun c => (body_obligation2 (toV (Win2 m)) c).loose) (fun _ _ => rfl) (fun _ _ => trivial)
    (fun _ _ => rfl) (fun _ _ => rfl) (hin2 (toV (Win2 m))) (hout2 (toV (Win2 m))) (hF2 (Win2 m)) (hrest2 (Win2 m))
def reg3 : RegionSeg (pcfgs (F := F)) adm (pdats m) () defs₀ 𝒱₀ L lv pIdx3 :=
  regOf m pIdx3 launch3 (Win3 m) (Wout3 m) (fun c => (body_obligation3 (toV (Win3 m)) c).loose) (fun _ _ => rfl) (fun _ _ => trivial)
    (fun _ _ => rfl) (fun _ _ => rfl) (hin3 (toV (Win3 m))) (hout3 (toV (Win3 m))) (hF3 (Win3 m)) (hrest3 (Win3 m))
def reg4 : RegionSeg (pcfgs (F := F)) adm (pdats m) () defs₀ 𝒱₀ L lv pIdx4 :=
  regOf m pIdx4 launch4 (Win4 m) (Wout4 m) (fun c => (body_obligation4 (toV (Win4 m)) c).loose) (fun _ _ => rfl) (fun _ _ => trivial)
    (fun _ _ => rfl) (fun _ _ => rfl) (hin4 (toV (Win4 m))) (hout4 (toV (Win4 m))) (hF4 (Win4 m)) (hrest4 (Win4 m))
def reg5 : RegionSeg (pcfgs (F := F)) adm (pdats m) () defs₀ 𝒱₀ L lv pIdx5 :=
  regOf m pIdx5 launch5 (Win5 m) (Wout5 m) (fun c => (body_obligation5 (toV (Win5 m)) c).loose) (fun _ _ => rfl) (fun _ _ => trivial)
    (fun _ _ => rfl) (fun _ _ => rfl) (hin5 (toV (Win5 m))) (hout5 (toV (Win5 m))) (hF5 (Win5 m)) (hrest5 (Win5 m))
def reg6 : RegionSeg (pcfgs (F := F)) adm (pdats m) () defs₀ 𝒱₀ L lv pIdx6 :=
  regOf m pIdx6 launch6 (Win6 m) (Wout6 m) (fun c => (body_obligation6 (toV (Win6 m)) c).loose) (fun _ _ => rfl) (fun _ _ => trivial)
    (fun _ _ => rfl) (fun _ _ => rfl) (hin6 (toV (Win6 m))) (hout6 (toV (Win6 m))) (hF6 (Win6 m)) (hrest6 (Win6 m))
def reg7 : RegionSeg (pcfgs (F := F)) adm (pdats m) () defs₀ 𝒱₀ L lv pIdx7 :=
  regOf m pIdx7 launch7 (Win7 m) (Wout7 m) (fun c => (body_obligation7 (toV (Win7 m)) c).loose) (fun _ _ => rfl) (fun _ _ => trivial)
    (fun _ _ => rfl) (fun _ _ => rfl) (hin7 (toV (Win7 m))) (hout7 (toV (Win7 m))) (hF7 (Win7 m)) (hrest7 (Win7 m))
def reg8 : RegionSeg (pcfgs (F := F)) adm (pdats m) () defs₀ 𝒱₀ L lv pIdx8 :=
  regOf m pIdx8 launch8 (Win8 m) (Wout8 m) (fun c => (body_obligation8 (toV (Win8 m)) c).loose) (fun _ _ => rfl) (fun _ _ => trivial)
    (fun _ _ => rfl) (fun _ _ => rfl) (hin8 (toV (Win8 m))) (hout8 (toV (Win8 m))) (hF8 (Win8 m)) (hrest8 (Win8 m))

end Cert.KernelIdeal.Hand

end
-- ==== Proof.KI.Run.lean ====
import proofs.«410443_j44109314130257_2_alg».proof.Proof.KI.Seg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Es : Fin 10 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem held_of_eq {c : Dev nD} {V V' : Valuation τ sig (Elt F)} (h : V = V') :
    (iprop(StableHlo.held (c : Thread nD τ) (Pipeline.ucRefs τ sig) V ∗ Rr c) : sProp 𝕄)
      ⊢ iprop(StableHlo.held (c : Thread nD τ) (Pipeline.ucRefs τ sig) V' ∗ Rr c) := by rw [h]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m c b) := by
  refine Pipeline.θ_run_regions_kit_dev (pcfgs (F := F)) adm (pdats m) () cellOf_inj emb₁ defs₀ 𝒱₀ L lv m ρ main
    (segs m (outs m) 𝒱₀ L lv Es () (pdats m) (reg0 m) (reg1 m) (reg2 m) (reg3 m) (reg4 m) (reg5 m) (reg6 m) (reg7 m) (reg8 m))
    (fun c Q => by
      rewrite [main_chain c, Seg.run_eq_chain,
        show (segs m (outs m) 𝒱₀ L lv Es () (pdats m) (reg0 m) (reg1 m) (reg2 m) (reg3 m) (reg4 m) (reg5 m) (reg6 m) (reg7 m) (reg8 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          StableHlo.seq hostOps6,
          Prog.lift (.customCall (Pipeline.entry 6) ()),
          Prog.lift (.customCall (Pipeline.entry 7) ()),
          Prog.lift (.customCall (Pipeline.entry 8) ()),
          StableHlo.seq hostOps9 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V25 m (outs m) c) ∗ ∃ r, prngReg c r))
    (hch := fun c => ⟨.rfl, .rfl, .rfl, .rfl, .rfl, .rfl, .rfl, .rfl, .rfl, .rfl, .rfl, .rfl, .rfl,
      .rfl, .rfl, .rfl, held_of_eq (V16_eq m c).symm, held_of_eq (V17_eq m c),
      .rfl, .rfl, held_of_eq (V20_eq m c).symm, held_of_eq (V21_eq m c),
      .rfl, .rfl, held_of_eq (V24_eq m c).symm,
      (show iprop(StableHlo.held (c : Thread nD τ) (Pipeline.ucRefs τ sig) (V25 m (outs m) c) ∗ Rr c) ⊢ iprop((StableHlo.held (c : Thread nD τ) (Pipeline.ucRefs τ sig) (V25 m (outs m) c) ∗ ∃ r, prngReg c r) ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      rw [V25_eq]
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c => h c)

end Cert.KernelIdeal.Hand

end
-- ==== Proof.KI.Frame.lean ====
import proofs.«410443_j44109314130257_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

abbrev kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)

-- No host operation and no region writes an argument: its buffer at the end of the chain of contents walks back to the launch memory.
theorem kept_of {mem : (ℓ : Loc nD τ sig) → Buf (Elt F) ℓ} {c : Dev nD}
    (h : ∀ b ∈ Pipeline.ucRefs τ sig, mem (((c : Thread nD τ)).1, b) = Wend m c b) : kept m mem c :=
  have e (b : Ref sig .tc) (hb : ¬ (Proc.devRef .tc b : DevRef τ sig).isScoped) :
      mem ((c.tc : Thread nD τ).loc b) = V25 m (outs m) c (Proc.devRef .tc b) :=
    (h _ (mem_uc b hb)).trans (congrFun (V25_eq m c) _).symm
  ⟨(e main_arg0 (by decide)).trans (V25_main_arg0 m (outs m) c),
    (e main_arg1 (by decide)).trans (V25_main_arg1 m (outs m) c),
    (e main_arg2 (by decide)).trans (V25_main_arg2 m (outs m) c),
    (e main_arg3 (by decide)).trans (V25_main_arg3 m (outs m) c),
    (e main_arg4 (by decide)).trans (V25_main_arg4 m (outs m) c),
    (e main_arg5 (by decide)).trans (V25_main_arg5 m (outs m) c),
    (e main_arg6 (by decide)).trans (V25_main_arg6 m (outs m) c),
    (e main_arg7 (by decide)).trans (V25_main_arg7 m (outs m) c),
    (e main_arg8 (by decide)).trans (V25_main_arg8 m (outs m) c),
    (e main_arg9 (by decide)).trans (V25_main_arg9 m (outs m) c),
    (e main_arg10 (by decide)).trans (V25_main_arg10 m (outs m) c),
    (e main_arg11 (by decide)).trans (V25_main_arg11 m (outs m) c),
    (e main_arg12 (by decide)).trans (V25_main_arg12 m (outs m) c),
    (e main_arg13 (by decide)).trans (V25_main_arg13 m (outs m) c)⟩

theorem frame : θ_run defs (onTc (τ := τ) (main (F := F))) ⟨m, fun _ => 0, ρ⟩ (fun r => ∀ c : Dev nD, kept m r.2.mem c) :=
  (θ_run defs _ _).mono (fun _ h c => kept_of m (h c)) (run_all m ρ)

theorem run_value : θ_run defs (onTc (τ := τ) (main (F := F))) ⟨m, fun _ => 0, ρ⟩ (fun r => ∀ c : Dev nD,
      r.2.mem ((c.tc : Thread nD τ).loc main_v120) = Wend m c main_v120 ∧ kept m r.2.mem c) :=
  (θ_run defs _ _).mono (fun _ h c => ⟨h c _ (mem_uc main_v120 (by decide)), kept_of m (h c)⟩) (run_all m ρ)

end Cert.KernelIdeal.Hand

end
-- ==== Proof.KB.Reduce0.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

theorem hcond0_0 : ∀ t : Fin grid0.N, cond0_0 (grid0.coords t) ↔ (grid0.coords t 1).val = 0 := by decide +kernel
theorem hcond0_1 : ∀ t : Fin cfg0.N, cond0_1 (grid0.coords t) ↔ (cfg0.grid.coords t 1).val = 390 := by decide +kernel
theorem first0_j : ∀ t : Fin cfg0.N, t.val = 0 → (cfg0.grid.coords t 1).val = 0 := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S1x1024x128 .bf16 := win0_0.stage (cfg0.slots t 0)
abbrev ms0_1 (t : Fin cfg0.N) : Memref sig .tc .vmem S128x128 .f32 := win0_1.stage (cfg0.slots t 1)
abbrev ms0_2 (t : Fin cfg0.N) : Memref sig .tc .vmem S1x1024x128 .f32 := win0_2.stage (cfg0.slots t 2)
abbrev scM0_0 : Memref sig .tc .vmem S1024x128 .f32 := Memref.whole cc0_scratch0

/-- The launch's invariant with the scratch held as `P`. -/
private def Inv (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

theorem PhiA0_eq (c : Dev nD) : (Pipeline.ΦA spec0 c : sProp 𝕄) = Inv c iprop(∃ d, owns (c : Thread nD τ) scM0_0 fullShare d) := by
  unfold Pipeline.ΦA Inv; rw [scopedRest0_split]; simp only [scM0_0, owns_whole]; try rfl

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Reading every index of a whole memref gives back what it holds. -/
private theorem readAt_whole {sp : Space} {S : Shape} {e : EltTy} (m : Memref sig .tc sp S e) (hm : m.IsWhole)
    {off : Fin S.rank → Nat} (h : off = fun _ => 0) (inb : ∀ a, off a + S.size a ≤ S.size a) (x : S.Idx → Elt F e) :
    m.view.readAt (Elt F) (Rect.unit off S.size inb).toLoadRect (hm.unread x) = x := by
  have e := View.readAt_eq_ld (Val := Elt F) m.view (hm.unread x) (Rect.unit off S.size inb)
  rw [hm.read_unread, View.ld_unit_zero h] at e
  exact e

/-- The last store covers every index, so nothing older shows. -/
private theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole memref owned at `x` is its elements held at the contents that read `x`. -/
private theorem owns_unread {sp : Space} {S : Shape} {e : EltTy} (c : Dev nD) (m : Memref sig .tc sp S e) (hm : m.IsWhole) (x : S.Idx → Elt F e) :
    (owns (c : Thread nD τ) m fullShare x : sProp 𝕄) = (m.view.loc (c : Thread nD τ) ↦[m.view.set]{fullShare} hm.unread x) := by
  rw [owns_eq_rep, hm.eq_unread (View.read_rep _ _)]

section
variable (c : Dev nD) (i : grid0.Coords) (arg2 : Memref sig .tc .vmem S1x1024x128 .bf16) (harg2 : arg2.IsWhole) (arg3 : Memref sig .tc .vmem S128x128 .f32) (harg3 : arg3.IsWhole) (arg4 : Memref sig .tc .vmem S1x1024x128 .f32) (harg4 : arg4.IsWhole) (arg5 : Memref sig .tc .vmem S1024x128 .f32) (harg5 : arg5.IsWhole)
  (x0 : Vec F S1x1024x128 .bf16) (x1 : Vec F S128x128 .f32) (x2 : Vec F S1x1024x128 .f32) (xs : Vec F S1024x128 .f32)

set_option maxHeartbeats 1000000 in
/-- One step of the reduction: the product is added to the sum (zero first where `j = 0`); where `j = 390` the reshaped sum is also the output. -/
private theorem kernelRun (E : Set ℕ) (K : PUnit → sProp 𝕄) (h : cond0_0 i → ¬cond0_1 i) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if cond0_1 i then k0_pay3 (k0_pay2 x0 x1 xs) else x2)
            ∗ owns (c : Thread nD τ) arg5 fullShare (k0_pay2 x0 x1 (if cond0_0 i then k0_pay1 else xs))) -∗ K ⟨⟩))
      ⊢ wp frame (wpE (defs₀ (F := F)) Variants.none c none) E (cc0_kernel_c2a_reduce i arg2 harg2 arg3 harg3 arg4 harg4 arg5 harg5) K := by
  simp only [cc0_kernel_c2a_reduce_eq_skeleton]; unfold cc0_kernel_c2a_reduce_skel
  rw [owns_unread c arg2 harg2, owns_unread c arg3 harg3]; unfold owns
  by_cases hc0 : cond0_0 i <;> by_cases hc1 : cond0_1 i
  · exact absurd hc1 (h hc0)
  all_goals
    first | rw [if_pos hc0] | rw [if_neg hc0]
    first | rw [if_pos hc1] | rw [if_neg hc1]
    iintro ⟨H0, H1, ⟨%f2, %hf2, H2⟩, ⟨%fs, %hfs, HS⟩, Hk⟩
    obtain rfl := harg4.eq_unread hf2; obtain rfl := harg5.eq_unread hfs
    sl_exec (disch := first | exact hc0 | exact hc1)
    sl_step
    iapply Hk
    iframe H0 H1
    isplitl [H2]
    · iexists _; isplitr
      swap; · iexact H2
      ipureintro
      first
      | (sl_unfold_run_names
         rw [read_writes_whole _ _ zeros3, View.readCov_unit_zero _ zeros2, readAt_whole arg2 harg2 zeros3, readAt_whole arg3 harg3 zeros2, readAt_whole arg5 harg5 zeros2])
      | exact harg4.read_unread _
    iexists _; isplitr
    swap; · iexact HS
    ipureintro
    try sl_unfold_run_names
    rw [read_writes_whole _ _ zeros2, readAt_whole arg2 harg2 zeros3, readAt_whole arg3 harg3 zeros2]
    first | rw [View.readCov_unit_zero _ zeros2] | rw [readAt_whole arg5 harg5 zeros2]

end
variable (V : (c : Dev nD) → (b : Ref sig .tc) → Buf (Elt F) ((c : Thread nD τ).loc b))

/-- The block of array `w` that point `t` works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum after point `n`; it restarts from zero where `j = 0`. -/
def acc0 (c : Dev nD) : (n : ℕ) → n < cfg0.N → Vec F S1024x128 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (cfg0.grid.coords ⟨n + 1, hn⟩ 1).val = 0 then k0_pay1 else acc0 c n (Nat.lt_of_succ_lt hn))

theorem acc0_zero_j (c : Dev nD) (t : Fin cfg0.N) (h : (cfg0.grid.coords t 1).val = 0) :
    acc0 V c t.val t.isLt = k0_pay2 (iblk0 V c 0 t) (iblk0 V c 1 t) k0_pay1 := by
  obtain ⟨n, hn⟩ := t
  cases n with
  | zero => rfl
  | succ n => exact congrArg (k0_pay2 (iblk0 V c 0 ⟨n + 1, hn⟩) (iblk0 V c 1 ⟨n + 1, hn⟩)) (if_pos h)

theorem acc0_succ_j (c : Dev nD) (t : Fin cfg0.N) (h : (cfg0.grid.coords t 1).val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (first0_j ⟨0, hn⟩ rfl) h
  | succ n => exact congrArg (k0_pay2 (iblk0 V c 0 ⟨n + 1, hn⟩) (iblk0 V c 1 ⟨n + 1, hn⟩)) (if_neg h)

/-- Before point `n` the scratch holds the running sum so far; before the first point, anything. -/
def PhiS0 (c : Dev nD) : (n : ℕ) → n ≤ cfg0.N → sProp 𝕄
  | 0, _ => Pipeline.ΦA spec0 c
  | n + 1, hn => Inv c (owns (c : Thread nD τ) scM0_0 fullShare (acc0 V c n hn))

theorem PhiS0_pos (c : Dev nD) (n : ℕ) (h : n ≤ cfg0.N) (hz : n ≠ 0) :
    PhiS0 V c n h = Inv c (owns (c : Thread nD τ) scM0_0 fullShare (acc0 V c (n - 1) (by omega))) := by
  cases n with
  | zero => exact absurd rfl hz
  | succ n => rfl

theorem PhiS0_weaken (c : Dev nD) (n : ℕ) (h : n ≤ cfg0.N) : PhiS0 V c n h ⊢ Pipeline.ΦA spec0 c := by
  cases n with
  | zero => exact Idealize.SL.BI.Entails.refl _
  | succ n =>
    rw [PhiA0_eq]; unfold PhiS0 Inv
    iintro ⟨⟨HS, HR⟩, Hg⟩
    iframe HR Hg
    iexists _; iexact HS

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = k0_pay3 (acc0 V c t.val t.isLt) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

set_option maxHeartbeats 4800000 in
/-- By cases on `j`: the first, the last or an inner point of a reduction. -/
theorem sound_body0 (c : Dev nD) (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop(Inv c (owns (c : Thread nD τ) scM0_0 fullShare (acc0 V c t.val t.isLt)) ∗ (dat0 V c).owesAt () t.castSucc
        ∗ owns (c : Thread nD τ) (ms0_0 t) fullShare (iblk0 V c 0 t) ∗ owns (c : Thread nD τ) (ms0_1 t) fullShare (iblk0 V c 1 t) ∗ (dat0 V c).leavesExact 2 t)) := by
  unfold bodyAt0
  simp only [before0_0, before0_1]
  by_cases h0 : (cfg0.grid.coords t 1).val = 0
  · have hc0 := (hcond0_0 t).mpr h0
    have hc1 : ¬cond0_1 (grid0.coords t) := fun h => by have := (hcond0_1 t).mp h; omega
    rw [Dat.leavesExact_idle (dat0 V c) 2 t (idleAt0_2 t hc1) (noFlush0_2 t hc1), acc0_zero_j V c t h0]
    refine BIBase.Entails.trans (Laws.sep_mono_left (PhiS0_weaken V c _ _)) ?_
    rw [PhiA0_eq]; unfold Inv
    iintro ⟨⟨⟨⟨%ds, HS⟩, HR⟩, Hg⟩, Ho, ⟨%d0, H0⟩, ⟨%d1, H1⟩, ⟨%d2, H2⟩⟩
    iapply (kernelRun c (grid0.coords t) _ _ _ _ _ _ _ _ (iblk0 V c 0 t) (iblk0 V c 1 t) ((dat0 V c).before 2 t d2) ds Set.univ _ fun _ => hc1)
    rw [if_pos hc0, if_neg hc1]
    iframe H0 H1 H2 HS
    iintro ⟨H0, H1, H2, HS⟩
    iframe
    iexists _; iexact H2
  · have hc0 : ¬cond0_0 (grid0.coords t) := fun h => h0 ((hcond0_0 t).mp h)
    rw [PhiS0_pos V c _ _ fun h => h0 (first0_j t h), acc0_succ_j V c t h0]; unfold Inv
    by_cases h1 : (cfg0.grid.coords t 1).val = 390
    · have hc1 := (hcond0_1 t).mpr h1
      rw [show (dat0 V c).leavesExact 2 t = owns (c : Thread nD τ) (ms0_2 t) fullShare ((dat0 V c).after 2 t) from by
        unfold Dat.leavesExact; rw [liveAt0_2 t hc1], after0_2, acc0_succ_j V c t h0]
      iintro ⟨⟨⟨HS, HR⟩, Hg⟩, Ho, ⟨%d0, H0⟩, ⟨%d1, H1⟩, ⟨%d2, H2⟩⟩
      iapply (kernelRun c (grid0.coords t) _ _ _ _ _ _ _ _ (iblk0 V c 0 t) (iblk0 V c 1 t) ((dat0 V c).before 2 t d2) _ Set.univ _ fun h => absurd h hc0)
      rw [if_neg hc0, if_pos hc1]
      iframe H0 H1 H2 HS
      iintro ⟨H0, H1, H2, HS⟩
      iframe
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, HR⟩, Hg⟩, Ho, ⟨%d0, H0⟩, ⟨%d1, H1⟩, ⟨%d2, H2⟩⟩
      iapply (kernelRun c (grid0.coords t) _ _ _ _ _ _ _ _ (iblk0 V c 0 t) (iblk0 V c 1 t) ((dat0 V c).before 2 t d2) _ Set.univ _ fun _ => hc1)
      rw [if_neg hc0, if_neg hc1]
      iframe H0 H1 H2 HS
      iintro ⟨H0, H1, H2, HS⟩
      iframe
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c := PhiS0_weaken V c _ (Nat.le_refl _)

end Cert.Kernel.Hand
end
-- ==== Proof.KB.Final1.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

local notation "rA" => Rect.unit (s := S2x1024x128) ![0, 0, 0] S1x1024x128.size inb_S2x1024x128_S1x1024x128_0_0_0
local notation "rB" => Rect.unit (s := S2x1024x128) ![1, 0, 0] S1x1024x128.size inb_S2x1024x128_S1x1024x128_1_0_0
local notation "rM" => Rect.unit (s := S1024x128) ![0, 0] S1024x128.size inb_S1024x128_S1024x128_0_0
local notation "rS" => Rect.unit (s := S128x128) ![0, 0] S128x128.size inb_S128x128_S128x128_0_0
local notation "rL" => Rect.unit (s := S1x128) ![0, 0] S1x128.size inb_S1x128_S1x128_0_0

def out1_5 (x0 : Vec F S2x1024x128 .f32) (x1 : Vec F S1024x128 .f32) (x2 : Vec F S128x128 .f32) (x3 : Vec F S128x128 .f32)
    (x4 : Vec F S1x128 .f32) : Vec F S1024x128 .f32 :=
  View.canon [⟨rM, k1_pay1 (View.ld x0 rA) (View.ld x0 rB) (View.ld x1 rM) (View.ld x2 rS) (View.ld x3 rS) (View.ld x4 rL)⟩]

theorem cover1_5 (p0 : Vec F S1024x128 .f32) (y : S1024x128.Idx) :
    ∃ pc ∈ ([⟨rM, p0⟩] : List (View.Piece (Elt F) S1024x128 .f32)), y ∈ pc.1.set :=
  View.cover_of_tiled [⟨rM, p0⟩] S1024x128.size (by rfl) y

-- The body's one store covers the output whole, so what it leaves there is `out1_5` of what the five inputs hold.
theorem sound_kernel1 (E : Set ℕ) (i : cfg1.grid.Coords)
    (arg1 : Memref sig .tc .vmem S2x1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1024x128 .f32) (harg6 : arg6.IsWhole)
    (x0 : Vec F S2x1024x128 .f32) (x1 : Vec F S1024x128 .f32) (x2 : Vec F S128x128 .f32) (x3 : Vec F S128x128 .f32) (x4 : Vec F S1x128 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)) -∗ K ⟨⟩))
      ⊢ wp frame (wpE (defs₀ (F := F)) Variants.none c none) E
          (cc1_kernel_c2a_finalize i arg1 harg1 arg2 harg2 arg3 harg3 arg4 harg4 arg5 harg5 arg6 harg6) K := by
  simp only [cc1_kernel_c2a_finalize_eq_skeleton]; unfold cc1_kernel_c2a_finalize_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (w : Fin cfg1.W) : (dat1 V c).A w = V c (Pipeline.arrRef spec1 w) := rfl

variable (t : Fin cfg1.N)

theorem after1_5 :
    (dat1 V c).after 5 t = out1_5 (iblk1 V c 0 t) (iblk1 V c 1 t) (iblk1 V c 2 t) (iblk1 V c 3 t) (iblk1 V c 4 t) := by dsimp only [dat1]

theorem before1_0 (d) : (dat1 V c).before 0 t d = iblk1 V c 0 t :=
  (Dat.before_in_eq_fetched _ 0 rfl (fun _ => rfl) (fun _ _ _ => rfl) (fun _ => rfl) t d).trans rfl
theorem before1_1 (d) : (dat1 V c).before 1 t d = iblk1 V c 1 t :=
  (Dat.before_in_eq_fetched _ 1 rfl (fun _ => rfl) (fun _ _ _ => rfl) (fun _ => rfl) t d).trans rfl
theorem before1_2 (d) : (dat1 V c).before 2 t d = iblk1 V c 2 t :=
  (Dat.before_in_eq_fetched _ 2 rfl (fun _ => rfl) (fun _ _ _ => rfl) (fun _ => rfl) t d).trans rfl
theorem before1_3 (d) : (dat1 V c).before 3 t d = iblk1 V c 3 t :=
  (Dat.before_in_eq_fetched _ 3 rfl (fun _ => rfl) (fun _ _ _ => rfl) (fun _ => rfl) t d).trans rfl
theorem before1_4 (d) : (dat1 V c).before 4 t d = iblk1 V c 4 t :=
  (Dat.before_in_eq_fetched _ 4 rfl (fun _ => rfl) (fun _ _ _ => rfl) (fun _ => rfl) t d).trans rfl

def bodyPre1 : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d)))

def bodyPost1 : sProp 𝕄 :=
  iprop((dat1 V c).Φ t.succ ∗ (dat1 V c).owesAt () t.succ
    ∗ owns c (st1_0 t) fullShare ((dat1 V c).after 0 t)
    ∗ owns c (st1_1 t) fullShare ((dat1 V c).after 1 t)
    ∗ owns c (st1_2 t) fullShare ((dat1 V c).after 2 t)
    ∗ owns c (st1_3 t) fullShare ((dat1 V c).after 3 t)
    ∗ owns c (st1_4 t) fullShare ((dat1 V c).after 4 t)
    ∗ owns c (st1_5 t) fullShare ((dat1 V c).after 5 t))

theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  iintro ⟨HΦ, Ho, ⟨%d0, H0⟩, ⟨%d1, H1⟩, ⟨%d2, H2⟩, ⟨%d3, H3⟩, ⟨%d4, H4⟩, ⟨%d5, H5⟩⟩
  dsimp only [dat1]
  iapply sound_kernel1 c Set.univ
  iframe H0 H1 H2 H3 H4
  isplitl [H5]; · iexists _; iexact H5
  iintro ⟨H0, H1, H2, H3, H4, H5⟩
  iframe
  iexact Ho

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := Entails.refl _

theorem hout1 : (dat1 V c).Φ (Fin.last cfg1.N) ⊢ Pipeline.ΦA spec1 c := Entails.refl _

end Cert.Kernel.Hand
-- ==== Proof.KB.A2c2.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

local notation "rA" => (Rect.unit (s := S1x128x1024) ![0, 0, 0] S1x128x1024.size inb_S1x128x1024_S1x128x1024_0_0_0)
local notation "rB" => (Rect.unit (s := S1024x128) ![0, 0] S1024x128.size inb_S1024x128_S1024x128_0_0)
local notation "rC" => (Rect.unit (s := S128x128) ![0, 0] S128x128.size inb_S128x128_S128x128_0_0)
local notation "rD" => (Rect.unit (s := S1x128) ![0, 0] S1x128.size inb_S1x128_S1x128_0_0)

def out2_6 (i : grid2.Coords) (x0 : Vec F S1x128x1024 .bf16) (x1 : Vec F S128x128 .f32) (x2 : Vec F S1024x128 .f32)
    (x3 : Vec F S128x128 .f32) (x4 : Vec F S128x128 .f32) (x5 : Vec F S1x128 .f32) : Vec F S128x128 .f32 :=
  View.canon [⟨rC, k2_pay1 i (View.ld x0 rA) (View.ld x2 rB) (View.ld x1 rC) (View.ld x3 rC) (View.ld x4 rC) (View.ld x5 rD)⟩]

theorem cover2_6 (p0 : Vec F S128x128 .f32) (y : S128x128.Idx) :
    ∃ pc ∈ ([⟨rC, p0⟩] : List (View.Piece (Elt F) S128x128 .f32)), y ∈ pc.1.set :=
  View.cover_of_tiled [⟨rC, p0⟩] S128x128.size (by rfl) y

-- The body's one store covers the output whole, so what it leaves there is `out2_6` of what the six inputs hold.
theorem sound_kernel2 (E : Set ℕ) (i : grid2.Coords)
    (arg1 : Memref sig .tc .vmem S1x128x1024 .bf16) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole)
    (x0 : Vec F S1x128x1024 .bf16) (x1 : Vec F S128x128 .f32) (x2 : Vec F S1024x128 .f32) (x3 : Vec F S128x128 .f32)
    (x4 : Vec F S128x128 .f32) (x5 : Vec F S1x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare (out2_6 i x0 x1 x2 x3 x4 x5)) -∗ K ⟨⟩))
      ⊢ wp frame (wpE (defs₀ (F := F)) Variants.none c none) E
          (cc2_kernel_a2c i arg1 harg1 arg2 harg2 arg3 harg3 arg4 harg4 arg5 harg5 arg6 harg6 arg7 harg7) K := by
  simp only [cc2_kernel_a2c_eq_skeleton]; unfold cc2_kernel_a2c_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (cfg2.grid.coords t) (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (w : Fin cfg2.W) : (dat2 V c).A w = V c (Pipeline.arrRef spec2 w) := rfl

variable (t : Fin cfg2.N)

theorem after2_6 :
    (dat2 V c).after 6 t = out2_6 (cfg2.grid.coords t) (iblk2 V c 0 t) (iblk2 V c 1 t) (iblk2 V c 2 t) (iblk2 V c 3 t) (iblk2 V c 4 t) (iblk2 V c 5 t) := by dsimp only [dat2]

theorem before2_0 (d) : (dat2 V c).before 0 t d = iblk2 V c 0 t :=
  (Dat.before_in_eq_fetched _ 0 rfl (fun _ => rfl) (fun _ _ _ => rfl) (fun _ => rfl) t d).trans rfl
theorem before2_1 (d) : (dat2 V c).before 1 t d = iblk2 V c 1 t :=
  (Dat.before_in_eq_fetched _ 1 rfl (fun _ => rfl) (fun _ _ _ => rfl) (fun _ => rfl) t d).trans rfl
theorem before2_2 (d) : (dat2 V c).before 2 t d = iblk2 V c 2 t :=
  (Dat.before_in_eq_fetched _ 2 rfl (fun _ => rfl) (fun _ _ _ => rfl) (fun _ => rfl) t d).trans rfl
theorem before2_3 (d) : (dat2 V c).before 3 t d = iblk2 V c 3 t :=
  (Dat.before_in_eq_fetched _ 3 rfl (fun _ => rfl) (fun _ _ _ => rfl) (fun _ => rfl) t d).trans rfl
theorem before2_4 (d) : (dat2 V c).before 4 t d = iblk2 V c 4 t :=
  (Dat.before_in_eq_fetched _ 4 rfl (fun _ => rfl) (fun _ _ _ => rfl) (fun _ => rfl) t d).trans rfl
theorem before2_5 (d) : (dat2 V c).before 5 t d = iblk2 V c 5 t :=
  (Dat.before_in_eq_fetched _ 5 rfl (fun _ => rfl) (fun _ _ _ => rfl) (fun _ => rfl) t d).trans rfl

def bodyPre2 : sProp 𝕄 :=
  iprop((dat2 V c).Φ t.castSucc ∗ (dat2 V c).owesAt () t.castSucc
    ∗ (∃ d, owns c (st2_0 t) fullShare ((dat2 V c).before 0 t d))
    ∗ (∃ d, owns c (st2_1 t) fullShare ((dat2 V c).before 1 t d))
    ∗ (∃ d, owns c (st2_2 t) fullShare ((dat2 V c).before 2 t d))
    ∗ (∃ d, owns c (st2_3 t) fullShare ((dat2 V c).before 3 t d))
    ∗ (∃ d, owns c (st2_4 t) fullShare ((dat2 V c).before 4 t d))
    ∗ (∃ d, owns c (st2_5 t) fullShare ((dat2 V c).before 5 t d))
    ∗ (∃ d, owns c (st2_6 t) fullShare ((dat2 V c).before 6 t d)))

def bodyPost2 : sProp 𝕄 :=
  iprop((dat2 V c).Φ t.succ ∗ (dat2 V c).owesAt () t.succ
    ∗ owns c (st2_0 t) fullShare ((dat2 V c).after 0 t)
    ∗ owns c (st2_1 t) fullShare ((dat2 V c).after 1 t)
    ∗ owns c (st2_2 t) fullShare ((dat2 V c).after 2 t)
    ∗ owns c (st2_3 t) fullShare ((dat2 V c).after 3 t)
    ∗ owns c (st2_4 t) fullShare ((dat2 V c).after 4 t)
    ∗ owns c (st2_5 t) fullShare ((dat2 V c).after 5 t)
    ∗ owns c (st2_6 t) fullShare ((dat2 V c).after 6 t))

theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  iintro ⟨HΦ, Ho, ⟨%d0, H0⟩, ⟨%d1, H1⟩, ⟨%d2, H2⟩, ⟨%d3, H3⟩, ⟨%d4, H4⟩, ⟨%d5, H5⟩, ⟨%d6, H6⟩⟩
  dsimp only [dat2]
  iapply sound_kernel2 c Set.univ
  iframe H0 H1 H2 H3 H4 H5
  isplitl [H6]; · iexists _; iexact H6
  iintro ⟨H0, H1, H2, H3, H4, H5, H6⟩
  iframe
  iexact Ho

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := Entails.refl _

theorem hout2 : (dat2 V c).Φ (Fin.last cfg2.N) ⊢ Pipeline.ΦA spec2 c := Entails.refl _

end Cert.Kernel.Hand
-- ==== Proof.KB.Reduce3.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

theorem hcond3_0 : ∀ t : Fin grid3.N, cond3_0 (grid3.coords t) ↔ (grid3.coords t 1).val = 0 := by decide +kernel
theorem hcond3_1 : ∀ t : Fin cfg3.N, cond3_1 (grid3.coords t) ↔ (cfg3.grid.coords t 1).val = 390 := by decide +kernel
theorem first3_j : ∀ t : Fin cfg3.N, t.val = 0 → (cfg3.grid.coords t 1).val = 0 := by decide +kernel

theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev ms3_0 (t : Fin cfg3.N) : Memref sig .tc .vmem S1x1024x128 .bf16 := win3_0.stage (cfg3.slots t 0)
abbrev ms3_1 (t : Fin cfg3.N) : Memref sig .tc .vmem S128x128 .f32 := win3_1.stage (cfg3.slots t 1)
abbrev ms3_2 (t : Fin cfg3.N) : Memref sig .tc .vmem S1x1024x128 .f32 := win3_2.stage (cfg3.slots t 2)
abbrev scM3_0 : Memref sig .tc .vmem S1024x128 .f32 := Memref.whole cc3_scratch0

/-- The launch's invariant with the scratch held as `P`. -/
private def Inv (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = Inv c iprop(∃ d, owns (c : Thread nD τ) scM3_0 fullShare d) := by
  unfold Pipeline.ΦA Inv; rw [scopedRest3_split]; simp only [scM3_0, owns_whole]; try rfl

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Reading every index of a whole memref gives back what it holds. -/
private theorem readAt_whole {sp : Space} {S : Shape} {e : EltTy} (m : Memref sig .tc sp S e) (hm : m.IsWhole)
    {off : Fin S.rank → Nat} (h : off = fun _ => 0) (inb : ∀ a, off a + S.size a ≤ S.size a) (x : S.Idx → Elt F e) :
    m.view.readAt (Elt F) (Rect.unit off S.size inb).toLoadRect (hm.unread x) = x := by
  have e := View.readAt_eq_ld (Val := Elt F) m.view (hm.unread x) (Rect.unit off S.size inb)
  rw [hm.read_unread, View.ld_unit_zero h] at e
  exact e

/-- The last store covers every index, so nothing older shows. -/
private theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole memref owned at `x` is its elements held at the contents that read `x`. -/
private theorem owns_unread {sp : Space} {S : Shape} {e : EltTy} (c : Dev nD) (m : Memref sig .tc sp S e) (hm : m.IsWhole) (x : S.Idx → Elt F e) :
    (owns (c : Thread nD τ) m fullShare x : sProp 𝕄) = (m.view.loc (c : Thread nD τ) ↦[m.view.set]{fullShare} hm.unread x) := by
  rw [owns_eq_rep, hm.eq_unread (View.read_rep _ _)]

section
variable (c : Dev nD) (i : grid3.Coords) (arg2 : Memref sig .tc .vmem S1x1024x128 .bf16) (harg2 : arg2.IsWhole) (arg3 : Memref sig .tc .vmem S128x128 .f32) (harg3 : arg3.IsWhole) (arg4 : Memref sig .tc .vmem S1x1024x128 .f32) (harg4 : arg4.IsWhole) (arg5 : Memref sig .tc .vmem S1024x128 .f32) (harg5 : arg5.IsWhole)
  (x0 : Vec F S1x1024x128 .bf16) (x1 : Vec F S128x128 .f32) (x2 : Vec F S1x1024x128 .f32) (xs : Vec F S1024x128 .f32)

set_option maxHeartbeats 1000000 in
/-- One step of the reduction: the product is added to the sum (zero first where `j = 0`); where `j = 390` the reshaped sum is also the output. -/
private theorem kernelRun (E : Set ℕ) (K : PUnit → sProp 𝕄) (h : cond3_0 i → ¬cond3_1 i) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if cond3_1 i then k3_pay3 (k3_pay2 x0 x1 xs) else x2)
            ∗ owns (c : Thread nD τ) arg5 fullShare (k3_pay2 x0 x1 (if cond3_0 i then k3_pay1 else xs))) -∗ K ⟨⟩))
      ⊢ wp frame (wpE (defs₀ (F := F)) Variants.none c none) E (cc3_kernel_c2a_reduce i arg2 harg2 arg3 harg3 arg4 harg4 arg5 harg5) K := by
  simp only [cc3_kernel_c2a_reduce_eq_skeleton]; unfold cc3_kernel_c2a_reduce_skel
  rw [owns_unread c arg2 harg2, owns_unread c arg3 harg3]; unfold owns
  by_cases hc0 : cond3_0 i <;> by_cases hc1 : cond3_1 i
  · exact absurd hc1 (h hc0)
  all_goals
    first | rw [if_pos hc0] | rw [if_neg hc0]
    first | rw [if_pos hc1] | rw [if_neg hc1]
    iintro ⟨H0, H1, ⟨%f2, %hf2, H2⟩, ⟨%fs, %hfs, HS⟩, Hk⟩
    obtain rfl := harg4.eq_unread hf2; obtain rfl := harg5.eq_unread hfs
    sl_exec (disch := first | exact hc0 | exact hc1)
    sl_step
    iapply Hk
    iframe H0 H1
    isplitl [H2]
    · iexists _; isplitr
      swap; · iexact H2
      ipureintro
      first
      | (sl_unfold_run_names
         rw [read_writes_whole _ _ zeros3, View.readCov_unit_zero _ zeros2, readAt_whole arg2 harg2 zeros3, readAt_whole arg3 harg3 zeros2, readAt_whole arg5 harg5 zeros2])
      | exact harg4.read_unread _
    iexists _; isplitr
    swap; · iexact HS
    ipureintro
    try sl_unfold_run_names
    rw [read_writes_whole _ _ zeros2, readAt_whole arg2 harg2 zeros3, readAt_whole arg3 harg3 zeros2]
    first | rw [View.readCov_unit_zero _ zeros2] | rw [readAt_whole arg5 harg5 zeros2]

end
variable (V : (c : Dev nD) → (b : Ref sig .tc) → Buf (Elt F) ((c : Thread nD τ).loc b))

/-- The block of array `w` that point `t` works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum after point `n`; it restarts from zero where `j = 0`. -/
def acc3 (c : Dev nD) : (n : ℕ) → n < cfg3.N → Vec F S1024x128 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩)
      (if (cfg3.grid.coords ⟨n + 1, hn⟩ 1).val = 0 then k3_pay1 else acc3 c n (Nat.lt_of_succ_lt hn))

theorem acc3_zero_j (c : Dev nD) (t : Fin cfg3.N) (h : (cfg3.grid.coords t 1).val = 0) :
    acc3 V c t.val t.isLt = k3_pay2 (iblk3 V c 0 t) (iblk3 V c 1 t) k3_pay1 := by
  obtain ⟨n, hn⟩ := t
  cases n with
  | zero => rfl
  | succ n => exact congrArg (k3_pay2 (iblk3 V c 0 ⟨n + 1, hn⟩) (iblk3 V c 1 ⟨n + 1, hn⟩)) (if_pos h)

theorem acc3_succ_j (c : Dev nD) (t : Fin cfg3.N) (h : (cfg3.grid.coords t 1).val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd (first3_j ⟨0, hn⟩ rfl) h
  | succ n => exact congrArg (k3_pay2 (iblk3 V c 0 ⟨n + 1, hn⟩) (iblk3 V c 1 ⟨n + 1, hn⟩)) (if_neg h)

/-- Before point `n` the scratch holds the running sum so far; before the first point, anything. -/
def PhiS3 (c : Dev nD) : (n : ℕ) → n ≤ cfg3.N → sProp 𝕄
  | 0, _ => Pipeline.ΦA spec3 c
  | n + 1, hn => Inv c (owns (c : Thread nD τ) scM3_0 fullShare (acc3 V c n hn))

theorem PhiS3_pos (c : Dev nD) (n : ℕ) (h : n ≤ cfg3.N) (hz : n ≠ 0) :
    PhiS3 V c n h = Inv c (owns (c : Thread nD τ) scM3_0 fullShare (acc3 V c (n - 1) (by omega))) := by
  cases n with
  | zero => exact absurd rfl hz
  | succ n => rfl

theorem PhiS3_weaken (c : Dev nD) (n : ℕ) (h : n ≤ cfg3.N) : PhiS3 V c n h ⊢ Pipeline.ΦA spec3 c := by
  cases n with
  | zero => exact Idealize.SL.BI.Entails.refl _
  | succ n =>
    rw [PhiA3_eq]; unfold PhiS3 Inv
    iintro ⟨⟨HS, HR⟩, Hg⟩
    iframe HR Hg
    iexists _; iexact HS

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = k3_pay3 (acc3 V c t.val t.isLt) := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

set_option maxHeartbeats 4800000 in
/-- By cases on `j`: the first, the last or an inner point of a reduction. -/
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d)))
    ⊢ wp frame (wpE (defs₀ (F := F)) Variants.none c none) Set.univ (bodyAt3 t) (fun _ =>
      iprop(Inv c (owns (c : Thread nD τ) scM3_0 fullShare (acc3 V c t.val t.isLt)) ∗ (dat3 V c).owesAt () t.castSucc
        ∗ owns (c : Thread nD τ) (ms3_0 t) fullShare (iblk3 V c 0 t) ∗ owns (c : Thread nD τ) (ms3_1 t) fullShare (iblk3 V c 1 t) ∗ (dat3 V c).leavesExact 2 t)) := by
  unfold bodyAt3
  simp only [before3_0, before3_1]
  by_cases h0 : (cfg3.grid.coords t 1).val = 0
  · have hc0 := (hcond3_0 t).mpr h0
    have hc1 : ¬cond3_1 (grid3.coords t) := fun h => by have := (hcond3_1 t).mp h; omega
    rw [Dat.leavesExact_idle (dat3 V c) 2 t (idleAt3_2 t hc1) (noFlush3_2 t hc1), acc3_zero_j V c t h0]
    refine BIBase.Entails.trans (Laws.sep_mono_left (PhiS3_weaken V c _ _)) ?_
    rw [PhiA3_eq]; unfold Inv
    iintro ⟨⟨⟨⟨%ds, HS⟩, HR⟩, Hg⟩, Ho, ⟨%d0, H0⟩, ⟨%d1, H1⟩, ⟨%d2, H2⟩⟩
    iapply (kernelRun c (grid3.coords t) _ _ _ _ _ _ _ _ (iblk3 V c 0 t) (iblk3 V c 1 t) ((dat3 V c).before 2 t d2) ds Set.univ _ fun _ => hc1)
    rw [if_pos hc0, if_neg hc1]
    iframe H0 H1 H2 HS
    iintro ⟨H0, H1, H2, HS⟩
    iframe
    iexists _; iexact H2
  · have hc0 : ¬cond3_0 (grid3.coords t) := fun h => h0 ((hcond3_0 t).mp h)
    rw [PhiS3_pos V c _ _ fun h => h0 (first3_j t h), acc3_succ_j V c t h0]; unfold Inv
    by_cases h1 : (cfg3.grid.coords t 1).val = 390
    · have hc1 := (hcond3_1 t).mpr h1
      rw [show (dat3 V c).leavesExact 2 t = owns (c : Thread nD τ) (ms3_2 t) fullShare ((dat3 V c).after 2 t) from by
        unfold Dat.leavesExact; rw [liveAt3_2 t hc1], after3_2, acc3_succ_j V c t h0]
      iintro ⟨⟨⟨HS, HR⟩, Hg⟩, Ho, ⟨%d0, H0⟩, ⟨%d1, H1⟩, ⟨%d2, H2⟩⟩
      iapply (kernelRun c (grid3.coords t) _ _ _ _ _ _ _ _ (iblk3 V c 0 t) (iblk3 V c 1 t) ((dat3 V c).before 2 t d2) _ Set.univ _ fun h => absurd h hc0)
      rw [if_neg hc0, if_pos hc1]
      iframe H0 H1 H2 HS
      iintro ⟨H0, H1, H2, HS⟩
      iframe
    · have hc1 : ¬cond3_1 (grid3.coords t) := fun h => h1 ((hcond3_1 t).mp h)
      rw [Dat.leavesExact_idle (dat3 V c) 2 t (idleAt3_2 t hc1) (noFlush3_2 t hc1)]
      iintro ⟨⟨⟨HS, HR⟩, Hg⟩, Ho, ⟨%d0, H0⟩, ⟨%d1, H1⟩, ⟨%d2, H2⟩⟩
      iapply (kernelRun c (grid3.coords t) _ _ _ _ _ _ _ _ (iblk3 V c 0 t) (iblk3 V c 1 t) ((dat3 V c).before 2 t d2) _ Set.univ _ fun _ => hc1)
      rw [if_neg hc0, if_neg hc1]
      iframe H0 H1 H2 HS
      iintro ⟨H0, H1, H2, HS⟩
      iframe
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := PhiS3_weaken V c _ (Nat.le_refl _)

end Cert.Kernel.Hand
end
-- ==== Proof.KB.Final4.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

local notation "rA" => Rect.unit (s := S2x1024x128) ![0, 0, 0] S1x1024x128.size inb_S2x1024x128_S1x1024x128_0_0_0
local notation "rB" => Rect.unit (s := S2x1024x128) ![1, 0, 0] S1x1024x128.size inb_S2x1024x128_S1x1024x128_1_0_0
local notation "rM" => Rect.unit (s := S1024x128) ![0, 0] S1024x128.size inb_S1024x128_S1024x128_0_0
local notation "rS" => Rect.unit (s := S128x128) ![0, 0] S128x128.size inb_S128x128_S128x128_0_0
local notation "rL" => Rect.unit (s := S1x128) ![0, 0] S1x128.size inb_S1x128_S1x128_0_0

def out4_5 (x0 : Vec F S2x1024x128 .f32) (x1 : Vec F S1024x128 .f32) (x2 : Vec F S128x128 .f32) (x3 : Vec F S128x128 .f32)
    (x4 : Vec F S1x128 .f32) : Vec F S1024x128 .f32 :=
  View.canon [⟨rM, k4_pay1 (View.ld x0 rA) (View.ld x0 rB) (View.ld x1 rM) (View.ld x2 rS) (View.ld x3 rS) (View.ld x4 rL)⟩]

theorem cover4_5 (p0 : Vec F S1024x128 .f32) (y : S1024x128.Idx) :
    ∃ pc ∈ ([⟨rM, p0⟩] : List (View.Piece (Elt F) S1024x128 .f32)), y ∈ pc.1.set :=
  View.cover_of_tiled [⟨rM, p0⟩] S1024x128.size (by rfl) y

-- The body's one store covers the output whole, so what it leaves there is `out4_5` of what the five inputs hold.
theorem sound_kernel4 (E : Set ℕ) (i : cfg4.grid.Coords)
    (arg1 : Memref sig .tc .vmem S2x1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1024x128 .f32) (harg6 : arg6.IsWhole)
    (x0 : Vec F S2x1024x128 .f32) (x1 : Vec F S1024x128 .f32) (x2 : Vec F S128x128 .f32) (x3 : Vec F S128x128 .f32) (x4 : Vec F S1x128 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out4_5 x0 x1 x2 x3 x4)) -∗ K ⟨⟩))
      ⊢ wp frame (wpE (defs₀ (F := F)) Variants.none c none) E
          (cc4_kernel_c2a_finalize i arg1 harg1 arg2 harg2 arg3 harg3 arg4 harg4 arg5 harg5 arg6 harg6) K := by
  simp only [cc4_kernel_c2a_finalize_eq_skeleton]; unfold cc4_kernel_c2a_finalize_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (w : Fin cfg4.W) : (dat4 V c).A w = V c (Pipeline.arrRef spec4 w) := rfl

variable (t : Fin cfg4.N)

theorem after4_5 :
    (dat4 V c).after 5 t = out4_5 (iblk4 V c 0 t) (iblk4 V c 1 t) (iblk4 V c 2 t) (iblk4 V c 3 t) (iblk4 V c 4 t) := by dsimp only [dat4]

theorem before4_0 (d) : (dat4 V c).before 0 t d = iblk4 V c 0 t :=
  (Dat.before_in_eq_fetched _ 0 rfl (fun _ => rfl) (fun _ _ _ => rfl) (fun _ => rfl) t d).trans rfl
theorem before4_1 (d) : (dat4 V c).before 1 t d = iblk4 V c 1 t :=
  (Dat.before_in_eq_fetched _ 1 rfl (fun _ => rfl) (fun _ _ _ => rfl) (fun _ => rfl) t d).trans rfl
theorem before4_2 (d) : (dat4 V c).before 2 t d = iblk4 V c 2 t :=
  (Dat.before_in_eq_fetched _ 2 rfl (fun _ => rfl) (fun _ _ _ => rfl) (fun _ => rfl) t d).trans rfl
theorem before4_3 (d) : (dat4 V c).before 3 t d = iblk4 V c 3 t :=
  (Dat.before_in_eq_fetched _ 3 rfl (fun _ => rfl) (fun _ _ _ => rfl) (fun _ => rfl) t d).trans rfl
theorem before4_4 (d) : (dat4 V c).before 4 t d = iblk4 V c 4 t :=
  (Dat.before_in_eq_fetched _ 4 rfl (fun _ => rfl) (fun _ _ _ => rfl) (fun _ => rfl) t d).trans rfl

def bodyPre4 : sProp 𝕄 :=
  iprop((dat4 V c).Φ t.castSucc ∗ (dat4 V c).owesAt () t.castSucc
    ∗ (∃ d, owns c (st4_0 t) fullShare ((dat4 V c).before 0 t d))
    ∗ (∃ d, owns c (st4_1 t) fullShare ((dat4 V c).before 1 t d))
    ∗ (∃ d, owns c (st4_2 t) fullShare ((dat4 V c).before 2 t d))
    ∗ (∃ d, owns c (st4_3 t) fullShare ((dat4 V c).before 3 t d))
    ∗ (∃ d, owns c (st4_4 t) fullShare ((dat4 V c).before 4 t d))
    ∗ (∃ d, owns c (st4_5 t) fullShare ((dat4 V c).before 5 t d)))

def bodyPost4 : sProp 𝕄 :=
  iprop((dat4 V c).Φ t.succ ∗ (dat4 V c).owesAt () t.succ
    ∗ owns c (st4_0 t) fullShare ((dat4 V c).after 0 t)
    ∗ owns c (st4_1 t) fullShare ((dat4 V c).after 1 t)
    ∗ owns c (st4_2 t) fullShare ((dat4 V c).after 2 t)
    ∗ owns c (st4_3 t) fullShare ((dat4 V c).after 3 t)
    ∗ owns c (st4_4 t) fullShare ((dat4 V c).after 4 t)
    ∗ owns c (st4_5 t) fullShare ((dat4 V c).after 5 t))

theorem sound_body4 :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  iintro ⟨HΦ, Ho, ⟨%d0, H0⟩, ⟨%d1, H1⟩, ⟨%d2, H2⟩, ⟨%d3, H3⟩, ⟨%d4, H4⟩, ⟨%d5, H5⟩⟩
  dsimp only [dat4]
  iapply sound_kernel4 c Set.univ
  iframe H0 H1 H2 H3 H4
  isplitl [H5]; · iexists _; iexact H5
  iintro ⟨H0, H1, H2, H3, H4, H5⟩
  iframe
  iexact Ho

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := Entails.refl _

theorem hout4 : (dat4 V c).Φ (Fin.last cfg4.N) ⊢ Pipeline.ΦA spec4 c := Entails.refl _

end Cert.Kernel.Hand
-- ==== Proof.KB.A2c5.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

local notation "rA" => (Rect.unit (s := S1x128x1024) ![0, 0, 0] S1x128x1024.size inb_S1x128x1024_S1x128x1024_0_0_0)
local notation "rB" => (Rect.unit (s := S1024x128) ![0, 0] S1024x128.size inb_S1024x128_S1024x128_0_0)
local notation "rC" => (Rect.unit (s := S128x128) ![0, 0] S128x128.size inb_S128x128_S128x128_0_0)
local notation "rD" => (Rect.unit (s := S1x128) ![0, 0] S1x128.size inb_S1x128_S1x128_0_0)

def out5_6 (i : grid5.Coords) (x0 : Vec F S1x128x1024 .bf16) (x1 : Vec F S128x128 .f32) (x2 : Vec F S1024x128 .f32)
    (x3 : Vec F S128x128 .f32) (x4 : Vec F S128x128 .f32) (x5 : Vec F S1x128 .f32) : Vec F S128x128 .f32 :=
  View.canon [⟨rC, k5_pay1 i (View.ld x0 rA) (View.ld x2 rB) (View.ld x1 rC) (View.ld x3 rC) (View.ld x4 rC) (View.ld x5 rD)⟩]

theorem cover5_6 (p0 : Vec F S128x128 .f32) (y : S128x128.Idx) :
    ∃ pc ∈ ([⟨rC, p0⟩] : List (View.Piece (Elt F) S128x128 .f32)), y ∈ pc.1.set :=
  View.cover_of_tiled [⟨rC, p0⟩] S128x128.size (by rfl) y

-- The body's one store covers the output whole, so what it leaves there is `out5_6` of what the six inputs hold.
theorem sound_kernel5 (E : Set ℕ) (i : grid5.Coords)
    (arg1 : Memref sig .tc .vmem S1x128x1024 .bf16) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole)
    (x0 : Vec F S1x128x1024 .bf16) (x1 : Vec F S128x128 .f32) (x2 : Vec F S1024x128 .f32) (x3 : Vec F S128x128 .f32)
    (x4 : Vec F S128x128 .f32) (x5 : Vec F S1x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare (out5_6 i x0 x1 x2 x3 x4 x5)) -∗ K ⟨⟩))
      ⊢ wp frame (wpE (defs₀ (F := F)) Variants.none c none) E
          (cc5_kernel_a2c i arg1 harg1 arg2 harg2 arg3 harg3 arg4 harg4 arg5 harg5 arg6 harg6 arg7 harg7) K := by
  simp only [cc5_kernel_a2c_eq_skeleton]; unfold cc5_kernel_a2c_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (cfg5.grid.coords t) (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (w : Fin cfg5.W) : (dat5 V c).A w = V c (Pipeline.arrRef spec5 w) := rfl

variable (t : Fin cfg5.N)

theorem after5_6 :
    (dat5 V c).after 6 t = out5_6 (cfg5.grid.coords t) (iblk5 V c 0 t) (iblk5 V c 1 t) (iblk5 V c 2 t) (iblk5 V c 3 t) (iblk5 V c 4 t) (iblk5 V c 5 t) := by dsimp only [dat5]

theorem before5_0 (d) : (dat5 V c).before 0 t d = iblk5 V c 0 t :=
  (Dat.before_in_eq_fetched _ 0 rfl (fun _ => rfl) (fun _ _ _ => rfl) (fun _ => rfl) t d).trans rfl
theorem before5_1 (d) : (dat5 V c).before 1 t d = iblk5 V c 1 t :=
  (Dat.before_in_eq_fetched _ 1 rfl (fun _ => rfl) (fun _ _ _ => rfl) (fun _ => rfl) t d).trans rfl
theorem before5_2 (d) : (dat5 V c).before 2 t d = iblk5 V c 2 t :=
  (Dat.before_in_eq_fetched _ 2 rfl (fun _ => rfl) (fun _ _ _ => rfl) (fun _ => rfl) t d).trans rfl
theorem before5_3 (d) : (dat5 V c).before 3 t d = iblk5 V c 3 t :=
  (Dat.before_in_eq_fetched _ 3 rfl (fun _ => rfl) (fun _ _ _ => rfl) (fun _ => rfl) t d).trans rfl
theorem before5_4 (d) : (dat5 V c).before 4 t d = iblk5 V c 4 t :=
  (Dat.before_in_eq_fetched _ 4 rfl (fun _ => rfl) (fun _ _ _ => rfl) (fun _ => rfl) t d).trans rfl
theorem before5_5 (d) : (dat5 V c).before 5 t d = iblk5 V c 5 t :=
  (Dat.before_in_eq_fetched _ 5 rfl (fun _ => rfl) (fun _ _ _ => rfl) (fun _ => rfl) t d).trans rfl

def bodyPre5 : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d))
    ∗ (∃ d, owns c (st5_4 t) fullShare ((dat5 V c).before 4 t d))
    ∗ (∃ d, owns c (st5_5 t) fullShare ((dat5 V c).before 5 t d))
    ∗ (∃ d, owns c (st5_6 t) fullShare ((dat5 V c).before 6 t d)))

def bodyPost5 : sProp 𝕄 :=
  iprop((dat5 V c).Φ t.succ ∗ (dat5 V c).owesAt () t.succ
    ∗ owns c (st5_0 t) fullShare ((dat5 V c).after 0 t)
    ∗ owns c (st5_1 t) fullShare ((dat5 V c).after 1 t)
    ∗ owns c (st5_2 t) fullShare ((dat5 V c).after 2 t)
    ∗ owns c (st5_3 t) fullShare ((dat5 V c).after 3 t)
    ∗ owns c (st5_4 t) fullShare ((dat5 V c).after 4 t)
    ∗ owns c (st5_5 t) fullShare ((dat5 V c).after 5 t)
    ∗ owns c (st5_6 t) fullShare ((dat5 V c).after 6 t))

theorem sound_body5 :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  iintro ⟨HΦ, Ho, ⟨%d0, H0⟩, ⟨%d1, H1⟩, ⟨%d2, H2⟩, ⟨%d3, H3⟩, ⟨%d4, H4⟩, ⟨%d5, H5⟩, ⟨%d6, H6⟩⟩
  dsimp only [dat5]
  iapply sound_kernel5 c Set.univ
  iframe H0 H1 H2 H3 H4 H5
  isplitl [H6]; · iexists _; iexact H6
  iintro ⟨H0, H1, H2, H3, H4, H5, H6⟩
  iframe
  iexact Ho

theorem body_obligation5 : BodyObligation (dat5 (F := F) V c) (defs₀ (F := F)) Variants.none () Set.univ := fun t => by
  rw [bigSep_W5, bigSep_W5]
  exact sound_body5 V c t

theorem hin5 : Pipeline.ΦA spec5 c ⊢ (dat5 V c).Φ 0 := Entails.refl _

theorem hout5 : (dat5 V c).Φ (Fin.last cfg5.N) ⊢ Pipeline.ΦA spec5 c := Entails.refl _

end Cert.Kernel.Hand
-- ==== Proof.KB.Reduce6.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 1).val) 0#32)) 0#32) = 1#1
abbrev cond6_1 (i : grid6.Coords) : Prop := k6_cond2 i = 1#1

theorem hcond6_0 : ∀ t : Fin grid6.N, cond6_0 (grid6.coords t) ↔ (grid6.coords t 1).val = 0 := by decide +kernel
theorem hcond6_1 : ∀ t : Fin cfg6.N, cond6_1 (grid6.coords t) ↔ (cfg6.grid.coords t 1).val = 390 := by decide +kernel
theorem first6_j : ∀ t : Fin cfg6.N, t.val = 0 → (cfg6.grid.coords t 1).val = 0 := by decide +kernel

theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

abbrev ms6_0 (t : Fin cfg6.N) : Memref sig .tc .vmem S1x1024x128 .bf16 := win6_0.stage (cfg6.slots t 0)
abbrev ms6_1 (t : Fin cfg6.N) : Memref sig .tc .vmem S128x128 .f32 := win6_1.stage (cfg6.slots t 1)
abbrev ms6_2 (t : Fin cfg6.N) : Memref sig .tc .vmem S1x1024x128 .f32 := win6_2.stage (cfg6.slots t 2)
abbrev scM6_0 : Memref sig .tc .vmem S1024x128 .f32 := Memref.whole cc6_scratch0

/-- The launch's invariant with the scratch held as `P`. -/
private def Inv (c : Dev nD) (P : sProp 𝕄) : sProp 𝕄 :=
  iprop(iprop(P ∗ Pipeline.scopedRestBut (Ix := Unit) (Name := ℕ) (U := UR sig nD τ) (Lvl := ℕ) (Val := Elt F) spec6 c [cc6_scratch0]) ∗ (∃ r, prngReg c r))

theorem PhiA6_eq (c : Dev nD) : (Pipeline.ΦA spec6 c : sProp 𝕄) = Inv c iprop(∃ d, owns (c : Thread nD τ) scM6_0 fullShare d) := by
  unfold Pipeline.ΦA Inv; rw [scopedRest6_split]; simp only [scM6_0, owns_whole]; try rfl

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Reading every index of a whole memref gives back what it holds. -/
private theorem readAt_whole {sp : Space} {S : Shape} {e : EltTy} (m : Memref sig .tc sp S e) (hm : m.IsWhole)
    {off : Fin S.rank → Nat} (h : off = fun _ => 0) (inb : ∀ a, off a + S.size a ≤ S.size a) (x : S.Idx → Elt F e) :
    m.view.readAt (Elt F) (Rect.unit off S.size inb).toLoadRect (hm.unread x) = x := by
  have e := View.readAt_eq_ld (Val := Elt F) m.view (hm.unread x) (Rect.unit off S.size inb)
  rw [hm.read_unread, View.ld_unit_zero h] at e
  exact e

/-- The last store covers every index, so nothing older shows. -/
private theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole memref owned at `x` is its elements held at the contents that read `x`. -/
private theorem owns_unread {sp : Space} {S : Shape} {e : EltTy} (c : Dev nD) (m : Memref sig .tc sp S e) (hm : m.IsWhole) (x : S.Idx → Elt F e) :
    (owns (c : Thread nD τ) m fullShare x : sProp 𝕄) = (m.view.loc (c : Thread nD τ) ↦[m.view.set]{fullShare} hm.unread x) := by
  rw [owns_eq_rep, hm.eq_unread (View.read_rep _ _)]

section
variable (c : Dev nD) (i : grid6.Coords) (arg2 : Memref sig .tc .vmem S1x1024x128 .bf16) (harg2 : arg2.IsWhole) (arg3 : Memref sig .tc .vmem S128x128 .f32) (harg3 : arg3.IsWhole) (arg4 : Memref sig .tc .vmem S1x1024x128 .f32) (harg4 : arg4.IsWhole) (arg5 : Memref sig .tc .vmem S1024x128 .f32) (harg5 : arg5.IsWhole)
  (x0 : Vec F S1x1024x128 .bf16) (x1 : Vec F S128x128 .f32) (x2 : Vec F S1x1024x128 .f32) (xs : Vec F S1024x128 .f32)

set_option maxHeartbeats 1000000 in
/-- One step of the reduction: the product is added to the sum (zero first where `j = 0`); where `j = 390` the reshaped sum is also the output. -/
private theorem kernelRun (E : Set ℕ) (K : PUnit → sProp 𝕄) (h : cond6_0 i → ¬cond6_1 i) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if cond6_1 i then k6_pay3 (k6_pay2 x0 x1 xs) else x2)
            ∗ owns (c : Thread nD τ) arg5 fullShare (k6_pay2 x0 x1 (if cond6_0 i then k6_pay1 else xs))) -∗ K ⟨⟩))
      ⊢ wp frame (wpE (defs₀ (F := F)) Variants.none c none) E (cc6_kernel_c2a_reduce i arg2 harg2 arg3 harg3 arg4 harg4 arg5 harg5) K := by
  simp only [cc6_kernel_c2a_reduce_eq_skeleton]; unfold cc6_kernel_c2a_reduce_skel
  rw [owns_unread c arg2 harg2, owns_unread c arg3 harg3]; unfold owns
  by_cases hc0 : cond6_0 i <;> by_cases hc1 : cond6_1 i
  · exact absurd hc1 (h hc0)
  all_goals
    first | rw [if_pos hc0] | rw [if_neg hc0]
    first | rw [if_pos hc1] | rw [if_neg hc1]
    iintro ⟨H0, H1, ⟨%f2, %hf2, H2⟩, ⟨%fs, %hfs, HS⟩, Hk⟩
    obtain rfl := harg4.eq_unread hf2; obtain rfl := harg5.eq_unread hfs
    sl_exec (disch := first | exact hc0 | exact hc1)
    sl_step
    iapply Hk
    iframe H0 H1
    isplitl [H2]
    · iexists _; isplitr
      swap; · iexact H2
      ipureintro
      first
      | (sl_unfold_run_names
         rw [read_writes_whole _ _ zeros3, View.readCov_unit_zero _ zeros2, readAt_whole arg2 harg2 zeros3, readAt_whole arg3 harg3 zeros2, readAt_whole arg5 harg5 zeros2])
      | exact harg4.read_unread _
    iexists _; isplitr
    swap; · iexact HS
    ipureintro
    try sl_unfold_run_names
    rw [read_writes_whole _ _ zeros2, readAt_whole arg2 harg2 zeros3, readAt_whole arg3 harg3 zeros2]
    first | rw [View.readCov_unit_zero _ zeros2] | rw [readAt_whole arg5 harg5 zeros2]

end
variable (V : (c : Dev nD) → (b : Ref sig .tc) → Buf (Elt F) ((c : Thread nD τ).loc b))

/-- The block of array `w` that point `t` works on. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The running sum after point `n`; it restarts from zero where `j = 0`. -/
def acc6 (c : Dev nD) : (n : ℕ) → n < cfg6.N → Vec F S1024x128 .f32
  | 0, hn => k6_pay2 (iblk6 V c 0 ⟨0, hn⟩) (iblk6 V c 1 ⟨0, hn⟩) k6_pay1
  | n + 1, hn => k6_pay2 (iblk6 V c 0 ⟨n + 1, hn⟩) (iblk6 V c 1 ⟨n + 1, hn⟩)
      (if (cfg6.grid.coords ⟨n + 1, hn⟩ 1).val = 0 then k6_pay1 else acc6 c n (Nat.lt_of_succ_lt hn))

theorem acc6_zero_j (c : Dev nD) (t : Fin cfg6.N) (h : (cfg6.grid.coords t 1).val = 0) :
    acc6 V c t.val t.isLt = k6_pay2 (iblk6 V c 0 t) (iblk6 V c 1 t) k6_pay1 := by
  obtain ⟨n, hn⟩ := t
  cases n with
  | zero => rfl
  | succ n => exact congrArg (k6_pay2 (iblk6 V c 0 ⟨n + 1, hn⟩) (iblk6 V c 1 ⟨n + 1, hn⟩)) (if_pos h)

theorem acc6_succ_j (c : Dev nD) (t : Fin cfg6.N) (h : (cfg6.grid.coords t 1).val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd (first6_j ⟨0, hn⟩ rfl) h
  | succ n => exact congrArg (k6_pay2 (iblk6 V c 0 ⟨n + 1, hn⟩) (iblk6 V c 1 ⟨n + 1, hn⟩)) (if_neg h)

/-- Before point `n` the scratch holds the running sum so far; before the first point, anything. -/
def PhiS6 (c : Dev nD) : (n : ℕ) → n ≤ cfg6.N → sProp 𝕄
  | 0, _ => Pipeline.ΦA spec6 c
  | n + 1, hn => Inv c (owns (c : Thread nD τ) scM6_0 fullShare (acc6 V c n hn))

theorem PhiS6_pos (c : Dev nD) (n : ℕ) (h : n ≤ cfg6.N) (hz : n ≠ 0) :
    PhiS6 V c n h = Inv c (owns (c : Thread nD τ) scM6_0 fullShare (acc6 V c (n - 1) (by omega))) := by
  cases n with
  | zero => exact absurd rfl hz
  | succ n => rfl

theorem PhiS6_weaken (c : Dev nD) (n : ℕ) (h : n ≤ cfg6.N) : PhiS6 V c n h ⊢ Pipeline.ΦA spec6 c := by
  cases n with
  | zero => exact Idealize.SL.BI.Entails.refl _
  | succ n =>
    rw [PhiA6_eq]; unfold PhiS6 Inv
    iintro ⟨⟨HS, HR⟩, Hg⟩
    iframe HR Hg
    iexists _; iexact HS

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (acc6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = k6_pay3 (acc6 V c t.val t.isLt) := rfl

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

set_option maxHeartbeats 4800000 in
/-- By cases on `j`: the first, the last or an inner point of a reduction. -/
theorem sound_body6 (c : Dev nD) (t : Fin cfg6.N) :
    iprop(PhiS6 V c t.val (Nat.le_of_lt t.isLt) ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d)))
    ⊢ wp frame (wpE (defs₀ (F := F)) Variants.none c none) Set.univ (bodyAt6 t) (fun _ =>
      iprop(Inv c (owns (c : Thread nD τ) scM6_0 fullShare (acc6 V c t.val t.isLt)) ∗ (dat6 V c).owesAt () t.castSucc
        ∗ owns (c : Thread nD τ) (ms6_0 t) fullShare (iblk6 V c 0 t) ∗ owns (c : Thread nD τ) (ms6_1 t) fullShare (iblk6 V c 1 t) ∗ (dat6 V c).leavesExact 2 t)) := by
  unfold bodyAt6
  simp only [before6_0, before6_1]
  by_cases h0 : (cfg6.grid.coords t 1).val = 0
  · have hc0 := (hcond6_0 t).mpr h0
    have hc1 : ¬cond6_1 (grid6.coords t) := fun h => by have := (hcond6_1 t).mp h; omega
    rw [Dat.leavesExact_idle (dat6 V c) 2 t (idleAt6_2 t hc1) (noFlush6_2 t hc1), acc6_zero_j V c t h0]
    refine BIBase.Entails.trans (Laws.sep_mono_left (PhiS6_weaken V c _ _)) ?_
    rw [PhiA6_eq]; unfold Inv
    iintro ⟨⟨⟨⟨%ds, HS⟩, HR⟩, Hg⟩, Ho, ⟨%d0, H0⟩, ⟨%d1, H1⟩, ⟨%d2, H2⟩⟩
    iapply (kernelRun c (grid6.coords t) _ _ _ _ _ _ _ _ (iblk6 V c 0 t) (iblk6 V c 1 t) ((dat6 V c).before 2 t d2) ds Set.univ _ fun _ => hc1)
    rw [if_pos hc0, if_neg hc1]
    iframe H0 H1 H2 HS
    iintro ⟨H0, H1, H2, HS⟩
    iframe
    iexists _; iexact H2
  · have hc0 : ¬cond6_0 (grid6.coords t) := fun h => h0 ((hcond6_0 t).mp h)
    rw [PhiS6_pos V c _ _ fun h => h0 (first6_j t h), acc6_succ_j V c t h0]; unfold Inv
    by_cases h1 : (cfg6.grid.coords t 1).val = 390
    · have hc1 := (hcond6_1 t).mpr h1
      rw [show (dat6 V c).leavesExact 2 t = owns (c : Thread nD τ) (ms6_2 t) fullShare ((dat6 V c).after 2 t) from by
        unfold Dat.leavesExact; rw [liveAt6_2 t hc1], after6_2, acc6_succ_j V c t h0]
      iintro ⟨⟨⟨HS, HR⟩, Hg⟩, Ho, ⟨%d0, H0⟩, ⟨%d1, H1⟩, ⟨%d2, H2⟩⟩
      iapply (kernelRun c (grid6.coords t) _ _ _ _ _ _ _ _ (iblk6 V c 0 t) (iblk6 V c 1 t) ((dat6 V c).before 2 t d2) _ Set.univ _ fun h => absurd h hc0)
      rw [if_neg hc0, if_pos hc1]
      iframe H0 H1 H2 HS
      iintro ⟨H0, H1, H2, HS⟩
      iframe
    · have hc1 : ¬cond6_1 (grid6.coords t) := fun h => h1 ((hcond6_1 t).mp h)
      rw [Dat.leavesExact_idle (dat6 V c) 2 t (idleAt6_2 t hc1) (noFlush6_2 t hc1)]
      iintro ⟨⟨⟨HS, HR⟩, Hg⟩, Ho, ⟨%d0, H0⟩, ⟨%d1, H1⟩, ⟨%d2, H2⟩⟩
      iapply (kernelRun c (grid6.coords t) _ _ _ _ _ _ _ _ (iblk6 V c 0 t) (iblk6 V c 1 t) ((dat6 V c).before 2 t d2) _ Set.univ _ fun _ => hc1)
      rw [if_neg hc0, if_neg hc1]
      iframe H0 H1 H2 HS
      iintro ⟨H0, H1, H2, HS⟩
      iframe
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Idealize.SL.BI.Entails.refl _

theorem hout6 (c : Dev nD) : (dat6 V c).Φ (Fin.last cfg6.N) ⊢ Pipeline.ΦA spec6 c := PhiS6_weaken V c _ (Nat.le_refl _)

end Cert.Kernel.Hand
end
-- ==== Proof.KB.Final7.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

local notation "rA" => Rect.unit (s := S2x1024x128) ![0, 0, 0] S1x1024x128.size inb_S2x1024x128_S1x1024x128_0_0_0
local notation "rB" => Rect.unit (s := S2x1024x128) ![1, 0, 0] S1x1024x128.size inb_S2x1024x128_S1x1024x128_1_0_0
local notation "rM" => Rect.unit (s := S1024x128) ![0, 0] S1024x128.size inb_S1024x128_S1024x128_0_0
local notation "rS" => Rect.unit (s := S128x128) ![0, 0] S128x128.size inb_S128x128_S128x128_0_0
local notation "rL" => Rect.unit (s := S1x128) ![0, 0] S1x128.size inb_S1x128_S1x128_0_0

def out7_5 (x0 : Vec F S2x1024x128 .f32) (x1 : Vec F S1024x128 .f32) (x2 : Vec F S128x128 .f32) (x3 : Vec F S128x128 .f32)
    (x4 : Vec F S1x128 .f32) : Vec F S1024x128 .f32 :=
  View.canon [⟨rM, k7_pay1 (View.ld x0 rA) (View.ld x0 rB) (View.ld x1 rM) (View.ld x2 rS) (View.ld x3 rS) (View.ld x4 rL)⟩]

theorem cover7_5 (p0 : Vec F S1024x128 .f32) (y : S1024x128.Idx) :
    ∃ pc ∈ ([⟨rM, p0⟩] : List (View.Piece (Elt F) S1024x128 .f32)), y ∈ pc.1.set :=
  View.cover_of_tiled [⟨rM, p0⟩] S1024x128.size (by rfl) y

-- The body's one store covers the output whole, so what it leaves there is `out7_5` of what the five inputs hold.
theorem sound_kernel7 (E : Set ℕ) (i : cfg7.grid.Coords)
    (arg1 : Memref sig .tc .vmem S2x1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1024x128 .f32) (harg6 : arg6.IsWhole)
    (x0 : Vec F S2x1024x128 .f32) (x1 : Vec F S1024x128 .f32) (x2 : Vec F S128x128 .f32) (x3 : Vec F S128x128 .f32) (x4 : Vec F S1x128 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out7_5 x0 x1 x2 x3 x4)) -∗ K ⟨⟩))
      ⊢ wp frame (wpE (defs₀ (F := F)) Variants.none c none) E
          (cc7_kernel_c2a_finalize i arg1 harg1 arg2 harg2 arg3 harg3 arg4 harg4 arg5 harg5 arg6 harg6) K := by
  simp only [cc7_kernel_c2a_finalize_eq_skeleton]; unfold cc7_kernel_c2a_finalize_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (w : Fin cfg7.W) : (dat7 V c).A w = V c (Pipeline.arrRef spec7 w) := rfl

variable (t : Fin cfg7.N)

theorem after7_5 :
    (dat7 V c).after 5 t = out7_5 (iblk7 V c 0 t) (iblk7 V c 1 t) (iblk7 V c 2 t) (iblk7 V c 3 t) (iblk7 V c 4 t) := by dsimp only [dat7]

theorem before7_0 (d) : (dat7 V c).before 0 t d = iblk7 V c 0 t :=
  (Dat.before_in_eq_fetched _ 0 rfl (fun _ => rfl) (fun _ _ _ => rfl) (fun _ => rfl) t d).trans rfl
theorem before7_1 (d) : (dat7 V c).before 1 t d = iblk7 V c 1 t :=
  (Dat.before_in_eq_fetched _ 1 rfl (fun _ => rfl) (fun _ _ _ => rfl) (fun _ => rfl) t d).trans rfl
theorem before7_2 (d) : (dat7 V c).before 2 t d = iblk7 V c 2 t :=
  (Dat.before_in_eq_fetched _ 2 rfl (fun _ => rfl) (fun _ _ _ => rfl) (fun _ => rfl) t d).trans rfl
theorem before7_3 (d) : (dat7 V c).before 3 t d = iblk7 V c 3 t :=
  (Dat.before_in_eq_fetched _ 3 rfl (fun _ => rfl) (fun _ _ _ => rfl) (fun _ => rfl) t d).trans rfl
theorem before7_4 (d) : (dat7 V c).before 4 t d = iblk7 V c 4 t :=
  (Dat.before_in_eq_fetched _ 4 rfl (fun _ => rfl) (fun _ _ _ => rfl) (fun _ => rfl) t d).trans rfl

def bodyPre7 : sProp 𝕄 :=
  iprop((dat7 V c).Φ t.castSucc ∗ (dat7 V c).owesAt () t.castSucc
    ∗ (∃ d, owns c (st7_0 t) fullShare ((dat7 V c).before 0 t d))
    ∗ (∃ d, owns c (st7_1 t) fullShare ((dat7 V c).before 1 t d))
    ∗ (∃ d, owns c (st7_2 t) fullShare ((dat7 V c).before 2 t d))
    ∗ (∃ d, owns c (st7_3 t) fullShare ((dat7 V c).before 3 t d))
    ∗ (∃ d, owns c (st7_4 t) fullShare ((dat7 V c).before 4 t d))
    ∗ (∃ d, owns c (st7_5 t) fullShare ((dat7 V c).before 5 t d)))

def bodyPost7 : sProp 𝕄 :=
  iprop((dat7 V c).Φ t.succ ∗ (dat7 V c).owesAt () t.succ
    ∗ owns c (st7_0 t) fullShare ((dat7 V c).after 0 t)
    ∗ owns c (st7_1 t) fullShare ((dat7 V c).after 1 t)
    ∗ owns c (st7_2 t) fullShare ((dat7 V c).after 2 t)
    ∗ owns c (st7_3 t) fullShare ((dat7 V c).after 3 t)
    ∗ owns c (st7_4 t) fullShare ((dat7 V c).after 4 t)
    ∗ owns c (st7_5 t) fullShare ((dat7 V c).after 5 t))

theorem sound_body7 :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  iintro ⟨HΦ, Ho, ⟨%d0, H0⟩, ⟨%d1, H1⟩, ⟨%d2, H2⟩, ⟨%d3, H3⟩, ⟨%d4, H4⟩, ⟨%d5, H5⟩⟩
  dsimp only [dat7]
  iapply sound_kernel7 c Set.univ
  iframe H0 H1 H2 H3 H4
  isplitl [H5]; · iexists _; iexact H5
  iintro ⟨H0, H1, H2, H3, H4, H5⟩
  iframe
  iexact Ho

theorem body_obligation7 : BodyObligation (dat7 (F := F) V c) (defs₀ (F := F)) Variants.none () Set.univ := fun t => by
  rw [bigSep_W7, bigSep_W7]
  exact sound_body7 V c t

theorem hin7 : Pipeline.ΦA spec7 c ⊢ (dat7 V c).Φ 0 := Entails.refl _

theorem hout7 : (dat7 V c).Φ (Fin.last cfg7.N) ⊢ Pipeline.ΦA spec7 c := Entails.refl _

end Cert.Kernel.Hand
-- ==== Proof.KB.A2c8.lean ====
import proofs.«410443_j44109314130257_2_alg».proof.Proof.Gen.Kernel.Launch
import proofs.«410443_j44109314130257_2_alg».proof.Proof.Gen.Kernel.Skeleton
import proofs.«410443_j44109314130257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

local notation "rA" => (Rect.unit (s := S1x128x1024) ![0, 0, 0] S1x128x1024.size inb_S1x128x1024_S1x128x1024_0_0_0)
local notation "rB" => (Rect.unit (s := S1024x128) ![0, 0] S1024x128.size inb_S1024x128_S1024x128_0_0)
local notation "rC" => (Rect.unit (s := S128x128) ![0, 0] S128x128.size inb_S128x128_S128x128_0_0)
local notation "rD" => (Rect.unit (s := S1x128) ![0, 0] S1x128.size inb_S1x128_S1x128_0_0)

def out8_6 (i : grid8.Coords) (x0 : Vec F S1x128x1024 .bf16) (x1 : Vec F S128x128 .f32) (x2 : Vec F S1024x128 .f32)
    (x3 : Vec F S128x128 .f32) (x4 : Vec F S128x128 .f32) (x5 : Vec F S1x128 .f32) : Vec F S128x128 .f32 :=
  View.canon [⟨rC, k8_pay1 i (View.ld x0 rA) (View.ld x2 rB) (View.ld x1 rC) (View.ld x3 rC) (View.ld x4 rC) (View.ld x5 rD)⟩]

theorem cover8_6 (p0 : Vec F S128x128 .f32) (y : S128x128.Idx) :
    ∃ pc ∈ ([⟨rC, p0⟩] : List (View.Piece (Elt F) S128x128 .f32)), y ∈ pc.1.set :=
  View.cover_of_tiled [⟨rC, p0⟩] S128x128.size (by rfl) y

-- The body's one store covers the output whole, so what it leaves there is `out8_6` of what the six inputs hold.
theorem sound_kernel8 (E : Set ℕ) (i : grid8.Coords)
    (arg1 : Memref sig .tc .vmem S1x128x1024 .bf16) (harg1 : arg1.IsWhole) (arg2 : Memref sig .tc .vmem S128x128 .f32) (harg2 : arg2.IsWhole)
    (arg3 : Memref sig .tc .vmem S1024x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole)
    (x0 : Vec F S1x128x1024 .bf16) (x1 : Vec F S128x128 .f32) (x2 : Vec F S1024x128 .f32) (x3 : Vec F S128x128 .f32)
    (x4 : Vec F S128x128 .f32) (x5 : Vec F S1x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare (out8_6 i x0 x1 x2 x3 x4 x5)) -∗ K ⟨⟩))
      ⊢ wp frame (wpE (defs₀ (F := F)) Variants.none c none) E
          (cc8_kernel_a2c i arg1 harg1 arg2 harg2 arg3 harg3 arg4 harg4 arg5 harg5 arg6 harg6 arg7 harg7) K := by
  simp only [cc8_kernel_a2c_eq_skeleton]; unfold cc8_kernel_a2c_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

def dat8 : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (cfg8.grid.coords t) (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (w : Fin cfg8.W) : (dat8 V c).A w = V c (Pipeline.arrRef spec8 w) := rfl

variable (t : Fin cfg8.N)

theorem after8_6 :
    (dat8 V c).after 6 t = out8_6 (cfg8.grid.coords t) (iblk8 V c 0 t) (iblk8 V c 1 t) (iblk8 V c 2 t) (iblk8 V c 3 t) (iblk8 V c 4 t) (iblk8 V c 5 t) := by dsimp only [dat8]

theorem before8_0 (d) : (dat8 V c).before 0 t d = iblk8 V c 0 t :=
  (Dat.before_in_eq_fetched _ 0 rfl (fun _ => rfl) (fun _ _ _ => rfl) (fun _ => rfl) t d).trans rfl
theorem before8_1 (d) : (dat8 V c).before 1 t d = iblk8 V c 1 t :=
  (Dat.before_in_eq_fetched _ 1 rfl (fun _ => rfl) (fun _ _ _ => rfl) (fun _ => rfl) t d).trans rfl
theorem before8_2 (d) : (dat8 V c).before 2 t d = iblk8 V c 2 t :=
  (Dat.before_in_eq_fetched _ 2 rfl (fun _ => rfl) (fun _ _ _ => rfl) (fun _ => rfl) t d).trans rfl
theorem before8_3 (d) : (dat8 V c).before 3 t d = iblk8 V c 3 t :=
  (Dat.before_in_eq_fetched _ 3 rfl (fun _ => rfl) (fun _ _ _ => rfl) (fun _ => rfl) t d).trans rfl
theorem before8_4 (d) : (dat8 V c).before 4 t d = iblk8 V c 4 t :=
  (Dat.before_in_eq_fetched _ 4 rfl (fun _ => rfl) (fun _ _ _ => rfl) (fun _ => rfl) t d).trans rfl
theorem before8_5 (d) : (dat8 V c).before 5 t d = iblk8 V c 5 t :=
  (Dat.before_in_eq_fetched _ 5 rfl (fun _ => rfl) (fun _ _ _ => rfl) (fun _ => rfl) t d).trans rfl

def bodyPre8 : sProp 𝕄 :=
  iprop((dat8 V c).Φ t.castSucc ∗ (dat8 V c).owesAt () t.castSucc
    ∗ (∃ d, owns c (st8_0 t) fullShare ((dat8 V c).before 0 t d))
    ∗ (∃ d, owns c (st8_1 t) fullShare ((dat8 V c).before 1 t d))
    ∗ (∃ d, owns c (st8_2 t) fullShare ((dat8 V c).before 2 t d))
    ∗ (∃ d, owns c (st8_3 t) fullShare ((dat8 V c).before 3 t d))
    ∗ (∃ d, owns c (st8_4 t) fullShare ((dat8 V c).before 4 t d))
    ∗ (∃ d, owns c (st8_5 t) fullShare ((dat8 V c).before 5 t d))
    ∗ (∃ d, owns c (st8_6 t) fullShare ((dat8 V c).before 6 t d)))

def bodyPost8 : sProp 𝕄 :=
  iprop((dat8 V c).Φ t.succ ∗ (dat8 V c).owesAt () t.succ
    ∗ owns c (st8_0 t) fullShare ((dat8 V c).after 0 t)
    ∗ owns c (st8_1 t) fullShare ((dat8 V c).after 1 t)
    ∗ owns c (st8_2 t) fullShare ((dat8 V c).after 2 t)
    ∗ owns c (st8_3 t) fullShare ((dat8 V c).after 3 t)
    ∗ owns c (st8_4 t) fullShare ((dat8 V c).after 4 t)
    ∗ owns c (st8_5 t) fullShare ((dat8 V c).after 5 t)
    ∗ owns c (st8_6 t) fullShare ((dat8 V c).after 6 t))

theorem sound_body8 :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  iintro ⟨HΦ, Ho, ⟨%d0, H0⟩, ⟨%d1, H1⟩, ⟨%d2, H2⟩, ⟨%d3, H3⟩, ⟨%d4, H4⟩, ⟨%d5, H5⟩, ⟨%d6, H6⟩⟩
  dsimp only [dat8]
  iapply sound_kernel8 c Set.univ
  iframe H0 H1 H2 H3 H4 H5
  isplitl [H6]; · iexists _; iexact H6
  iintro ⟨H0, H1, H2, H3, H4, H5, H6⟩
  iframe
  iexact Ho

theorem body_obligation8 : BodyObligation (dat8 (F := F) V c) (defs₀ (F := F)) Variants.none () Set.univ := fun t => by
  rw [bigSep_W8, bigSep_W8]
  exact sound_body8 V c t

theorem hin8 : Pipeline.ΦA spec8 c ⊢ (dat8 V c).Φ 0 := Entails.refl _

theorem hout8 : (dat8 V c).Φ (Fin.last cfg8.N) ⊢ Pipeline.ΦA spec8 c := Entails.refl _

end Cert.Kernel.Hand
-- ==== Proof.KB.Common.lean ====
import proofs.«410443_j44109314130257_2_alg».proof.Proof.Gen.Kernel.Regions

noncomputable section

namespace Cert.Kernel.Hand

open Cert.Kernel Cert.Kernel.Gen
open Idealize.ShloMosaic Idealize.ShloMosaic.TcCoe
open Idealize.SL Idealize.SL.Sem

variable {F : FTy → Type} [FloatOps F]

abbrev toV (W : Dev nD → Valuation τ sig (Elt F)) : (c : Dev nD) → (b : Ref sig .tc) → Buf (Elt F) ((c : Thread nD τ).loc b) :=
  fun c b => W c b

end Cert.Kernel.Hand

end
-- ==== Proof.KB.OutGen.lean ====
import proofs.«410443_j44109314130257_2_alg».proof.Proof.KB.Common

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]

/-- Writing back at `a` the entry an update at `a` already has there changes nothing. -/
theorem update_update_self {α : Sort*} [DecidableEq α] {β : α → Sort*} {f g : ∀ a, β a} {a : α} {v : β a} (h : f = g) :
    Function.update f a (Function.update g a v a) = Function.update g a v := by
  rw [h, Function.update_self]

variable {cfg : Pipeline.Cfg sig Λ₀} {c : Dev nD} (dat : Dat τ (Elt F) Unit ℕ (UR sig nD τ) ℕ cfg c)
  (W : Valuation τ sig (Elt F)) (o : Fin cfg.W)

/-- The contents `W` with the array of window `o` replaced by its final contents. -/
abbrev exitVal : Valuation τ sig (Elt F) :=
  Function.update W (Proc.devRef .tc (Pipeline.arrRef cfg.spec o) : DevRef τ sig) (dat.arrAt o cfg.N)

/-- Distinct windows have distinct arrays and every window but `o` is an input, so each array ends as `exitVal` has it. -/
theorem arrAt_exitVal (hinj : Function.Injective (Pipeline.arrRef cfg.spec))
    (hin : ∀ w, w ≠ o → (cfg.win w).isOut = false) (hA : ∀ w, dat.A w = W (Pipeline.arrRef cfg.spec w))
    (w : Fin cfg.W) : dat.arrAt w cfg.N = exitVal dat W o (Pipeline.arrRef cfg.spec w) := by
  by_cases h : w = o
  · subst h; exact Eq.symm (Function.update_self ..)
  · exact (dat.arrAt_in w (hin w h) _).trans <| (hA w).trans <| Eq.symm <|
      Function.update_of_ne (fun e => h (hinj (Proc.devRef_injective _ e))) ..

/-- A buffer that is no window's array is not the one replaced. -/
theorem exitVal_rest (b : Ref sig .tc) (hb : b ∉ Finset.univ.image (Pipeline.arrRef cfg.spec)) :
    exitVal dat W o b = W b :=
  Function.update_of_ne (fun e => hb (Finset.mem_image.mpr ⟨o, Finset.mem_univ _, (Proc.devRef_injective _ e).symm⟩)) ..

end Cert.Kernel.Hand

end
-- ==== Proof.KB.Chain.lean ====
import proofs.«410443_j44109314130257_2_alg».proof.Proof.KB.Reduce0
import proofs.«410443_j44109314130257_2_alg».proof.Proof.KB.Final1
import proofs.«410443_j44109314130257_2_alg».proof.Proof.KB.A2c2
import proofs.«410443_j44109314130257_2_alg».proof.Proof.KB.Reduce3
import proofs.«410443_j44109314130257_2_alg».proof.Proof.KB.Final4
import proofs.«410443_j44109314130257_2_alg».proof.Proof.KB.A2c5
import proofs.«410443_j44109314130257_2_alg».proof.Proof.KB.Reduce6
import proofs.«410443_j44109314130257_2_alg».proof.Proof.KB.Final7
import proofs.«410443_j44109314130257_2_alg».proof.Proof.KB.A2c8
import proofs.«410443_j44109314130257_2_alg».proof.Proof.KB.OutGen

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

section
variable (W : Dev nD → Valuation τ sig (Elt F))

abbrev outWin0 : Fin cfg0.W := 2
abbrev outRef0 : Ref sig .tc := Pipeline.arrRef spec0 outWin0
def o0 (c : Dev nD) : Buf (Elt F) ((c : Thread nD τ).loc outRef0) := (dat0 (toV W) c).arrAt outWin0 cfg0.N
abbrev WoutOf0 : Dev nD → Valuation τ sig (Elt F) := fun c => Function.update (W c) (Proc.devRef .tc outRef0 : DevRef τ sig) (o0 W c)
theorem hF0 (c : Dev nD) (w : Fin cfg0.W) : (dat0 (toV W) c).arrAt w cfg0.N = toV (WoutOf0 W) c (Pipeline.arrRef spec0 w) :=
  arrAt_exitVal (dat0 (toV W) c) (W c) outWin0 launch0.win.arr_inj (by decide) (A_eq0 _ c) w
theorem hrest0 (c : Dev nD) : ∀ b, b ∉ Finset.univ.image (Pipeline.arrRef spec0) → toV (WoutOf0 W) c b = toV W c b :=
  exitVal_rest (dat0 (toV W) c) (W c) outWin0

abbrev outWin1 : Fin cfg1.W := 5
abbrev outRef1 : Ref sig .tc := Pipeline.arrRef spec1 outWin1
def o1 (c : Dev nD) : Buf (Elt F) ((c : Thread nD τ).loc outRef1) := (dat1 (toV W) c).arrAt outWin1 cfg1.N
abbrev WoutOf1 : Dev nD → Valuation τ sig (Elt F) := fun c => Function.update (W c) (Proc.devRef .tc outRef1 : DevRef τ sig) (o1 W c)
theorem hF1 (c : Dev nD) (w : Fin cfg1.W) : (dat1 (toV W) c).arrAt w cfg1.N = toV (WoutOf1 W) c (Pipeline.arrRef spec1 w) :=
  arrAt_exitVal (dat1 (toV W) c) (W c) outWin1 launch1.win.arr_inj (by decide) (A_eq1 _ c) w
theorem hrest1 (c : Dev nD) : ∀ b, b ∉ Finset.univ.image (Pipeline.arrRef spec1) → toV (WoutOf1 W) c b = toV W c b :=
  exitVal_rest (dat1 (toV W) c) (W c) outWin1

abbrev outWin2 : Fin cfg2.W := 6
abbrev outRef2 : Ref sig .tc := Pipeline.arrRef spec2 outWin2
def o2 (c : Dev nD) : Buf (Elt F) ((c : Thread nD τ).loc outRef2) := (dat2 (toV W) c).arrAt outWin2 cfg2.N
abbrev WoutOf2 : Dev nD → Valuation τ sig (Elt F) := fun c => Function.update (W c) (Proc.devRef .tc outRef2 : DevRef τ sig) (o2 W c)
theorem hF2 (c : Dev nD) (w : Fin cfg2.W) : (dat2 (toV W) c).arrAt w cfg2.N = toV (WoutOf2 W) c (Pipeline.arrRef spec2 w) :=
  arrAt_exitVal (dat2 (toV W) c) (W c) outWin2 launch2.win.arr_inj (by decide) (A_eq2 _ c) w
theorem hrest2 (c : Dev nD) : ∀ b, b ∉ Finset.univ.image (Pipeline.arrRef spec2) → toV (WoutOf2 W) c b = toV W c b :=
  exitVal_rest (dat2 (toV W) c) (W c) outWin2

abbrev outWin3 : Fin cfg3.W := 2
abbrev outRef3 : Ref sig .tc := Pipeline.arrRef spec3 outWin3
def o3 (c : Dev nD) : Buf (Elt F) ((c : Thread nD τ).loc outRef3) := (dat3 (toV W) c).arrAt outWin3 cfg3.N
abbrev WoutOf3 : Dev nD → Valuation τ sig (Elt F) := fun c => Function.update (W c) (Proc.devRef .tc outRef3 : DevRef τ sig) (o3 W c)
theorem hF3 (c : Dev nD) (w : Fin cfg3.W) : (dat3 (toV W) c).arrAt w cfg3.N = toV (WoutOf3 W) c (Pipeline.arrRef spec3 w) :=
  arrAt_exitVal (dat3 (toV W) c) (W c) outWin3 launch3.win.arr_inj (by decide) (A_eq3 _ c) w
theorem hrest3 (c : Dev nD) : ∀ b, b ∉ Finset.univ.image (Pipeline.arrRef spec3) → toV (WoutOf3 W) c b = toV W c b :=
  exitVal_rest (dat3 (toV W) c) (W c) outWin3

abbrev outWin4 : Fin cfg4.W := 5
abbrev outRef4 : Ref sig .tc := Pipeline.arrRef spec4 outWin4
def o4 (c : Dev nD) : Buf (Elt F) ((c : Thread nD τ).loc outRef4) := (dat4 (toV W) c).arrAt outWin4 cfg4.N
abbrev WoutOf4 : Dev nD → Valuation τ sig (Elt F) := fun c => Function.update (W c) (Proc.devRef .tc outRef4 : DevRef τ sig) (o4 W c)
theorem hF4 (c : Dev nD) (w : Fin cfg4.W) : (dat4 (toV W) c).arrAt w cfg4.N = toV (WoutOf4 W) c (Pipeline.arrRef spec4 w) :=
  arrAt_exitVal (dat4 (toV W) c) (W c) outWin4 launch4.win.arr_inj (by decide) (A_eq4 _ c) w
theorem hrest4 (c : Dev nD) : ∀ b, b ∉ Finset.univ.image (Pipeline.arrRef spec4) → toV (WoutOf4 W) c b = toV W c b :=
  exitVal_rest (dat4 (toV W) c) (W c) outWin4

abbrev outWin5 : Fin cfg5.W := 6
abbrev outRef5 : Ref sig .tc := Pipeline.arrRef spec5 outWin5
def o5 (c : Dev nD) : Buf (Elt F) ((c : Thread nD τ).loc outRef5) := (dat5 (toV W) c).arrAt outWin5 cfg5.N
abbrev WoutOf5 : Dev nD → Valuation τ sig (Elt F) := fun c => Function.update (W c) (Proc.devRef .tc outRef5 : DevRef τ sig) (o5 W c)
theorem hF5 (c : Dev nD) (w : Fin cfg5.W) : (dat5 (toV W) c).arrAt w cfg5.N = toV (WoutOf5 W) c (Pipeline.arrRef spec5 w) :=
  arrAt_exitVal (dat5 (toV W) c) (W c) outWin5 launch5.win.arr_inj (by decide) (A_eq5 _ c) w
theorem hrest5 (c : Dev nD) : ∀ b, b ∉ Finset.univ.image (Pipeline.arrRef spec5) → toV (WoutOf5 W) c b = toV W c b :=
  exitVal_rest (dat5 (toV W) c) (W c) outWin5

abbrev outWin6 : Fin cfg6.W := 2
abbrev outRef6 : Ref sig .tc := Pipeline.arrRef spec6 outWin6
def o6 (c : Dev nD) : Buf (Elt F) ((c : Thread nD τ).loc outRef6) := (dat6 (toV W) c).arrAt outWin6 cfg6.N
abbrev WoutOf6 : Dev nD → Valuation τ sig (Elt F) := fun c => Function.update (W c) (Proc.devRef .tc outRef6 : DevRef τ sig) (o6 W c)
theorem hF6 (c : Dev nD) (w : Fin cfg6.W) : (dat6 (toV W) c).arrAt w cfg6.N = toV (WoutOf6 W) c (Pipeline.arrRef spec6 w) :=
  arrAt_exitVal (dat6 (toV W) c) (W c) outWin6 launch6.win.arr_inj (by decide) (A_eq6 _ c) w
theorem hrest6 (c : Dev nD) : ∀ b, b ∉ Finset.univ.image (Pipeline.arrRef spec6) → toV (WoutOf6 W) c b = toV W c b :=
  exitVal_rest (dat6 (toV W) c) (W c) outWin6

abbrev outWin7 : Fin cfg7.W := 5
abbrev outRef7 : Ref sig .tc := Pipeline.arrRef spec7 outWin7
def o7 (c : Dev nD) : Buf (Elt F) ((c : Thread nD τ).loc outRef7) := (dat7 (toV W) c).arrAt outWin7 cfg7.N
abbrev WoutOf7 : Dev nD → Valuation τ sig (Elt F) := fun c => Function.update (W c) (Proc.devRef .tc outRef7 : DevRef τ sig) (o7 W c)
theorem hF7 (c : Dev nD) (w : Fin cfg7.W) : (dat7 (toV W) c).arrAt w cfg7.N = toV (WoutOf7 W) c (Pipeline.arrRef spec7 w) :=
  arrAt_exitVal (dat7 (toV W) c) (W c) outWin7 launch7.win.arr_inj (by decide) (A_eq7 _ c) w
theorem hrest7 (c : Dev nD) : ∀ b, b ∉ Finset.univ.image (Pipeline.arrRef spec7) → toV (WoutOf7 W) c b = toV W c b :=
  exitVal_rest (dat7 (toV W) c) (W c) outWin7

abbrev outWin8 : Fin cfg8.W := 6
abbrev outRef8 : Ref sig .tc := Pipeline.arrRef spec8 outWin8
def o8 (c : Dev nD) : Buf (Elt F) ((c : Thread nD τ).loc outRef8) := (dat8 (toV W) c).arrAt outWin8 cfg8.N
abbrev WoutOf8 : Dev nD → Valuation τ sig (Elt F) := fun c => Function.update (W c) (Proc.devRef .tc outRef8 : DevRef τ sig) (o8 W c)
theorem hF8 (c : Dev nD) (w : Fin cfg8.W) : (dat8 (toV W) c).arrAt w cfg8.N = toV (WoutOf8 W) c (Pipeline.arrRef spec8 w) :=
  arrAt_exitVal (dat8 (toV W) c) (W c) outWin8 launch8.win.arr_inj (by decide) (A_eq8 _ c) w
theorem hrest8 (c : Dev nD) : ∀ b, b ∉ Finset.univ.image (Pipeline.arrRef spec8) → toV (WoutOf8 W) c b = toV W c b :=
  exitVal_rest (dat8 (toV W) c) (W c) outWin8

end

variable (m : (ℓ : Loc nD τ sig) → Buf (Elt F) ℓ)

abbrev Win0 : Dev nD → Valuation τ sig (Elt F) := fun c => V13 m c
abbrev Wout0 := WoutOf0 (Win0 m)
abbrev Win1 := Wout0 m
abbrev Wout1 := WoutOf1 (Win1 m)
abbrev Win2 := Wout1 m
abbrev Wout2 := WoutOf2 (Win2 m)
abbrev Win3 : Dev nD → Valuation τ sig (Elt F) := fun c => StableHlo.after hostOps3 (Wout2 m c)
abbrev Wout3 := WoutOf3 (Win3 m)
abbrev Win4 := Wout3 m
abbrev Wout4 := WoutOf4 (Win4 m)
abbrev Win5 := Wout4 m
abbrev Wout5 := WoutOf5 (Win5 m)
abbrev Win6 : Dev nD → Valuation τ sig (Elt F) := fun c => StableHlo.after hostOps6 (Wout5 m c)
abbrev Wout6 := WoutOf6 (Win6 m)
abbrev Win7 := Wout6 m
abbrev Wout7 := WoutOf7 (Win7 m)
abbrev Win8 := Wout7 m
abbrev Wout8 := WoutOf8 (Win8 m)
abbrev Wend : Dev nD → Valuation τ sig (Elt F) := fun c => StableHlo.after hostOps9 (Wout8 m c)

/-- What each region leaves in its output array: read off the contents after the region. -/
def outs : Outs (F := F) := fun J r c =>
  match J with
  | 14 => Wout0 m c r | 15 => Wout1 m c r | 16 => Wout2 m c r
  | 18 => Wout3 m c r | 19 => Wout4 m c r | 20 => Wout5 m c r
  | 22 => Wout6 m c r | 23 => Wout7 m c r | 24 => Wout8 m c r
  | _ => V13 m c r

theorem V14_eq (c : Dev nD) : V14 m (outs m) c = Wout0 m c := update_update_self rfl
theorem V15_eq (c : Dev nD) : V15 m (outs m) c = Wout1 m c := update_update_self (V14_eq m c)
theorem V16_eq (c : Dev nD) : V16 m (outs m) c = Wout2 m c := update_update_self (V15_eq m c)
theorem V17_eq (c : Dev nD) : V17 m (outs m) c = Win3 m c := congrArg (StableHlo.after hostOps3) (V16_eq m c)
theorem V18_eq (c : Dev nD) : V18 m (outs m) c = Wout3 m c := update_update_self (V17_eq m c)
theorem V19_eq (c : Dev nD) : V19 m (outs m) c = Wout4 m c := update_update_self (V18_eq m c)
theorem V20_eq (c : Dev nD) : V20 m (outs m) c = Wout5 m c := update_update_self (V19_eq m c)
theorem V21_eq (c : Dev nD) : V21 m (outs m) c = Win6 m c := congrArg (StableHlo.after hostOps6) (V20_eq m c)
theorem V22_eq (c : Dev nD) : V22 m (outs m) c = Wout6 m c := update_update_self (V21_eq m c)
theorem V23_eq (c : Dev nD) : V23 m (outs m) c = Wout7 m c := update_update_self (V22_eq m c)
theorem V24_eq (c : Dev nD) : V24 m (outs m) c = Wout8 m c := update_update_self (V23_eq m c)
theorem V25_eq (c : Dev nD) : V25 m (outs m) c = Wend m c := congrArg (StableHlo.after hostOps9) (V24_eq m c)

abbrev pIdx0 : Fin 9 := 0
abbrev pIdx1 : Fin 9 := 1
abbrev pIdx2 : Fin 9 := 2
abbrev pIdx3 : Fin 9 := 3
abbrev pIdx4 : Fin 9 := 4
abbrev pIdx5 : Fin 9 := 5
abbrev pIdx6 : Fin 9 := 6
abbrev pIdx7 : Fin 9 := 7
abbrev pIdx8 : Fin 9 := 8

/-- Every pipeline's proof data, each at the contents its region is entered from. -/
def pdats : (p : Fin 9) → (c : Dev nD) → Dat τ (Elt F) Unit ℕ (UR sig nD τ) ℕ (Pipeline.pin (pcfgs (F := F)) adm p) c
  | ⟨0, _⟩ => fun c => dat0 (toV (Win0 m)) c
  | ⟨1, _⟩ => fun c => dat1 (toV (Win1 m)) c
  | ⟨2, _⟩ => fun c => dat2 (toV (Win2 m)) c
  | ⟨3, _⟩ => fun c => dat3 (toV (Win3 m)) c
  | ⟨4, _⟩ => fun c => dat4 (toV (Win4 m)) c
  | ⟨5, _⟩ => fun c => dat5 (toV (Win5 m)) c
  | ⟨6, _⟩ => fun c => dat6 (toV (Win6 m)) c
  | ⟨7, _⟩ => fun c => dat7 (toV (Win7 m)) c
  | ⟨8, _⟩ => fun c => dat8 (toV (Win8 m)) c

abbrev 𝒱₀ : Variants := Variants.none
abbrev L : GSem nD τ sig → Finset Unit := fun _ => ∅
abbrev lv : GSem nD τ sig → Unit → ℕ := fun _ _ => 0
/-- Beside the buffers every item carries the generator register at some state and nothing owed. -/
abbrev Rr (c : Dev nD) : sProp 𝕄 := iprop((∃ r, prngReg c r) ∗ ∃ W, owes (c : Thread nD τ) (0 : CellTallies nD τ sig Unit) W)

end Cert.Kernel.Hand

end
-- ==== Proof.KB.Seg.lean ====
import proofs.«410443_j44109314130257_2_alg».proof.Proof.KB.Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev pc (p : Fin 9) := Pipeline.pin (pcfgs (F := F)) adm p

-- A region is one segment of the program: its arrays are split out of the core's buffers at the entry contents `Wi` and put back at the exit
-- contents `Wo`, the generator register passes through the region's invariant, and the kernel owes nothing.
set_option backward.isDefEq.respectTransparency.types false in
def regOf (p : Fin 9) (launch : Pipeline.LaunchFacts (nD := nD) (τ := τ) cfgs p) (Wi Wo : Dev nD → Valuation τ sig (Elt F))
    (hbody : ∀ c, Pipeline.BodyObligationLoose (pdats m p c) (defs₀ (F := F)) 𝒱₀ () Set.univ)
    (howed : ∀ c t, (pdats m p c).owed t = 0) (hrec : ∀ c x, x ∈ (pdats m p c).recorded 0)
    (hq : ∀ c w, (pdats m p c).q w = fullShare)
    (hA : ∀ c w, (pdats m p c).A w = toV Wi c (Pipeline.arrRef (pc (F := F) p).spec w))
    (hin : ∀ c, (Pipeline.ΦA (pc (F := F) p).spec c : sProp 𝕄) ⊢ (pdats m p c).Φ 0)
    (hout : ∀ c, (pdats m p c).Φ (Fin.last (pc (F := F) p).N) ⊢ (Pipeline.ΦA (pc (F := F) p).spec c : sProp 𝕄))
    (hF : ∀ c w, (pdats m p c).arrAt w (pc (F := F) p).N = toV Wo c (Pipeline.arrRef (pc (F := F) p).spec w))
    (hrest : ∀ c b, b ∉ Finset.univ.image (Pipeline.arrRef (pc (F := F) p).spec) → toV Wo c b = toV Wi c b) :
    RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ Rr c)
  post c := iprop(StableHlo.held (c : Thread nD τ) (Pipeline.ucRefs τ sig) (Wo c) ∗ Rr c)
  X c := iprop(∃ r, prngReg c r)
  Y c := iprop(∃ r, prngReg c r)
  Z c := Pipeline.unscopedRest (Ix := Unit) (Name := ℕ) (U := UR sig nD τ) (Lvl := ℕ) (pc (F := F) p).spec c (toV Wi c)
  hentry c := by
    rw [Pipeline.ownSems0_none]
    have hsplit := Pipeline.arrays_of_unscopedBufs (p := p) (pcfgs (F := F)) adm (pdats m) launch.win launch.arr_whole c
      ((pdats m p c).share_full (hq c)) (toV Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (toV Wi c) (toV Wo c) ((pdats m p c).arrAt · (pc (F := F) p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : RegionSeg (pcfgs (F := F)) adm (pdats m) () defs₀ 𝒱₀ L lv pIdx0 :=
  regOf m pIdx0 launch0 (Win0 m) (Wout0 m) (fun c => (body_obligation0 (toV (Win0 m)) c).loose) (fun _ _ => rfl) (fun _ _ => trivial)
    (fun _ _ => rfl) (fun _ _ => rfl) (hin0 (toV (Win0 m))) (hout0 (toV (Win0 m))) (hF0 (Win0 m)) (hrest0 (Win0 m))
def reg1 : RegionSeg (pcfgs (F := F)) adm (pdats m) () defs₀ 𝒱₀ L lv pIdx1 :=
  regOf m pIdx1 launch1 (Win1 m) (Wout1 m) (fun c => (body_obligation1 (toV (Win1 m)) c).loose) (fun _ _ => rfl) (fun _ _ => trivial)
    (fun _ _ => rfl) (fun _ _ => rfl) (hin1 (toV (Win1 m))) (hout1 (toV (Win1 m))) (hF1 (Win1 m)) (hrest1 (Win1 m))
def reg2 : RegionSeg (pcfgs (F := F)) adm (pdats m) () defs₀ 𝒱₀ L lv pIdx2 :=
  regOf m pIdx2 launch2 (Win2 m) (Wout2 m) (fun c => (body_obligation2 (toV (Win2 m)) c).loose) (fun _ _ => rfl) (fun _ _ => trivial)
    (fun _ _ => rfl) (fun _ _ => rfl) (hin2 (toV (Win2 m))) (hout2 (toV (Win2 m))) (hF2 (Win2 m)) (hrest2 (Win2 m))
def reg3 : RegionSeg (pcfgs (F := F)) adm (pdats m) () defs₀ 𝒱₀ L lv pIdx3 :=
  regOf m pIdx3 launch3 (Win3 m) (Wout3 m) (fun c => (body_obligation3 (toV (Win3 m)) c).loose) (fun _ _ => rfl) (fun _ _ => trivial)
    (fun _ _ => rfl) (fun _ _ => rfl) (hin3 (toV (Win3 m))) (hout3 (toV (Win3 m))) (hF3 (Win3 m)) (hrest3 (Win3 m))
def reg4 : RegionSeg (pcfgs (F := F)) adm (pdats m) () defs₀ 𝒱₀ L lv pIdx4 :=
  regOf m pIdx4 launch4 (Win4 m) (Wout4 m) (fun c => (body_obligation4 (toV (Win4 m)) c).loose) (fun _ _ => rfl) (fun _ _ => trivial)
    (fun _ _ => rfl) (fun _ _ => rfl) (hin4 (toV (Win4 m))) (hout4 (toV (Win4 m))) (hF4 (Win4 m)) (hrest4 (Win4 m))
def reg5 : RegionSeg (pcfgs (F := F)) adm (pdats m) () defs₀ 𝒱₀ L lv pIdx5 :=
  regOf m pIdx5 launch5 (Win5 m) (Wout5 m) (fun c => (body_obligation5 (toV (Win5 m)) c).loose) (fun _ _ => rfl) (fun _ _ => trivial)
    (fun _ _ => rfl) (fun _ _ => rfl) (hin5 (toV (Win5 m))) (hout5 (toV (Win5 m))) (hF5 (Win5 m)) (hrest5 (Win5 m))
def reg6 : RegionSeg (pcfgs (F := F)) adm (pdats m) () defs₀ 𝒱₀ L lv pIdx6 :=
  regOf m pIdx6 launch6 (Win6 m) (Wout6 m) (fun c => (body_obligation6 (toV (Win6 m)) c).loose) (fun _ _ => rfl) (fun _ _ => trivial)
    (fun _ _ => rfl) (fun _ _ => rfl) (hin6 (toV (Win6 m))) (hout6 (toV (Win6 m))) (hF6 (Win6 m)) (hrest6 (Win6 m))
def reg7 : RegionSeg (pcfgs (F := F)) adm (pdats m) () defs₀ 𝒱₀ L lv pIdx7 :=
  regOf m pIdx7 launch7 (Win7 m) (Wout7 m) (fun c => (body_obligation7 (toV (Win7 m)) c).loose) (fun _ _ => rfl) (fun _ _ => trivial)
    (fun _ _ => rfl) (fun _ _ => rfl) (hin7 (toV (Win7 m))) (hout7 (toV (Win7 m))) (hF7 (Win7 m)) (hrest7 (Win7 m))
def reg8 : RegionSeg (pcfgs (F := F)) adm (pdats m) () defs₀ 𝒱₀ L lv pIdx8 :=
  regOf m pIdx8 launch8 (Win8 m) (Wout8 m) (fun c => (body_obligation8 (toV (Win8 m)) c).loose) (fun _ _ => rfl) (fun _ _ => trivial)
    (fun _ _ => rfl) (fun _ _ => rfl) (hin8 (toV (Win8 m))) (hout8 (toV (Win8 m))) (hF8 (Win8 m)) (hrest8 (Win8 m))

end Cert.Kernel.Hand

end
-- ==== Proof.KB.Run.lean ====
import proofs.«410443_j44109314130257_2_alg».proof.Proof.KB.Seg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Es : Fin 10 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem held_of_eq {c : Dev nD} {V V' : Valuation τ sig (Elt F)} (h : V = V') :
    (iprop(StableHlo.held (c : Thread nD τ) (Pipeline.ucRefs τ sig) V ∗ Rr c) : sProp 𝕄)
      ⊢ iprop(StableHlo.held (c : Thread nD τ) (Pipeline.ucRefs τ sig) V' ∗ Rr c) := by rw [h]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m c b) := by
  refine Pipeline.θ_run_regions_kit_dev (pcfgs (F := F)) adm (pdats m) () cellOf_inj emb₁ defs₀ 𝒱₀ L lv m ρ main
    (segs m (outs m) 𝒱₀ L lv Es () (pdats m) (reg0 m) (reg1 m) (reg2 m) (reg3 m) (reg4 m) (reg5 m) (reg6 m) (reg7 m) (reg8 m))
    (fun c Q => by
      rewrite [main_chain c, Seg.run_eq_chain,
        show (segs m (outs m) 𝒱₀ L lv Es () (pdats m) (reg0 m) (reg1 m) (reg2 m) (reg3 m) (reg4 m) (reg5 m) (reg6 m) (reg7 m) (reg8 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          StableHlo.seq hostOps6,
          Prog.lift (.customCall (Pipeline.entry 6) ()),
          Prog.lift (.customCall (Pipeline.entry 7) ()),
          Prog.lift (.customCall (Pipeline.entry 8) ()),
          StableHlo.seq hostOps9 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V25 m (outs m) c) ∗ ∃ r, prngReg c r))
    (hch := fun c => ⟨.rfl, .rfl, .rfl, .rfl, .rfl, .rfl, .rfl, .rfl, .rfl, .rfl, .rfl, .rfl, .rfl,
      .rfl, .rfl, .rfl, held_of_eq (V16_eq m c).symm, held_of_eq (V17_eq m c),
      .rfl, .rfl, held_of_eq (V20_eq m c).symm, held_of_eq (V21_eq m c),
      .rfl, .rfl, held_of_eq (V24_eq m c).symm,
      (show iprop(StableHlo.held (c : Thread nD τ) (Pipeline.ucRefs τ sig) (V25 m (outs m) c) ∗ Rr c) ⊢ iprop((StableHlo.held (c : Thread nD τ) (Pipeline.ucRefs τ sig) (V25 m (outs m) c) ∗ ∃ r, prngReg c r) ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      rw [V25_eq]
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c => h c)

end Cert.Kernel.Hand

end
-- ==== Proof.KB.Frame.lean ====
import proofs.«410443_j44109314130257_2_alg».proof.Proof.KB.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

abbrev kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)

-- No host operation and no region writes an argument: its buffer at the end of the chain of contents walks back to the launch memory.
theorem kept_of {mem : (ℓ : Loc nD τ sig) → Buf (Elt F) ℓ} {c : Dev nD}
    (h : ∀ b ∈ Pipeline.ucRefs τ sig, mem (((c : Thread nD τ)).1, b) = Wend m c b) : kept m mem c :=
  have e (b : Ref sig .tc) (hb : ¬ (Proc.devRef .tc b : DevRef τ sig).isScoped) :
      mem ((c.tc : Thread nD τ).loc b) = V25 m (outs m) c (Proc.devRef .tc b) :=
    (h _ (mem_uc b hb)).trans (congrFun (V25_eq m c) _).symm
  ⟨(e main_arg0 (by decide)).trans (V25_main_arg0 m (outs m) c),
    (e main_arg1 (by decide)).trans (V25_main_arg1 m (outs m) c),
    (e main_arg2 (by decide)).trans (V25_main_arg2 m (outs m) c),
    (e main_arg3 (by decide)).trans (V25_main_arg3 m (outs m) c),
    (e main_arg4 (by decide)).trans (V25_main_arg4 m (outs m) c),
    (e main_arg5 (by decide)).trans (V25_main_arg5 m (outs m) c),
    (e main_arg6 (by decide)).trans (V25_main_arg6 m (outs m) c),
    (e main_arg7 (by decide)).trans (V25_main_arg7 m (outs m) c),
    (e main_arg8 (by decide)).trans (V25_main_arg8 m (outs m) c),
    (e main_arg9 (by decide)).trans (V25_main_arg9 m (outs m) c),
    (e main_arg10 (by decide)).trans (V25_main_arg10 m (outs m) c),
    (e main_arg11 (by decide)).trans (V25_main_arg11 m (outs m) c),
    (e main_arg12 (by decide)).trans (V25_main_arg12 m (outs m) c),
    (e main_arg13 (by decide)).trans (V25_main_arg13 m (outs m) c)⟩

theorem frame : θ_run defs (onTc (τ := τ) (main (F := F))) ⟨m, fun _ => 0, ρ⟩ (fun r => ∀ c : Dev nD, kept m r.2.mem c) :=
  (θ_run defs _ _).mono (fun _ h c => kept_of m (h c)) (run_all m ρ)

theorem run_value : θ_run defs (onTc (τ := τ) (main (F := F))) ⟨m, fun _ => 0, ρ⟩ (fun r => ∀ c : Dev nD,
      r.2.mem ((c.tc : Thread nD τ).loc main_v120) = Wend m c main_v120 ∧ kept m r.2.mem c) :=
  (θ_run defs _ _).mono (fun _ h c => ⟨h c _ (mem_uc main_v120 (by decide)), kept_of m (h c)⟩) (run_all m ρ)

end Cert.Kernel.Hand

end
-- ==== Proof.RefGen.lean ====
import proofs.«410443_j44109314130257_2_alg».proof.Proof.Gen.ReferenceIdeal.Run
import proofs.«410443_j44109314130257_2_alg».proof.Proof.Gen.ReferenceIdeal.Read
-- ==== Proof.Spec.lean ====
import Idealize.ShloMosaic.PureOps.Ideal
import Idealize.ShloMosaic.Lib.ValueIdx

noncomputable section

namespace Cert.Spec

open Idealize.ShloMosaic Idealize.ShloMosaic.ValueIdx

abbrev SXc : Shape := ⟨2, ![100096, 128]⟩
abbrev SXa : Shape := ⟨2, ![1024, 128]⟩
abbrev SXc0 : Shape := ⟨2, ![100000, 128]⟩
abbrev SXa0 : Shape := ⟨2, ![1000, 128]⟩
abbrev SAc : Shape := ⟨3, ![782, 1024, 128]⟩
abbrev SAa : Shape := ⟨3, ![782, 128, 1024]⟩
abbrev SP : Shape := ⟨3, ![2, 1024, 128]⟩
abbrev SW : Shape := ⟨2, ![128, 128]⟩
abbrev SB : Shape := ⟨2, ![1, 128]⟩

abbrev E : ℕ := 1600000

def tenth : EReal := Ideal.ofBits .f32 0x3DCCCCCD#32

def leaky (x : EReal) : EReal :=
  Scalar.select (FloatOps.cmpf (F := Ideal) (φ := .f32) .oge x 0) x (tenth * x)

def blkOf (c : Fin 2) (j : Fin 391) : Fin 782 := ⟨c.val * 391 + j.val, by omega⟩

def rowOf (b : Fin 782) (k : Fin 128) : Fin 100096 := ⟨b.val * 128 + k.val, by omega⟩

def blkIdx (i : Fin 100096) : Fin 782 := ⟨i.val / 128, by omega⟩
def locIdx (i : Fin 100096) : Fin 128 := ⟨i.val % 128, Nat.mod_lt _ (by decide)⟩

def kPartialAt (A : SAc.Idx → EReal) (x : SXc.Idx → EReal) (c : Fin 2) (r : Fin 1024) (d : Fin 128) : EReal :=
  ∑ j : Fin 391, ∑ k : Fin 128, A (ix3 (blkOf c j) r k) * x (ix2 (rowOf (blkOf c j) k) d)
def kPartial (A : SAc.Idx → EReal) (x : SXc.Idx → EReal) : SP.Idx → EReal :=
  fun i => kPartialAt A x (i 0) (i 1) (i 2)

def sageAt (mean own : Fin 128 → EReal) (Wl Wr : SW.Idx → EReal) (b : SB.Idx → EReal) (d : Fin 128) : EReal :=
  leaky ((∑ k : Fin 128, mean k * Wl (ix2 k d)) + (∑ k : Fin 128, own k * Wr (ix2 k d)) + b (ix2 0 d))

def kFinalAt (P : SP.Idx → EReal) (xa : SXa.Idx → EReal) (Wl Wr : SW.Idx → EReal) (b : SB.Idx → EReal)
    (r : Fin 1024) (d : Fin 128) : EReal :=
  if r.val < 1000 then sageAt (fun k => P (ix3 0 r k) + P (ix3 1 r k)) (fun k => xa (ix2 r k)) Wl Wr b d else 0
def kFinal (P : SP.Idx → EReal) (xa : SXa.Idx → EReal) (Wl Wr : SW.Idx → EReal) (b : SB.Idx → EReal) : SXa.Idx → EReal :=
  fun i => kFinalAt P xa Wl Wr b (i 0) (i 1)

def kA2cAt (A : SAa.Idx → EReal) (xc : SXc.Idx → EReal) (xa : SXa.Idx → EReal) (Wl Wr : SW.Idx → EReal) (b : SB.Idx → EReal)
    (i : Fin 100096) (d : Fin 128) : EReal :=
  if i.val < 100000 then
    sageAt (fun k => ∑ s : Fin 1024, A (ix3 (blkIdx i) (locIdx i) s) * xa (ix2 s k)) (fun k => xc (ix2 i k)) Wl Wr b d
  else 0
def kA2c (A : SAa.Idx → EReal) (xc : SXc.Idx → EReal) (xa : SXa.Idx → EReal) (Wl Wr : SW.Idx → EReal) (b : SB.Idx → EReal) :
    SXc.Idx → EReal :=
  fun i => kA2cAt A xc xa Wl Wr b (i 0) (i 1)

def segSum (key : Fin E → ℕ) (f : Fin E → EReal) (a : ℕ) : EReal := ∑ e : Fin E, if key e = a then f e else 0

def segCnt (key : Fin E → ℕ) (a : ℕ) : EReal := segSum key (fun _ => 1) a

def adjC (src dst : Fin E → ℕ) : SAc.Idx → EReal := fun i =>
  Ideal.div (∑ e : Fin E, if src e = (i 0).val * 128 + (i 2).val ∧ dst e = (i 1).val then 1 else 0)
    (max (segCnt dst (i 1).val) 1)

def adjA (src dst : Fin E → ℕ) : SAa.Idx → EReal := fun i =>
  Ideal.div (∑ e : Fin E, if dst e = (i 0).val * 128 + (i 1).val ∧ src e = (i 2).val then 1 else 0)
    (max (segCnt dst ((i 0).val * 128 + (i 1).val)) 1)

def rMeanAt {N : ℕ} (x : (⟨2, ![N, 128]⟩ : Shape).Idx → EReal) (src dst : Fin E → ℕ) (hsrc : ∀ e, src e < N) (a : ℕ) (d : Fin 128) : EReal :=
  Ideal.div (segSum dst (fun e => x (ix2 ⟨src e, hsrc e⟩ d)) a) (max (segCnt dst a) 1)

def rLayerA (xc : SXc0.Idx → EReal) (xa : SXa0.Idx → EReal) (src dst : Fin E → ℕ) (hsrc : ∀ e, src e < 100000)
    (Wl Wr : SW.Idx → EReal) (b : SB.Idx → EReal) : SXa0.Idx → EReal :=
  fun i => sageAt (fun k => rMeanAt xc src dst hsrc (i 0).val k) (fun k => xa (ix2 (i 0) k)) Wl Wr b (i 1)

def rLayerC (xc : SXc0.Idx → EReal) (xa : SXa0.Idx → EReal) (src dst : Fin E → ℕ) (hsrc : ∀ e, src e < 1000)
    (Wl Wr : SW.Idx → EReal) (b : SB.Idx → EReal) : SXc0.Idx → EReal :=
  fun i => sageAt (fun k => rMeanAt xa src dst hsrc (i 0).val k) (fun k => xc (ix2 (i 0) k)) Wl Wr b (i 1)

def padC (x : SXc0.Idx → EReal) : SXc.Idx → EReal := fun i => if h : (i 0).val < 100000 then x (ix2 ⟨(i 0).val, h⟩ (i 1)) else 0
def padA (x : SXa0.Idx → EReal) : SXa.Idx → EReal := fun i => if h : (i 0).val < 1000 then x (ix2 ⟨(i 0).val, h⟩ (i 1)) else 0

def Fin' {S : Shape} (x : S.Idx → EReal) : Prop := ∀ i, ∃ r : ℝ, x i = (r : EReal)

end Cert.Spec

end
-- ==== Proof.Val.Persist.lean ====
import proofs.«410443_j44109314130257_2_alg».proof.Proof.Gen.KernelIdeal.Regions

set_option maxRecDepth 16384

noncomputable section

namespace Cert.KernelIdeal.Val

open Cert.KernelIdeal Cert.KernelIdeal.Gen
open Idealize.ShloMosaic Idealize.ShloMosaic.TcCoe

variable {F : FTy → Type} [FloatOps F]
variable (m : (ℓ : Loc nD τ sig) → Buf (Elt F) ℓ) (outs : Outs (F := F)) (c : Dev nD)

-- A valuation changes only at the references an item writes: one hypothesis per item crossed.
theorem to13_of15 (r : Ref sig .tc) (h14 : r ∉ ([main_v78] : List (Ref sig .tc))) (h15 : r ∉ ([main_v79] : List (Ref sig .tc))) :
    V15 m outs c r = V13 m c r :=
  (V15_of m outs c r h15).trans (V14_of m outs c r h14)

theorem to13_of17 (r : Ref sig .tc) (h14 : r ∉ ([main_v78] : List (Ref sig .tc))) (h15 : r ∉ ([main_v79] : List (Ref sig .tc)))
    (h16 : r ∉ ([main_v80] : List (Ref sig .tc))) (h17 : r ∉ hostOps3_W) : V17 m outs c r = V13 m c r :=
  (V17_of m outs c r h17).trans <| (V16_of m outs c r h16).trans <| to13_of15 m outs c r h14 h15

theorem to17_of19 (r : Ref sig .tc) (h18 : r ∉ ([main_v95] : List (Ref sig .tc))) (h19 : r ∉ ([main_v96] : List (Ref sig .tc))) :
    V19 m outs c r = V17 m outs c r :=
  (V19_of m outs c r h19).trans (V18_of m outs c r h18)

theorem to17_of21 (r : Ref sig .tc) (h18 : r ∉ ([main_v95] : List (Ref sig .tc))) (h19 : r ∉ ([main_v96] : List (Ref sig .tc)))
    (h20 : r ∉ ([main_v97] : List (Ref sig .tc))) (h21 : r ∉ hostOps6_W) : V21 m outs c r = V17 m outs c r :=
  (V21_of m outs c r h21).trans <| (V20_of m outs c r h20).trans <| to17_of19 m outs c r h18 h19

theorem to21_of23 (r : Ref sig .tc) (h22 : r ∉ ([main_v112] : List (Ref sig .tc))) (h23 : r ∉ ([main_v113] : List (Ref sig .tc))) :
    V23 m outs c r = V21 m outs c r :=
  (V23_of m outs c r h23).trans (V22_of m outs c r h22)

theorem p3_main_v32 : V17 m outs c main_v32 = V13 m c main_v32 :=
  to13_of17 m outs c _ (by decide) (by decide) (by decide) (by decide)
theorem p3_main_v80 : V17 m outs c main_v80 = outs 16 main_v80 c :=
  (V17_of m outs c _ (by decide)).trans (by simp only [V16, Function.update_self])

theorem p4_main_v79 : V18 m outs c main_v79 = outs 15 main_v79 c :=
  (V18_of m outs c _ (by decide)).trans <| (V17_of m outs c _ (by decide)).trans <| (V16_of m outs c _ (by decide)).trans
    (by simp only [V15, Function.update_self])

theorem p5_main_v63 : V19 m outs c main_v63 = V13 m c main_v63 :=
  (to17_of19 m outs c _ (by decide) (by decide)).trans (to13_of17 m outs c _ (by decide) (by decide) (by decide) (by decide))
theorem p5_main_v80 : V19 m outs c main_v80 = outs 16 main_v80 c :=
  (to17_of19 m outs c _ (by decide) (by decide)).trans (p3_main_v80 m outs c)
theorem p5_main_v79 : V19 m outs c main_v79 = outs 15 main_v79 c :=
  (V19_of m outs c _ (by decide)).trans (p4_main_v79 m outs c)

theorem p6_main_v97 : V21 m outs c main_v97 = outs 20 main_v97 c :=
  (V21_of m outs c _ (by decide)).trans (by simp only [V20, Function.update_self])

theorem p7_main_v96 : V22 m outs c main_v96 = outs 19 main_v96 c :=
  (V22_of m outs c _ (by decide)).trans <| (V21_of m outs c _ (by decide)).trans <| (V20_of m outs c _ (by decide)).trans
    (by simp only [V19, Function.update_self])

theorem p8_main_v63 : V23 m outs c main_v63 = V13 m c main_v63 :=
  (to21_of23 m outs c _ (by decide) (by decide)).trans <|
    (to17_of21 m outs c _ (by decide) (by decide) (by decide) (by decide)).trans <|
      to13_of17 m outs c _ (by decide) (by decide) (by decide) (by decide)
theorem p8_main_v97 : V23 m outs c main_v97 = outs 20 main_v97 c :=
  (to21_of23 m outs c _ (by decide) (by decide)).trans (p6_main_v97 m outs c)
theorem p8_main_v96 : V23 m outs c main_v96 = outs 19 main_v96 c :=
  (V23_of m outs c _ (by decide)).trans (p7_main_v96 m outs c)

theorem p9_main_v114 : V24 m outs c main_v114 = outs 24 main_v114 c := by
  simp only [V24, Function.update_self]

end Cert.KernelIdeal.Val

end
-- ==== Proof.Val.Tail.lean ====
import proofs.«410443_j44109314130257_2_alg».proof.Proof.Spec
import Idealize.ShloMosaic.Lib.ValueIdx
import Idealize.ShloMosaic.Lib.ValueIdxRank1

noncomputable section

namespace Cert.Spec

open Idealize.ShloMosaic Idealize.ShloMosaic.ValueIdx

abbrev STW : Shape := ⟨2, ![128, 1]⟩
abbrev STb : Shape := ⟨1, ![1]⟩
abbrev STo : Shape := ⟨1, ![100000]⟩

def tailFn (x : SXc0.Idx → EReal) (W : STW.Idx → EReal) (b : STb.Idx → EReal) : STo.Idx → EReal :=
  fun i => (∑ k : Fin 128, x (ix2 (i 0) k) * W (ix2 k 0)) + b (ix1 0)

def wslice (l : Fin 3) (W : (⟨3, ![3, 128, 128]⟩ : Shape).Idx → EReal) : SW.Idx → EReal :=
  fun i => W (ix3 l (i 0) (i 1))

def bslice (l : Fin 3) (B : (⟨2, ![3, 128]⟩ : Shape).Idx → EReal) : SB.Idx → EReal :=
  fun i => B (ix2 l (i 1))

end Cert.Spec

end
-- ==== Proof.Val.Layers.lean ====
import proofs.«410443_j44109314130257_2_alg».proof.Proof.Spec
import proofs.«410443_j44109314130257_2_alg».proof.Proof.Val.Tail

noncomputable section

namespace Cert.Spec

open Idealize.ShloMosaic Idealize.ShloMosaic.ValueIdx

variable (src2 dst3 src4 dst5 : Fin E → ℕ) (h2 : ∀ e, src2 e < 100000) (h4 : ∀ e, src4 e < 1000)
  (W6 W7 : (⟨3, ![3, 128, 128]⟩ : Shape).Idx → EReal) (B8 : (⟨2, ![3, 128]⟩ : Shape).Idx → EReal)
  (W9 W10 : (⟨3, ![3, 128, 128]⟩ : Shape).Idx → EReal) (B11 : (⟨2, ![3, 128]⟩ : Shape).Idx → EReal)

-- Layer l takes the old pair (client rows, aggregator rows) to the new pair; both halves read the old pair.
def refLayer (l : Fin 3) (p : (SXc0.Idx → EReal) × (SXa0.Idx → EReal)) : (SXc0.Idx → EReal) × (SXa0.Idx → EReal) :=
  (rLayerC p.1 p.2 src4 dst5 h4 (wslice l W9) (wslice l W10) (bslice l B11),
   rLayerA p.1 p.2 src2 dst3 h2 (wslice l W6) (wslice l W7) (bslice l B8))

theorem refLayer_fst (l : Fin 3) (p : (SXc0.Idx → EReal) × (SXa0.Idx → EReal)) :
    (refLayer src2 dst3 src4 dst5 h2 h4 W6 W7 B8 W9 W10 B11 l p).1
      = rLayerC p.1 p.2 src4 dst5 h4 (wslice l W9) (wslice l W10) (bslice l B11) := by
  simp only [refLayer]

theorem refLayer_snd (l : Fin 3) (p : (SXc0.Idx → EReal) × (SXa0.Idx → EReal)) :
    (refLayer src2 dst3 src4 dst5 h2 h4 W6 W7 B8 W9 W10 B11 l p).2
      = rLayerA p.1 p.2 src2 dst3 h2 (wslice l W6) (wslice l W7) (bslice l B8) := by
  simp only [refLayer]

def refLayers (x0 : SXc0.Idx → EReal) (x1 : SXa0.Idx → EReal) : (SXc0.Idx → EReal) × (SXa0.Idx → EReal) :=
  refLayer src2 dst3 src4 dst5 h2 h4 W6 W7 B8 W9 W10 B11 2
    (refLayer src2 dst3 src4 dst5 h2 h4 W6 W7 B8 W9 W10 B11 1
      (refLayer src2 dst3 src4 dst5 h2 h4 W6 W7 B8 W9 W10 B11 0 (x0, x1)))

end Cert.Spec

end
-- ==== Proof.Val.Math.lean ====
import proofs.«410443_j44109314130257_2_alg».proof.Proof.Spec
import Mathlib.Data.EReal.Basic
import Mathlib.Data.Fintype.BigOperators
import Mathlib.Algebra.BigOperators.Fin
import Mathlib.Logic.Equiv.Fin.Basic

noncomputable section

namespace Cert.Spec.Math

open Idealize.ShloMosaic Idealize.ShloMosaic.ValueIdx
open Cert.Spec
open scoped BigOperators

theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem coe_max (a b : ℝ) : ((max a b : ℝ) : EReal) = max (a : EReal) (b : EReal) :=
  EReal.coe_strictMono.monotone.map_max

theorem div_coe_coe (x m : ℝ) (hm : m ≠ 0) : Ideal.div (x : EReal) (m : EReal) = ((x / m : ℝ) : EReal) := by
  rw [Ideal.div_coe hm, ← EReal.coe_mul, mul_one_div]

section Counts
variable {ι : Type*} [Fintype ι]

def cnt (P : ι → Prop) [DecidablePred P] : ℝ := ∑ e, if P e then 1 else 0

def den (P : ι → Prop) [DecidablePred P] : ℝ := max (cnt P) 1

theorem den_ne_zero (P : ι → Prop) [DecidablePred P] : den P ≠ 0 :=
  (lt_of_lt_of_le one_pos (le_max_right _ _)).ne'

theorem coe_cnt (P : ι → Prop) [DecidablePred P] : (∑ e, if P e then (1 : EReal) else 0) = ((cnt P : ℝ) : EReal) := by
  unfold cnt
  rw [coe_sum]
  refine Finset.sum_congr rfl fun e _ => ?_
  split_ifs <;> rfl

theorem coe_den (P : ι → Prop) [DecidablePred P] : max (∑ e, if P e then (1 : EReal) else 0) 1 = ((den P : ℝ) : EReal) := by
  rw [coe_cnt, den, coe_max, EReal.coe_one]

-- The count of edges from i into the segment is itself a sum over the edges, so the two finite sums are exchanged.
theorem exchange (src : ι → ℕ) (P : ι → Prop) [DecidablePred P] (N : ℕ) (hsrc : ∀ e, src e < N) (X : ℕ → ℝ) (m : ℝ) :
    ∑ i ∈ Finset.range N, (cnt (fun e => src e = i ∧ P e) / m) * X i = (∑ e, if P e then X (src e) else 0) / m := by
  have h1 : ∀ i, (cnt (fun e => src e = i ∧ P e) / m) * X i = (∑ e, if src e = i ∧ P e then X i else 0) / m := by
    intro i
    unfold cnt
    rw [div_mul_eq_mul_div, Finset.sum_mul]
    congr 1
    refine Finset.sum_congr rfl fun e _ => ?_
    split_ifs <;> simp
  rw [Finset.sum_congr rfl (fun i _ => h1 i), ← Finset.sum_div, Finset.sum_comm]
  congr 1
  refine Finset.sum_congr rfl fun e _ => ?_
  by_cases hP : P e
  · simp only [hP, and_true, if_true]
    rw [Finset.sum_ite_eq (Finset.range N) (src e) X, if_pos (Finset.mem_range.mpr (hsrc e))]
  · simp only [hP, and_false, if_false, Finset.sum_const_zero]

theorem kernel_mean (src key : ι → ℕ) (a : ℕ) (N : ℕ) (hsrc : ∀ e, src e < N) (X : ℕ → ℝ) :
    ∑ i ∈ Finset.range N,
        Ideal.div (∑ e, if src e = i ∧ key e = a then (1 : EReal) else 0) (max (∑ e, if key e = a then (1 : EReal) else 0) 1)
          * (X i : EReal)
      = (((∑ e, if key e = a then X (src e) else 0) / den (fun e => key e = a) : ℝ) : EReal) := by
  rw [← exchange src (fun e => key e = a) N hsrc X, coe_sum]
  refine Finset.sum_congr rfl fun i _ => ?_
  rw [coe_cnt, coe_den, div_coe_coe _ _ (den_ne_zero _), ← EReal.coe_mul]

theorem reference_mean (key : ι → ℕ) (a : ℕ) (f : ι → ℝ) :
    Ideal.div (∑ e, if key e = a then (f e : EReal) else 0) (max (∑ e, if key e = a then (1 : EReal) else 0) 1)
      = (((∑ e, if key e = a then f e else 0) / den (fun e => key e = a) : ℝ) : EReal) := by
  rw [coe_den, ← div_coe_coe _ _ (den_ne_zero _), coe_sum]
  congr 1
  refine Finset.sum_congr rfl fun e _ => ?_
  split_ifs <;> rfl

end Counts

-- B blocks of K consecutive naturals are the first B * K naturals.
theorem sum_blocks {M : Type*} [AddCommMonoid M] (B K : ℕ) (f : ℕ → M) :
    ∑ b : Fin B, ∑ k : Fin K, f (b.val * K + k.val) = ∑ i : Fin (B * K), f i.val := by
  rw [← Equiv.sum_comp finProdFinEquiv (fun i : Fin (B * K) => f i.val), Fintype.sum_prod_type]
  refine Finset.sum_congr rfl fun b _ => Finset.sum_congr rfl fun k _ => ?_
  congr 1
  show b.val * K + k.val = k.val + K * b.val
  rw [Nat.mul_comm, Nat.add_comm]

theorem tenth_coe : ∃ t : ℝ, tenth = (t : EReal) := by
  unfold tenth Ideal.ofBits Ideal.ieee
  simp only []
  rw [if_neg (by decide), if_neg (by decide)]
  exact ⟨_, rfl⟩

theorem leaky_coe (r : ℝ) : ∃ s : ℝ, leaky (r : EReal) = (s : EReal) := by
  obtain ⟨t, ht⟩ := tenth_coe
  unfold leaky Scalar.select
  split_ifs
  · exact ⟨r, rfl⟩
  · exact ⟨t * r, by rw [ht, EReal.coe_mul]⟩

theorem sageAt_coe (mean own : Fin 128 → EReal) (Wl Wr : SW.Idx → EReal) (b : SB.Idx → EReal)
    (hm : ∀ k, ∃ r : ℝ, mean k = (r : EReal)) (ho : ∀ k, ∃ r : ℝ, own k = (r : EReal))
    (hWl : Fin' Wl) (hWr : Fin' Wr) (hb : Fin' b) (d : Fin 128) :
    ∃ s : ℝ, sageAt mean own Wl Wr b d = (s : EReal) := by
  choose m hm using hm
  choose o ho using ho
  choose wl hwl using hWl
  choose wr hwr using hWr
  choose bb hbb using hb
  have h1 : ∀ (f : Fin 128 → EReal) (W : SW.Idx → EReal) (g : Fin 128 → ℝ) (w : SW.Idx → ℝ), (∀ k, f k = g k) → (∀ i, W i = w i) →
      (∑ k : Fin 128, f k * W (ix2 k d)) = ((∑ k : Fin 128, g k * w (ix2 k d) : ℝ) : EReal) := fun f W g w hf hW => by
    rw [coe_sum]
    exact Finset.sum_congr rfl fun k _ => by rw [hf, hW, EReal.coe_mul]
  unfold sageAt
  rw [h1 _ _ m wl hm hwl, h1 _ _ o wr ho hwr, hbb, ← EReal.coe_add, ← EReal.coe_add]
  exact leaky_coe _

-- Column k of real rows is a real function of the row number, zero past the end; the segment mean over it is a real quotient.
theorem rMean_coe {N : ℕ} (x : (⟨2, ![N, 128]⟩ : Shape).Idx → EReal) (hx : Fin' x) (src dst : Fin E → ℕ) (hsrc : ∀ e, src e < N)
    (k : Fin 128) : ∃ X : ℕ → ℝ, (∀ i (h : i < N), x (ix2 ⟨i, h⟩ k) = (X i : EReal)) ∧ (∀ i, ¬ i < N → X i = 0) ∧
      ∀ a, rMeanAt x src dst hsrc a k = (((∑ e, if dst e = a then X (src e) else 0) / den (fun e => dst e = a) : ℝ) : EReal) := by
  choose xr hxr using hx
  refine ⟨fun i => if h : i < N then xr (ix2 ⟨i, h⟩ k) else 0, fun i h => by beta_reduce; rw [dif_pos h, hxr], fun i h => dif_neg h, fun a => ?_⟩
  have hf : (fun e : Fin E => x (ix2 ⟨src e, hsrc e⟩ k))
      = fun e => (((if h : src e < N then xr (ix2 ⟨src e, h⟩ k) else 0 : ℝ)) : EReal) := by
    funext e
    rw [dif_pos (hsrc e), hxr]
  unfold rMeanAt segCnt segSum
  rw [hf]
  exact reference_mean dst a _

theorem meanA_eq (xc : SXc0.Idx → EReal) (src dst : Fin E → ℕ) (hsrc : ∀ e, src e < 100000) (hxc : Fin' xc)
    (r : Fin 1024) (k : Fin 128) :
    kPartialAt (adjC src dst) (padC xc) 0 r k + kPartialAt (adjC src dst) (padC xc) 1 r k = rMeanAt xc src dst hsrc r.val k
      ∧ ∃ t : ℝ, rMeanAt xc src dst hsrc r.val k = (t : EReal) := by
  obtain ⟨X, hX1, hX0, href⟩ := rMean_coe xc hxc src dst hsrc k
  have hX : ∀ i : Fin 100096, padC xc (ix2 i k) = (X i.val : EReal) := by
    intro i
    show (if h : i.val < 100000 then xc (ix2 ⟨i.val, h⟩ k) else 0) = _
    by_cases h : i.val < 100000
    · rw [dif_pos h, hX1 _ h]
    · rw [dif_neg h, hX0 _ h]; rfl

  let W : ℕ → EReal := fun i =>
    Ideal.div (∑ e : Fin E, if src e = i ∧ dst e = r.val then (1 : EReal) else 0) (max (∑ e : Fin E, if dst e = r.val then (1 : EReal) else 0) 1)
  have hA : ∀ (b : Fin 782) (k' : Fin 128), adjC src dst (ix3 b r k') = W (b.val * 128 + k'.val) := fun _ _ => rfl
  have hP : ∀ c : Fin 2, kPartialAt (adjC src dst) (padC xc) c r k
      = ∑ j : Fin 391, ∑ k' : Fin 128, (fun i : ℕ => W i * (X i : EReal)) ((c.val * 391 + j.val) * 128 + k'.val) := by
    intro c
    unfold kPartialAt
    refine Finset.sum_congr rfl fun j _ => Finset.sum_congr rfl fun k' _ => ?_
    rw [hA, hX]
    rfl
  have hsrc' : ∀ e, src e < 2 * 391 * 128 := fun e => lt_of_lt_of_le (hsrc e) (by norm_num)
  have hker : kPartialAt (adjC src dst) (padC xc) 0 r k + kPartialAt (adjC src dst) (padC xc) 1 r k
      = (((∑ e, if dst e = r.val then X (src e) else 0) / den (fun e => dst e = r.val) : ℝ) : EReal) := by
    rw [← Fin.sum_univ_two (fun c : Fin 2 => kPartialAt (adjC src dst) (padC xc) c r k), Finset.sum_congr rfl (fun c _ => hP c),
      sum_blocks 2 391 (fun b : ℕ => ∑ k' : Fin 128, (fun i : ℕ => W i * (X i : EReal)) (b * 128 + k'.val)),
      sum_blocks (2 * 391) 128 (fun i : ℕ => W i * (X i : EReal)),
      Fin.sum_univ_eq_sum_range (fun i : ℕ => W i * (X i : EReal)) (2 * 391 * 128)]
    exact kernel_mean src dst r.val (2 * 391 * 128) hsrc' X
  exact ⟨hker.trans (href _).symm, _, href _⟩

theorem meanC_eq (xa : SXa0.Idx → EReal) (src dst : Fin E → ℕ) (hsrc : ∀ e, src e < 1000) (hxa : Fin' xa)
    (i : Fin 100096) (k : Fin 128) :
    (∑ s : Fin 1024, adjA src dst (ix3 (blkIdx i) (locIdx i) s) * padA xa (ix2 s k)) = rMeanAt xa src dst hsrc i.val k
      ∧ ∃ t : ℝ, rMeanAt xa src dst hsrc i.val k = (t : EReal) := by
  obtain ⟨X, hX1, hX0, href⟩ := rMean_coe xa hxa src dst hsrc k
  have hX : ∀ s : Fin 1024, padA xa (ix2 s k) = (X s.val : EReal) := by
    intro s
    show (if h : s.val < 1000 then xa (ix2 ⟨s.val, h⟩ k) else 0) = _
    by_cases h : s.val < 1000
    · rw [dif_pos h, hX1 _ h]
    · rw [dif_neg h, hX0 _ h]; rfl
  let W : ℕ → EReal := fun s =>
    Ideal.div (∑ e : Fin E, if src e = s ∧ dst e = i.val then (1 : EReal) else 0) (max (∑ e : Fin E, if dst e = i.val then (1 : EReal) else 0) 1)
  have hi : (blkIdx i).val * 128 + (locIdx i).val = i.val := Nat.div_add_mod' i.val 128
  have hA : ∀ s : Fin 1024, adjA src dst (ix3 (blkIdx i) (locIdx i) s) = W s.val := by
    intro s
    show Ideal.div (∑ e : Fin E, if dst e = (blkIdx i).val * 128 + (locIdx i).val ∧ src e = s.val then (1 : EReal) else 0)
        (max (∑ e : Fin E, if dst e = (blkIdx i).val * 128 + (locIdx i).val then (1 : EReal) else 0) 1) = _
    rw [hi]
    exact congrArg (fun t : EReal => Ideal.div t (max (∑ e : Fin E, if dst e = i.val then (1 : EReal) else 0) 1))
      (Finset.sum_congr rfl fun e _ => if_congr and_comm rfl rfl)
  have hsrc' : ∀ e, src e < 1024 := fun e => lt_of_lt_of_le (hsrc e) (by norm_num)
  have hker : (∑ s : Fin 1024, adjA src dst (ix3 (blkIdx i) (locIdx i) s) * padA xa (ix2 s k))
      = (((∑ e, if dst e = i.val then X (src e) else 0) / den (fun e => dst e = i.val) : ℝ) : EReal) := by
    rw [Finset.sum_congr rfl (fun s _ => show adjA src dst (ix3 (blkIdx i) (locIdx i) s) * padA xa (ix2 s k)
          = (fun s : ℕ => W s * (X s : EReal)) s.val by rw [hA, hX]),
      Fin.sum_univ_eq_sum_range (fun s : ℕ => W s * (X s : EReal)) 1024]
    exact kernel_mean src dst i.val 1024 hsrc' X
  exact ⟨hker.trans (href _).symm, _, href _⟩

theorem layerA_eq (xc : SXc0.Idx → EReal) (xa : SXa0.Idx → EReal) (src dst : Fin E → ℕ)
    (hsrc : ∀ e, src e < 100000) (hdst : ∀ e, dst e < 1000)
    (Wl Wr : SW.Idx → EReal) (b : SB.Idx → EReal)
    (hxc : Fin' xc) (hxa : Fin' xa) (hWl : Fin' Wl) (hWr : Fin' Wr) (hb : Fin' b) :
    kFinal (kPartial (adjC src dst) (padC xc)) (padA xa) Wl Wr b = padA (rLayerA xc xa src dst hsrc Wl Wr b)
      ∧ Fin' (rLayerA xc xa src dst hsrc Wl Wr b) := by
  constructor
  · funext i
    obtain ⟨r, d, rfl⟩ : ∃ (r : Fin 1024) (d : Fin 128), i = ix2 r d := ⟨i 0, i 1, eq_ix2 i⟩
    show kFinalAt (kPartial (adjC src dst) (padC xc)) (padA xa) Wl Wr b r d
      = if h : r.val < 1000 then rLayerA xc xa src dst hsrc Wl Wr b (ix2 ⟨r.val, h⟩ d) else 0
    unfold kFinalAt
    by_cases h : r.val < 1000
    · rw [if_pos h, dif_pos h]
      have e1 : (fun k : Fin 128 => kPartial (adjC src dst) (padC xc) (ix3 0 r k) + kPartial (adjC src dst) (padC xc) (ix3 1 r k))
          = fun k => rMeanAt xc src dst hsrc r.val k := funext fun k => (meanA_eq xc src dst hsrc hxc r k).1
      have e2 : (fun k : Fin 128 => padA xa (ix2 r k)) = fun k => xa (ix2 ⟨r.val, h⟩ k) := by
        funext k
        show (if h' : r.val < 1000 then xa (ix2 ⟨r.val, h'⟩ k) else 0) = _
        rw [dif_pos h]
      exact congrArg₂ (fun m o => sageAt m o Wl Wr b d) e1 e2
    · rw [if_neg h, dif_neg h]
  · intro i
    obtain ⟨a, d, rfl⟩ : ∃ (a : Fin 1000) (d : Fin 128), i = ix2 a d := ⟨i 0, i 1, eq_ix2 i⟩
    exact sageAt_coe _ _ Wl Wr b (fun k => (meanA_eq xc src dst hsrc hxc ⟨a.val, by omega⟩ k).2) (fun k => hxa _) hWl hWr hb d

theorem layerC_eq (xc : SXc0.Idx → EReal) (xa : SXa0.Idx → EReal) (src dst : Fin E → ℕ)
    (hsrc : ∀ e, src e < 1000) (hdst : ∀ e, dst e < 100000)
    (Wl Wr : SW.Idx → EReal) (b : SB.Idx → EReal)
    (hxc : Fin' xc) (hxa : Fin' xa) (hWl : Fin' Wl) (hWr : Fin' Wr) (hb : Fin' b) :
    kA2c (adjA src dst) (padC xc) (padA xa) Wl Wr b = padC (rLayerC xc xa src dst hsrc Wl Wr b)
      ∧ Fin' (rLayerC xc xa src dst hsrc Wl Wr b) := by
  constructor
  · funext j
    obtain ⟨i, d, rfl⟩ : ∃ (i : Fin 100096) (d : Fin 128), j = ix2 i d := ⟨j 0, j 1, eq_ix2 j⟩
    show kA2cAt (adjA src dst) (padC xc) (padA xa) Wl Wr b i d
      = if h : i.val < 100000 then rLayerC xc xa src dst hsrc Wl Wr b (ix2 ⟨i.val, h⟩ d) else 0
    unfold kA2cAt
    by_cases h : i.val < 100000
    · rw [if_pos h, dif_pos h]
      have e1 : (fun k : Fin 128 => ∑ s : Fin 1024, adjA src dst (ix3 (blkIdx i) (locIdx i) s) * padA xa (ix2 s k))
          = fun k => rMeanAt xa src dst hsrc i.val k := funext fun k => (meanC_eq xa src dst hsrc hxa i k).1
      have e2 : (fun k : Fin 128 => padC xc (ix2 i k)) = fun k => xc (ix2 ⟨i.val, h⟩ k) := by
        funext k
        show (if h' : i.val < 100000 then xc (ix2 ⟨i.val, h'⟩ k) else 0) = _
        rw [dif_pos h]
      exact congrArg₂ (fun m o => sageAt m o Wl Wr b d) e1 e2
    · rw [if_neg h, dif_neg h]
  · intro j
    obtain ⟨i, d, rfl⟩ : ∃ (i : Fin 100000) (d : Fin 128), j = ix2 i d := ⟨j 0, j 1, eq_ix2 j⟩
    exact sageAt_coe _ _ Wl Wr b (fun k => (meanC_eq xa src dst hsrc hxa ⟨i.val, by omega⟩ k).2) (fun k => hxc _) hWl hWr hb d

end Cert.Spec.Math

end
-- ==== Proof.Val.Join.lean ====
import proofs.«410443_j44109314130257_2_alg».proof.Proof.Spec
import proofs.«410443_j44109314130257_2_alg».proof.Proof.Val.Tail
import proofs.«410443_j44109314130257_2_alg».proof.Proof.Val.Layers
import proofs.«410443_j44109314130257_2_alg».proof.Proof.Val.Math

noncomputable section

namespace Cert.Spec

open Idealize.ShloMosaic Idealize.ShloMosaic.ValueIdx

abbrev SW3 : Shape := ⟨3, ![3, 128, 128]⟩
abbrev SB3 : Shape := ⟨2, ![3, 128]⟩

def kLayer (Ac : SAc.Idx → EReal) (Aa : SAa.Idx → EReal) (W6 W7 : SW3.Idx → EReal) (B8 : SB3.Idx → EReal) (W9 W10 : SW3.Idx → EReal)
    (B11 : SB3.Idx → EReal) (l : Fin 3) (p : (SXc.Idx → EReal) × (SXa.Idx → EReal)) : (SXc.Idx → EReal) × (SXa.Idx → EReal) :=
  (kA2c Aa p.1 p.2 (wslice l W9) (wslice l W10) (bslice l B11),
   kFinal (kPartial Ac p.1) p.2 (wslice l W6) (wslice l W7) (bslice l B8))

def kLayers (Ac : SAc.Idx → EReal) (Aa : SAa.Idx → EReal) (W6 W7 : SW3.Idx → EReal) (B8 : SB3.Idx → EReal) (W9 W10 : SW3.Idx → EReal)
    (B11 : SB3.Idx → EReal) (x0 : SXc0.Idx → EReal) (x1 : SXa0.Idx → EReal) : (SXc.Idx → EReal) × (SXa.Idx → EReal) :=
  kLayer Ac Aa W6 W7 B8 W9 W10 B11 2 (kLayer Ac Aa W6 W7 B8 W9 W10 B11 1 (kLayer Ac Aa W6 W7 B8 W9 W10 B11 0 (padC x0, padA x1)))

theorem fin_wslice (l : Fin 3) {W : SW3.Idx → EReal} (h : Fin' W) : Fin' (wslice l W) := fun _ => h _
theorem fin_bslice (l : Fin 3) {B : SB3.Idx → EReal} (h : Fin' B) : Fin' (bslice l B) := fun _ => h _

section
variable (src2 dst3 src4 dst5 : Fin E → ℕ) (h2 : ∀ e, src2 e < 100000) (h3 : ∀ e, dst3 e < 1000) (h4 : ∀ e, src4 e < 1000)
  (h5 : ∀ e, dst5 e < 100000) (W6 W7 : SW3.Idx → EReal) (B8 : SB3.Idx → EReal) (W9 W10 : SW3.Idx → EReal) (B11 : SB3.Idx → EReal)
  (f6 : Fin' W6) (f7 : Fin' W7) (f8 : Fin' B8) (f9 : Fin' W9) (f10 : Fin' W10) (f11 : Fin' B11)

include h3 h5 f6 f7 f8 f9 f10 f11 in

-- On real entries with edge ends in range, the kernel's layer on padded arrays is the padding of the reference's layer.
theorem kLayer_eq (l : Fin 3) (p : (SXc0.Idx → EReal) × (SXa0.Idx → EReal)) (hp1 : Fin' p.1) (hp2 : Fin' p.2) :
    kLayer (adjC src2 dst3) (adjA src4 dst5) W6 W7 B8 W9 W10 B11 l (padC p.1, padA p.2)
        = (padC (refLayer src2 dst3 src4 dst5 h2 h4 W6 W7 B8 W9 W10 B11 l p).1, padA (refLayer src2 dst3 src4 dst5 h2 h4 W6 W7 B8 W9 W10 B11 l p).2)
      ∧ Fin' (refLayer src2 dst3 src4 dst5 h2 h4 W6 W7 B8 W9 W10 B11 l p).1
      ∧ Fin' (refLayer src2 dst3 src4 dst5 h2 h4 W6 W7 B8 W9 W10 B11 l p).2 := by
  have hA := Math.layerA_eq p.1 p.2 src2 dst3 h2 h3 (wslice l W6) (wslice l W7) (bslice l B8) hp1 hp2 (fin_wslice l f6) (fin_wslice l f7) (fin_bslice l f8)
  have hC := Math.layerC_eq p.1 p.2 src4 dst5 h4 h5 (wslice l W9) (wslice l W10) (bslice l B11) hp1 hp2 (fin_wslice l f9) (fin_wslice l f10) (fin_bslice l f11)
  unfold kLayer refLayer
  dsimp only
  refine ⟨?_, hC.2, hA.2⟩
  rw [hC.1, hA.1]

include h3 h5 f6 f7 f8 f9 f10 f11 in

theorem kLayers_eq (x0 : SXc0.Idx → EReal) (x1 : SXa0.Idx → EReal) (hx0 : Fin' x0) (hx1 : Fin' x1) :
    kLayers (adjC src2 dst3) (adjA src4 dst5) W6 W7 B8 W9 W10 B11 x0 x1
      = (padC (refLayers src2 dst3 src4 dst5 h2 h4 W6 W7 B8 W9 W10 B11 x0 x1).1, padA (refLayers src2 dst3 src4 dst5 h2 h4 W6 W7 B8 W9 W10 B11 x0 x1).2) := by
  obtain ⟨e0, a0, b0⟩ := kLayer_eq src2 dst3 src4 dst5 h2 h3 h4 h5 W6 W7 B8 W9 W10 B11 f6 f7 f8 f9 f10 f11 0 (x0, x1) hx0 hx1
  obtain ⟨e1, a1, b1⟩ := kLayer_eq src2 dst3 src4 dst5 h2 h3 h4 h5 W6 W7 B8 W9 W10 B11 f6 f7 f8 f9 f10 f11 1 _ a0 b0
  obtain ⟨e2, -, -⟩ := kLayer_eq src2 dst3 src4 dst5 h2 h3 h4 h5 W6 W7 B8 W9 W10 B11 f6 f7 f8 f9 f10 f11 2 _ a1 b1
  unfold kLayers refLayers
  rw [e0, e1, e2]

end

theorem unpadC (x : SXc0.Idx → EReal) :
    (fun i : SXc0.Idx => padC x (ix2 (⟨(i 0).val, Nat.lt_of_lt_of_le (idx2_lt0 i) (by decide)⟩ : Fin 100096) (i 1))) = x := by
  funext i
  unfold padC
  rw [dif_pos (idx2_lt0 i)]
  exact congrArg x (eq_ix2 i).symm

end Cert.Spec

end
-- ==== Proof.Val.HostW.lean ====
import proofs.«410443_j44109314130257_2_alg».proof.Proof.Val.Tail
import proofs.«410443_j44109314130257_2_alg».proof.Proof.Gen.KernelIdeal.Regions
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open Cert.Spec (SW SB SXc SXa SXc0 SXa0 wslice bslice tailFn padC padA)

variable (m : (ℓ : Loc nD τ sig) → Buf (Elt Ideal) ℓ) (outs : Outs (F := Ideal)) (c : Dev nD)

theorem at12of4 (r : Ref sig .tc)
    (h5 : r ∉ hostOps0_4_W := by decide) (h6 : r ∉ hostOps0_5_W := by decide) (h7 : r ∉ hostOps0_6_W := by decide)
    (h8 : r ∉ hostOps0_7_W := by decide) (h9 : r ∉ hostOps0_8_W := by decide) (h10 : r ∉ hostOps0_9_W := by decide)
    (h11 : r ∉ hostOps0_10_W := by decide) (h12 : r ∉ hostOps0_11_W := by decide) : V12 m c r = V4 m c r :=
  (V12_of m c r h12).trans <| (V11_of m c r h11).trans <| (V10_of m c r h10).trans <| (V9_of m c r h9).trans <|
  (V8_of m c r h8).trans <| (V7_of m c r h7).trans <| (V6_of m c r h6).trans (V5_of m c r h5)

theorem argAt12 (r : Ref sig .tc) (h : V12 m c r = V4 m c r := by exact at12of4 _ _ _)
    (h1 : r ∉ hostOps0_W := by decide) (h2 : r ∉ hostOps0_1_W := by decide) (h3 : r ∉ hostOps0_2_W := by decide)
    (h4 : r ∉ hostOps0_3_W := by decide) : V12 m c r = m ((c : Thread nD τ).loc r) :=
  h.trans <| (V4_of m c r h4).trans <| (V3_of m c r h3).trans <| (V2_of m c r h2).trans <| (V1_of m c r h1).trans rfl

theorem argAt16 (r : Ref sig .tc) (h12 : V12 m c r = m ((c : Thread nD τ).loc r) := by exact argAt12 _ _ _)
    (h13 : r ∉ hostOps0_12_W := by decide) (h14 : r ∉ ([main_v78] : List (Ref sig .tc)) := by decide)
    (h15 : r ∉ ([main_v79] : List (Ref sig .tc)) := by decide) (h16 : r ∉ ([main_v80] : List (Ref sig .tc)) := by decide) :
    V16 m outs c r = m ((c : Thread nD τ).loc r) :=
  (V16_of m outs c r h16).trans <| (V15_of m outs c r h15).trans <| (V14_of m outs c r h14).trans <| (V13_of m c r h13).trans h12

theorem argAt20 (r : Ref sig .tc) (h16 : V16 m outs c r = m ((c : Thread nD τ).loc r) := by exact argAt16 _ _ _ _)
    (h17 : r ∉ hostOps3_W := by decide) (h18 : r ∉ ([main_v95] : List (Ref sig .tc)) := by decide)
    (h19 : r ∉ ([main_v96] : List (Ref sig .tc)) := by decide) (h20 : r ∉ ([main_v97] : List (Ref sig .tc)) := by decide) :
    V20 m outs c r = m ((c : Thread nD τ).loc r) :=
  (V20_of m outs c r h20).trans <| (V19_of m outs c r h19).trans <| (V18_of m outs c r h18).trans <| (V17_of m outs c r h17).trans h16

theorem argAt24 (r : Ref sig .tc) (h20 : V20 m outs c r = m ((c : Thread nD τ).loc r) := by exact argAt20 _ _ _ _)
    (h21 : r ∉ hostOps6_W := by decide) (h22 : r ∉ ([main_v112] : List (Ref sig .tc)) := by decide)
    (h23 : r ∉ ([main_v113] : List (Ref sig .tc)) := by decide) (h24 : r ∉ ([main_v114] : List (Ref sig .tc)) := by decide) :
    V24 m outs c r = m ((c : Thread nD τ).loc r) :=
  (V24_of m outs c r h24).trans <| (V23_of m outs c r h23).trans <| (V22_of m outs c r h22).trans <| (V21_of m outs c r h21).trans h20

/-- Layer `l`'s slice of the stacked matrices, reshaped to a matrix, is `wslice l`: both read entry (l, i, j). -/
theorem wread (l : Fin 3) (W : S3x128x128.Idx → EReal) (hs : S3x128x128.Slices ![l.val, 0, 0] S1x128x128)
    (hc : S1x128x128.ShapeCasts S128x128) :
    shapeCast S128x128 (extractStridedSlice S1x128x128 ![l.val, 0, 0] W hs) hc = wslice l W := by
  funext i
  rw [eq_ix2 i]
  refine (shapeCast_1ab_ab_apply _ _ (i 0) (i 1)).trans ?_
  exact extractStridedSlice_apply _ _ _ _ (ix3 l (i 0) (i 1)) fun a =>
    match a with
    | ⟨0, _⟩ => rfl
    | ⟨1, _⟩ => (Nat.zero_add _).symm
    | ⟨2, _⟩ => (Nat.zero_add _).symm

/-- Layer `l`'s slice of the stacked biases, reshaped to a vector and then to one row, is `bslice l`: both read entry (l, j). -/
theorem bread (l : Fin 3) (B : S3x128.Idx → EReal) (hs : S3x128.Slices ![l.val, 0] S1x128)
    (h1 : S1x128.ShapeCasts S128) (h2 : S128.ShapeCasts S1x128) :
    shapeCast S1x128 (shapeCast S128 (extractStridedSlice S1x128 ![l.val, 0] B hs) h1) h2 = bslice l B := by
  funext i
  rw [eq_ix2 i]
  refine (shapeCast_a_1a_apply _ _ (i 0) (i 1)).trans ?_
  refine (shapeCast_1a_a_apply _ _ (i 1)).trans ?_
  exact extractStridedSlice_apply _ _ _ _ (ix2 l (i 1)) fun a =>
    match a with
    | ⟨0, _⟩ => rfl
    | ⟨1, _⟩ => (Nat.zero_add _).symm

def Vpre (c : Dev nD) : Valuation τ sig (Elt Ideal) := StableHlo.after (List.take 39 hostOps0_12) (V12 m c)

theorem V13_split : V13 m c = StableHlo.after (List.drop 39 hostOps0_12) (Vpre m c) :=
  (congrArg (fun l => StableHlo.after l (V12 m c)) (List.take_append_drop 39 hostOps0_12).symm).trans (StableHlo.after_append _ _ _)

theorem Vpre_of (r : Ref sig .tc) (h : r ∉ hostOps0_12_W := by decide) : Vpre m c r = V12 m c r :=
  StableHlo.after_of_writes_sub (List.take 39 hostOps0_12) _
    (List.forall_iff_forall_mem.mpr fun op hop =>
      List.forall_iff_forall_mem.mp hostOps0_12_writes op (List.mem_of_mem_take hop)) h

theorem argAtPre (r : Ref sig .tc) (h12 : V12 m c r = m ((c : Thread nD τ).loc r) := by exact argAt12 _ _ _)
    (h13 : r ∉ hostOps0_12_W := by decide) : Vpre m c r = m ((c : Thread nD τ).loc r) :=
  (Vpre_of m c r h13).trans h12

theorem w65_read : (V13 m c main_v65 : SW.Idx → EReal) = wslice 0 (m ((c : Thread nD τ).loc main_arg6)) := by
  rw [← argAtPre m c main_arg6, V13_split]
  dsimp only [hostOps0_12, List.drop]
  after_results
  exact wread 0 _ _ _

theorem w67_read : (V13 m c main_v67 : SW.Idx → EReal) = wslice 0 (m ((c : Thread nD τ).loc main_arg7)) := by
  rw [← argAtPre m c main_arg7, V13_split]
  dsimp only [hostOps0_12, List.drop]
  after_results
  exact wread 0 _ _ _

theorem w70_read : (V13 m c main_v70 : SB.Idx → EReal) = bslice 0 (m ((c : Thread nD τ).loc main_arg8)) := by
  rw [← argAtPre m c main_arg8, V13_split]
  dsimp only [hostOps0_12, List.drop]
  after_results
  exact bread 0 _ _ _ _

theorem w72_read : (V13 m c main_v72 : SW.Idx → EReal) = wslice 0 (m ((c : Thread nD τ).loc main_arg9)) := by
  rw [← argAtPre m c main_arg9, V13_split]
  dsimp only [hostOps0_12, List.drop]
  after_results
  exact wread 0 _ _ _

theorem w74_read : (V13 m c main_v74 : SW.Idx → EReal) = wslice 0 (m ((c : Thread nD τ).loc main_arg10)) := by
  rw [← argAtPre m c main_arg10, V13_split]
  dsimp only [hostOps0_12, List.drop]
  after_results
  exact wread 0 _ _ _

theorem w77_read : (V13 m c main_v77 : SB.Idx → EReal) = bslice 0 (m ((c : Thread nD τ).loc main_arg11)) := by
  rw [← argAtPre m c main_arg11, V13_split]
  dsimp only [hostOps0_12, List.drop]
  after_results
  exact bread 0 _ _ _ _

theorem w82_read : (V17 m outs c main_v82 : SW.Idx → EReal) = wslice 1 (m ((c : Thread nD τ).loc main_arg6)) := by
  rw [← argAt16 m outs c main_arg6]
  dsimp only [V17, hostOps3]
  after_results
  exact wread 1 _ _ _

theorem w84_read : (V17 m outs c main_v84 : SW.Idx → EReal) = wslice 1 (m ((c : Thread nD τ).loc main_arg7)) := by
  rw [← argAt16 m outs c main_arg7]
  dsimp only [V17, hostOps3]
  after_results
  exact wread 1 _ _ _

theorem w87_read : (V17 m outs c main_v87 : SB.Idx → EReal) = bslice 1 (m ((c : Thread nD τ).loc main_arg8)) := by
  rw [← argAt16 m outs c main_arg8]
  dsimp only [V17, hostOps3]
  after_results
  exact bread 1 _ _ _ _

theorem w89_read : (V17 m outs c main_v89 : SW.Idx → EReal) = wslice 1 (m ((c : Thread nD τ).loc main_arg9)) := by
  rw [← argAt16 m outs c main_arg9]
  dsimp only [V17, hostOps3]
  after_results
  exact wread 1 _ _ _

theorem w91_read : (V17 m outs c main_v91 : SW.Idx → EReal) = wslice 1 (m ((c : Thread nD τ).loc main_arg10)) := by
  rw [← argAt16 m outs c main_arg10]
  dsimp only [V17, hostOps3]
  after_results
  exact wread 1 _ _ _

theorem w94_read : (V17 m outs c main_v94 : SB.Idx → EReal) = bslice 1 (m ((c : Thread nD τ).loc main_arg11)) := by
  rw [← argAt16 m outs c main_arg11]
  dsimp only [V17, hostOps3]
  after_results
  exact bread 1 _ _ _ _

theorem w99_read : (V21 m outs c main_v99 : SW.Idx → EReal) = wslice 2 (m ((c : Thread nD τ).loc main_arg6)) := by
  rw [← argAt20 m outs c main_arg6]
  dsimp only [V21, hostOps6]
  after_results
  exact wread 2 _ _ _

theorem w101_read : (V21 m outs c main_v101 : SW.Idx → EReal) = wslice 2 (m ((c : Thread nD τ).loc main_arg7)) := by
  rw [← argAt20 m outs c main_arg7]
  dsimp only [V21, hostOps6]
  after_results
  exact wread 2 _ _ _

theorem w104_read : (V21 m outs c main_v104 : SB.Idx → EReal) = bslice 2 (m ((c : Thread nD τ).loc main_arg8)) := by
  rw [← argAt20 m outs c main_arg8]
  dsimp only [V21, hostOps6]
  after_results
  exact bread 2 _ _ _ _

theorem w106_read : (V21 m outs c main_v106 : SW.Idx → EReal) = wslice 2 (m ((c : Thread nD τ).loc main_arg9)) := by
  rw [← argAt20 m outs c main_arg9]
  dsimp only [V21, hostOps6]
  after_results
  exact wread 2 _ _ _

theorem w108_read : (V21 m outs c main_v108 : SW.Idx → EReal) = wslice 2 (m ((c : Thread nD τ).loc main_arg10)) := by
  rw [← argAt20 m outs c main_arg10]
  dsimp only [V21, hostOps6]
  after_results
  exact wread 2 _ _ _

theorem w111_read : (V21 m outs c main_v111 : SB.Idx → EReal) = bslice 2 (m ((c : Thread nD τ).loc main_arg11)) := by
  rw [← argAt20 m outs c main_arg11]
  dsimp only [V21, hostOps6]
  after_results
  exact bread 2 _ _ _ _

/-- A pad that appends rows of a value `v` equal to zero: the operand on the first `n` rows, zero below. -/
theorem pad_rows_apply {n N : ℕ} (hi : Fin 2 → ℕ) (x : (⟨2, ![n, 128]⟩ : Shape).Idx → EReal) (v : S_.Idx → EReal)
    (h : (⟨2, ![n, 128]⟩ : Shape).Pads ![0, 0] hi ![0, 0] ⟨2, ![N, 128]⟩) (hu : 0 < S_.numel) (hv : v ix0 = 0)
    (i : (⟨2, ![N, 128]⟩ : Shape).Idx) :
    pad ⟨2, ![N, 128]⟩ ![0, 0] hi ![0, 0] x v h hu i = if hlt : (i 0).val < n then x (ix2 ⟨(i 0).val, hlt⟩ (i 1)) else 0 := by
  by_cases hlt : (i 0).val < n
  · rw [dif_pos hlt]
    exact pad_apply_of_inside _ _ _ x v h hu i (ix2 ⟨(i 0).val, hlt⟩ (i 1)) fun a =>
      match a with
      | ⟨0, _⟩ => by show (i 0).val = 0 + (i 0).val * (0 + 1); omega
      | ⟨1, _⟩ => by show (i 1).val = 0 + (i 1).val * (0 + 1); omega
  · rw [dif_neg hlt]
    refine (pad_apply_of_not_inside _ _ _ x v h hu i (⟨0, Nat.zero_lt_two⟩ : Fin 2) ?_).trans ((congrArg v (eq_ix0 _)).trans hv)
    intro hin
    have h3 : ((i 0).val - 0) / (0 + 1) < n := hin.2.2
    omega

theorem xc0_read : (V13 m c main_v0 : SXc.Idx → EReal) = padC (m ((c : Thread nD τ).loc main_arg0)) := by
  have w : V13 m c main_v0 = V2 m c main_v0 :=
    (V13_of m c _ (by decide)).trans <| (at12of4 m c _).trans <| (V4_of m c _ (by decide)).trans (V3_of m c _ (by decide))
  have e : (V2 m c main_v0 : SXc.Idx → EReal)
      = pad S100096x128 ![0, 0] ![96, 0] ![0, 0] (m ((c : Thread nD τ).loc main_arg0))
          (sitofp .f32 (constantI S_ 32 0#32) : FVec Ideal S_ .f32) pads_S100000x128_S100096x128_0960_000 h_S_ := by
    dsimp only [V2, hostOps0_1, V1, hostOps0]
    after_results
    rfl
  rw [w, e]
  exact funext fun i => pad_rows_apply _ _ _ _ _ (sitofp_zero (φ := .f32)) i

theorem xa0_read : (V13 m c main_v1 : SXa.Idx → EReal) = padA (m ((c : Thread nD τ).loc main_arg1)) := by
  have w : V13 m c main_v1 = V4 m c main_v1 := (V13_of m c _ (by decide)).trans (at12of4 m c _)
  have e : (V4 m c main_v1 : SXa.Idx → EReal)
      = pad S1024x128 ![0, 0] ![24, 0] ![0, 0] (m ((c : Thread nD τ).loc main_arg1))
          (sitofp .f32 (constantI S_ 32 0#32) : FVec Ideal S_ .f32) pads_S1000x128_S1024x128_0240_000 h_S_ := by
    dsimp only [V4, hostOps0_3, V3, hostOps0_2, V2, hostOps0_1, V1, hostOps0]
    after_results
    rfl
  rw [w, e]
  exact funext fun i => pad_rows_apply _ _ _ _ _ (sitofp_zero (φ := .f32)) i

/-- Entry `a` of the last linear map: row `a` against the weight column, plus the broadcast bias word. -/
theorem tail_at (Y : S100096x128.Idx → EReal) (W : S128x1.Idx → EReal) (b : S1.Idx → EReal) (a : Fin 100000) :
    shapeCast S100000
        (addf (F := Ideal) (φ := .f32)
          (Host.dotGeneral (F := Ideal) (φ₁ := .f32) (φ₂ := .f32) dot_S100000x128_S128x1_S100000x1_1_0_0_1_n_n none
            (extractStridedSlice S100000x128 ![0, 0] Y slices_S100096x128_S100000x128_0_0) W)
          (broadcastInDim S100000x1 ![0, 1] bcast_S1x1_S100000x1_0_1 (broadcastInDim S1x1 ![1] bcast_S1_S1x1_1 b)))
        shapeCasts_S100000x1_S100000 (ix1 a)
      = (∑ k : Fin 128, Y (ix2 ⟨a.val, by omega⟩ k) * W (ix2 k 0)) + b (ix1 0) := by
  refine (shapeCast_apply _ _ (ix1 a) (ix2 a (0 : Fin 1)) ?_).trans ?_
  · rw [Shape.rowMajor_val_two, Shape.rowMajor_val_one]
    show a.val * 1 + 0 = a.val
    omega
  refine (addf_apply _ _ _).trans (congrArg₂ (· + ·) ?_ ?_)
  · refine (Idealize.ShloMosaic.StackMember.dotGeneral_plain_apply none _ _ a (0 : Fin 1)).trans ?_
    refine Finset.sum_congr rfl fun k _ => ?_
    refine congrArg (· * W (ix2 k 0)) ?_
    exact extractStridedSlice_apply _ _ _ (ix2 a k) (ix2 ⟨a.val, by omega⟩ k) fun a' =>
      match a' with
      | ⟨0, _⟩ => (Nat.zero_add _).symm
      | ⟨1, _⟩ => (Nat.zero_add _).symm
  · refine (broadcastInDim_apply _ _ _ (ix2 a (0 : Fin 1)) (ix2 (0 : Fin 1) (0 : Fin 1)) fun a' =>
      match a' with
      | ⟨0, _⟩ => rfl
      | ⟨1, _⟩ => rfl).trans ?_
    exact broadcastInDim_apply _ _ _ (ix2 (0 : Fin 1) (0 : Fin 1)) (ix1 (0 : Fin 1)) fun a' =>
      match a' with
      | ⟨0, _⟩ => rfl

theorem tail_read : (V25 m outs c main_v120 : Cert.Spec.STo.Idx → EReal)
    = tailFn (fun i => (V24 m outs c main_v114 : SXc.Idx → EReal) (ix2 ⟨(i 0).val, by have := idx2_lt0 i; omega⟩ (i 1)))
        (m ((c : Thread nD τ).loc main_arg12)) (m ((c : Thread nD τ).loc main_arg13)) := by
  rw [← argAt24 m outs c main_arg12, ← argAt24 m outs c main_arg13]
  dsimp only [V25, hostOps9]
  after_results
  funext i
  rw [eq_ix1 i]
  exact tail_at _ _ _ (i 0)

end Cert.KernelIdeal.Val

end
-- ==== Proof.Val.Pay01.lean ====
import proofs.«410443_j44109314130257_2_alg».proof.Proof.Spec
import proofs.«410443_j44109314130257_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Val

open Cert.KernelIdeal Cert.KernelIdeal.Gen
open Idealize.ShloMosaic Idealize.ShloMosaic.ValueIdx

/-- A product of an M×K block with a K×N block into zeros: entry (r, c) is the sum over the K contracted places. -/
theorem tile_mm_apply {M K N : ℕ} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (r : Fin M) (c : Fin N) :
    matmul D none A B (constant (F := Ideal) ⟨2, ![M, N]⟩ .f32 0x00000000#32) (ix2 r c) = ∑ k : Fin K, A (ix2 r k) * B (ix2 k c) := by
  subst hD
  simp only [matmul]
  rw [Ideal.matmul_constant_zero_apply, ← Equiv.sum_comp (contrEquiv1 (DotDims.plain M K N) K rfl rfl).symm]
  exact Finset.sum_congr rfl fun k _ => congrArg₂ (· * ·)
    (congrArg A (funext fun a => Fin.ext (match a with | ⟨0, _⟩ => rfl | ⟨1, _⟩ => rfl)))
    (congrArg B (funext fun a => Fin.ext (match a with | ⟨0, _⟩ => rfl | ⟨1, _⟩ => rfl)))

/-- The signed comparison of two words below 2³¹ is the comparison of the numbers they hold. -/
theorem slt_small_word {a b : BitVec 32} {x y : ℕ} (ha : a.toNat = x) (hb : b.toNat = y) (hx : x < 2 ^ 31) (hy : y < 2 ^ 31) :
    IntOp.cmpi .slt a b = if x < y then 1#1 else 0#1 := by
  have hiff := StableHlo.Predicate.slt_iff_toNat (a := a) (b := b) (by omega) (by omega)
  rw [ha, hb] at hiff
  split
  · next h => exact hiff.mpr h
  · next h => exact eq_zero_of_ne_one fun hc => h (hiff.mp hc)

/-- The three layers run one kernel text, so each payload lemma is stated for any payload equal to the first layer's. -/
theorem pay1_apply {f : FVec Ideal S1024x128 .f32} (hf : f = k0_pay1) (r : Fin 1024) (d : Fin 128) : f (ix2 r d) = 0 := by
  subst hf
  unfold k0_pay1
  rw [shapeCast_self]
  exact Ideal.ofBits_zero_f32

theorem pay2_apply {f : Vec Ideal S1x1024x128 .bf16 → Vec Ideal S128x128 .f32 → Vec Ideal S1024x128 .f32 → FVec Ideal S1024x128 .f32}
    (hf : f = k0_pay2) (v3 : Vec Ideal S1x1024x128 .bf16) (v5 : Vec Ideal S128x128 .f32) (v8 : Vec Ideal S1024x128 .f32)
    (r : Fin 1024) (d : Fin 128) :
    f v3 v5 v8 (ix2 r d) = v8 (ix2 r d) + ∑ k : Fin 128, v3 (ix3 0 r k) * v5 (ix2 k d) := by
  subst hf
  unfold k0_pay2
  rw [shapeCast_self, addf_apply, tile_mm_apply dot_S1024x128_S128x128_S1024x128_1_0_0_1_n_n rfl]
  refine congrArg (v8 (ix2 r d) + ·) (Finset.sum_congr rfl fun k _ => ?_)
  rw [shapeCast_1ab_ab_apply, truncf_apply, shapeCast_self]

theorem pay3_apply {f : Vec Ideal S1024x128 .f32 → FVec Ideal S1x1024x128 .f32} (hf : f = k0_pay3)
    (v17 : Vec Ideal S1024x128 .f32) (r : Fin 1024) (d : Fin 128) : f v17 (ix3 0 r d) = v17 (ix2 r d) := by
  subst hf
  exact shapeCast_ab_1ab_apply v17 _ 0 r d

theorem k1_row_lt (h : S1024x128.Iotas .tc 32 [0]) (r : Fin 1024) (d : Fin 128) :
    cmpi .slt (iota .tc S1024x128 32 [0] h) (broadcast S1024x128 1000#32) (ix2 r d) = if r.val < 1000 then 1#1 else 0#1 := by
  have hr := r.isLt
  show IntOp.cmpi .slt (iota .tc S1024x128 32 [0] h (ix2 r d)) 1000#32 = _
  rw [iota_single_apply]
  exact slt_small_word (x := r.val) (y := 1000) ((BitVec.toNat_ofNat _ _).trans (Nat.mod_eq_of_lt (show r.val < 2 ^ 32 by omega))) rfl
    (by omega) (by omega)

/-- Rows below 1000 hold the layer of the summed halves; the remaining rows hold zero. -/
theorem fin_pay_apply {f : Vec Ideal S1x1024x128 .f32 → Vec Ideal S1x1024x128 .f32 → Vec Ideal S1024x128 .f32 → Vec Ideal S128x128 .f32 →
      Vec Ideal S128x128 .f32 → Vec Ideal S1x128 .f32 → FVec Ideal S1024x128 .f32} (hf : f = k1_pay1)
    (v0 v2 : Vec Ideal S1x1024x128 .f32) (v6 : Vec Ideal S1024x128 .f32) (v9 v12 : Vec Ideal S128x128 .f32)
    (v18 : Vec Ideal S1x128 .f32) (r : Fin 1024) (d : Fin 128) :
    f v0 v2 v6 v9 v12 v18 (ix2 r d)
      = if r.val < 1000 then
          Cert.Spec.sageAt (fun k => v0 (ix3 0 r k) + v2 (ix3 0 r k)) (fun k => v6 (ix2 r k)) v9 v12 v18 d
        else 0 := by
  subst hf
  unfold k1_pay1
  rw [select_apply, k1_row_lt]
  split
  · rw [select_one]
    unfold Cert.Spec.sageAt Cert.Spec.leaky Cert.Spec.tenth
    simp only [select_apply, cmpf_apply, mulf_apply, addf_apply, broadcast_apply, tile_mm_apply dot_S1024x128_S128x128_S1024x128_1_0_0_1_n_n rfl,
      broadcastTo_1b_ab_apply, shapeCast_self, shapeCast_1ab_ab_apply, truncf_apply]
    simp only [Ideal.ofBits_def, Ideal.ofBits_zero_f32]
  · rw [select_zero, broadcast_apply]
    exact Ideal.ofBits_zero_f32

theorem zero_vec2 : (![0, 0] : Fin 2 → Nat) = fun _ => 0 := funext fun a => by fin_cases a <;> rfl
theorem zero_vec3 : (![0, 0, 0] : Fin 3 → Nat) = fun _ => 0 := funext fun a => by fin_cases a <;> rfl

/-- A load of half h of the two half sums reads row r, feature k of that half. -/
theorem ld_half (x0 : Vec Ideal S2x1024x128 .f32) (h : Fin 2) (hb) (r : Fin 1024) (k : Fin 128) :
    View.ld x0 (Rect.unit (s := S2x1024x128) ![h.val, 0, 0] S1x1024x128.size hb) (ix3 0 r k) = x0 (ix3 h r k) := by
  show x0 ((Rect.unit (s := S2x1024x128) ![h.val, 0, 0] S1x1024x128.size hb).idx (ix3 0 r k)) = x0 (ix3 h r k)
  congr 1; funext a; apply Fin.ext
  match a with
  | ⟨0, _⟩ => rfl
  | ⟨1, _⟩ => show 0 + 1 * r.val = r.val; omega
  | ⟨2, _⟩ => show 0 + 1 * k.val = k.val; omega

/-- The finishing kernel's payload on the two loaded halves is the specification's finishing function at (r, d). -/
theorem fin_apply {f : Vec Ideal S1x1024x128 .f32 → Vec Ideal S1x1024x128 .f32 → Vec Ideal S1024x128 .f32 → Vec Ideal S128x128 .f32 →
      Vec Ideal S128x128 .f32 → Vec Ideal S1x128 .f32 → FVec Ideal S1024x128 .f32} (hf : f = k1_pay1)
    (x0 : Vec Ideal S2x1024x128 .f32) (x1 : Vec Ideal S1024x128 .f32) (x2 x3 : Vec Ideal S128x128 .f32) (x4 : Vec Ideal S1x128 .f32)
    (r : Fin 1024) (d : Fin 128) :
    f (View.ld x0 (Rect.unit (s := S2x1024x128) ![0, 0, 0] S1x1024x128.size inb_S2x1024x128_S1x1024x128_0_0_0))
      (View.ld x0 (Rect.unit (s := S2x1024x128) ![1, 0, 0] S1x1024x128.size inb_S2x1024x128_S1x1024x128_1_0_0)) x1 x2 x3 x4 (ix2 r d)
      = Cert.Spec.kFinalAt x0 x1 x2 x3 x4 r d := by
  refine (fin_pay_apply hf _ _ _ _ _ _ r d).trans ?_
  unfold Cert.Spec.kFinalAt
  exact if_congr Iff.rfl (congrArg (fun g => Cert.Spec.sageAt g (fun k => x1 (ix2 r k)) x2 x3 x4 d)
    (funext fun k => congrArg₂ (· + ·) (ld_half x0 0 _ r k) (ld_half x0 1 _ r k))) rfl

/-- Block b's contribution to entry (r, d) of a half sum; zero for b out of range. -/
def blockTerm (A : Cert.Spec.SAc.Idx → EReal) (x : Cert.Spec.SXc.Idx → EReal) (r : Fin 1024) (d : Fin 128) (b : ℕ) : EReal :=
  if h : b < 782 then ∑ k : Fin 128, A (ix3 ⟨b, h⟩ r k) * x (ix2 (Cert.Spec.rowOf ⟨b, h⟩ k) d) else 0

/-- By induction on the point, a sum restarted at j = 0 and extended by one block's product per point is, at j = 390, the half sum. -/
theorem half_sum_last (A : Cert.Spec.SAc.Idx → EReal) (x : Cert.Spec.SXc.Idx → EReal) {N : ℕ}
    (acc : (n : ℕ) → n < N → Vec Ideal S1024x128 .f32) (c0 c1 : Fin N → ℕ)
    (ab : Fin N → Vec Ideal S1x1024x128 .bf16) (xb : Fin N → Vec Ideal S128x128 .f32)
    {f1 : FVec Ideal S1024x128 .f32} {f2 : Vec Ideal S1x1024x128 .bf16 → Vec Ideal S128x128 .f32 → Vec Ideal S1024x128 .f32 → FVec Ideal S1024x128 .f32}
    (h1 : f1 = k0_pay1) (h2 : f2 = k0_pay2)
    (hidx : ∀ t : Fin N, t.val = c0 t * 391 + c1 t ∧ c0 t < 2 ∧ c1 t < 391)
    (hz : ∀ t : Fin N, c1 t = 0 → acc t.val t.isLt = f2 (ab t) (xb t) f1)
    (hs : ∀ t : Fin N, c1 t ≠ 0 → acc t.val t.isLt = f2 (ab t) (xb t) (acc (t.val - 1) (Nat.lt_of_le_of_lt (Nat.sub_le _ _) t.isLt)))
    (hp : ∀ (t : Fin N) (r : Fin 1024) (d : Fin 128),
      (∑ k : Fin 128, ab t (ix3 0 r k) * xb t (ix2 k d)) = blockTerm A x r d (c0 t * 391 + c1 t))
    (t : Fin N) (hj : c1 t = 390) (c' : Fin 2) (hc : c'.val = c0 t) (r : Fin 1024) (d : Fin 128) :
    acc t.val t.isLt (ix2 r d) = Cert.Spec.kPartialAt A x c' r d := by
  have hzero : ∀ (t : Fin N) (r : Fin 1024) (d : Fin 128), c1 t = 0 →
      acc t.val t.isLt (ix2 r d) = ∑ j' ∈ Finset.range (c1 t + 1), blockTerm A x r d (c0 t * 391 + j') := fun t r d hj => by
    rw [hz t hj, pay2_apply h2, pay1_apply h1, zero_add, hj, Finset.sum_range_one]
    exact (hp t r d).trans (by rw [hj])
  have hsum : ∀ (n : ℕ) (hn : n < N) (r : Fin 1024) (d : Fin 128),
      acc n hn (ix2 r d) = ∑ j' ∈ Finset.range (c1 ⟨n, hn⟩ + 1), blockTerm A x r d (c0 ⟨n, hn⟩ * 391 + j') := by
    intro n
    induction n with
    | zero =>
      intro hn r d
      have p0 : 0 = c0 ⟨0, hn⟩ * 391 + c1 ⟨0, hn⟩ := (hidx ⟨0, hn⟩).1
      exact hzero ⟨0, hn⟩ r d (by omega)
    | succ n ih =>
      intro hn r d
      by_cases hj : c1 ⟨n + 1, hn⟩ = 0
      · exact hzero ⟨n + 1, hn⟩ r d hj
      · have p0 : n = c0 ⟨n, Nat.lt_of_succ_lt hn⟩ * 391 + c1 ⟨n, Nat.lt_of_succ_lt hn⟩ := (hidx ⟨n, Nat.lt_of_succ_lt hn⟩).1
        have q0 : n + 1 = c0 ⟨n + 1, hn⟩ * 391 + c1 ⟨n + 1, hn⟩ := (hidx ⟨n + 1, hn⟩).1
        have p2 := (hidx ⟨n, Nat.lt_of_succ_lt hn⟩).2.2
        have q2 := (hidx ⟨n + 1, hn⟩).2.2
        have e0 : c0 ⟨n, Nat.lt_of_succ_lt hn⟩ = c0 ⟨n + 1, hn⟩ := by omega
        have e1 : c1 ⟨n, Nat.lt_of_succ_lt hn⟩ + 1 = c1 ⟨n + 1, hn⟩ := by omega
        rw [hs ⟨n + 1, hn⟩ hj, pay2_apply h2]
        show acc n (Nat.lt_of_succ_lt hn) (ix2 r d) + _ = _
        rw [ih, e0, e1, Finset.sum_range_succ]
        exact congrArg (_ + ·) (hp ⟨n + 1, hn⟩ r d)
  rw [hsum t.val t.isLt r d, hj, ← hc]
  unfold Cert.Spec.kPartialAt
  rw [← Fin.sum_univ_eq_sum_range (fun j' => blockTerm A x r d (c'.val * 391 + j')) 391]
  refine Finset.sum_congr rfl fun j _ => ?_
  have hb : c'.val * 391 + j.val < 782 := by have := c'.isLt; have := j.isLt; omega
  unfold blockTerm
  rw [dif_pos hb]
  rfl

end Cert.KernelIdeal.Val

end
-- ==== Proof.Val.Reduce0Val.lean ====
import proofs.«410443_j44109314130257_2_alg».proof.Proof.Spec
import proofs.«410443_j44109314130257_2_alg».proof.Proof.KI.Reduce0
import proofs.«410443_j44109314130257_2_alg».proof.Proof.Val.Pay01
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev adj0 (c : Dev nD) : Cert.Spec.SAc.Idx → EReal := V c (Pipeline.arrRef spec0 0)
abbrev feat0 (c : Dev nD) : Cert.Spec.SXc.Idx → EReal := V c (Pipeline.arrRef spec0 1)
abbrev ablk0 (c : Dev nD) (t : Fin cfg0.N) : Vec Ideal S1x1024x128 .bf16 := iblk0 V c 0 t
abbrev xblk0 (c : Dev nD) (t : Fin cfg0.N) : Vec Ideal S128x128 .f32 := iblk0 V c 1 t

/-- Decided over the grid: point 391 c' + j reads block 391 c' + j of both inputs and writes block c'. -/
theorem idx_facts0 : ∀ t : Fin cfg0.N,
    t.val = (cfg0.grid.coords t 0).val * 391 + (cfg0.grid.coords t 1).val
    ∧ (cfg0.grid.coords t 0).val < 2 ∧ (cfg0.grid.coords t 1).val < 391
    ∧ win0_0.index t (0 : Fin 3) = (cfg0.grid.coords t 0).val * 391 + (cfg0.grid.coords t 1).val
    ∧ win0_0.index t (1 : Fin 3) = 0 ∧ win0_0.index t (2 : Fin 3) = 0
    ∧ win0_1.index t (0 : Fin 2) = (cfg0.grid.coords t 0).val * 391 + (cfg0.grid.coords t 1).val
    ∧ win0_1.index t (1 : Fin 2) = 0
    ∧ win0_2.index t (0 : Fin 3) = (cfg0.grid.coords t 0).val
    ∧ win0_2.index t (1 : Fin 3) = 0 ∧ win0_2.index t (2 : Fin 3) = 0 :=
  (by decide +kernel : ∀ t : Fin grid0.N, _)

/-- The product of a point's two blocks, read off the arrays, is the contribution of the point's block number. -/
theorem prod0_eq (c : Dev nD) (t : Fin cfg0.N) (r : Fin 1024) (d : Fin 128) :
    (∑ k : Fin 128, ablk0 V c t (ix3 0 r k) * xblk0 V c t (ix2 k d))
      = blockTerm (adj0 V c) (feat0 V c) r d ((cfg0.grid.coords t 0).val * 391 + (cfg0.grid.coords t 1).val) := by
  obtain ⟨-, h0, h1, a0, a1, a2, x0, x1, -⟩ := idx_facts0 t
  have hb : (cfg0.grid.coords t 0).val * 391 + (cfg0.grid.coords t 1).val < 782 := by omega
  unfold blockTerm
  rw [dif_pos hb]
  refine Finset.sum_congr rfl fun k _ => congrArg₂ (· * ·) (congrArg (V c _) (funext fun a => Fin.ext ?_)) (congrArg (V c _) (funext fun a => Fin.ext ?_))
  · match a with
    | ⟨0, _⟩ => show win0_0.index t (0 : Fin 3) * 1 + 1 * 0 = (cfg0.grid.coords t 0).val * 391 + (cfg0.grid.coords t 1).val; omega
    | ⟨1, _⟩ => show win0_0.index t (1 : Fin 3) * 1024 + 1 * r.val = r.val; omega
    | ⟨2, _⟩ => show win0_0.index t (2 : Fin 3) * 128 + 1 * k.val = k.val; omega
  · match a with
    | ⟨0, _⟩ => show win0_1.index t (0 : Fin 2) * 128 + 1 * k.val = ((cfg0.grid.coords t 0).val * 391 + (cfg0.grid.coords t 1).val) * 128 + k.val; omega
    | ⟨1, _⟩ => show win0_1.index t (1 : Fin 2) * 128 + 1 * d.val = d.val; omega

/-- The output block is stored where j = 390, and there the running sum is the half sum of half c'. -/
theorem flushed0_eq (c : Dev nD) (t : Fin cfg0.N) (hf : (cfg0.win 2).flush t = true) :
    (dat0 V c).flushed 2 t = ((cfg0.win 2).blk t).view.read (Elt Ideal) (Cert.Spec.kPartial (adj0 V c) (feat0 V c)) := by
  have hj : (cfg0.grid.coords t 1).val = 390 := by
    by_contra h
    have := noFlush0_2 t (fun hc => h ((hcond0_1 t).mp hc))
    rw [hf] at this; exact Bool.noConfusion this
  obtain ⟨-, h0, -, -, -, -, -, -, e0, e1, e2⟩ := idx_facts0 t
  show (cfg0.win 2).cut (grid0.coords t) ((dat0 V c).after 2 t) = _
  rw [after0_2]
  funext y
  obtain ⟨p, r, d, rfl⟩ : ∃ (p : Fin 1) (r : Fin 1024) (d : Fin 128), y = ix3 p r d := ⟨y 0, y 1, y 2, eq_ix3 y⟩
  obtain rfl : p = 0 := Subsingleton.elim _ _
  show k0_pay3 (acc0 V c t.val t.isLt) (ix3 0 r d) = Cert.Spec.kPartial (adj0 V c) (feat0 V c) (((cfg0.win 2).blk t).view.emb (ix3 0 r d))
  rw [pay3_apply (f := k0_pay3) rfl, half_sum_last (adj0 V c) (feat0 V c) (acc0 V c) (fun t => (cfg0.grid.coords t 0).val) (fun t => (cfg0.grid.coords t 1).val)
    (ablk0 V c) (xblk0 V c) (f1 := k0_pay1) (f2 := k0_pay2) rfl rfl (fun t => ⟨(idx_facts0 t).1, (idx_facts0 t).2.1, (idx_facts0 t).2.2.1⟩)
    (acc0_zero_j V c) (acc0_succ_j V c) (prod0_eq V c) t hj ⟨(cfg0.grid.coords t 0).val, h0⟩ rfl r d]
  have hemb : ((cfg0.win 2).blk t).view.emb (ix3 0 r d) = (ix3 ⟨(cfg0.grid.coords t 0).val, h0⟩ r d : Cert.Spec.SP.Idx) := by
    funext a
    apply Fin.ext
    match a with
    | ⟨0, _⟩ => show win0_2.index t (0 : Fin 3) * 1 + 1 * 0 = (cfg0.grid.coords t 0).val; omega
    | ⟨1, _⟩ => show win0_2.index t (1 : Fin 3) * 1024 + 1 * r.val = r.val; omega
    | ⟨2, _⟩ => show win0_2.index t (2 : Fin 3) * 128 + 1 * d.val = d.val; omega
  rw [hemb]
  rfl

/-- Index (c', r, d) lies in the output block of point 391 c' + 390. -/
theorem cover0 (i : Cert.Spec.SP.Idx) : ∃ t : Fin cfg0.N, (cfg0.win 2).flush t = true ∧ i ∈ ((cfg0.win 2).blk t).view.set := by
  have hi0 : (i 0).val < 2 := (i 0).isLt
  have hi1 : (i 1).val < 1024 := (i 1).isLt
  have hi2 : (i 2).val < 128 := (i 2).isLt
  have hN : cfg0.N = 782 := N_0
  obtain ⟨t, ht⟩ : ∃ t : Fin cfg0.N, t.val = (i 0).val * 391 + 390 := ⟨⟨_, by omega⟩, rfl⟩
  obtain ⟨p0, p1, p2, -, -, -, -, -, e0, e1, e2⟩ := idx_facts0 t
  refine ⟨t, (flush0_2 t).mpr (by omega), ?_⟩
  show i ∈ ((View.whole (Pipeline.arrRef spec0 2)).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

theorem value0 (c : Dev nD) :
    ((dat0 V c).arrAt 2 cfg0.N : Cert.Spec.SP.Idx → EReal)
      = Cert.Spec.kPartial (V c (Pipeline.arrRef spec0 0)) (V c (Pipeline.arrRef spec0 1)) :=
  (dat0 V c).arrAt_eq_of_cover 2 (Cert.Spec.kPartial (adj0 V c) (feat0 V c)) (flushed0_eq V c) cover0

end Cert.KernelIdeal.Val

end
-- ==== Proof.Val.Final1Val.lean ====
import proofs.«410443_j44109314130257_2_alg».proof.Proof.Spec
import proofs.«410443_j44109314130257_2_alg».proof.Proof.KI.Final1
import proofs.«410443_j44109314130257_2_alg».proof.Proof.Val.Pay01
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev v1_G (c : Dev nD) : Vec Ideal S1024x128 .f32 :=
  Cert.Spec.kFinal (V c (Pipeline.arrRef spec1 0)) (V c (Pipeline.arrRef spec1 1)) (V c (Pipeline.arrRef spec1 2))
    (V c (Pipeline.arrRef spec1 3)) (V c (Pipeline.arrRef spec1 4))

theorem v1_idx (w : Fin cfg1.W) (t : Fin cfg1.N) (a) : (cfg1.win w).index t a = 0 := by
  obtain rfl := fin_N1 t; revert w a; decide +kernel

/-- With every block index zero at the grid's one point, a block's index is the same index of its array. -/
theorem v1_emb (w : Fin cfg1.W) (t : Fin cfg1.N) (j : ((cfg1.win w).xblock (cfg1.grid.coords t)).Idx) (a) :
    (((cfg1.win w).rect t).emb j a : ℕ) = j a :=
  Pipeline.Window.rect_emb_val_of_index_zero _ t a (v1_idx w t a) j

theorem v1_emb5 (t : Fin cfg1.N) (j : S1024x128.Idx) : (((cfg1.win 5).blk t).view.emb j : S1024x128.Idx) = j :=
  funext fun a => Fin.ext (v1_emb 5 t j a)

theorem v1_iblk (c : Dev nD) (t : Fin cfg1.N) :
    (iblk1 V c 0 t : Vec Ideal S2x1024x128 .f32) = V c (Pipeline.arrRef spec1 0)
    ∧ (iblk1 V c 1 t : Vec Ideal S1024x128 .f32) = V c (Pipeline.arrRef spec1 1)
    ∧ (iblk1 V c 2 t : Vec Ideal S128x128 .f32) = V c (Pipeline.arrRef spec1 2)
    ∧ (iblk1 V c 3 t : Vec Ideal S128x128 .f32) = V c (Pipeline.arrRef spec1 3)
    ∧ (iblk1 V c 4 t : Vec Ideal S1x128 .f32) = V c (Pipeline.arrRef spec1 4) :=
  ⟨funext fun j => congrArg (V c _) (funext fun a => Fin.ext (v1_emb 0 t j a)),
   funext fun j => congrArg (V c _) (funext fun a => Fin.ext (v1_emb 1 t j a)),
   funext fun j => congrArg (V c _) (funext fun a => Fin.ext (v1_emb 2 t j a)),
   funext fun j => congrArg (V c _) (funext fun a => Fin.ext (v1_emb 3 t j a)),
   funext fun j => congrArg (V c _) (funext fun a => Fin.ext (v1_emb 4 t j a))⟩

theorem v1_out_apply (x0 : Vec Ideal S2x1024x128 .f32) (x1 : Vec Ideal S1024x128 .f32) (x2 x3 : Vec Ideal S128x128 .f32)
    (x4 : Vec Ideal S1x128 .f32) (r : Fin 1024) (d : Fin 128) :
    out1_5 x0 x1 x2 x3 x4 (ix2 r d) = Cert.Spec.kFinalAt x0 x1 x2 x3 x4 r d := by
  unfold out1_5
  rw [View.canon_unit_zero zero_vec2, View.ld_unit_zero (S := S1024x128) zero_vec2, View.ld_unit_zero (S := S128x128) zero_vec2,
    View.ld_unit_zero (S := S128x128) zero_vec2, View.ld_unit_zero (S := S1x128) zero_vec2]
  exact fin_apply (f := k1_pay1) rfl x0 x1 x2 x3 x4 r d

/-- At the grid's one point the output block is the finishing function of the five arrays as found. -/
theorem v1_flushed_eq (c : Dev nD) (t : Fin cfg1.N) :
    (dat1 V c).flushed 5 t = ((cfg1.win 5).blk t).view.read (Elt Ideal) (v1_G V c) := by
  obtain ⟨e0, e1, e2, e3, e4⟩ := v1_iblk V c t
  show (cfg1.win 5).cut (cfg1.grid.coords t) ((dat1 V c).after 5 t) = _
  rw [after1_5, e0, e1, e2, e3, e4]
  funext j
  rw [View.read_apply, v1_emb5, eq_ix2 (j : S1024x128.Idx)]
  exact v1_out_apply _ _ _ _ _ (j 0) (j 1)

theorem v1_cover (c : Dev nD) (i : S1024x128.Idx) :
    ∃ t : Fin cfg1.N, (cfg1.win 5).flush t = true ∧ i ∈ ((cfg1.win 5).blk t).view.set :=
  ⟨t1_0, (by decide +kernel : (cfg1.win 5).flush t1_0 = true), by
    have h := ((cfg1.win 5).blk t1_0).view.emb_mem_set i
    rwa [v1_emb5] at h⟩

theorem value1 (c : Dev nD) :
    ((dat1 V c).arrAt 5 cfg1.N : Cert.Spec.SXa.Idx → EReal)
      = Cert.Spec.kFinal (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 (v1_G V c) (fun t _ => v1_flushed_eq V c t) (v1_cover c)

end Cert.KernelIdeal.Val

end
-- ==== Proof.Val.Pay2.lean ====
import proofs.«410443_j44109314130257_2_alg».proof.Proof.Spec
import proofs.«410443_j44109314130257_2_alg».proof.Proof.Gen.KernelIdeal.Skeleton
import proofs.«410443_j44109314130257_2_alg».proof.Proof.Val.Pay01
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Val

open Cert.KernelIdeal Cert.KernelIdeal.Gen
open Idealize.ShloMosaic Idealize.ShloMosaic.ValueIdx

theorem k2_rowtest (n : ℕ) (hn : n < 782) (p : Fin 128) :
    IntOp.cmpi .slt (IntOp.addi (Scalar.muli (BitVec.ofNat 32 n) 128#32) (BitVec.ofNat 32 p.val)) 100000#32
      = if n * 128 + p.val < 100000 then 1#1 else 0#1 := by
  have hp := p.isLt
  refine slt_small_word ?_ rfl (by omega) (by omega)
  show ((BitVec.ofNat 32 n) * 128#32 + BitVec.ofNat 32 p.val).toNat = _
  rw [BitVec.toNat_add, BitVec.toNat_mul, BitVec.toNat_ofNat, BitVec.toNat_ofNat, BitVec.toNat_ofNat]
  omega

/-- Row p of the tile at point i is client row 128·i + p: the layer there if that is a real row, else zero. -/
theorem a2c_pay_apply {f : grid2.Coords → Vec Ideal S1x128x1024 .bf16 → Vec Ideal S1024x128 .f32 → Vec Ideal S128x128 .f32 →
      Vec Ideal S128x128 .f32 → Vec Ideal S128x128 .f32 → Vec Ideal S1x128 .f32 → FVec Ideal S128x128 .f32} (hf : f = k2_pay1)
    (i : grid2.Coords) (v0 : Vec Ideal S1x128x1024 .bf16) (v2 : Vec Ideal S1024x128 .f32)
    (v7 v10 v13 : Vec Ideal S128x128 .f32) (v19 : Vec Ideal S1x128 .f32) (p q : Fin 128) :
    f i v0 v2 v7 v10 v13 v19 (ix2 p q)
      = if (i 0).val * 128 + p.val < 100000 then
          Cert.Spec.sageAt (fun k => ∑ s : Fin 1024, v0 (ix3 0 p s) * v2 (ix2 s k)) (fun k => v7 (ix2 p k)) v10 v13 v19 q
        else 0 := by
  subst hf
  have hi : (i 0).val < 782 := (i 0).isLt
  unfold k2_pay1
  simp only [select_apply, mulf_apply, addf_apply, cmpf_apply, broadcast_apply, cmpi, addi]
  rw [iota_single_apply, k2_rowtest _ hi]
  simp only [tile_mm_apply dot_S128x128_S128x128_S128x128_1_0_0_1_n_n rfl, tile_mm_apply dot_S128x1024_S1024x128_S128x128_1_0_0_1_n_n rfl,
    truncf_apply, shapeCast_self, shapeCast_1ab_ab_apply, broadcastTo_1b_ab_apply, Ideal.ofBits_def, Ideal.ofBits_zero_f32]
  by_cases h : (i 0).val * 128 + p.val < 100000
  · rw [if_pos h, if_pos h, select_one]
    rfl
  · rw [if_neg h, if_neg h, select_zero]

/-- With the six loaded blocks named as entries of their arrays, the tile's entry is the specification's at the array index. -/
theorem a2c_entry (A : Cert.Spec.SAa.Idx → EReal) (xc : Cert.Spec.SXc.Idx → EReal) (xa : Cert.Spec.SXa.Idx → EReal)
    (Wl Wr : Cert.Spec.SW.Idx → EReal) (b : Cert.Spec.SB.Idx → EReal)
    (n : ℕ) (hn : n < 782) (p q : Fin 128)
    (x0 : Vec Ideal S1x128x1024 .bf16) (x1 : Vec Ideal S128x128 .f32) (x2 : Vec Ideal S1024x128 .f32)
    (x3 x4 : Vec Ideal S128x128 .f32) (x5 : Vec Ideal S1x128 .f32)
    (i : Cert.Spec.SXc.Idx) (hi0 : (i 0).val = n * 128 + p.val) (hi1 : i 1 = q)
    (h0 : ∀ s : Fin 1024, x0 (ix3 0 p s) = A (ix3 ⟨n, hn⟩ p s))
    (h1 : ∀ k : Fin 128, x1 (ix2 p k) = xc (ix2 (i 0) k))
    (h2 : ∀ j, x2 j = xa j) (h3 : ∀ j, x3 j = Wl j) (h4 : ∀ j, x4 j = Wr j) (h5 : ∀ j, x5 j = b j) :
    (if n * 128 + p.val < 100000 then
        Cert.Spec.sageAt (fun k => ∑ s : Fin 1024, x0 (ix3 0 p s) * x2 (ix2 s k)) (fun k => x1 (ix2 p k)) x3 x4 x5 q
      else 0) = Cert.Spec.kA2c A xc xa Wl Wr b i := by
  obtain rfl : x2 = xa := funext h2
  obtain rfl : x3 = Wl := funext h3
  obtain rfl : x4 = Wr := funext h4
  obtain rfl : x5 = b := funext h5
  have hb : Cert.Spec.blkIdx (i 0) = ⟨n, hn⟩ := by
    apply Fin.ext; show (i 0).val / 128 = n; have := p.isLt; omega
  have hl : Cert.Spec.locIdx (i 0) = p := by
    apply Fin.ext; show (i 0).val % 128 = p.val; have := p.isLt; omega
  unfold Cert.Spec.kA2c Cert.Spec.kA2cAt
  rw [hb, hl, hi1, hi0]
  simp only [h0, h1]

end Cert.KernelIdeal.Val

end
-- ==== Proof.Val.A2c2Val.lean ====
import proofs.«410443_j44109314130257_2_alg».proof.Proof.Spec
import proofs.«410443_j44109314130257_2_alg».proof.Proof.Val.Pay2
import proofs.«410443_j44109314130257_2_alg».proof.Proof.KI.A2c2
import Idealize.ShloMosaic.Lib.ValueIdx
import Idealize.ShloMosaic.Lib.ValueIdxCoords
import Idealize.ShloMosaic.Lib.ValueLayout
import Idealize.ShloMosaic.Lib.Pipeline.Value
import Idealize.ShloMosaic.Lib.Pipeline.FrameBody

set_option maxRecDepth 16384

noncomputable section

open Idealize.ShloMosaic Idealize.ShloMosaic.ValueIdx Idealize.ShloMosaic.TcCoe
open Idealize.ShloMosaic.Pipeline (Dat Cfg Window)

namespace Cert.KernelIdeal.Val

open Cert.KernelIdeal Cert.KernelIdeal.Gen Cert.KernelIdeal.Hand

section Region

variable (V : (c : Dev nD) → (b : Ref sig .tc) → Buf (Elt Ideal) ((c : Thread nD τ).loc b))

/-- Decided over the grid: windows 0, 1 and 6 move with the point along their first axis, the others stay at block zero. -/
private theorem index_facts : ∀ t : Fin cfg2.N,
    (cfg2.win 0).index t (0 : Fin 3) = t.val ∧ (cfg2.win 0).index t (1 : Fin 3) = 0 ∧ (cfg2.win 0).index t (2 : Fin 3) = 0
    ∧ (cfg2.win 1).index t (0 : Fin 2) = t.val ∧ (cfg2.win 1).index t (1 : Fin 2) = 0
    ∧ (cfg2.win 2).index t (0 : Fin 2) = 0 ∧ (cfg2.win 2).index t (1 : Fin 2) = 0
    ∧ (cfg2.win 3).index t (0 : Fin 2) = 0 ∧ (cfg2.win 3).index t (1 : Fin 2) = 0
    ∧ (cfg2.win 4).index t (0 : Fin 2) = 0 ∧ (cfg2.win 4).index t (1 : Fin 2) = 0
    ∧ (cfg2.win 5).index t (0 : Fin 2) = 0 ∧ (cfg2.win 5).index t (1 : Fin 2) = 0
    ∧ (cfg2.win 6).index t (0 : Fin 2) = t.val ∧ (cfg2.win 6).index t (1 : Fin 2) = 0
    ∧ (grid2.coords t 0).val = t.val ∧ (cfg2.win 6).flush t = true :=
  (by decide +kernel : ∀ t : Fin grid2.N, _)

set_option maxHeartbeats 2000000 in
/-- Point t stores block t of the specification's function: each loaded block is named as entries of its array. -/
private theorem flushed_eq (c : Dev nD) (t : Fin cfg2.N) :
    (dat2 V c).flushed 6 t = ((cfg2.win 6).blk t).view.read (Elt Ideal)
      (Cert.Spec.kA2c (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6, show ∀ X : Vec Ideal S128x128 .f32, (cfg2.win 6).cut (grid2.coords t) X = X from fun _ => rfl]
  unfold out2_6
  rw [View.canon_unit_zero zero_vec2]
  simp only [View.ld_unit_zero (S := S128x128) zero_vec2, View.ld_unit_zero (S := S1024x128) zero_vec2,
    View.ld_unit_zero (S := S1x128) zero_vec2, View.ld_unit_zero (S := S1x128x1024) zero_vec3]
  obtain ⟨a00, a01, a02, a10, a11, a20, a21, a30, a31, a40, a41, a50, a51, a60, a61, hco, -⟩ := index_facts t
  have ht : t.val < 782 := lt_of_lt_of_eq t.isLt N_2
  funext j
  obtain ⟨p, q, rfl⟩ : ∃ (p q : Fin 128), j = ix2 p q := ⟨j 0, j 1, eq_ix2 j⟩
  rw [a2c_pay_apply (f := k2_pay1) rfl, hco]
  show _ = Cert.Spec.kA2c (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb (ix2 p q))
  refine a2c_entry _ _ _ _ _ _ t.val ht p q (iblk2 V c 0 t) (iblk2 V c 1 t) (iblk2 V c 2 t) (iblk2 V c 3 t) (iblk2 V c 4 t) (iblk2 V c 5 t)
    _ ?_ ?_ ?_ ?_ ?_ ?_ ?_ ?_

  · show (cfg2.win 6).index t (0 : Fin 2) * 128 + 1 * p.val = t.val * 128 + p.val
    omega
  · apply Fin.ext
    show (cfg2.win 6).index t (1 : Fin 2) * 128 + 1 * q.val = q.val
    omega

  · intro s
    show V c (Pipeline.arrRef spec2 0) (((cfg2.win 0).blk t).view.emb (ix3 0 p s)) = _
    refine congrArg _ ?_
    funext a; apply Fin.ext
    match a with
    | ⟨0, _⟩ => show (cfg2.win 0).index t (0 : Fin 3) * 1 + 1 * 0 = t.val; omega
    | ⟨1, _⟩ => show (cfg2.win 0).index t (1 : Fin 3) * 128 + 1 * p.val = p.val; omega
    | ⟨2, _⟩ => show (cfg2.win 0).index t (2 : Fin 3) * 1024 + 1 * s.val = s.val; omega

  · intro k
    show V c (Pipeline.arrRef spec2 1) (((cfg2.win 1).blk t).view.emb (ix2 p k)) = _
    refine congrArg _ ?_
    funext a; apply Fin.ext
    match a with
    | ⟨0, _⟩ => show (cfg2.win 1).index t (0 : Fin 2) * 128 + 1 * p.val = (cfg2.win 6).index t (0 : Fin 2) * 128 + 1 * p.val; omega
    | ⟨1, _⟩ => show (cfg2.win 1).index t (1 : Fin 2) * 128 + 1 * k.val = k.val; omega

  · exact fun j => congrArg (V c _) (funext fun a => Fin.ext (Pipeline.Window.rect_emb_val_of_index_zero (cfg2.win 2) t a
      (by match a with | ⟨0, _⟩ => exact a20 | ⟨1, _⟩ => exact a21) j))
  · exact fun j => congrArg (V c _) (funext fun a => Fin.ext (Pipeline.Window.rect_emb_val_of_index_zero (cfg2.win 3) t a
      (by match a with | ⟨0, _⟩ => exact a30 | ⟨1, _⟩ => exact a31) j))
  · exact fun j => congrArg (V c _) (funext fun a => Fin.ext (Pipeline.Window.rect_emb_val_of_index_zero (cfg2.win 4) t a
      (by match a with | ⟨0, _⟩ => exact a40 | ⟨1, _⟩ => exact a41) j))
  · exact fun j => congrArg (V c _) (funext fun a => Fin.ext (Pipeline.Window.rect_emb_val_of_index_zero (cfg2.win 5) t a
      (by match a with | ⟨0, _⟩ => exact a50 | ⟨1, _⟩ => exact a51) j))

/-- Row r lies in the output block of point r / 128. -/
private theorem cover (i : Cert.Spec.SXc.Idx) :
    ∃ t : Fin cfg2.N, (cfg2.win 6).flush t = true ∧ i ∈ ((cfg2.win 6).blk t).view.set := by
  have hi0 : (i 0).val < 100096 := (i 0).isLt
  have hi1 : (i 1).val < 128 := (i 1).isLt
  obtain ⟨t, ht⟩ : ∃ t : Fin cfg2.N, t.val = (i 0).val / 128 :=
    ⟨⟨(i 0).val / 128, lt_of_lt_of_eq (by omega : (i 0).val / 128 < 782) N_2.symm⟩, rfl⟩
  obtain ⟨-, -, -, -, -, -, -, -, -, -, -, -, -, a60, a61, -, hfl⟩ := index_facts t
  refine ⟨t, hfl, ?_⟩
  show i ∈ ((View.whole (Pipeline.arrRef spec2 6)).slice ((cfg2.win 6).rect t)).set
  rw [View.set_slice_whole, Rect.mem_set_unit]
  intro a
  match a with
  | ⟨0, _⟩ =>
    show (cfg2.win 6).index t (0 : Fin 2) * 128 ≤ (i 0).val ∧ (i 0).val < (cfg2.win 6).index t (0 : Fin 2) * 128 + 128
    omega
  | ⟨1, _⟩ =>
    show (cfg2.win 6).index t (1 : Fin 2) * 128 ≤ (i 1).val ∧ (i 1).val < (cfg2.win 6).index t (1 : Fin 2) * 128 + 128
    omega

theorem value2 (c : Dev nD) :
    ((dat2 V c).arrAt 6 cfg2.N : Cert.Spec.SXc.Idx → EReal)
      = Cert.Spec.kA2c (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 _ (fun t _ => flushed_eq V c t) cover

end Region

end Cert.KernelIdeal.Val

end
-- ==== Proof.Val.Reduce3Val.lean ====
import proofs.«410443_j44109314130257_2_alg».proof.Proof.Spec
import proofs.«410443_j44109314130257_2_alg».proof.Proof.KI.Reduce3
import proofs.«410443_j44109314130257_2_alg».proof.Proof.Val.Pay01
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev adj3 (c : Dev nD) : Cert.Spec.SAc.Idx → EReal := V c (Pipeline.arrRef spec3 0)
abbrev feat3 (c : Dev nD) : Cert.Spec.SXc.Idx → EReal := V c (Pipeline.arrRef spec3 1)
abbrev ablk3 (c : Dev nD) (t : Fin cfg3.N) : Vec Ideal S1x1024x128 .bf16 := iblk3 V c 0 t
abbrev xblk3 (c : Dev nD) (t : Fin cfg3.N) : Vec Ideal S128x128 .f32 := iblk3 V c 1 t

/-- Decided over the grid: point 391 c' + j reads block 391 c' + j of both inputs and writes block c'. -/
theorem idx_facts3 : ∀ t : Fin cfg3.N,
    t.val = (cfg3.grid.coords t 0).val * 391 + (cfg3.grid.coords t 1).val
    ∧ (cfg3.grid.coords t 0).val < 2 ∧ (cfg3.grid.coords t 1).val < 391
    ∧ win3_0.index t (0 : Fin 3) = (cfg3.grid.coords t 0).val * 391 + (cfg3.grid.coords t 1).val
    ∧ win3_0.index t (1 : Fin 3) = 0 ∧ win3_0.index t (2 : Fin 3) = 0
    ∧ win3_1.index t (0 : Fin 2) = (cfg3.grid.coords t 0).val * 391 + (cfg3.grid.coords t 1).val
    ∧ win3_1.index t (1 : Fin 2) = 0
    ∧ win3_2.index t (0 : Fin 3) = (cfg3.grid.coords t 0).val
    ∧ win3_2.index t (1 : Fin 3) = 0 ∧ win3_2.index t (2 : Fin 3) = 0 :=
  (by decide +kernel : ∀ t : Fin grid3.N, _)

/-- The product of a point's two blocks, read off the arrays, is the contribution of the point's block number. -/
theorem prod3_eq (c : Dev nD) (t : Fin cfg3.N) (r : Fin 1024) (d : Fin 128) :
    (∑ k : Fin 128, ablk3 V c t (ix3 0 r k) * xblk3 V c t (ix2 k d))
      = blockTerm (adj3 V c) (feat3 V c) r d ((cfg3.grid.coords t 0).val * 391 + (cfg3.grid.coords t 1).val) := by
  obtain ⟨-, h0, h1, a0, a1, a2, x0, x1, -⟩ := idx_facts3 t
  have hb : (cfg3.grid.coords t 0).val * 391 + (cfg3.grid.coords t 1).val < 782 := by omega
  unfold blockTerm
  rw [dif_pos hb]
  refine Finset.sum_congr rfl fun k _ => congrArg₂ (· * ·) (congrArg (V c _) (funext fun a => Fin.ext ?_)) (congrArg (V c _) (funext fun a => Fin.ext ?_))
  · match a with
    | ⟨0, _⟩ => show win3_0.index t (0 : Fin 3) * 1 + 1 * 0 = (cfg3.grid.coords t 0).val * 391 + (cfg3.grid.coords t 1).val; omega
    | ⟨1, _⟩ => show win3_0.index t (1 : Fin 3) * 1024 + 1 * r.val = r.val; omega
    | ⟨2, _⟩ => show win3_0.index t (2 : Fin 3) * 128 + 1 * k.val = k.val; omega
  · match a with
    | ⟨0, _⟩ => show win3_1.index t (0 : Fin 2) * 128 + 1 * k.val = ((cfg3.grid.coords t 0).val * 391 + (cfg3.grid.coords t 1).val) * 128 + k.val; omega
    | ⟨1, _⟩ => show win3_1.index t (1 : Fin 2) * 128 + 1 * d.val = d.val; omega

/-- The output block is stored where j = 390, and there the running sum is the half sum of half c'. -/
theorem flushed3_eq (c : Dev nD) (t : Fin cfg3.N) (hf : (cfg3.win 2).flush t = true) :
    (dat3 V c).flushed 2 t = ((cfg3.win 2).blk t).view.read (Elt Ideal) (Cert.Spec.kPartial (adj3 V c) (feat3 V c)) := by
  have hj : (cfg3.grid.coords t 1).val = 390 := by
    by_contra h
    have := noFlush3_2 t (fun hc => h ((hcond3_1 t).mp hc))
    rw [hf] at this; exact Bool.noConfusion this
  obtain ⟨-, h0, -, -, -, -, -, -, e0, e1, e2⟩ := idx_facts3 t
  show (cfg3.win 2).cut (grid3.coords t) ((dat3 V c).after 2 t) = _
  rw [after3_2]
  funext y
  obtain ⟨p, r, d, rfl⟩ : ∃ (p : Fin 1) (r : Fin 1024) (d : Fin 128), y = ix3 p r d := ⟨y 0, y 1, y 2, eq_ix3 y⟩
  obtain rfl : p = 0 := Subsingleton.elim _ _
  show k3_pay3 (acc3 V c t.val t.isLt) (ix3 0 r d) = Cert.Spec.kPartial (adj3 V c) (feat3 V c) (((cfg3.win 2).blk t).view.emb (ix3 0 r d))
  rw [pay3_apply (f := k3_pay3) rfl, half_sum_last (adj3 V c) (feat3 V c) (acc3 V c) (fun t => (cfg3.grid.coords t 0).val) (fun t => (cfg3.grid.coords t 1).val)
    (ablk3 V c) (xblk3 V c) (f1 := k3_pay1) (f2 := k3_pay2) rfl rfl (fun t => ⟨(idx_facts3 t).1, (idx_facts3 t).2.1, (idx_facts3 t).2.2.1⟩)
    (acc3_zero_j V c) (acc3_succ_j V c) (prod3_eq V c) t hj ⟨(cfg3.grid.coords t 0).val, h0⟩ rfl r d]
  have hemb : ((cfg3.win 2).blk t).view.emb (ix3 0 r d) = (ix3 ⟨(cfg3.grid.coords t 0).val, h0⟩ r d : Cert.Spec.SP.Idx) := by
    funext a
    apply Fin.ext
    match a with
    | ⟨0, _⟩ => show win3_2.index t (0 : Fin 3) * 1 + 1 * 0 = (cfg3.grid.coords t 0).val; omega
    | ⟨1, _⟩ => show win3_2.index t (1 : Fin 3) * 1024 + 1 * r.val = r.val; omega
    | ⟨2, _⟩ => show win3_2.index t (2 : Fin 3) * 128 + 1 * d.val = d.val; omega
  rw [hemb]
  rfl

/-- Index (c', r, d) lies in the output block of point 391 c' + 390. -/
theorem cover3 (i : Cert.Spec.SP.Idx) : ∃ t : Fin cfg3.N, (cfg3.win 2).flush t = true ∧ i ∈ ((cfg3.win 2).blk t).view.set := by
  have hi0 : (i 0).val < 2 := (i 0).isLt
  have hi1 : (i 1).val < 1024 := (i 1).isLt
  have hi2 : (i 2).val < 128 := (i 2).isLt
  have hN : cfg3.N = 782 := N_3
  obtain ⟨t, ht⟩ : ∃ t : Fin cfg3.N, t.val = (i 0).val * 391 + 390 := ⟨⟨_, by omega⟩, rfl⟩
  obtain ⟨p0, p1, p2, -, -, -, -, -, e0, e1, e2⟩ := idx_facts3 t
  refine ⟨t, (flush3_2 t).mpr (by omega), ?_⟩
  show i ∈ ((View.whole (Pipeline.arrRef spec3 2)).slice (win3_2.rect t)).set
  rw [View.set_slice_whole, Rect.mem_set_unit]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 1024 ≤ (i 1).val ∧ (i 1).val < win3_2.index t (1 : Fin 3) * 1024 + 1024; omega
  | ⟨2, _⟩ => show win3_2.index t (2 : Fin 3) * 128 ≤ (i 2).val ∧ (i 2).val < win3_2.index t (2 : Fin 3) * 128 + 128; omega

theorem value3 (c : Dev nD) :
    ((dat3 V c).arrAt 2 cfg3.N : Cert.Spec.SP.Idx → EReal)
      = Cert.Spec.kPartial (V c (Pipeline.arrRef spec3 0)) (V c (Pipeline.arrRef spec3 1)) :=
  (dat3 V c).arrAt_eq_of_cover 2 (Cert.Spec.kPartial (adj3 V c) (feat3 V c)) (flushed3_eq V c) cover3

end Cert.KernelIdeal.Val

end
-- ==== Proof.Val.Final4Val.lean ====
import proofs.«410443_j44109314130257_2_alg».proof.Proof.Spec
import proofs.«410443_j44109314130257_2_alg».proof.Proof.KI.Final4
import proofs.«410443_j44109314130257_2_alg».proof.Proof.Val.Pay01
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev v4_G (c : Dev nD) : Vec Ideal S1024x128 .f32 :=
  Cert.Spec.kFinal (V c (Pipeline.arrRef spec4 0)) (V c (Pipeline.arrRef spec4 1)) (V c (Pipeline.arrRef spec4 2))
    (V c (Pipeline.arrRef spec4 3)) (V c (Pipeline.arrRef spec4 4))

theorem v4_idx (w : Fin cfg4.W) (t : Fin cfg4.N) (a) : (cfg4.win w).index t a = 0 := by
  obtain rfl := fin_N4 t; revert w a; decide +kernel

/-- With every block index zero at the grid's one point, a block's index is the same index of its array. -/
theorem v4_emb (w : Fin cfg4.W) (t : Fin cfg4.N) (j : ((cfg4.win w).xblock (cfg4.grid.coords t)).Idx) (a) :
    (((cfg4.win w).rect t).emb j a : ℕ) = j a :=
  Pipeline.Window.rect_emb_val_of_index_zero _ t a (v4_idx w t a) j

theorem v4_emb5 (t : Fin cfg4.N) (j : S1024x128.Idx) : (((cfg4.win 5).blk t).view.emb j : S1024x128.Idx) = j :=
  funext fun a => Fin.ext (v4_emb 5 t j a)

theorem v4_iblk (c : Dev nD) (t : Fin cfg4.N) :
    (iblk4 V c 0 t : Vec Ideal S2x1024x128 .f32) = V c (Pipeline.arrRef spec4 0)
    ∧ (iblk4 V c 1 t : Vec Ideal S1024x128 .f32) = V c (Pipeline.arrRef spec4 1)
    ∧ (iblk4 V c 2 t : Vec Ideal S128x128 .f32) = V c (Pipeline.arrRef spec4 2)
    ∧ (iblk4 V c 3 t : Vec Ideal S128x128 .f32) = V c (Pipeline.arrRef spec4 3)
    ∧ (iblk4 V c 4 t : Vec Ideal S1x128 .f32) = V c (Pipeline.arrRef spec4 4) :=
  ⟨funext fun j => congrArg (V c _) (funext fun a => Fin.ext (v4_emb 0 t j a)),
   funext fun j => congrArg (V c _) (funext fun a => Fin.ext (v4_emb 1 t j a)),
   funext fun j => congrArg (V c _) (funext fun a => Fin.ext (v4_emb 2 t j a)),
   funext fun j => congrArg (V c _) (funext fun a => Fin.ext (v4_emb 3 t j a)),
   funext fun j => congrArg (V c _) (funext fun a => Fin.ext (v4_emb 4 t j a))⟩

theorem v4_out_apply (x0 : Vec Ideal S2x1024x128 .f32) (x1 : Vec Ideal S1024x128 .f32) (x2 x3 : Vec Ideal S128x128 .f32)
    (x4 : Vec Ideal S1x128 .f32) (r : Fin 1024) (d : Fin 128) :
    out4_5 x0 x1 x2 x3 x4 (ix2 r d) = Cert.Spec.kFinalAt x0 x1 x2 x3 x4 r d := by
  unfold out4_5
  rw [View.canon_unit_zero zero_vec2, View.ld_unit_zero (S := S1024x128) zero_vec2, View.ld_unit_zero (S := S128x128) zero_vec2,
    View.ld_unit_zero (S := S128x128) zero_vec2, View.ld_unit_zero (S := S1x128) zero_vec2]
  exact fin_apply (f := k4_pay1) rfl x0 x1 x2 x3 x4 r d

/-- At the grid's one point the output block is the finishing function of the five arrays as found. -/
theorem v4_flushed_eq (c : Dev nD) (t : Fin cfg4.N) :
    (dat4 V c).flushed 5 t = ((cfg4.win 5).blk t).view.read (Elt Ideal) (v4_G V c) := by
  obtain ⟨e0, e1, e2, e3, e4⟩ := v4_iblk V c t
  show (cfg4.win 5).cut (cfg4.grid.coords t) ((dat4 V c).after 5 t) = _
  rw [after4_5, e0, e1, e2, e3, e4]
  funext j
  rw [View.read_apply, v4_emb5, eq_ix2 (j : S1024x128.Idx)]
  exact v4_out_apply _ _ _ _ _ (j 0) (j 1)

theorem v4_cover (c : Dev nD) (i : S1024x128.Idx) :
    ∃ t : Fin cfg4.N, (cfg4.win 5).flush t = true ∧ i ∈ ((cfg4.win 5).blk t).view.set :=
  ⟨t4_0, (by decide +kernel : (cfg4.win 5).flush t4_0 = true), by
    have h := ((cfg4.win 5).blk t4_0).view.emb_mem_set i
    rwa [v4_emb5] at h⟩

theorem value4 (c : Dev nD) :
    ((dat4 V c).arrAt 5 cfg4.N : Cert.Spec.SXa.Idx → EReal)
      = Cert.Spec.kFinal (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 (v4_G V c) (fun t _ => v4_flushed_eq V c t) (v4_cover c)

end Cert.KernelIdeal.Val

end
-- ==== Proof.Val.A2c5Val.lean ====
import proofs.«410443_j44109314130257_2_alg».proof.Proof.Spec
import proofs.«410443_j44109314130257_2_alg».proof.Proof.Val.Pay2
import proofs.«410443_j44109314130257_2_alg».proof.Proof.KI.A2c5
import Idealize.ShloMosaic.Lib.ValueIdx
import Idealize.ShloMosaic.Lib.ValueIdxCoords
import Idealize.ShloMosaic.Lib.ValueLayout
import Idealize.ShloMosaic.Lib.Pipeline.Value
import Idealize.ShloMosaic.Lib.Pipeline.FrameBody

set_option maxRecDepth 16384

noncomputable section

open Idealize.ShloMosaic Idealize.ShloMosaic.ValueIdx Idealize.ShloMosaic.TcCoe
open Idealize.ShloMosaic.Pipeline (Dat Cfg Window)

namespace Cert.KernelIdeal.Val

open Cert.KernelIdeal Cert.KernelIdeal.Gen Cert.KernelIdeal.Hand

section Region

variable (V : (c : Dev nD) → (b : Ref sig .tc) → Buf (Elt Ideal) ((c : Thread nD τ).loc b))

/-- Decided over the grid: windows 0, 1 and 6 move with the point along their first axis, the others stay at block zero. -/
private theorem index_facts : ∀ t : Fin cfg5.N,
    (cfg5.win 0).index t (0 : Fin 3) = t.val ∧ (cfg5.win 0).index t (1 : Fin 3) = 0 ∧ (cfg5.win 0).index t (2 : Fin 3) = 0
    ∧ (cfg5.win 1).index t (0 : Fin 2) = t.val ∧ (cfg5.win 1).index t (1 : Fin 2) = 0
    ∧ (cfg5.win 2).index t (0 : Fin 2) = 0 ∧ (cfg5.win 2).index t (1 : Fin 2) = 0
    ∧ (cfg5.win 3).index t (0 : Fin 2) = 0 ∧ (cfg5.win 3).index t (1 : Fin 2) = 0
    ∧ (cfg5.win 4).index t (0 : Fin 2) = 0 ∧ (cfg5.win 4).index t (1 : Fin 2) = 0
    ∧ (cfg5.win 5).index t (0 : Fin 2) = 0 ∧ (cfg5.win 5).index t (1 : Fin 2) = 0
    ∧ (cfg5.win 6).index t (0 : Fin 2) = t.val ∧ (cfg5.win 6).index t (1 : Fin 2) = 0
    ∧ (grid5.coords t 0).val = t.val ∧ (cfg5.win 6).flush t = true :=
  (by decide +kernel : ∀ t : Fin grid5.N, _)

set_option maxHeartbeats 2000000 in
/-- Point t stores block t of the specification's function: each loaded block is named as entries of its array. -/
private theorem flushed_eq (c : Dev nD) (t : Fin cfg5.N) :
    (dat5 V c).flushed 6 t = ((cfg5.win 6).blk t).view.read (Elt Ideal)
      (Cert.Spec.kA2c (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6, show ∀ X : Vec Ideal S128x128 .f32, (cfg5.win 6).cut (grid5.coords t) X = X from fun _ => rfl]
  unfold out5_6
  rw [View.canon_unit_zero zero_vec2]
  simp only [View.ld_unit_zero (S := S128x128) zero_vec2, View.ld_unit_zero (S := S1024x128) zero_vec2,
    View.ld_unit_zero (S := S1x128) zero_vec2, View.ld_unit_zero (S := S1x128x1024) zero_vec3]
  obtain ⟨a00, a01, a02, a10, a11, a20, a21, a30, a31, a40, a41, a50, a51, a60, a61, hco, -⟩ := index_facts t
  have ht : t.val < 782 := lt_of_lt_of_eq t.isLt N_5
  funext j
  obtain ⟨p, q, rfl⟩ : ∃ (p q : Fin 128), j = ix2 p q := ⟨j 0, j 1, eq_ix2 j⟩
  rw [a2c_pay_apply (f := k5_pay1) rfl, hco]
  show _ = Cert.Spec.kA2c (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 6).blk t).view.emb (ix2 p q))
  refine a2c_entry _ _ _ _ _ _ t.val ht p q (iblk5 V c 0 t) (iblk5 V c 1 t) (iblk5 V c 2 t) (iblk5 V c 3 t) (iblk5 V c 4 t) (iblk5 V c 5 t)
    _ ?_ ?_ ?_ ?_ ?_ ?_ ?_ ?_

  · show (cfg5.win 6).index t (0 : Fin 2) * 128 + 1 * p.val = t.val * 128 + p.val
    omega
  · apply Fin.ext
    show (cfg5.win 6).index t (1 : Fin 2) * 128 + 1 * q.val = q.val
    omega

  · intro s
    show V c (Pipeline.arrRef spec5 0) (((cfg5.win 0).blk t).view.emb (ix3 0 p s)) = _
    refine congrArg _ ?_
    funext a; apply Fin.ext
    match a with
    | ⟨0, _⟩ => show (cfg5.win 0).index t (0 : Fin 3) * 1 + 1 * 0 = t.val; omega
    | ⟨1, _⟩ => show (cfg5.win 0).index t (1 : Fin 3) * 128 + 1 * p.val = p.val; omega
    | ⟨2, _⟩ => show (cfg5.win 0).index t (2 : Fin 3) * 1024 + 1 * s.val = s.val; omega

  · intro k
    show V c (Pipeline.arrRef spec5 1) (((cfg5.win 1).blk t).view.emb (ix2 p k)) = _
    refine congrArg _ ?_
    funext a; apply Fin.ext
    match a with
    | ⟨0, _⟩ => show (cfg5.win 1).index t (0 : Fin 2) * 128 + 1 * p.val = (cfg5.win 6).index t (0 : Fin 2) * 128 + 1 * p.val; omega
    | ⟨1, _⟩ => show (cfg5.win 1).index t (1 : Fin 2) * 128 + 1 * k.val = k.val; omega

  · exact fun j => congrArg (V c _) (funext fun a => Fin.ext (Pipeline.Window.rect_emb_val_of_index_zero (cfg5.win 2) t a
      (by match a with | ⟨0, _⟩ => exact a20 | ⟨1, _⟩ => exact a21) j))
  · exact fun j => congrArg (V c _) (funext fun a => Fin.ext (Pipeline.Window.rect_emb_val_of_index_zero (cfg5.win 3) t a
      (by match a with | ⟨0, _⟩ => exact a30 | ⟨1, _⟩ => exact a31) j))
  · exact fun j => congrArg (V c _) (funext fun a => Fin.ext (Pipeline.Window.rect_emb_val_of_index_zero (cfg5.win 4) t a
      (by match a with | ⟨0, _⟩ => exact a40 | ⟨1, _⟩ => exact a41) j))
  · exact fun j => congrArg (V c _) (funext fun a => Fin.ext (Pipeline.Window.rect_emb_val_of_index_zero (cfg5.win 5) t a
      (by match a with | ⟨0, _⟩ => exact a50 | ⟨1, _⟩ => exact a51) j))

/-- Row r lies in the output block of point r / 128. -/
private theorem cover (i : Cert.Spec.SXc.Idx) :
    ∃ t : Fin cfg5.N, (cfg5.win 6).flush t = true ∧ i ∈ ((cfg5.win 6).blk t).view.set := by
  have hi0 : (i 0).val < 100096 := (i 0).isLt
  have hi1 : (i 1).val < 128 := (i 1).isLt
  obtain ⟨t, ht⟩ : ∃ t : Fin cfg5.N, t.val = (i 0).val / 128 :=
    ⟨⟨(i 0).val / 128, lt_of_lt_of_eq (by omega : (i 0).val / 128 < 782) N_5.symm⟩, rfl⟩
  obtain ⟨-, -, -, -, -, -, -, -, -, -, -, -, -, a60, a61, -, hfl⟩ := index_facts t
  refine ⟨t, hfl, ?_⟩
  show i ∈ ((View.whole (Pipeline.arrRef spec5 6)).slice ((cfg5.win 6).rect t)).set
  rw [View.set_slice_whole, Rect.mem_set_unit]
  intro a
  match a with
  | ⟨0, _⟩ =>
    show (cfg5.win 6).index t (0 : Fin 2) * 128 ≤ (i 0).val ∧ (i 0).val < (cfg5.win 6).index t (0 : Fin 2) * 128 + 128
    omega
  | ⟨1, _⟩ =>
    show (cfg5.win 6).index t (1 : Fin 2) * 128 ≤ (i 1).val ∧ (i 1).val < (cfg5.win 6).index t (1 : Fin 2) * 128 + 128
    omega

theorem value5 (c : Dev nD) :
    ((dat5 V c).arrAt 6 cfg5.N : Cert.Spec.SXc.Idx → EReal)
      = Cert.Spec.kA2c (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed_eq V c t) cover

end Region

end Cert.KernelIdeal.Val

end
-- ==== Proof.Val.Reduce6Val.lean ====
import proofs.«410443_j44109314130257_2_alg».proof.Proof.Spec
import proofs.«410443_j44109314130257_2_alg».proof.Proof.KI.Reduce6
import proofs.«410443_j44109314130257_2_alg».proof.Proof.Val.Pay01
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev adj6 (c : Dev nD) : Cert.Spec.SAc.Idx → EReal := V c (Pipeline.arrRef spec6 0)
abbrev feat6 (c : Dev nD) : Cert.Spec.SXc.Idx → EReal := V c (Pipeline.arrRef spec6 1)
abbrev ablk6 (c : Dev nD) (t : Fin cfg6.N) : Vec Ideal S1x1024x128 .bf16 := iblk6 V c 0 t
abbrev xblk6 (c : Dev nD) (t : Fin cfg6.N) : Vec Ideal S128x128 .f32 := iblk6 V c 1 t

/-- Decided over the grid: point 391 c' + j reads block 391 c' + j of both inputs and writes block c'. -/
theorem idx_facts6 : ∀ t : Fin cfg6.N,
    t.val = (cfg6.grid.coords t 0).val * 391 + (cfg6.grid.coords t 1).val
    ∧ (cfg6.grid.coords t 0).val < 2 ∧ (cfg6.grid.coords t 1).val < 391
    ∧ win6_0.index t (0 : Fin 3) = (cfg6.grid.coords t 0).val * 391 + (cfg6.grid.coords t 1).val
    ∧ win6_0.index t (1 : Fin 3) = 0 ∧ win6_0.index t (2 : Fin 3) = 0
    ∧ win6_1.index t (0 : Fin 2) = (cfg6.grid.coords t 0).val * 391 + (cfg6.grid.coords t 1).val
    ∧ win6_1.index t (1 : Fin 2) = 0
    ∧ win6_2.index t (0 : Fin 3) = (cfg6.grid.coords t 0).val
    ∧ win6_2.index t (1 : Fin 3) = 0 ∧ win6_2.index t (2 : Fin 3) = 0 :=
  (by decide +kernel : ∀ t : Fin grid6.N, _)

/-- The product of a point's two blocks, read off the arrays, is the contribution of the point's block number. -/
theorem prod6_eq (c : Dev nD) (t : Fin cfg6.N) (r : Fin 1024) (d : Fin 128) :
    (∑ k : Fin 128, ablk6 V c t (ix3 0 r k) * xblk6 V c t (ix2 k d))
      = blockTerm (adj6 V c) (feat6 V c) r d ((cfg6.grid.coords t 0).val * 391 + (cfg6.grid.coords t 1).val) := by
  obtain ⟨-, h0, h1, a0, a1, a2, x0, x1, -⟩ := idx_facts6 t
  have hb : (cfg6.grid.coords t 0).val * 391 + (cfg6.grid.coords t 1).val < 782 := by omega
  unfold blockTerm
  rw [dif_pos hb]
  refine Finset.sum_congr rfl fun k _ => congrArg₂ (· * ·) (congrArg (V c _) (funext fun a => Fin.ext ?_)) (congrArg (V c _) (funext fun a => Fin.ext ?_))
  · match a with
    | ⟨0, _⟩ => show win6_0.index t (0 : Fin 3) * 1 + 1 * 0 = (cfg6.grid.coords t 0).val * 391 + (cfg6.grid.coords t 1).val; omega
    | ⟨1, _⟩ => show win6_0.index t (1 : Fin 3) * 1024 + 1 * r.val = r.val; omega
    | ⟨2, _⟩ => show win6_0.index t (2 : Fin 3) * 128 + 1 * k.val = k.val; omega
  · match a with
    | ⟨0, _⟩ => show win6_1.index t (0 : Fin 2) * 128 + 1 * k.val = ((cfg6.grid.coords t 0).val * 391 + (cfg6.grid.coords t 1).val) * 128 + k.val; omega
    | ⟨1, _⟩ => show win6_1.index t (1 : Fin 2) * 128 + 1 * d.val = d.val; omega

/-- The output block is stored where j = 390, and there the running sum is the half sum of half c'. -/
theorem flushed6_eq (c : Dev nD) (t : Fin cfg6.N) (hf : (cfg6.win 2).flush t = true) :
    (dat6 V c).flushed 2 t = ((cfg6.win 2).blk t).view.read (Elt Ideal) (Cert.Spec.kPartial (adj6 V c) (feat6 V c)) := by
  have hj : (cfg6.grid.coords t 1).val = 390 := by
    by_contra h
    have := noFlush6_2 t (fun hc => h ((hcond6_1 t).mp hc))
    rw [hf] at this; exact Bool.noConfusion this
  obtain ⟨-, h0, -, -, -, -, -, -, e0, e1, e2⟩ := idx_facts6 t
  show (cfg6.win 2).cut (grid6.coords t) ((dat6 V c).after 2 t) = _
  rw [after6_2]
  funext y
  obtain ⟨p, r, d, rfl⟩ : ∃ (p : Fin 1) (r : Fin 1024) (d : Fin 128), y = ix3 p r d := ⟨y 0, y 1, y 2, eq_ix3 y⟩
  obtain rfl : p = 0 := Subsingleton.elim _ _
  show k6_pay3 (acc6 V c t.val t.isLt) (ix3 0 r d) = Cert.Spec.kPartial (adj6 V c) (feat6 V c) (((cfg6.win 2).blk t).view.emb (ix3 0 r d))
  rw [pay3_apply (f := k6_pay3) rfl, half_sum_last (adj6 V c) (feat6 V c) (acc6 V c) (fun t => (cfg6.grid.coords t 0).val) (fun t => (cfg6.grid.coords t 1).val)
    (ablk6 V c) (xblk6 V c) (f1 := k6_pay1) (f2 := k6_pay2) rfl rfl (fun t => ⟨(idx_facts6 t).1, (idx_facts6 t).2.1, (idx_facts6 t).2.2.1⟩)
    (acc6_zero_j V c) (acc6_succ_j V c) (prod6_eq V c) t hj ⟨(cfg6.grid.coords t 0).val, h0⟩ rfl r d]
  have hemb : ((cfg6.win 2).blk t).view.emb (ix3 0 r d) = (ix3 ⟨(cfg6.grid.coords t 0).val, h0⟩ r d : Cert.Spec.SP.Idx) := by
    funext a
    apply Fin.ext
    match a with
    | ⟨0, _⟩ => show win6_2.index t (0 : Fin 3) * 1 + 1 * 0 = (cfg6.grid.coords t 0).val; omega
    | ⟨1, _⟩ => show win6_2.index t (1 : Fin 3) * 1024 + 1 * r.val = r.val; omega
    | ⟨2, _⟩ => show win6_2.index t (2 : Fin 3) * 128 + 1 * d.val = d.val; omega
  rw [hemb]
  rfl

/-- Index (c', r, d) lies in the output block of point 391 c' + 390. -/
theorem cover6 (i : Cert.Spec.SP.Idx) : ∃ t : Fin cfg6.N, (cfg6.win 2).flush t = true ∧ i ∈ ((cfg6.win 2).blk t).view.set := by
  have hi0 : (i 0).val < 2 := (i 0).isLt
  have hi1 : (i 1).val < 1024 := (i 1).isLt
  have hi2 : (i 2).val < 128 := (i 2).isLt
  have hN : cfg6.N = 782 := N_6
  obtain ⟨t, ht⟩ : ∃ t : Fin cfg6.N, t.val = (i 0).val * 391 + 390 := ⟨⟨_, by omega⟩, rfl⟩
  obtain ⟨p0, p1, p2, -, -, -, -, -, e0, e1, e2⟩ := idx_facts6 t
  refine ⟨t, (flush6_2 t).mpr (by omega), ?_⟩
  show i ∈ ((View.whole (Pipeline.arrRef spec6 2)).slice (win6_2.rect t)).set
  rw [View.set_slice_whole, Rect.mem_set_unit]
  intro a
  match a with
  | ⟨0, _⟩ => show win6_2.index t (0 : Fin 3) * 1 ≤ (i 0).val ∧ (i 0).val < win6_2.index t (0 : Fin 3) * 1 + 1; omega
  | ⟨1, _⟩ => show win6_2.index t (1 : Fin 3) * 1024 ≤ (i 1).val ∧ (i 1).val < win6_2.index t (1 : Fin 3) * 1024 + 1024; omega
  | ⟨2, _⟩ => show win6_2.index t (2 : Fin 3) * 128 ≤ (i 2).val ∧ (i 2).val < win6_2.index t (2 : Fin 3) * 128 + 128; omega

theorem value6 (c : Dev nD) :
    ((dat6 V c).arrAt 2 cfg6.N : Cert.Spec.SP.Idx → EReal)
      = Cert.Spec.kPartial (V c (Pipeline.arrRef spec6 0)) (V c (Pipeline.arrRef spec6 1)) :=
  (dat6 V c).arrAt_eq_of_cover 2 (Cert.Spec.kPartial (adj6 V c) (feat6 V c)) (flushed6_eq V c) cover6

end Cert.KernelIdeal.Val

end
-- ==== Proof.Val.Final7Val.lean ====
import proofs.«410443_j44109314130257_2_alg».proof.Proof.Spec
import proofs.«410443_j44109314130257_2_alg».proof.Proof.KI.Final7
import proofs.«410443_j44109314130257_2_alg».proof.Proof.Val.Pay01
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev v7_G (c : Dev nD) : Vec Ideal S1024x128 .f32 :=
  Cert.Spec.kFinal (V c (Pipeline.arrRef spec7 0)) (V c (Pipeline.arrRef spec7 1)) (V c (Pipeline.arrRef spec7 2))
    (V c (Pipeline.arrRef spec7 3)) (V c (Pipeline.arrRef spec7 4))

theorem v7_idx (w : Fin cfg7.W) (t : Fin cfg7.N) (a) : (cfg7.win w).index t a = 0 := by
  obtain rfl := fin_N7 t; revert w a; decide +kernel

/-- With every block index zero at the grid's one point, a block's index is the same index of its array. -/
theorem v7_emb (w : Fin cfg7.W) (t : Fin cfg7.N) (j : ((cfg7.win w).xblock (cfg7.grid.coords t)).Idx) (a) :
    (((cfg7.win w).rect t).emb j a : ℕ) = j a :=
  Pipeline.Window.rect_emb_val_of_index_zero _ t a (v7_idx w t a) j

theorem v7_emb5 (t : Fin cfg7.N) (j : S1024x128.Idx) : (((cfg7.win 5).blk t).view.emb j : S1024x128.Idx) = j :=
  funext fun a => Fin.ext (v7_emb 5 t j a)

theorem v7_iblk (c : Dev nD) (t : Fin cfg7.N) :
    (iblk7 V c 0 t : Vec Ideal S2x1024x128 .f32) = V c (Pipeline.arrRef spec7 0)
    ∧ (iblk7 V c 1 t : Vec Ideal S1024x128 .f32) = V c (Pipeline.arrRef spec7 1)
    ∧ (iblk7 V c 2 t : Vec Ideal S128x128 .f32) = V c (Pipeline.arrRef spec7 2)
    ∧ (iblk7 V c 3 t : Vec Ideal S128x128 .f32) = V c (Pipeline.arrRef spec7 3)
    ∧ (iblk7 V c 4 t : Vec Ideal S1x128 .f32) = V c (Pipeline.arrRef spec7 4) :=
  ⟨funext fun j => congrArg (V c _) (funext fun a => Fin.ext (v7_emb 0 t j a)),
   funext fun j => congrArg (V c _) (funext fun a => Fin.ext (v7_emb 1 t j a)),
   funext fun j => congrArg (V c _) (funext fun a => Fin.ext (v7_emb 2 t j a)),
   funext fun j => congrArg (V c _) (funext fun a => Fin.ext (v7_emb 3 t j a)),
   funext fun j => congrArg (V c _) (funext fun a => Fin.ext (v7_emb 4 t j a))⟩

theorem v7_out_apply (x0 : Vec Ideal S2x1024x128 .f32) (x1 : Vec Ideal S1024x128 .f32) (x2 x3 : Vec Ideal S128x128 .f32)
    (x4 : Vec Ideal S1x128 .f32) (r : Fin 1024) (d : Fin 128) :
    out7_5 x0 x1 x2 x3 x4 (ix2 r d) = Cert.Spec.kFinalAt x0 x1 x2 x3 x4 r d := by
  unfold out7_5
  rw [View.canon_unit_zero zero_vec2, View.ld_unit_zero (S := S1024x128) zero_vec2, View.ld_unit_zero (S := S128x128) zero_vec2,
    View.ld_unit_zero (S := S128x128) zero_vec2, View.ld_unit_zero (S := S1x128) zero_vec2]
  exact fin_apply (f := k7_pay1) rfl x0 x1 x2 x3 x4 r d

/-- At the grid's one point the output block is the finishing function of the five arrays as found. -/
theorem v7_flushed_eq (c : Dev nD) (t : Fin cfg7.N) :
    (dat7 V c).flushed 5 t = ((cfg7.win 5).blk t).view.read (Elt Ideal) (v7_G V c) := by
  obtain ⟨e0, e1, e2, e3, e4⟩ := v7_iblk V c t
  show (cfg7.win 5).cut (cfg7.grid.coords t) ((dat7 V c).after 5 t) = _
  rw [after7_5, e0, e1, e2, e3, e4]
  funext j
  rw [View.read_apply, v7_emb5, eq_ix2 (j : S1024x128.Idx)]
  exact v7_out_apply _ _ _ _ _ (j 0) (j 1)

theorem v7_cover (c : Dev nD) (i : S1024x128.Idx) :
    ∃ t : Fin cfg7.N, (cfg7.win 5).flush t = true ∧ i ∈ ((cfg7.win 5).blk t).view.set :=
  ⟨t7_0, (by decide +kernel : (cfg7.win 5).flush t7_0 = true), by
    have h := ((cfg7.win 5).blk t7_0).view.emb_mem_set i
    rwa [v7_emb5] at h⟩

theorem value7 (c : Dev nD) :
    ((dat7 V c).arrAt 5 cfg7.N : Cert.Spec.SXa.Idx → EReal)
      = Cert.Spec.kFinal (V c (Pipeline.arrRef spec7 0)) (V c (Pipeline.arrRef spec7 1)) (V c (Pipeline.arrRef spec7 2))
          (V c (Pipeline.arrRef spec7 3)) (V c (Pipeline.arrRef spec7 4)) :=
  (dat7 V c).arrAt_eq_of_cover 5 (v7_G V c) (fun t _ => v7_flushed_eq V c t) (v7_cover c)

end Cert.KernelIdeal.Val

end
-- ==== Proof.Val.A2c8Val.lean ====
import proofs.«410443_j44109314130257_2_alg».proof.Proof.Spec
import proofs.«410443_j44109314130257_2_alg».proof.Proof.Val.Pay2
import proofs.«410443_j44109314130257_2_alg».proof.Proof.KI.A2c8
import Idealize.ShloMosaic.Lib.ValueIdx
import Idealize.ShloMosaic.Lib.ValueIdxCoords
import Idealize.ShloMosaic.Lib.ValueLayout
import Idealize.ShloMosaic.Lib.Pipeline.Value
import Idealize.ShloMosaic.Lib.Pipeline.FrameBody

set_option maxRecDepth 16384

noncomputable section

open Idealize.ShloMosaic Idealize.ShloMosaic.ValueIdx Idealize.ShloMosaic.TcCoe
open Idealize.ShloMosaic.Pipeline (Dat Cfg Window)

namespace Cert.KernelIdeal.Val

open Cert.KernelIdeal Cert.KernelIdeal.Gen Cert.KernelIdeal.Hand

section Region

variable (V : (c : Dev nD) → (b : Ref sig .tc) → Buf (Elt Ideal) ((c : Thread nD τ).loc b))

/-- Decided over the grid: windows 0, 1 and 6 move with the point along their first axis, the others stay at block zero. -/
private theorem index_facts : ∀ t : Fin cfg8.N,
    (cfg8.win 0).index t (0 : Fin 3) = t.val ∧ (cfg8.win 0).index t (1 : Fin 3) = 0 ∧ (cfg8.win 0).index t (2 : Fin 3) = 0
    ∧ (cfg8.win 1).index t (0 : Fin 2) = t.val ∧ (cfg8.win 1).index t (1 : Fin 2) = 0
    ∧ (cfg8.win 2).index t (0 : Fin 2) = 0 ∧ (cfg8.win 2).index t (1 : Fin 2) = 0
    ∧ (cfg8.win 3).index t (0 : Fin 2) = 0 ∧ (cfg8.win 3).index t (1 : Fin 2) = 0
    ∧ (cfg8.win 4).index t (0 : Fin 2) = 0 ∧ (cfg8.win 4).index t (1 : Fin 2) = 0
    ∧ (cfg8.win 5).index t (0 : Fin 2) = 0 ∧ (cfg8.win 5).index t (1 : Fin 2) = 0
    ∧ (cfg8.win 6).index t (0 : Fin 2) = t.val ∧ (cfg8.win 6).index t (1 : Fin 2) = 0
    ∧ (grid8.coords t 0).val = t.val ∧ (cfg8.win 6).flush t = true :=
  (by decide +kernel : ∀ t : Fin grid8.N, _)

set_option maxHeartbeats 2000000 in
/-- Point t stores block t of the specification's function: each loaded block is named as entries of its array. -/
private theorem flushed_eq (c : Dev nD) (t : Fin cfg8.N) :
    (dat8 V c).flushed 6 t = ((cfg8.win 6).blk t).view.read (Elt Ideal)
      (Cert.Spec.kA2c (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6, show ∀ X : Vec Ideal S128x128 .f32, (cfg8.win 6).cut (grid8.coords t) X = X from fun _ => rfl]
  unfold out8_6
  rw [View.canon_unit_zero zero_vec2]
  simp only [View.ld_unit_zero (S := S128x128) zero_vec2, View.ld_unit_zero (S := S1024x128) zero_vec2,
    View.ld_unit_zero (S := S1x128) zero_vec2, View.ld_unit_zero (S := S1x128x1024) zero_vec3]
  obtain ⟨a00, a01, a02, a10, a11, a20, a21, a30, a31, a40, a41, a50, a51, a60, a61, hco, -⟩ := index_facts t
  have ht : t.val < 782 := lt_of_lt_of_eq t.isLt N_8
  funext j
  obtain ⟨p, q, rfl⟩ : ∃ (p q : Fin 128), j = ix2 p q := ⟨j 0, j 1, eq_ix2 j⟩
  rw [a2c_pay_apply (f := k8_pay1) rfl, hco]
  show _ = Cert.Spec.kA2c (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (((cfg8.win 6).blk t).view.emb (ix2 p q))
  refine a2c_entry _ _ _ _ _ _ t.val ht p q (iblk8 V c 0 t) (iblk8 V c 1 t) (iblk8 V c 2 t) (iblk8 V c 3 t) (iblk8 V c 4 t) (iblk8 V c 5 t)
    _ ?_ ?_ ?_ ?_ ?_ ?_ ?_ ?_

  · show (cfg8.win 6).index t (0 : Fin 2) * 128 + 1 * p.val = t.val * 128 + p.val
    omega
  · apply Fin.ext
    show (cfg8.win 6).index t (1 : Fin 2) * 128 + 1 * q.val = q.val
    omega

  · intro s
    show V c (Pipeline.arrRef spec8 0) (((cfg8.win 0).blk t).view.emb (ix3 0 p s)) = _
    refine congrArg _ ?_
    funext a; apply Fin.ext
    match a with
    | ⟨0, _⟩ => show (cfg8.win 0).index t (0 : Fin 3) * 1 + 1 * 0 = t.val; omega
    | ⟨1, _⟩ => show (cfg8.win 0).index t (1 : Fin 3) * 128 + 1 * p.val = p.val; omega
    | ⟨2, _⟩ => show (cfg8.win 0).index t (2 : Fin 3) * 1024 + 1 * s.val = s.val; omega

  · intro k
    show V c (Pipeline.arrRef spec8 1) (((cfg8.win 1).blk t).view.emb (ix2 p k)) = _
    refine congrArg _ ?_
    funext a; apply Fin.ext
    match a with
    | ⟨0, _⟩ => show (cfg8.win 1).index t (0 : Fin 2) * 128 + 1 * p.val = (cfg8.win 6).index t (0 : Fin 2) * 128 + 1 * p.val; omega
    | ⟨1, _⟩ => show (cfg8.win 1).index t (1 : Fin 2) * 128 + 1 * k.val = k.val; omega

  · exact fun j => congrArg (V c _) (funext fun a => Fin.ext (Pipeline.Window.rect_emb_val_of_index_zero (cfg8.win 2) t a
      (by match a with | ⟨0, _⟩ => exact a20 | ⟨1, _⟩ => exact a21) j))
  · exact fun j => congrArg (V c _) (funext fun a => Fin.ext (Pipeline.Window.rect_emb_val_of_index_zero (cfg8.win 3) t a
      (by match a with | ⟨0, _⟩ => exact a30 | ⟨1, _⟩ => exact a31) j))
  · exact fun j => congrArg (V c _) (funext fun a => Fin.ext (Pipeline.Window.rect_emb_val_of_index_zero (cfg8.win 4) t a
      (by match a with | ⟨0, _⟩ => exact a40 | ⟨1, _⟩ => exact a41) j))
  · exact fun j => congrArg (V c _) (funext fun a => Fin.ext (Pipeline.Window.rect_emb_val_of_index_zero (cfg8.win 5) t a
      (by match a with | ⟨0, _⟩ => exact a50 | ⟨1, _⟩ => exact a51) j))

/-- Row r lies in the output block of point r / 128. -/
private theorem cover (i : Cert.Spec.SXc.Idx) :
    ∃ t : Fin cfg8.N, (cfg8.win 6).flush t = true ∧ i ∈ ((cfg8.win 6).blk t).view.set := by
  have hi0 : (i 0).val < 100096 := (i 0).isLt
  have hi1 : (i 1).val < 128 := (i 1).isLt
  obtain ⟨t, ht⟩ : ∃ t : Fin cfg8.N, t.val = (i 0).val / 128 :=
    ⟨⟨(i 0).val / 128, lt_of_lt_of_eq (by omega : (i 0).val / 128 < 782) N_8.symm⟩, rfl⟩
  obtain ⟨-, -, -, -, -, -, -, -, -, -, -, -, -, a60, a61, -, hfl⟩ := index_facts t
  refine ⟨t, hfl, ?_⟩
  show i ∈ ((View.whole (Pipeline.arrRef spec8 6)).slice ((cfg8.win 6).rect t)).set
  rw [View.set_slice_whole, Rect.mem_set_unit]
  intro a
  match a with
  | ⟨0, _⟩ =>
    show (cfg8.win 6).index t (0 : Fin 2) * 128 ≤ (i 0).val ∧ (i 0).val < (cfg8.win 6).index t (0 : Fin 2) * 128 + 128
    omega
  | ⟨1, _⟩ =>
    show (cfg8.win 6).index t (1 : Fin 2) * 128 ≤ (i 1).val ∧ (i 1).val < (cfg8.win 6).index t (1 : Fin 2) * 128 + 128
    omega

theorem value8 (c : Dev nD) :
    ((dat8 V c).arrAt 6 cfg8.N : Cert.Spec.SXc.Idx → EReal)
      = Cert.Spec.kA2c (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) :=
  (dat8 V c).arrAt_eq_of_cover 6 _ (fun t _ => flushed_eq V c t) cover

end Region

end Cert.KernelIdeal.Val

end
-- ==== Proof.Val.KernelValue.lean ====
import proofs.«410443_j44109314130257_2_alg».proof.Proof.Spec
import proofs.«410443_j44109314130257_2_alg».proof.Proof.KI.Chain
import proofs.«410443_j44109314130257_2_alg».proof.Proof.Val.Persist
import proofs.«410443_j44109314130257_2_alg».proof.Proof.Val.Tail
import proofs.«410443_j44109314130257_2_alg».proof.Proof.Val.Join
import proofs.«410443_j44109314130257_2_alg».proof.Proof.Val.HostW
import proofs.«410443_j44109314130257_2_alg».proof.Proof.Val.Reduce0Val
import proofs.«410443_j44109314130257_2_alg».proof.Proof.Val.Final1Val
import proofs.«410443_j44109314130257_2_alg».proof.Proof.Val.A2c2Val
import proofs.«410443_j44109314130257_2_alg».proof.Proof.Val.Reduce3Val
import proofs.«410443_j44109314130257_2_alg».proof.Proof.Val.Final4Val
import proofs.«410443_j44109314130257_2_alg».proof.Proof.Val.A2c5Val
import proofs.«410443_j44109314130257_2_alg».proof.Proof.Val.Reduce6Val
import proofs.«410443_j44109314130257_2_alg».proof.Proof.Val.Final7Val
import proofs.«410443_j44109314130257_2_alg».proof.Proof.Val.A2c8Val
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (W : Dev nD → Valuation τ sig (Elt Ideal))

theorem out0_val (c : Dev nD) :
    (WoutOf0 W c main_v78 : Cert.Spec.SP.Idx → EReal) = Cert.Spec.kPartial (W c main_v32) (W c main_v0) :=
  (Function.update_self (Proc.devRef .tc outRef0 : DevRef τ sig) (o0 W c) (W c)).trans (value0 (toV W) c)

theorem out1_val (c : Dev nD) :
    (WoutOf1 W c main_v79 : Cert.Spec.SXa.Idx → EReal) = Cert.Spec.kFinal (W c main_v78) (W c main_v1) (W c main_v65) (W c main_v67) (W c main_v70) :=
  (Function.update_self (Proc.devRef .tc outRef1 : DevRef τ sig) (o1 W c) (W c)).trans (value1 (toV W) c)

theorem out2_val (c : Dev nD) :
    (WoutOf2 W c main_v80 : Cert.Spec.SXc.Idx → EReal) = Cert.Spec.kA2c (W c main_v63) (W c main_v0) (W c main_v1) (W c main_v72) (W c main_v74) (W c main_v77) :=
  (Function.update_self (Proc.devRef .tc outRef2 : DevRef τ sig) (o2 W c) (W c)).trans (value2 (toV W) c)

theorem out3_val (c : Dev nD) :
    (WoutOf3 W c main_v95 : Cert.Spec.SP.Idx → EReal) = Cert.Spec.kPartial (W c main_v32) (W c main_v80) :=
  (Function.update_self (Proc.devRef .tc outRef3 : DevRef τ sig) (o3 W c) (W c)).trans (value3 (toV W) c)

theorem out4_val (c : Dev nD) :
    (WoutOf4 W c main_v96 : Cert.Spec.SXa.Idx → EReal) = Cert.Spec.kFinal (W c main_v95) (W c main_v79) (W c main_v82) (W c main_v84) (W c main_v87) :=
  (Function.update_self (Proc.devRef .tc outRef4 : DevRef τ sig) (o4 W c) (W c)).trans (value4 (toV W) c)

theorem out5_val (c : Dev nD) :
    (WoutOf5 W c main_v97 : Cert.Spec.SXc.Idx → EReal) = Cert.Spec.kA2c (W c main_v63) (W c main_v80) (W c main_v79) (W c main_v89) (W c main_v91) (W c main_v94) :=
  (Function.update_self (Proc.devRef .tc outRef5 : DevRef τ sig) (o5 W c) (W c)).trans (value5 (toV W) c)

theorem out8_val (c : Dev nD) :
    (WoutOf8 W c main_v114 : Cert.Spec.SXc.Idx → EReal) = Cert.Spec.kA2c (W c main_v63) (W c main_v97) (W c main_v96) (W c main_v106) (W c main_v108) (W c main_v111) :=
  (Function.update_self (Proc.devRef .tc outRef8 : DevRef τ sig) (o8 W c) (W c)).trans (value8 (toV W) c)

variable (m : (ℓ : Loc nD τ sig) → Buf (Elt Ideal) ℓ) (c : Dev nD)

-- Each operand of a region equals its value in the valuation where it was last written.
theorem in1 (r : Ref sig .tc) (h : r ∉ ([main_v78] : List (Ref sig .tc)) := by decide) : Wout0 m c r = V13 m c r :=
  (congrFun (V14_eq m c) (Proc.devRef .tc r : DevRef τ sig)).symm.trans (V14_of m (outs m) c r h)
theorem in2 (r : Ref sig .tc) (h14 : r ∉ ([main_v78] : List (Ref sig .tc)) := by decide) (h15 : r ∉ ([main_v79] : List (Ref sig .tc)) := by decide) : Wout1 m c r = V13 m c r :=
  (congrFun (V15_eq m c) (Proc.devRef .tc r : DevRef τ sig)).symm.trans (to13_of15 m (outs m) c r h14 h15)
theorem in4 (r : Ref sig .tc) (h : r ∉ ([main_v95] : List (Ref sig .tc)) := by decide) : Wout3 m c r = V17 m (outs m) c r :=
  (congrFun (V18_eq m c) (Proc.devRef .tc r : DevRef τ sig)).symm.trans (V18_of m (outs m) c r h)
theorem in5 (r : Ref sig .tc) (h18 : r ∉ ([main_v95] : List (Ref sig .tc)) := by decide) (h19 : r ∉ ([main_v96] : List (Ref sig .tc)) := by decide) : Wout4 m c r = V17 m (outs m) c r :=
  (congrFun (V19_eq m c) (Proc.devRef .tc r : DevRef τ sig)).symm.trans (to17_of19 m (outs m) c r h18 h19)
theorem in8 (r : Ref sig .tc) (h22 : r ∉ ([main_v112] : List (Ref sig .tc)) := by decide) (h23 : r ∉ ([main_v113] : List (Ref sig .tc)) := by decide) : Wout7 m c r = V21 m (outs m) c r :=
  (congrFun (V23_eq m c) (Proc.devRef .tc r : DevRef τ sig)).symm.trans (to21_of23 m (outs m) c r h22 h23)
theorem in3_main_v32 : Win3 m c main_v32 = V13 m c main_v32 :=
  (congrFun (V17_eq m c) (Proc.devRef .tc main_v32 : DevRef τ sig)).symm.trans (p3_main_v32 m (outs m) c)
theorem in3_main_v80 : Win3 m c main_v80 = Wout2 m c main_v80 :=
  (congrFun (V17_eq m c) (Proc.devRef .tc main_v80 : DevRef τ sig)).symm.trans (p3_main_v80 m (outs m) c)
theorem in4_main_v79 : Wout3 m c main_v79 = Wout1 m c main_v79 :=
  (congrFun (V18_eq m c) (Proc.devRef .tc main_v79 : DevRef τ sig)).symm.trans (p4_main_v79 m (outs m) c)
theorem in5_main_v63 : Wout4 m c main_v63 = V13 m c main_v63 :=
  (congrFun (V19_eq m c) (Proc.devRef .tc main_v63 : DevRef τ sig)).symm.trans (p5_main_v63 m (outs m) c)
theorem in5_main_v80 : Wout4 m c main_v80 = Wout2 m c main_v80 :=
  (congrFun (V19_eq m c) (Proc.devRef .tc main_v80 : DevRef τ sig)).symm.trans (p5_main_v80 m (outs m) c)
theorem in5_main_v79 : Wout4 m c main_v79 = Wout1 m c main_v79 :=
  (congrFun (V19_eq m c) (Proc.devRef .tc main_v79 : DevRef τ sig)).symm.trans (p5_main_v79 m (outs m) c)
theorem in8_main_v63 : Wout7 m c main_v63 = V13 m c main_v63 :=
  (congrFun (V23_eq m c) (Proc.devRef .tc main_v63 : DevRef τ sig)).symm.trans (p8_main_v63 m (outs m) c)
theorem in8_main_v97 : Wout7 m c main_v97 = Wout5 m c main_v97 :=
  (congrFun (V23_eq m c) (Proc.devRef .tc main_v97 : DevRef τ sig)).symm.trans (p8_main_v97 m (outs m) c)
theorem in8_main_v96 : Wout7 m c main_v96 = Wout4 m c main_v96 :=
  (congrFun (V23_eq m c) (Proc.devRef .tc main_v96 : DevRef τ sig)).symm.trans (p8_main_v96 m (outs m) c)
theorem in9_main_v114 : V24 m (outs m) c main_v114 = Wout8 m c main_v114 := p9_main_v114 m (outs m) c

theorem P1_eq : (Wout0 m c main_v78 : Cert.Spec.SP.Idx → EReal) = Cert.Spec.kPartial (V13 m c main_v32) (V13 m c main_v0) := by
  rw [show (Wout0 m c main_v78 : Cert.Spec.SP.Idx → EReal) = _ from out0_val (Win0 m) c]

theorem P2_eq : (Wout3 m c main_v95 : Cert.Spec.SP.Idx → EReal) = Cert.Spec.kPartial (V13 m c main_v32) (Wout2 m c main_v80) := by
  rw [show (Wout3 m c main_v95 : Cert.Spec.SP.Idx → EReal) = _ from out3_val (Win3 m) c, in3_main_v32 m c, in3_main_v80 m c]

abbrev argAt (r : Ref sig .tc) : Buf (Elt Ideal) ((c : Thread nD τ).loc r) := m ((c : Thread nD τ).loc r)

section
variable (Ac : Cert.Spec.SAc.Idx → EReal) (Aa : Cert.Spec.SAa.Idx → EReal)

abbrev kStep (l : Fin 3) :=
  Cert.Spec.kLayer Ac Aa (argAt m c main_arg6) (argAt m c main_arg7) (argAt m c main_arg8) (argAt m c main_arg9) (argAt m c main_arg10) (argAt m c main_arg11) l
abbrev kState1 := kStep m c Ac Aa 0 (Cert.Spec.padC (argAt m c main_arg0), Cert.Spec.padA (argAt m c main_arg1))
abbrev kState2 := kStep m c Ac Aa 1 (kState1 m c Ac Aa)
abbrev kState3 := kStep m c Ac Aa 2 (kState2 m c Ac Aa)

variable {m c Ac Aa}
  (hAc : (V13 m c main_v32 : Cert.Spec.SAc.Idx → EReal) = Ac) (hAa : (V13 m c main_v63 : Cert.Spec.SAa.Idx → EReal) = Aa)

include hAc hAa

-- Layer by layer the pair (client rows, aggregator rows) is kLayer of the pair before it.
theorem xa1_val : (Wout1 m c main_v79 : Cert.Spec.SXa.Idx → EReal) = (kState1 m c Ac Aa).2 := by
  rw [show (Wout1 m c main_v79 : Cert.Spec.SXa.Idx → EReal) = _ from out1_val (Wout0 m) c, in1 m c main_v1, in1 m c main_v65, in1 m c main_v67, in1 m c main_v70,
    P1_eq, hAc, xc0_read m c, xa0_read m c, w65_read m c, w67_read m c, w70_read m c]
  rfl
theorem xc1_val : (Wout2 m c main_v80 : Cert.Spec.SXc.Idx → EReal) = (kState1 m c Ac Aa).1 := by
  rw [show (Wout2 m c main_v80 : Cert.Spec.SXc.Idx → EReal) = _ from out2_val (Wout1 m) c, in2 m c main_v63, in2 m c main_v0, in2 m c main_v1, in2 m c main_v72, in2 m c main_v74, in2 m c main_v77,
    hAa, xc0_read m c, xa0_read m c, w72_read m c, w74_read m c, w77_read m c]
  rfl
theorem xa2_val : (Wout4 m c main_v96 : Cert.Spec.SXa.Idx → EReal) = (kState2 m c Ac Aa).2 := by
  rw [show (Wout4 m c main_v96 : Cert.Spec.SXa.Idx → EReal) = _ from out4_val (Wout3 m) c, in4_main_v79 m c, in4 m c main_v82, in4 m c main_v84, in4 m c main_v87,
    P2_eq, hAc, xc1_val hAc hAa, xa1_val hAc hAa, w82_read m (outs m) c, w84_read m (outs m) c, w87_read m (outs m) c]
  rfl
theorem xc2_val : (Wout5 m c main_v97 : Cert.Spec.SXc.Idx → EReal) = (kState2 m c Ac Aa).1 := by
  rw [show (Wout5 m c main_v97 : Cert.Spec.SXc.Idx → EReal) = _ from out5_val (Wout4 m) c, in5_main_v63 m c, in5_main_v80 m c, in5_main_v79 m c, in5 m c main_v89, in5 m c main_v91, in5 m c main_v94,
    hAa, xc1_val hAc hAa, xa1_val hAc hAa, w89_read m (outs m) c, w91_read m (outs m) c, w94_read m (outs m) c]
  rfl
theorem xc3_val : (Wout8 m c main_v114 : Cert.Spec.SXc.Idx → EReal) = (kState3 m c Ac Aa).1 := by
  rw [show (Wout8 m c main_v114 : Cert.Spec.SXc.Idx → EReal) = _ from out8_val (Wout7 m) c, in8_main_v63 m c, in8_main_v97 m c, in8_main_v96 m c, in8 m c main_v106, in8 m c main_v108, in8 m c main_v111,
    hAa, xc2_val hAc hAa, xa2_val hAc hAa, w106_read m (outs m) c, w108_read m (outs m) c, w111_read m (outs m) c]
  rfl

end

theorem kernel_value (m : (ℓ : Loc nD τ sig) → Buf (Elt Ideal) ℓ) (c : Dev nD)
    {Ac : Cert.Spec.SAc.Idx → EReal} {Aa : Cert.Spec.SAa.Idx → EReal}
    (hAc : (V13 m c main_v32 : Cert.Spec.SAc.Idx → EReal) = Ac) (hAa : (V13 m c main_v63 : Cert.Spec.SAa.Idx → EReal) = Aa) :
    (Wend m c main_v120 : Cert.Spec.STo.Idx → EReal)
      = Cert.Spec.tailFn (fun i : Cert.Spec.SXc0.Idx => (Cert.Spec.kLayers Ac Aa (argAt m c main_arg6) (argAt m c main_arg7) (argAt m c main_arg8)
          (argAt m c main_arg9) (argAt m c main_arg10) (argAt m c main_arg11) (argAt m c main_arg0) (argAt m c main_arg1)).1
            (ix2 (⟨(i 0).val, Nat.lt_of_lt_of_le (idx2_lt0 i) (by decide)⟩ : Fin 100096) (i 1)))
        (argAt m c main_arg12) (argAt m c main_arg13) := by
  rw [show Cert.Spec.kLayers Ac Aa (argAt m c main_arg6) (argAt m c main_arg7) (argAt m c main_arg8) (argAt m c main_arg9)
      (argAt m c main_arg10) (argAt m c main_arg11) (argAt m c main_arg0) (argAt m c main_arg1) = kState3 m c Ac Aa from rfl,
    ← xc3_val hAc hAa, ← in9_main_v114 m c]
  exact (congrFun (V25_eq m c) (Proc.devRef .tc main_v120 : DevRef τ sig)).symm.trans (tail_read m (outs m) c)

end Cert.KernelIdeal.Val
end
-- ==== Proof.Val.HostAdj.lean ====
import proofs.«410443_j44109314130257_2_alg».proof.Proof.Spec
import proofs.«410443_j44109314130257_2_alg».proof.Proof.Gen.KernelIdeal.Regions
import Idealize.ShloMosaic.Lib.ValueLayout
import Idealize.ShloMosaic.Lib.IdealHost
import Idealize.ShloMosaic.Lib.StableHlo.Predicate
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx

local notation "zerosC" => (broadcastInDim S782x1024x128 ![] bcast_S_S782x1024x128 (constant (F := Ideal) S_ FTy.f32 0#32))
local notation "zerosA" => (broadcastInDim S782x128x1024 ![] bcast_S_S782x128x1024 (constant (F := Ideal) S_ FTy.f32 0#32))
local notation "onesV" => (broadcastInDim S1600000 ![] bcast_S_S1600000 (constant (F := Ideal) S_ FTy.f32 1065353216#32))

open Idealize.ShloMosaic.StableHlo in
local macro "hostadj_results_simp" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val]))

open Idealize.ShloMosaic.StableHlo in
local macro "hostadj_results_rw" : tactic =>
  `(tactic| (repeat (first
               | rw [nullary_result] | rw [unary_result] | rw [binary_result] | rw [ternary_result] | rw [quaternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

namespace HostAdj

theorem msb_false_of_lt {x : BitVec 32} (hx : x.toNat < 2 ^ 31) : x.msb = false :=
  BitVec.msb_eq_false_iff_two_mul_lt.mpr (by omega)

/-- Below 2^31 a word is not negative, so its signed quotient by 128 is the quotient of its value. -/
theorem divsi_128 (u : ArithUnit) (x : BitVec 32) (hx : x.toNat < 2 ^ 31) : (IntOp.divsi u x 128#32).toNat = x.toNat / 128 := by
  simp only [IntOp.divsi, if_neg (IntOp.not_corner_of_pos (y := 128#32) (by decide)), BitVec.sdiv_eq, msb_false_of_lt hx,
    show (128#32 : BitVec 32).msb = false from by decide, BitVec.udiv_eq, BitVec.toNat_udiv, BitVec.toNat_ofNat, Nat.reducePow, Nat.reduceMod]

def sgnW (x : BitVec 32) : BitVec 32 := if x = 0 then 0 else if x.msb then -1 else 1

def fdivW (x : BitVec 32) : BitVec 32 :=
  Scalar.select (IntOp.andi (IntOp.cmpi .ne (sgnW x) (sgnW 128#32)) (IntOp.cmpi .ne (IntOp.remsi .host x 128#32) 0#32))
    (IntOp.subi (IntOp.divsi .host x 128#32) 1#32) (IntOp.divsi .host x 128#32)

def fremW (x : BitVec 32) : BitVec 32 :=
  Scalar.select
    (IntOp.andi (IntOp.cmpi .ne (IntOp.cmpi .slt (IntOp.remsi .host x 128#32) 0#32) (IntOp.cmpi .slt 128#32 0#32))
      (IntOp.cmpi .ne (IntOp.remsi .host x 128#32) 0#32))
    (IntOp.addi (IntOp.remsi .host x 128#32) 128#32) (IntOp.remsi .host x 128#32)

theorem select_andi_zero {α : Type} (b : BitVec 1) (p q : α) : Scalar.select (IntOp.andi 0#1 b) p q = q := by
  unfold IntOp.andi Scalar.select
  rw [BitVec.zero_and, if_neg (by decide)]

/-- No sign correction applies: zero has remainder zero, and every other word below 2^31 has the sign of 128. -/
theorem fdivW_of_lt (x : BitVec 32) (hx : x.toNat < 2 ^ 31) : (fdivW x).toNat = x.toNat / 128 := by
  by_cases h0 : x = 0
  · subst h0; decide
  · unfold fdivW
    rw [show IntOp.cmpi .ne (sgnW x) (sgnW 128#32) = 0#1 from by rw [sgnW, if_neg h0, msb_false_of_lt hx]; decide, select_andi_zero]
    exact divsi_128 _ x hx

theorem slt_zero_of_lt (y : BitVec 32) (hy : y.toNat < 2 ^ 31) : IntOp.cmpi .slt y 0#32 = 0#1 :=
  eq_zero_of_ne_one (by rw [StableHlo.Predicate.slt_iff_toNat hy (by decide)]; exact Nat.not_lt_zero _)

/-- The remainder and 128 are both non-negative, so no sign correction applies. -/
theorem fremW_of_lt (x : BitVec 32) (hx : x.toNat < 2 ^ 31) : (fremW x).toNat = x.toNat % 128 := by
  have hr := IntOp.toNat_remsi .host (x := x) (by omega) 128 (by decide) (by decide)
  unfold fremW
  rw [slt_zero_of_lt _ (by rw [hr]; omega), slt_zero_of_lt 128#32 (by decide), show IntOp.cmpi .ne (0#1) (0#1) = 0#1 from by decide,
    select_andi_zero, hr]

def wrapV (q : IVec S1600000 32) (n : BitVec 32) : IVec S1600000 32 :=
  select (cmpi .slt q (broadcastInDim S1600000 ![] bcast_S_S1600000 (constantI S_ 32 0#32)))
    (addi q (broadcastInDim S1600000 ![] bcast_S_S1600000 (constantI S_ 32 n))) q

/-- A word below 2^31 is not negative: the wrap-around keeps it and its signed reading is its value. -/
theorem wrapV_toInt (q : IVec S1600000 32) (n : BitVec 32) (e : Fin 1600000) (v : ℕ) (hv : v < 2 ^ 31) (hq : (q (ix1 e)).toNat = v) :
    (wrapV q n (ix1 e)).toInt = v := by
  have hlt : (q (ix1 e)).toNat < 2 ^ 31 := by omega
  show (Scalar.select (IntOp.cmpi .slt (q (ix1 e)) 0#32) (IntOp.addi (q (ix1 e)) n) (q (ix1 e))).toInt = _
  rw [slt_zero_of_lt _ hlt, select_zero, StableHlo.Predicate.toInt_eq_toNat_of_lt hlt, hq]

/-- A row naming all three operand axes, with no window axes, lands at the index its three words spell; that index is `t`, so it is in range. -/
theorem resultIdx_of {n0 n1 n2 : ℕ} (d : ScatterDims ⟨3, ![n0, n1, n2]⟩ S1600000x3 S1600000)
    (hm : ∀ a : Fin 3, a ∈ d.scatterDimsToOperandDims)
    (hsi : ∀ (e : Fin 1600000) (a : Fin 3) h, d.siIdx (ix1 e) ⟨List.idxOf a d.scatterDimsToOperandDims, h⟩ = ix2 e a)
    (hw : ∀ j (a : Fin 3), d.window j a = 0)
    (idx : IVec S1600000x3 32) (e : Fin 1600000) (t : (⟨3, ![n0, n1, n2]⟩ : Shape).Idx)
    (h : ∀ a : Fin 3, (idx (ix2 e a)).toInt = ((t a).val : ℤ)) : d.resultIdx? (ix1 e) idx = some t := by
  have hv : ∀ a, d.start (ix1 e) idx a + d.window (ix1 e) a = ((t a).val : ℤ) := fun a => by
    unfold ScatterDims.start
    rw [dif_pos (hm a), hsi, hw, h a]
    omega
  unfold ScatterDims.resultIdx?
  rw [dif_pos]
  · congr 1
    funext a
    apply Fin.ext
    show (d.start (ix1 e) idx a + d.window (ix1 e) a).toNat = (t a).val
    rw [hv a]
    omega
  · exact fun a => by rw [hv a]; have := (t a).isLt; constructor <;> omega

abbrev dC := scatter_S782x1024x128_S1600000x3_S1600000_n_012_012_1
abbrev dA := scatter_S782x128x1024_S1600000x3_S1600000_n_012_012_1

/-- How many edges land at index `i`. -/
def cnt {n : ℕ} {S : Shape} (tgt : Fin n → S.Idx) (i : S.Idx) : EReal := ∑ e : Fin n, if tgt e = i then 1 else 0

/-- Exchange the two sums: an edge contributes a one exactly at its own landing index. -/
theorem sum_filter_cnt {n : ℕ} {S : Shape} (tgt : Fin n → S.Idx) (P : S.Idx → Prop) [DecidablePred P] :
    ∑ i ∈ Finset.univ.filter P, cnt tgt i = ∑ e : Fin n, if P (tgt e) then 1 else 0 := by
  unfold cnt
  rw [Finset.sum_comm]
  refine Finset.sum_congr rfl fun e _ => ?_
  rw [Finset.sum_ite_eq (Finset.univ.filter P) (tgt e) (fun _ => (1 : EReal))]
  simp only [Finset.mem_filter, Finset.mem_univ, true_and]

theorem sum_idx1 {M : Type*} [AddCommMonoid M] {n : ℕ} (f : (⟨1, ![n]⟩ : Shape).Idx → M) :
    ∑ j, f j = ∑ e : Fin n, f (ix1 e) :=
  (Equiv.sum_comp (⟨ix1, fun j => j 0, fun _ => rfl, fun j => (eq_ix1 j).symm⟩ : Fin n ≃ (⟨1, ![n]⟩ : Shape).Idx) f).symm

/-- Adding a one at every row's landing index, from zero, counts the rows landing there. -/
theorem scat_cnt {s : Shape} (d : ScatterDims s S1600000x3 S1600000) (idx : IVec S1600000x3 32) (tgt : Fin 1600000 → s.Idx)
    (hr : ∀ e, d.resultIdx? (ix1 e) idx = some (tgt e)) (z : s.Idx → EReal) (hz : ∀ i, z i = 0) :
    Host.scatterAdd (F := Ideal) (φ := .f32) d z idx onesV = cnt tgt := by
  funext i
  unfold Host.scatterAdd
  rw [Ideal.hostScatterAdd_def]
  unfold Ideal.hostScatterAdd cnt
  rw [hz, zero_add, Finset.sum_filter, sum_idx1]
  refine Finset.sum_congr rfl fun e _ => ?_
  rw [hr e]
  exact if_congr ⟨Option.some.inj, congrArg some⟩ Ideal.ofBits_one_f32 rfl

/-- Summing the counts over the indices that drop to `j` counts the edges whose landing index drops to `j`. -/
theorem red_cnt {s t : Shape} {axes : List (Fin s.rank)} (r : s.ReducesTo axes t) (tgt : Fin 1600000 → s.Idx) (j : t.Idx)
    (P : Fin 1600000 → Prop) [DecidablePred P] (hP : ∀ e, r.drop (tgt e) = j ↔ P e) :
    Ideal.hostReduceAdd r (cnt tgt) 0 j = ∑ e : Fin 1600000, if P e then 1 else 0 := by
  unfold Ideal.hostReduceAdd
  rw [zero_add, sum_filter_cnt]
  exact Finset.sum_congr rfl fun e _ => if_congr (hP e) rfl rfl

section

variable (x a : Fin 1600000 → ℕ) (hx : ∀ e, x e < 100000) (ha : ∀ e, a e < 1000)

/-- Edge `e` lands at (x / 128, a, x % 128). -/
def tgtC (e : Fin 1600000) : S782x1024x128.Idx :=
  ix3 (⟨x e / 128, by have := hx e; omega⟩ : Fin 782) (⟨a e, by have := ha e; omega⟩ : Fin 1024)
    (⟨x e % 128, Nat.mod_lt _ (by decide)⟩ : Fin 128)

theorem idx_ext3 {n0 n1 n2 : ℕ} (t i : (⟨3, ![n0, n1, n2]⟩ : Shape).Idx) :
    t = i ↔ (t 0).val = (i 0).val ∧ (t 1).val = (i 1).val ∧ (t 2).val = (i 2).val :=
  ⟨fun h => h ▸ ⟨rfl, rfl, rfl⟩, fun h => funext fun k => by fin_cases k <;> apply Fin.ext; exacts [h.1, h.2.1, h.2.2]⟩

theorem idx_ext2 {n0 n1 : ℕ} (t i : (⟨2, ![n0, n1]⟩ : Shape).Idx) : t = i ↔ (t 0).val = (i 0).val ∧ (t 1).val = (i 1).val :=
  ⟨fun h => h ▸ ⟨rfl, rfl⟩, fun h => funext fun k => by fin_cases k <;> apply Fin.ext; exacts [h.1, h.2]⟩

/-- x = 128 q + r with r < 128 exactly when q = x / 128 and r = x % 128. -/
theorem cnt_tgtC (i : S782x1024x128.Idx) :
    cnt (tgtC x a hx ha) i
      = ∑ e : Fin Cert.Spec.E, if x e = (i 0).val * 128 + (i 2).val ∧ a e = (i 1).val then (1 : EReal) else 0 := by
  unfold cnt
  refine Finset.sum_congr rfl fun e _ => if_congr ((idx_ext3 _ _).trans ?_) rfl rfl
  have h2 : (i 2).val < 128 := (i 2).isLt
  show (x e / 128 = (i 0).val ∧ a e = (i 1).val ∧ x e % 128 = (i 2).val) ↔ _
  omega

/-- Dropping the first and last axes keeps the aggregator coordinate. -/
theorem deg_tgtC (i : S782x1024x128.Idx) :
    Ideal.hostReduceAdd reducesTo_S782x1024x128_S1024_d0_2 (cnt (tgtC x a hx ha)) 0 (ix1 (i 1)) = Cert.Spec.segCnt a (i 1).val := by
  refine red_cnt _ _ _ (fun e => a e = (i 1).val) fun e => ?_
  have hv := Shape.ReducesTo.drop_apply_val_of_eq reducesTo_S782x1024x128_S1024_d0_2 (tgtC x a hx ha e) 0 1
  exact ⟨fun hd => hv.symm.trans (congrArg (fun k => (k 0).val) hd), fun hh => funext fun b => by fin_cases b; exact Fin.ext (hv.trans hh)⟩

/-- Both broadcasts copy along unit axes only, so entry `i` reads `v` at `i`'s middle coordinate. -/
theorem bcastC_apply (v : FVec Ideal S1024 .f32) (i : S782x1024x128.Idx) :
    broadcastInDim S782x1024x128 ![0, 1, 2] bcast_S1x1024x1_S782x1024x128_0_1_2
      (broadcastInDim S1x1024x1 ![1] bcast_S1024_S1x1024x1_1 v) i = v (ix1 (i 1)) := by
  refine (broadcastInDim_apply _ _ _ i (ix3 (0 : Fin 1) (i 1) (0 : Fin 1)) (fun a => by fin_cases a <;> rfl)).trans ?_
  exact broadcastInDim_apply _ _ v _ (ix1 (i 1)) (fun a => by fin_cases a; rfl)

/-- The edge counts, each divided by its aggregator's in-degree or by one if that is zero. -/
def normC (idx : IVec S1600000x3 32) : FVec Ideal S782x1024x128 .bf16 :=
  truncf .bf16
    (Host.divf (Host.scatterAdd (F := Ideal) (φ := .f32) dC zerosC idx onesV)
      (broadcastInDim S782x1024x128 ![0, 1, 2] bcast_S1x1024x1_S782x1024x128_0_1_2
        (broadcastInDim S1x1024x1 ![1] bcast_S1024_S1x1024x1_1
          (maximumf
            (Host.reduceAdd (Host.scatterAdd (F := Ideal) (φ := .f32) dC zerosC idx onesV)
              (constant (F := Ideal) S_ .f32 0#32) reducesTo_S782x1024x128_S1024_d0_2 h_S_)
            (broadcastInDim S1024 ![] bcast_S_S1024 (constant (F := Ideal) S_ .f32 1065353216#32))))))
    bitsLt_bf16_f32

theorem adjC_term (idx : IVec S1600000x3 32)
    (h : ∀ e, ∀ k : Fin 3, (idx (ix2 e k)).toInt = ((tgtC x a hx ha e k).val : ℤ)) : normC idx = Cert.Spec.adjC x a := by
  unfold normC
  rw [scat_cnt dC idx (tgtC x a hx ha) (fun e => resultIdx_of dC (by decide) (fun e k h => by funext b; fin_cases k <;> fin_cases b <;> rfl)
    (fun j k => by fin_cases k <;> rfl) idx e _ (h e)) zerosC fun _ => Ideal.ofBits_zero_f32]
  funext i
  rw [truncf_apply, hostDivf_apply, bcastC_apply, maximumf_apply, hostReduceAdd_apply, constant_apply, Ideal.ofBits_zero_f32,
    deg_tgtC, broadcastInDim_scalar_apply, constant_apply, Ideal.ofBits_one_f32, cnt_tgtC]
  rfl

/-- Edge `e` lands at (x / 128, x % 128, a). -/
def tgtA (e : Fin 1600000) : S782x128x1024.Idx :=
  ix3 (⟨x e / 128, by have := hx e; omega⟩ : Fin 782) (⟨x e % 128, Nat.mod_lt _ (by decide)⟩ : Fin 128)
    (⟨a e, by have := ha e; omega⟩ : Fin 1024)

theorem cnt_tgtA (i : S782x128x1024.Idx) :
    cnt (tgtA x a hx ha) i
      = ∑ e : Fin Cert.Spec.E, if x e = (i 0).val * 128 + (i 1).val ∧ a e = (i 2).val then (1 : EReal) else 0 := by
  unfold cnt
  refine Finset.sum_congr rfl fun e _ => if_congr ((idx_ext3 _ _).trans ?_) rfl rfl
  have h1 : (i 1).val < 128 := (i 1).isLt
  show (x e / 128 = (i 0).val ∧ x e % 128 = (i 1).val ∧ a e = (i 2).val) ↔ _
  omega

/-- Dropping the last axis keeps block and lane, which together are the client. -/
theorem deg_tgtA (i : S782x128x1024.Idx) :
    Ideal.hostReduceAdd reducesTo_S782x128x1024_S782x128_d2 (cnt (tgtA x a hx ha)) 0 (ix2 (i 0) (i 1))
      = Cert.Spec.segCnt x ((i 0).val * 128 + (i 1).val) := by
  refine red_cnt _ _ _ (fun e => x e = (i 0).val * 128 + (i 1).val) fun e => (idx_ext2 _ _).trans ?_
  rw [Shape.ReducesTo.drop_apply_val_of_eq reducesTo_S782x128x1024_S782x128_d2 (tgtA x a hx ha e) 0 0,
    Shape.ReducesTo.drop_apply_val_of_eq reducesTo_S782x128x1024_S782x128_d2 (tgtA x a hx ha e) 1 1]
  have h1 : (i 1).val < 128 := (i 1).isLt
  show (x e / 128 = (i 0).val ∧ x e % 128 = (i 1).val) ↔ _
  omega

/-- Both broadcasts copy along the unit axis only, so entry `i` reads `v` at `i`'s first two coordinates. -/
theorem bcastA_apply (v : FVec Ideal S782x128 .f32) (i : S782x128x1024.Idx) :
    broadcastInDim S782x128x1024 ![0, 1, 2] bcast_S782x128x1_S782x128x1024_0_1_2
      (broadcastInDim S782x128x1 ![0, 1] bcast_S782x128_S782x128x1_0_1 v) i = v (ix2 (i 0) (i 1)) := by
  refine (broadcastInDim_apply _ _ _ i (ix3 (i 0) (i 1) (0 : Fin 1)) (fun a => by fin_cases a <;> rfl)).trans ?_
  exact broadcastInDim_apply _ _ v _ (ix2 (i 0) (i 1)) (fun a => by fin_cases a <;> rfl)

/-- The edge counts, each divided by its client's in-degree or by one if that is zero. -/
def normA (idx : IVec S1600000x3 32) : FVec Ideal S782x128x1024 .bf16 :=
  truncf .bf16
    (Host.divf (Host.scatterAdd (F := Ideal) (φ := .f32) dA zerosA idx onesV)
      (broadcastInDim S782x128x1024 ![0, 1, 2] bcast_S782x128x1_S782x128x1024_0_1_2
        (broadcastInDim S782x128x1 ![0, 1] bcast_S782x128_S782x128x1_0_1
          (maximumf
            (Host.reduceAdd (Host.scatterAdd (F := Ideal) (φ := .f32) dA zerosA idx onesV)
              (constant (F := Ideal) S_ .f32 0#32) reducesTo_S782x128x1024_S782x128_d2 h_S_)
            (broadcastInDim S782x128 ![] bcast_S_S782x128 (constant (F := Ideal) S_ .f32 1065353216#32))))))
    bitsLt_bf16_f32

theorem adjA_term (idx : IVec S1600000x3 32)
    (h : ∀ e, ∀ k : Fin 3, (idx (ix2 e k)).toInt = ((tgtA x a hx ha e k).val : ℤ)) : normA idx = Cert.Spec.adjA a x := by
  unfold normA
  rw [scat_cnt dA idx (tgtA x a hx ha) (fun e => resultIdx_of dA (by decide) (fun e k h => by funext b; fin_cases k <;> fin_cases b <;> rfl)
    (fun j k => by fin_cases k <;> rfl) idx e _ (h e)) zerosA fun _ => Ideal.ofBits_zero_f32]
  funext i
  rw [truncf_apply, hostDivf_apply, bcastA_apply, maximumf_apply, hostReduceAdd_apply, constant_apply, Ideal.ofBits_zero_f32,
    deg_tgtA, broadcastInDim_scalar_apply, constant_apply, Ideal.ofBits_one_f32, cnt_tgtA]
  rfl

end

def cols (p0 p1 p2 : IVec S1600000 32) : List ((s : Shape) × (s.Idx → BitVec 32)) :=
  [⟨S1600000x1, broadcastInDim S1600000x1 ![0] bcast_S1600000_S1600000x1_0 p0⟩,
   ⟨S1600000x1, broadcastInDim S1600000x1 ![0] bcast_S1600000_S1600000x1_0 p1⟩,
   ⟨S1600000x1, broadcastInDim S1600000x1 ![0] bcast_S1600000_S1600000x1_0 p2⟩]

def idx3 (p0 p1 p2 : IVec S1600000 32) : IVec S1600000x3 32 :=
  concatenate S1600000x3 1 (cols p0 p1 p2) concatenates_S1600000x1_S1600000x1_S1600000x1_S1600000x3_d1

/-- Every piece has one column, so column `k` of the concatenation is piece `k`. -/
theorem idx3_apply (p0 p1 p2 : IVec S1600000 32) (e : Fin 1600000) (k : Fin 3) :
    idx3 p0 p1 p2 (ix2 e k) = ![p0, p1, p2] k (ix1 e) := by
  refine (concatenate_apply_piece (t := S1600000x3) (1 : Fin 2) (cols p0 p1 p2)
    concatenates_S1600000x1_S1600000x1_S1600000x1_S1600000x3_d1 (ix2 e k) k.val k.isLt S1600000x1
    (broadcastInDim S1600000x1 ![0] bcast_S1600000_S1600000x1_0 (![p0, p1, p2] k)) ?_ rfl k.val ?_ (ix2 e 0) ?_ rfl).trans
    (broadcastInDim_apply _ _ _ (ix2 e 0) (ix1 e) (fun a => by fin_cases a; rfl))
  · fin_cases k <;> rfl
  · fin_cases k <;> rfl
  · intro b hb; fin_cases b
    · rfl
    · exact absurd rfl hb

/-- Every coordinate of `t` is below 2^31, so wrap-around and signed reading leave each column's word as it is. -/
theorem idx3_toInt {a0 a1 a2 : ℕ} (t : (⟨3, ![a0, a1, a2]⟩ : Shape).Idx) (ha : ∀ k : Fin 3, ![a0, a1, a2] k ≤ 2 ^ 31)
    (p0 p1 p2 : IVec S1600000 32) (n0 n1 n2 : BitVec 32) (e : Fin 1600000)
    (h0 : (p0 (ix1 e)).toNat = (t 0).val) (h1 : (p1 (ix1 e)).toNat = (t 1).val) (h2 : (p2 (ix1 e)).toNat = (t 2).val) (k : Fin 3) :
    (idx3 (wrapV p0 n0) (wrapV p1 n1) (wrapV p2 n2) (ix2 e k)).toInt = ((t k).val : ℤ) := by
  rw [idx3_apply]
  have hb := fun k => Nat.lt_of_lt_of_le (t k).isLt (ha k)
  fin_cases k
  · exact wrapV_toInt _ _ e _ (hb 0) h0
  · exact wrapV_toInt _ _ e _ (hb 1) h1
  · exact wrapV_toInt _ _ e _ (hb 2) h2

end HostAdj

open HostAdj

variable (m : (ℓ : Loc nD τ sig) → Buf (Elt Ideal) ℓ) (c : Dev nD)

abbrev arg2W : IVec S1600000 32 := V0 m c main_arg2
abbrev arg3W : IVec S1600000 32 := V0 m c main_arg3
abbrev arg4W : IVec S1600000 32 := V0 m c main_arg4
abbrev arg5W : IVec S1600000 32 := V0 m c main_arg5

/-- The index words as numbers. -/
def srcN (w : IVec S1600000 32) : Fin Cert.Spec.E → ℕ := fun e => (w (ix1 e)).toNat

namespace HostAdj

/-- Running the two operation lists on the client words gives the sign-corrected quotient and remainder by 128. -/
theorem wordsC_apply (e : Fin 1600000) :
    (V8 m c main_v2 : IVec S1600000 32) (ix1 e) = fdivW (arg2W m c (ix1 e)) ∧
      (V8 m c main_v3 : IVec S1600000 32) (ix1 e) = fremW (arg2W m c (ix1 e)) := by
  rw [V8_of m c main_v2 (by decide), V7_of m c main_v2 (by decide)]
  constructor
  on_goal 1 => show StableHlo.after hostOps0_5 (V5 m c) (Proc.devRef .tc main_v2) (ix1 e) = _
  on_goal 2 => show StableHlo.after hostOps0_7 (V7 m c) (Proc.devRef .tc main_v3) (ix1 e) = _
  all_goals
    dsimp only [hostOps0_5, hostOps0_7, StableHlo.TRef.unary, StableHlo.TRef.binary, StableHlo.TRef.ternary, StableHlo.TRef.nullary, StableHlo.TRef.of, StableHlo.TRef.toBuf, StableHlo.TRef.ofBuf, cast_eq]
    hostadj_results_simp
    rfl

/-- No earlier operation writes these two arguments. -/
theorem V8_arg (r : Ref sig .tc) (h : r = main_arg3 ∨ r = main_arg4) : V8 m c r = V0 m c r := by
  rcases h with rfl | rfl <;>
  exact (V8_of m c _ (by decide)).trans <| (V7_of m c _ (by decide)).trans <| (V6_of m c _ (by decide)).trans <|
    (V5_of m c _ (by decide)).trans <| (V4_of m c _ (by decide)).trans <| (V3_of m c _ (by decide)).trans <|
    (V2_of m c _ (by decide)).trans <| V1_of m c _ (by decide)

set_option maxHeartbeats 8000000 in
theorem V9_main_v32 :
    (V9 m c main_v32 : FVec Ideal S782x1024x128 .bf16) =
      normC (idx3 (wrapV (V8 m c main_v2 : IVec S1600000 32) 782#32) (wrapV (V8 m c main_arg3 : IVec S1600000 32) 1024#32)
        (wrapV (V8 m c main_v3 : IVec S1600000 32) 128#32)) := by
  show StableHlo.after hostOps0_8 (V8 m c) (Proc.devRef .tc main_v32) = _
  generalize V8 m c = W
  dsimp only [hostOps0_8]
  hostadj_results_simp
  hostadj_results_rw
  rfl

/-- The same lists run on the other direction's client words. -/
theorem wordsA_apply (e : Fin 1600000) :
    (V12 m c main_v33 : IVec S1600000 32) (ix1 e) = fdivW (arg5W m c (ix1 e)) ∧
      (V12 m c main_v34 : IVec S1600000 32) (ix1 e) = fremW (arg5W m c (ix1 e)) := by
  rw [V12_of m c main_v33 (by decide), V11_of m c main_v33 (by decide)]
  constructor
  on_goal 1 => show StableHlo.after hostOps0_9 (V9 m c) (Proc.devRef .tc main_v33) (ix1 e) = _
  on_goal 2 => show StableHlo.after hostOps0_11 (V11 m c) (Proc.devRef .tc main_v34) (ix1 e) = _
  all_goals
    dsimp only [hostOps0_9, hostOps0_11, StableHlo.TRef.unary, StableHlo.TRef.binary, StableHlo.TRef.ternary, StableHlo.TRef.nullary, StableHlo.TRef.of, StableHlo.TRef.toBuf, StableHlo.TRef.ofBuf, cast_eq]
    hostadj_results_simp
    rfl

theorem V12_main_arg4 : (V12 m c main_arg4 : IVec S1600000 32) = arg4W m c :=
  (V12_of m c main_arg4 (by decide)).trans <| (V11_of m c main_arg4 (by decide)).trans <| (V10_of m c main_arg4 (by decide)).trans <|
    (V9_of m c main_arg4 (by decide)).trans <| V8_arg m c _ (.inr rfl)

set_option maxHeartbeats 8000000 in
theorem V13_main_v63 :
    (V13 m c main_v63 : FVec Ideal S782x128x1024 .bf16) =
      normA (idx3 (wrapV (V12 m c main_v33 : IVec S1600000 32) 782#32) (wrapV (V12 m c main_v34 : IVec S1600000 32) 128#32)
        (wrapV (V12 m c main_arg4 : IVec S1600000 32) 1024#32)) := by
  show StableHlo.after hostOps0_12 (V12 m c) (Proc.devRef .tc main_v63) = _
  generalize V12 m c = W
  dsimp only [hostOps0_12]
  hostadj_results_simp
  hostadj_results_rw
  rfl

end HostAdj

/-- The client → aggregator tensor the program builds is the count-normalised adjacency of the edge list. -/
theorem adjC_read (h2 : ∀ e, srcN (arg2W m c) e < 100000) (h3 : ∀ e, srcN (arg3W m c) e < 1000) :
    (V13 m c main_v32 : Cert.Spec.SAc.Idx → EReal) = Cert.Spec.adjC (srcN (arg2W m c)) (srcN (arg3W m c)) := by
  refine ((V13_of m c main_v32 (by decide)).trans <| (V12_of m c main_v32 (by decide)).trans <|
    (V11_of m c main_v32 (by decide)).trans <| (V10_of m c main_v32 (by decide)).trans (V9_main_v32 m c)).trans ?_
  rw [V8_arg m c main_arg3 (.inl rfl)]
  refine adjC_term (srcN (arg2W m c)) (srcN (arg3W m c)) h2 h3 _ fun e => ?_
  have l2 : (arg2W m c (ix1 e)).toNat < 100000 := h2 e
  exact idx3_toInt _ (by decide) _ _ _ _ _ _ e ((congrArg BitVec.toNat (wordsC_apply m c e).1).trans (fdivW_of_lt _ (by omega))) rfl
    ((congrArg BitVec.toNat (wordsC_apply m c e).2).trans (fremW_of_lt _ (by omega)))

/-- The aggregator → client tensor the program builds is the count-normalised adjacency of the edge list. -/
theorem adjA_read (h5 : ∀ e, srcN (arg5W m c) e < 100000) (h4 : ∀ e, srcN (arg4W m c) e < 1000) :
    (V13 m c main_v63 : Cert.Spec.SAa.Idx → EReal) = Cert.Spec.adjA (srcN (arg4W m c)) (srcN (arg5W m c)) := by
  refine (V13_main_v63 m c).trans ?_
  rw [V12_main_arg4]
  refine adjA_term (srcN (arg5W m c)) (srcN (arg4W m c)) h5 h4 _ fun e => ?_
  have l5 : (arg5W m c (ix1 e)).toNat < 100000 := h5 e
  exact idx3_toInt _ (by decide) _ _ _ _ _ _ e ((congrArg BitVec.toNat (wordsA_apply m c e).1).trans (fdivW_of_lt _ (by omega)))
    ((congrArg BitVec.toNat (wordsA_apply m c e).2).trans (fremW_of_lt _ (by omega))) rfl

end Cert.KernelIdeal.Val

end
-- ==== Proof.Val.RefReads.lean ====
import proofs.«410443_j44109314130257_2_alg».proof.Proof.Gen.ReferenceIdeal
import Idealize.ShloMosaic.Lib.ValueIdx
import Idealize.ShloMosaic.Lib.StableHlo.Predicate
import Idealize.ShloMosaic.PureOps.Ideal.Laws

noncomputable section

namespace Cert.ReferenceIdeal.Val

open Cert.ReferenceIdeal Cert.ReferenceIdeal.Gen Idealize.ShloMosaic Idealize.ShloMosaic.ValueIdx

/-- A word below 2^31 is not negative, so adding the extent to the negative words leaves it alone. -/
theorem wrap_keep (w N : BitVec 32) (h : w.toNat < 2147483648) :
    Scalar.select (IntOp.cmpi .slt w 0#32) (IntOp.addi w N) w = w := by
  rw [eq_zero_of_ne_one fun hc => Nat.not_lt_zero _ ((StableHlo.Predicate.slt_iff_toNat h (by decide)).1 hc), select_zero]

theorem ix2_inj {n0 n1 : Nat} {a a' : Fin n0} {b b' : Fin n1} : ix2 a b = ix2 a' b' ↔ a = a' ∧ b = b' :=
  ⟨fun h => ⟨congrFun h 0, congrFun h 1⟩, fun ⟨h0, h1⟩ => by rw [h0, h1]⟩

/-- An `a × b` array's shape. -/
abbrev Sh (a b : Nat) : Shape := ⟨2, ![a, b]⟩

variable {N C E : Nat}

/-- Dimension numbers of a gather of whole rows: result (e, d) reads the operand at row idx[e, 0], column d. -/
abbrev rowGather (wf : GatherDims.WF (Sh N C) (Sh E 1) (Sh E C) [1] [0] [] [0] [] 1 ![1, C]) :
    GatherDims (Sh N C) (Sh E 1) (Sh E C) :=
  ⟨[1], [0], [], [], [0], 1, ![1, C], wf⟩

/-- Dimension numbers of a scatter of whole rows: update (e, d) lands at row idx[e, 0], column d. -/
abbrev rowScatter (wf : ScatterDims.WF (Sh N C) (Sh E 1) (Sh E C) [1] [0] [0] 1) : ScatterDims (Sh N C) (Sh E 1) (Sh E C) :=
  ⟨[1], [0], [0], 1, wf⟩

/-- An index word below the row count is its own signed reading, and the clamp keeps it. -/
theorem rowGather_inrange {α : Type} (wf) (x : (Sh N C).Idx → α) (idx : IVec (Sh E 1) 32) (e : Fin E)
    (d : Fin C) (hlt : (idx (ix2 e 0)).toNat < N) (hN : N ≤ 2147483648) :
    Host.gather (rowGather (N := N) (C := C) (E := E) wf) x idx (ix2 e d) = x (ix2 ⟨(idx (ix2 e 0)).toNat, hlt⟩ d) := by
  have hsi : (rowGather wf).siIdx (ix2 e d)
      ⟨List.idxOf (0 : Fin 2) (rowGather wf).startIndexMap, List.idxOf_lt_length_iff.2 (of_decide_eq_true rfl)⟩ = ix2 e 0 := by
    funext b; refine Fin.ext ?_
    match b with
    | ⟨0, _⟩ => rfl
    | ⟨1, _⟩ => rfl
  unfold Host.gather
  refine congrArg x (funext fun a => Fin.ext ?_)
  match a with
  | ⟨0, _⟩ =>
    refine (congrArg (fun i => min (idx i).toInt.toNat (N - 1) + 0 + 0) hsi).trans ?_
    show min (idx (ix2 e 0)).toInt.toNat (N - 1) + 0 + 0 = (idx (ix2 e 0)).toNat
    rw [StableHlo.Predicate.toInt_eq_toNat_of_lt (by omega)]; omega
  | ⟨1, _⟩ => exact Nat.zero_add _

/-- Update (e, d) of a row scatter lands at row idx[e, 0] (in range, so read unsigned and not dropped), column d. -/
theorem rowScatter_resultIdx (wf) (idx : IVec (Sh E 1) 32) (e : Fin E) (d : Fin C) (hlt : (idx (ix2 e 0)).toNat < N)
    (hN : N ≤ 2147483648) :
    (rowScatter (N := N) (C := C) (E := E) wf).resultIdx? (ix2 e d) idx = some (ix2 ⟨(idx (ix2 e 0)).toNat, hlt⟩ d) := by
  have hsi : (rowScatter wf).siIdx (ix2 e d)
      ⟨List.idxOf (0 : Fin 2) (rowScatter wf).scatterDimsToOperandDims, List.idxOf_lt_length_iff.2 (of_decide_eq_true rfl)⟩
      = ix2 e 0 := by
    funext b; refine Fin.ext ?_
    match b with
    | ⟨0, _⟩ => rfl
    | ⟨1, _⟩ => rfl
  have key : ∀ a, (rowScatter wf).start (ix2 e d) idx a + ((rowScatter wf).window (ix2 e d) a : Nat)
      = (((ix2 ⟨_, hlt⟩ d : (Sh N C).Idx) a).val : Int) := fun a =>
    match a with
    | ⟨0, _⟩ => ((congrArg (fun i => (idx i).toInt + ((0 : Nat) : Int)) hsi).trans (Int.add_zero _)).trans
        (StableHlo.Predicate.toInt_eq_toNat_of_lt (by omega))
    | ⟨1, _⟩ => Int.zero_add _
  unfold ScatterDims.resultIdx?
  rw [dif_pos fun a => by rw [key a]; exact ⟨Int.natCast_nonneg _, Int.ofNat_lt.2 (Fin.isLt _)⟩]
  exact congrArg some (funext fun a => Fin.ext (by simp only [key a]; rfl))

/-- A row scatter-add at (a, d): the operand plus the updates (e, d) of the edges e whose index word is a. -/
theorem rowScatterAdd_apply (wf) (z : (Sh N C).Idx → EReal) (idx : IVec (Sh E 1) 32) (upd : (Sh E C).Idx → EReal)
    (hidx : ∀ e : Fin E, (idx (ix2 e 0)).toNat < N) (hN : N ≤ 2147483648) (a : Fin N) (d : Fin C) :
    Host.scatterAdd (F := Ideal) (φ := .f32) (rowScatter (N := N) (C := C) (E := E) wf) z idx upd (ix2 a d)
      = z (ix2 a d) + ∑ e : Fin E, if (idx (ix2 e 0)).toNat = a.val then upd (ix2 e d) else 0 := by
  unfold Host.scatterAdd
  rw [Ideal.hostScatterAdd_def]
  unfold Ideal.hostScatterAdd
  refine congrArg (fun s => z (ix2 a d) + s) ?_
  rw [Finset.sum_filter, sum_idx2]
  refine Finset.sum_congr rfl fun e _ => ?_
  simp only [rowScatter_resultIdx wf idx e _ (hidx e) hN, Option.some.injEq, ix2_inj]
  by_cases h : (idx (ix2 e 0)).toNat = a.val
  · have h' : (⟨(idx (ix2 e 0)).toNat, hidx e⟩ : Fin N) = a := Fin.ext h
    simp only [h', true_and, h, if_true]
    rw [Finset.sum_ite_eq' Finset.univ d (fun d' => upd (ix2 e d')), if_pos (Finset.mem_univ d)]
  · have h' : ¬ (⟨(idx (ix2 e 0)).toNat, hidx e⟩ : Fin N) = a := fun hh => h (congrArg Fin.val hh)
    simp only [h', false_and, if_false, h, Finset.sum_const_zero]

theorem gatherA_inrange {α : Type} (x : S100000x128.Idx → α) (idx : IVec S1600000x1 32) (e : Fin 1600000) (d : Fin 128)
    (hlt : (idx (ix2 e 0)).toNat < 100000) :
    Host.gather gather_S100000x128_S1600000x1_S1600000x128_1_0_n_n_0_1_1128 x idx (ix2 e d)
      = x (ix2 ⟨(idx (ix2 e 0)).toNat, hlt⟩ d) :=
  rowGather_inrange _ x idx e d hlt (by decide)

theorem gatherC_inrange {α : Type} (x : S1000x128.Idx → α) (idx : IVec S1600000x1 32) (e : Fin 1600000) (d : Fin 128)
    (hlt : (idx (ix2 e 0)).toNat < 1000) :
    Host.gather gather_S1000x128_S1600000x1_S1600000x128_1_0_n_n_0_1_1128 x idx (ix2 e d)
      = x (ix2 ⟨(idx (ix2 e 0)).toNat, hlt⟩ d) :=
  rowGather_inrange _ x idx e d hlt (by decide)

theorem scatterAddRowsA_apply (z : S1000x128.Idx → EReal) (idx : IVec S1600000x1 32) (upd : S1600000x128.Idx → EReal)
    (hidx : ∀ e : Fin 1600000, (idx (ix2 e 0)).toNat < 1000) (a : Fin 1000) (d : Fin 128) :
    Host.scatterAdd (F := Ideal) (φ := .f32) scatter_S1000x128_S1600000x1_S1600000x128_1_0_0_1 z idx upd (ix2 a d)
      = z (ix2 a d) + ∑ e : Fin 1600000, if (idx (ix2 e 0)).toNat = a.val then upd (ix2 e d) else 0 :=
  rowScatterAdd_apply _ z idx upd hidx (by decide) a d

theorem scatterAddCntA_apply (z : S1000x1.Idx → EReal) (idx : IVec S1600000x1 32) (upd : S1600000x1.Idx → EReal)
    (hidx : ∀ e : Fin 1600000, (idx (ix2 e 0)).toNat < 1000) (a : Fin 1000) (d : Fin 1) :
    Host.scatterAdd (F := Ideal) (φ := .f32) scatter_S1000x1_S1600000x1_S1600000x1_1_0_0_1 z idx upd (ix2 a d)
      = z (ix2 a d) + ∑ e : Fin 1600000, if (idx (ix2 e 0)).toNat = a.val then upd (ix2 e d) else 0 :=
  rowScatterAdd_apply _ z idx upd hidx (by decide) a d

theorem scatterAddRowsC_apply (z : S100000x128.Idx → EReal) (idx : IVec S1600000x1 32) (upd : S1600000x128.Idx → EReal)
    (hidx : ∀ e : Fin 1600000, (idx (ix2 e 0)).toNat < 100000) (a : Fin 100000) (d : Fin 128) :
    Host.scatterAdd (F := Ideal) (φ := .f32) scatter_S100000x128_S1600000x1_S1600000x128_1_0_0_1 z idx upd (ix2 a d)
      = z (ix2 a d) + ∑ e : Fin 1600000, if (idx (ix2 e 0)).toNat = a.val then upd (ix2 e d) else 0 :=
  rowScatterAdd_apply _ z idx upd hidx (by decide) a d

theorem scatterAddCntC_apply (z : S100000x1.Idx → EReal) (idx : IVec S1600000x1 32) (upd : S1600000x1.Idx → EReal)
    (hidx : ∀ e : Fin 1600000, (idx (ix2 e 0)).toNat < 100000) (a : Fin 100000) (d : Fin 1) :
    Host.scatterAdd (F := Ideal) (φ := .f32) scatter_S100000x1_S1600000x1_S1600000x1_1_0_0_1 z idx upd (ix2 a d)
      = z (ix2 a d) + ∑ e : Fin 1600000, if (idx (ix2 e 0)).toNat = a.val then upd (ix2 e d) else 0 :=
  rowScatterAdd_apply _ z idx upd hidx (by decide) a d

end Cert.ReferenceIdeal.Val

end
-- ==== Proof.Val.RefLayer.lean ====
import proofs.«410443_j44109314130257_2_alg».proof.Proof.Val.RefReads
import proofs.«410443_j44109314130257_2_alg».proof.Proof.Spec
import proofs.«410443_j44109314130257_2_alg».proof.Proof.Val.Tail
import proofs.«410443_j44109314130257_2_alg».proof.Proof.Gen.ReferenceIdeal.Read
import Idealize.ShloMosaic.Lib.Pipeline.Value
import Idealize.ShloMosaic.Lib.IdealHost

noncomputable section

namespace Cert.ReferenceIdeal.Val

open Cert.ReferenceIdeal Cert.ReferenceIdeal.Gen Idealize.ShloMosaic Idealize.ShloMosaic.ValueIdx

variable {F : FTy → Type} [FloatOps F]

theorem col_apply {α : Type} (w : S1600000.Idx → α) (e : Fin 1600000) (j : Fin 1) :
    broadcastInDim S1600000x1 ![0] bcast_S1600000_S1600000x1_0 w (ix2 e j) = w (ix1 e) :=
  broadcastInDim_apply _ _ w _ (ix1 e) fun | ⟨0, _⟩ => rfl

theorem row_apply {α : Type} (b : S128.Idx → α) (r : Fin 1) (d : Fin 128) :
    broadcastInDim S1x128 ![1] bcast_S128_S1x128_1 b (ix2 r d) = b (ix1 d) :=
  broadcastInDim_apply _ _ b _ (ix1 d) fun | ⟨0, _⟩ => rfl

theorem cnt_apply {α : Type} {n : Nat} (h : (⟨2, ![n, 1]⟩ : Shape).BroadcastsInDim ⟨2, ![n, 128]⟩ ![0, 1])
    (y : (⟨2, ![n, 1]⟩ : Shape).Idx → α) (a : Fin n) (d : Fin 128) :
    broadcastInDim ⟨2, ![n, 128]⟩ ![0, 1] h y (ix2 a d) = y (ix2 a 0) :=
  broadcastInDim_apply _ h y _ (ix2 a 0) fun
    | ⟨0, _⟩ => by show a.val = if n = 1 then 0 else a.val; split <;> omega
    | ⟨1, _⟩ => rfl

theorem bias_apply {α : Type} {n : Nat} (h : (⟨2, ![1, 128]⟩ : Shape).BroadcastsInDim ⟨2, ![n, 128]⟩ ![0, 1])
    (y : (⟨2, ![1, 128]⟩ : Shape).Idx → α) (a : Fin n) (d : Fin 128) :
    broadcastInDim ⟨2, ![n, 128]⟩ ![0, 1] h y (ix2 a d) = y (ix2 0 d) :=
  broadcastInDim_apply _ h y _ (ix2 0 d) fun
    | ⟨0, _⟩ => rfl
    | ⟨1, _⟩ => rfl

/-- Layer `l`'s rows of the stacked matrices, the unit axis dropped, are the specification's slice: both read `W (l, k, d)`. -/
theorem wsliceOp (l : Fin 3) (h : S3x128x128.Slices ![l.val, 0, 0] S1x128x128) (W : S3x128x128.Idx → EReal) :
    shapeCast S128x128 (extractStridedSlice S1x128x128 ![l.val, 0, 0] W h) shapeCasts_S1x128x128_S128x128 = Cert.Spec.wslice l W := by
  funext i
  obtain ⟨k, d, rfl⟩ : ∃ (k : Fin 128) (d : Fin 128), i = ix2 k d := ⟨i 0, i 1, eq_ix2 i⟩
  rw [shapeCast_apply _ shapeCasts_S1x128x128_S128x128 (ix2 k d) (ix3 0 k d)
    (by rewrite [Shape.rowMajor_val_three, Shape.rowMajor_val_two]; show (0 * 128 + k.val) * 128 + d.val = k.val * 128 + d.val; omega)]
  exact extractStridedSlice_apply _ W h (ix3 0 k d) (ix3 l k d) (fun a => match a with
    | ⟨0, _⟩ => rfl
    | ⟨1, _⟩ => (Nat.zero_add _).symm
    | ⟨2, _⟩ => (Nat.zero_add _).symm)

theorem bsliceOp (l : Fin 3) (h : S3x128.Slices ![l.val, 0] S1x128) (B : S3x128.Idx → EReal) :
    (fun i : Cert.Spec.SB.Idx => shapeCast S128 (extractStridedSlice S1x128 ![l.val, 0] B h) shapeCasts_S1x128_S128 (ix1 (i 1)))
      = Cert.Spec.bslice l B := by
  funext i
  obtain ⟨r, d, rfl⟩ : ∃ (r : Fin 1) (d : Fin 128), i = ix2 r d := ⟨i 0, i 1, eq_ix2 i⟩
  show shapeCast S128 (extractStridedSlice S1x128 ![l.val, 0] B h) shapeCasts_S1x128_S128 (ix1 d) = B (ix2 l d)
  rw [shapeCast_apply _ shapeCasts_S1x128_S128 (ix1 d) (ix2 0 d)
    (by rewrite [Shape.rowMajor_val_two, Shape.rowMajor_val_one]; show 0 * 128 + d.val = d.val; omega)]
  exact extractStridedSlice_apply _ B h (ix2 0 d) (ix2 l d) (fun a => match a with
    | ⟨0, _⟩ => rfl
    | ⟨1, _⟩ => (Nat.zero_add _).symm)

theorem zeros_apply {t : Shape} (h : S_.BroadcastsInDim t (![] : Fin 0 → Fin t.rank)) (i : t.Idx) :
    broadcastInDim t ![] h (constant (F := Ideal) S_ .f32 0x00000000#32) i = 0 := by
  rw [broadcastInDim_scalar_apply, constant_apply, Ideal.ofBits_zero_f32]

theorem ones_apply {t : Shape} (h : S_.BroadcastsInDim t (![] : Fin 0 → Fin t.rank)) (i : t.Idx) :
    broadcastInDim t ![] h (constant (F := Ideal) S_ .f32 0x3F800000#32) i = 1 := by
  rw [broadcastInDim_scalar_apply, constant_apply, Ideal.ofBits_one_f32]

def meanOpA (x : (⟨S100000x128, .f32⟩ : BufTy).Contents (Elt F)) (sw dw : (⟨S1600000, .i32⟩ : BufTy).Contents (Elt F)) :
    (⟨S1000x128, .f32⟩ : BufTy).Contents (Elt F) :=
  Host.divf
    (Host.scatterAdd scatter_S1000x128_S1600000x1_S1600000x128_1_0_0_1
      (broadcastInDim S1000x128 ![] bcast_S_S1000x128 (constant (F := F) S_ .f32 0x00000000#32))
      (broadcastInDim S1600000x1 ![0] bcast_S1600000_S1600000x1_0 dw)
      (Host.gather gather_S100000x128_S1600000x1_S1600000x128_1_0_n_n_0_1_1128 x
        (broadcastInDim S1600000x1 ![0] bcast_S1600000_S1600000x1_0
          (select (cmpi .slt sw (broadcastInDim S1600000 ![] bcast_S_S1600000 (constantI S_ 32 0#32)))
            (addi sw (broadcastInDim S1600000 ![] bcast_S_S1600000 (constantI S_ 32 100000#32))) sw))))
    (broadcastInDim S1000x128 ![0, 1] bcast_S1000x1_S1000x128_0_1
      (maximumf
        (Host.scatterAdd scatter_S1000x1_S1600000x1_S1600000x1_1_0_0_1
          (broadcastInDim S1000x1 ![] bcast_S_S1000x1 (constant (F := F) S_ .f32 0x00000000#32))
          (broadcastInDim S1600000x1 ![0] bcast_S1600000_S1600000x1_0 dw)
          (broadcastInDim S1600000x1 ![] bcast_S_S1600000x1 (constant (F := F) S_ .f32 0x3F800000#32)))
        (broadcastInDim S1000x1 ![] bcast_S_S1000x1 (constant (F := F) S_ .f32 0x3F800000#32))))

def preOpA (M own : (⟨S1000x128, .f32⟩ : BufTy).Contents (Elt F)) (Wl Wr : (⟨S128x128, .f32⟩ : BufTy).Contents (Elt F))
    (b : (⟨S128, .f32⟩ : BufTy).Contents (Elt F)) : (⟨S1000x128, .f32⟩ : BufTy).Contents (Elt F) :=
  addf
    (addf (Host.dotGeneral dot_S1000x128_S128x128_S1000x128_1_0_0_1_n_n none M Wl) (Host.dotGeneral dot_S1000x128_S128x128_S1000x128_1_0_0_1_n_n none own Wr))
    (broadcastInDim S1000x128 ![0, 1] bcast_S1x128_S1000x128_0_1 (broadcastInDim S1x128 ![1] bcast_S128_S1x128_1 b))

def leakyOpA (P : (⟨S1000x128, .f32⟩ : BufTy).Contents (Elt F)) : (⟨S1000x128, .f32⟩ : BufTy).Contents (Elt F) :=
  select (cmpf .oge P (broadcastInDim S1000x128 ![] bcast_S_S1000x128 (constant (F := F) S_ .f32 0x00000000#32))) P
    (mulf (broadcastInDim S1000x128 ![] bcast_S_S1000x128 (constant (F := F) S_ .f32 0x3DCCCCCD#32)) P)

/-- With every word in range no start is clamped and no update dropped, so the divided segment sum is the mean over the edges into `a`. -/
theorem meanCoreA (x : S100000x128.Idx → EReal) (I J : IVec S1600000x1 32)
    (src dst : Fin Cert.Spec.E → ℕ) (hsrc : ∀ e, src e < 100000) (hdst : ∀ e, dst e < 1000)
    (hI : ∀ e : Fin 1600000, (I (ix2 e 0)).toNat = src e) (hJ : ∀ e : Fin 1600000, (J (ix2 e 0)).toNat = dst e)
    (z0 : S1000x128.Idx → EReal) (hz0 : ∀ i, z0 i = 0) (z1 : S1000x1.Idx → EReal) (hz1 : ∀ i, z1 i = 0)
    (ones : S1600000x1.Idx → EReal) (hones : ∀ i, ones i = 1) (a : Fin 1000) (d : Fin 128) :
    Ideal.div
        (Host.scatterAdd (F := Ideal) (φ := .f32) scatter_S1000x128_S1600000x1_S1600000x128_1_0_0_1 z0 J (Host.gather gather_S100000x128_S1600000x1_S1600000x128_1_0_n_n_0_1_1128 x I) (ix2 a d))
        (max (Host.scatterAdd (F := Ideal) (φ := .f32) scatter_S1000x1_S1600000x1_S1600000x1_1_0_0_1 z1 J ones (ix2 a 0)) 1)
      = Cert.Spec.rMeanAt x src dst hsrc a.val d := by
  have hJlt : ∀ e : Fin 1600000, (J (ix2 e 0)).toNat < 1000 := fun e => by rw [hJ]; exact hdst e
  have hnum : (∑ e : Fin 1600000, if (J (ix2 e 0)).toNat = a.val then Host.gather gather_S100000x128_S1600000x1_S1600000x128_1_0_n_n_0_1_1128 x I (ix2 e d) else 0)
      = ∑ e : Fin Cert.Spec.E, if dst e = a.val then x (ix2 ⟨src e, hsrc e⟩ d) else 0 :=
    Finset.sum_congr rfl fun e _ => by
      rw [hJ e, gatherA_inrange x I e d (by rw [hI]; exact hsrc e)]
      simp only [hI e]
  have hden : (∑ e : Fin 1600000, if (J (ix2 e 0)).toNat = a.val then ones (ix2 e 0) else 0)
      = ∑ e : Fin Cert.Spec.E, if dst e = a.val then (1 : EReal) else 0 :=
    Finset.sum_congr rfl fun e _ => by rw [hJ e, hones]
  rw [scatterAddRowsA_apply z0 J _ hJlt a d, scatterAddCntA_apply z1 J ones hJlt a 0, hz0, hz1, zero_add, zero_add,
    hnum, hden]
  rfl

theorem meanOpA_apply (x : S100000x128.Idx → EReal) (sw dw : IVec S1600000 32)
    (hs : ∀ e : Fin 1600000, (sw (ix1 e)).toNat < 100000) (hd : ∀ e : Fin 1600000, (dw (ix1 e)).toNat < 1000)
    (a : Fin 1000) (d : Fin 128) :
    meanOpA (F := Ideal) x sw dw (ix2 a d)
      = Cert.Spec.rMeanAt x (fun e => (sw (ix1 e)).toNat) (fun e => (dw (ix1 e)).toNat) hs a.val d := by
  unfold meanOpA
  rw [hostDivf_apply, cnt_apply, maximumf_apply, ones_apply]
  refine meanCoreA x _ _ _ _ hs hd (fun e => ?_) (fun e => congrArg BitVec.toNat (col_apply _ _ _)) _ (zeros_apply _) _ (zeros_apply _) _ (ones_apply _) a d
  rw [col_apply]
  show (Scalar.select (IntOp.cmpi .slt (sw (ix1 e)) (broadcastInDim S1600000 ![] bcast_S_S1600000 (constantI S_ 32 0#32) (ix1 e)))
    (IntOp.addi (sw (ix1 e)) (broadcastInDim S1600000 ![] bcast_S_S1600000 (constantI S_ 32 100000#32) (ix1 e))) (sw (ix1 e))).toNat = _
  rw [broadcastInDim_scalar_apply, broadcastInDim_scalar_apply]
  exact congrArg BitVec.toNat (wrap_keep _ _ (by have := hs e; omega))

theorem dotA_apply (l : FVec Ideal S1000x128 .f32) (r : FVec Ideal S128x128 .f32) (a : Fin 1000) (d : Fin 128) :
    Host.dotGeneral (F := Ideal) dot_S1000x128_S128x128_S1000x128_1_0_0_1_n_n none l r (ix2 a d) = ∑ k : Fin 128, l (ix2 a k) * r (ix2 k d) := by
  simp only [Host.dotGeneral]
  rw [Ideal.dotGeneral_apply, ← Equiv.sum_comp (ValueIdx.contrEquiv1 dot_S1000x128_S128x128_S1000x128_1_0_0_1_n_n 128 rfl rfl).symm]
  have hk := ValueIdx.contrEquiv1_symm_val dot_S1000x128_S128x128_S1000x128_1_0_0_1_n_n 128 rfl rfl
  exact Finset.sum_congr rfl fun k _ => congrArg₂ (· * ·)
    (congrArg l (funext fun c => Fin.ext (by
      match c with
      | ⟨0, _⟩ => exact Read.lhs_main_v24_0 _ _
      | ⟨1, _⟩ => exact (Read.lhs_main_v24_1 _ _).trans (hk k))))
    (congrArg r (funext fun c => Fin.ext (by
      match c with
      | ⟨0, _⟩ => exact (Read.rhs_main_v24_0 _ _).trans (hk k)
      | ⟨1, _⟩ => exact Read.rhs_main_v24_1 _ _)))

theorem preOpA_apply (M own : S1000x128.Idx → EReal) (Wl Wr : S128x128.Idx → EReal) (b : S128.Idx → EReal) (a : Fin 1000) (d : Fin 128) :
    preOpA (F := Ideal) M own Wl Wr b (ix2 a d)
      = (∑ k : Fin 128, M (ix2 a k) * Wl (ix2 k d)) + (∑ k : Fin 128, own (ix2 a k) * Wr (ix2 k d)) + b (ix1 d) := by
  unfold preOpA
  rw [addf_apply, addf_apply, dotA_apply, dotA_apply, bias_apply, row_apply]

theorem leakyOpA_apply (P : S1000x128.Idx → EReal) (i : S1000x128.Idx) :
    leakyOpA (F := Ideal) P i = Cert.Spec.leaky (P i) := by
  unfold leakyOpA Cert.Spec.leaky Cert.Spec.tenth
  rw [select_apply, cmpf_apply, mulf_apply, broadcastInDim_scalar_apply, broadcastInDim_scalar_apply, constant_apply, constant_apply, Ideal.ofBits_zero_f32]

/-- One layer at arbitrary operands: the mean, the two products with the bias, and the rectifier, each read at an index. -/
theorem layerA_eq {xc xc' : S100000x128.Idx → EReal} {xa xa' : S1000x128.Idx → EReal} {sw dw : IVec S1600000 32}
    {Wl Wr : S128x128.Idx → EReal} {b : S128.Idx → EReal} {Wl' Wr' : Cert.Spec.SW.Idx → EReal} {b' : Cert.Spec.SB.Idx → EReal}
    (hc : xc = xc') (ha : xa = xa')
    (hs : ∀ e : Fin 1600000, (sw (ix1 e)).toNat < 100000) (hd : ∀ e : Fin 1600000, (dw (ix1 e)).toNat < 1000)
    (hWl : Wl = Wl') (hWr : Wr = Wr') (hb : (fun i : Cert.Spec.SB.Idx => b (ix1 (i 1))) = b') :
    leakyOpA (F := Ideal) (preOpA (F := Ideal) (meanOpA (F := Ideal) xc sw dw) xa Wl Wr b)
      = Cert.Spec.rLayerA xc' xa' (fun e => (sw (ix1 e)).toNat) (fun e => (dw (ix1 e)).toNat) hs Wl' Wr' b' := by
  subst hc ha hWl hWr hb
  funext i
  obtain ⟨a, d, rfl⟩ : ∃ (a : Fin 1000) (d : Fin 128), i = ix2 a d := ⟨i 0, i 1, eq_ix2 i⟩
  rw [leakyOpA_apply, preOpA_apply]
  simp only [meanOpA_apply xc sw dw hs hd]
  rfl

def meanOpC (x : (⟨S1000x128, .f32⟩ : BufTy).Contents (Elt F)) (sw dw : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dw)
      (Host.gather gather_S1000x128_S1600000x1_S1600000x128_1_0_n_n_0_1_1128 x
        (broadcastInDim S1600000x1 ![0] bcast_S1600000_S1600000x1_0
          (select (cmpi .slt sw (broadcastInDim S1600000 ![] bcast_S_S1600000 (constantI S_ 32 0#32)))
            (addi sw (broadcastInDim S1600000 ![] bcast_S_S1600000 (constantI S_ 32 1000#32))) sw))))
    (broadcastInDim S100000x128 ![0, 1] bcast_S100000x1_S100000x128_0_1
      (maximumf
        (Host.scatterAdd scatter_S100000x1_S1600000x1_S1600000x1_1_0_0_1
          (broadcastInDim S100000x1 ![] bcast_S_S100000x1 (constant (F := F) S_ .f32 0x00000000#32))
          (broadcastInDim S1600000x1 ![0] bcast_S1600000_S1600000x1_0 dw)
          (broadcastInDim S1600000x1 ![] bcast_S_S1600000x1 (constant (F := F) S_ .f32 0x3F800000#32)))
        (broadcastInDim S100000x1 ![] bcast_S_S100000x1 (constant (F := F) S_ .f32 0x3F800000#32))))

def preOpC (M own : (⟨S100000x128, .f32⟩ : BufTy).Contents (Elt F)) (Wl Wr : (⟨S128x128, .f32⟩ : BufTy).Contents (Elt F))
    (b : (⟨S128, .f32⟩ : BufTy).Contents (Elt F)) : (⟨S100000x128, .f32⟩ : BufTy).Contents (Elt F) :=
  addf
    (addf (Host.dotGeneral dot_S100000x128_S128x128_S100000x128_1_0_0_1_n_n none M Wl) (Host.dotGeneral dot_S100000x128_S128x128_S100000x128_1_0_0_1_n_n none own Wr))
    (broadcastInDim S100000x128 ![0, 1] bcast_S1x128_S100000x128_0_1 (broadcastInDim S1x128 ![1] bcast_S128_S1x128_1 b))

def leakyOpC (P : (⟨S100000x128, .f32⟩ : BufTy).Contents (Elt F)) : (⟨S100000x128, .f32⟩ : BufTy).Contents (Elt F) :=
  select (cmpf .oge P (broadcastInDim S100000x128 ![] bcast_S_S100000x128 (constant (F := F) S_ .f32 0x00000000#32))) P
    (mulf (broadcastInDim S100000x128 ![] bcast_S_S100000x128 (constant (F := F) S_ .f32 0x3DCCCCCD#32)) P)

theorem meanCoreC (x : S1000x128.Idx → EReal) (I J : IVec S1600000x1 32)
    (src dst : Fin Cert.Spec.E → ℕ) (hsrc : ∀ e, src e < 1000) (hdst : ∀ e, dst e < 100000)
    (hI : ∀ e : Fin 1600000, (I (ix2 e 0)).toNat = src e) (hJ : ∀ e : Fin 1600000, (J (ix2 e 0)).toNat = dst e)
    (z0 : S100000x128.Idx → EReal) (hz0 : ∀ i, z0 i = 0) (z1 : S100000x1.Idx → EReal) (hz1 : ∀ i, z1 i = 0)
    (ones : S1600000x1.Idx → EReal) (hones : ∀ i, ones i = 1) (a : Fin 100000) (d : Fin 128) :
    Ideal.div
        (Host.scatterAdd (F := Ideal) (φ := .f32) scatter_S100000x128_S1600000x1_S1600000x128_1_0_0_1 z0 J (Host.gather gather_S1000x128_S1600000x1_S1600000x128_1_0_n_n_0_1_1128 x I) (ix2 a d))
        (max (Host.scatterAdd (F := Ideal) (φ := .f32) scatter_S100000x1_S1600000x1_S1600000x1_1_0_0_1 z1 J ones (ix2 a 0)) 1)
      = Cert.Spec.rMeanAt x src dst hsrc a.val d := by
  have hJlt : ∀ e : Fin 1600000, (J (ix2 e 0)).toNat < 100000 := fun e => by rw [hJ]; exact hdst e
  have hnum : (∑ e : Fin 1600000, if (J (ix2 e 0)).toNat = a.val then Host.gather gather_S1000x128_S1600000x1_S1600000x128_1_0_n_n_0_1_1128 x I (ix2 e d) else 0)
      = ∑ e : Fin Cert.Spec.E, if dst e = a.val then x (ix2 ⟨src e, hsrc e⟩ d) else 0 :=
    Finset.sum_congr rfl fun e _ => by
      rw [hJ e, gatherC_inrange x I e d (by rw [hI]; exact hsrc e)]
      simp only [hI e]
  have hden : (∑ e : Fin 1600000, if (J (ix2 e 0)).toNat = a.val then ones (ix2 e 0) else 0)
      = ∑ e : Fin Cert.Spec.E, if dst e = a.val then (1 : EReal) else 0 :=
    Finset.sum_congr rfl fun e _ => by rw [hJ e, hones]
  rw [scatterAddRowsC_apply z0 J _ hJlt a d, scatterAddCntC_apply z1 J ones hJlt a 0, hz0, hz1, zero_add, zero_add,
    hnum, hden]
  rfl

theorem meanOpC_apply (x : S1000x128.Idx → EReal) (sw dw : IVec S1600000 32)
    (hs : ∀ e : Fin 1600000, (sw (ix1 e)).toNat < 1000) (hd : ∀ e : Fin 1600000, (dw (ix1 e)).toNat < 100000)
    (a : Fin 100000) (d : Fin 128) :
    meanOpC (F := Ideal) x sw dw (ix2 a d)
      = Cert.Spec.rMeanAt x (fun e => (sw (ix1 e)).toNat) (fun e => (dw (ix1 e)).toNat) hs a.val d := by
  unfold meanOpC
  rw [hostDivf_apply, cnt_apply, maximumf_apply, ones_apply]
  refine meanCoreC x _ _ _ _ hs hd (fun e => ?_) (fun e => congrArg BitVec.toNat (col_apply _ _ _)) _ (zeros_apply _) _ (zeros_apply _) _ (ones_apply _) a d
  rw [col_apply]
  show (Scalar.select (IntOp.cmpi .slt (sw (ix1 e)) (broadcastInDim S1600000 ![] bcast_S_S1600000 (constantI S_ 32 0#32) (ix1 e)))
    (IntOp.addi (sw (ix1 e)) (broadcastInDim S1600000 ![] bcast_S_S1600000 (constantI S_ 32 1000#32) (ix1 e))) (sw (ix1 e))).toNat = _
  rw [broadcastInDim_scalar_apply, broadcastInDim_scalar_apply]
  exact congrArg BitVec.toNat (wrap_keep _ _ (by have := hs e; omega))

theorem dotC_apply (l : FVec Ideal S100000x128 .f32) (r : FVec Ideal S128x128 .f32) (a : Fin 100000) (d : Fin 128) :
    Host.dotGeneral (F := Ideal) dot_S100000x128_S128x128_S100000x128_1_0_0_1_n_n none l r (ix2 a d) = ∑ k : Fin 128, l (ix2 a k) * r (ix2 k d) := by
  simp only [Host.dotGeneral]
  rw [Ideal.dotGeneral_apply, ← Equiv.sum_comp (ValueIdx.contrEquiv1 dot_S100000x128_S128x128_S100000x128_1_0_0_1_n_n 128 rfl rfl).symm]
  have hk := ValueIdx.contrEquiv1_symm_val dot_S100000x128_S128x128_S100000x128_1_0_0_1_n_n 128 rfl rfl
  exact Finset.sum_congr rfl fun k _ => congrArg₂ (· * ·)
    (congrArg l (funext fun c => Fin.ext (by
      match c with
      | ⟨0, _⟩ => exact Read.lhs_main_v54_0 _ _
      | ⟨1, _⟩ => exact (Read.lhs_main_v54_1 _ _).trans (hk k))))
    (congrArg r (funext fun c => Fin.ext (by
      match c with
      | ⟨0, _⟩ => exact (Read.rhs_main_v54_0 _ _).trans (hk k)
      | ⟨1, _⟩ => exact Read.rhs_main_v54_1 _ _)))

theorem preOpC_apply (M own : S100000x128.Idx → EReal) (Wl Wr : S128x128.Idx → EReal) (b : S128.Idx → EReal) (a : Fin 100000) (d : Fin 128) :
    preOpC (F := Ideal) M own Wl Wr b (ix2 a d)
      = (∑ k : Fin 128, M (ix2 a k) * Wl (ix2 k d)) + (∑ k : Fin 128, own (ix2 a k) * Wr (ix2 k d)) + b (ix1 d) := by
  unfold preOpC
  rw [addf_apply, addf_apply, dotC_apply, dotC_apply, bias_apply, row_apply]

theorem leakyOpC_apply (P : S100000x128.Idx → EReal) (i : S100000x128.Idx) :
    leakyOpC (F := Ideal) P i = Cert.Spec.leaky (P i) := by
  unfold leakyOpC Cert.Spec.leaky Cert.Spec.tenth
  rw [select_apply, cmpf_apply, mulf_apply, broadcastInDim_scalar_apply, broadcastInDim_scalar_apply, constant_apply, constant_apply, Ideal.ofBits_zero_f32]

theorem layerC_eq {xc xc' : S100000x128.Idx → EReal} {xa xa' : S1000x128.Idx → EReal} {sw dw : IVec S1600000 32}
    {Wl Wr : S128x128.Idx → EReal} {b : S128.Idx → EReal} {Wl' Wr' : Cert.Spec.SW.Idx → EReal} {b' : Cert.Spec.SB.Idx → EReal}
    (hc : xc = xc') (ha : xa = xa')
    (hs : ∀ e : Fin 1600000, (sw (ix1 e)).toNat < 1000) (hd : ∀ e : Fin 1600000, (dw (ix1 e)).toNat < 100000)
    (hWl : Wl = Wl') (hWr : Wr = Wr') (hb : (fun i : Cert.Spec.SB.Idx => b (ix1 (i 1))) = b') :
    leakyOpC (F := Ideal) (preOpC (F := Ideal) (meanOpC (F := Ideal) xa sw dw) xc Wl Wr b)
      = Cert.Spec.rLayerC xc' xa' (fun e => (sw (ix1 e)).toNat) (fun e => (dw (ix1 e)).toNat) hs Wl' Wr' b' := by
  subst hc ha hWl hWr hb
  funext i
  obtain ⟨a, d, rfl⟩ : ∃ (a : Fin 100000) (d : Fin 128), i = ix2 a d := ⟨i 0, i 1, eq_ix2 i⟩
  rw [leakyOpC_apply, preOpC_apply]
  simp only [meanOpC_apply xa sw dw hs hd]
  rfl

end Cert.ReferenceIdeal.Val

end
-- ==== Proof.Val.RefSpec.lean ====
import proofs.«410443_j44109314130257_2_alg».proof.Proof.RefGen
import proofs.«410443_j44109314130257_2_alg».proof.Proof.Val.RefLayer
import proofs.«410443_j44109314130257_2_alg».proof.Proof.Val.Layers

set_option maxRecDepth 16384

noncomputable section

namespace Cert.ReferenceIdeal.Val

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

def wordNat (w : IVec S1600000 32) : Fin Cert.Spec.E → ℕ := fun e => (w (ix1 e)).toNat

/-- Every layer is the one layer's three operations on the previous layer's two results, with the next slices of the stacked weights. -/
theorem layers_eq (x0 : S100000x128.Idx → EReal) (x1 : S1000x128.Idx → EReal) (x2 x3 x4 x5 : IVec S1600000 32)
    (x6 x7 : S3x128x128.Idx → EReal) (x8 : S3x128.Idx → EReal) (x9 x10 : S3x128x128.Idx → EReal) (x11 : S3x128.Idx → EReal)
    (h2 : ∀ e : Fin 1600000, (x2 (ix1 e)).toNat < 100000) (h3 : ∀ e : Fin 1600000, (x3 (ix1 e)).toNat < 1000)
    (h4 : ∀ e : Fin 1600000, (x4 (ix1 e)).toNat < 1000) (h5 : ∀ e : Fin 1600000, (x5 (ix1 e)).toNat < 100000) :
    val_main_v209 (F := Ideal) x0 x1 x2 x3 x4 x5 x6 x7 x8 x9 x10 x11 = (Cert.Spec.refLayers (wordNat x2) (wordNat x3) (wordNat x4) (wordNat x5) h2 h4 x6 x7 x8 x9 x10 x11 x0 x1).1 := by
  have a0 : val_main_v64 (F := Ideal) x0 x1 x2 x3 x6 x7 x8 = _ :=
    layerA_eq rfl rfl h2 h3 (wsliceOp 0 _ x6) (wsliceOp 0 _ x7) (bsliceOp 0 _ x8)
  have c0 : val_main_v69 (F := Ideal) x0 x1 x4 x5 x9 x10 x11 = _ :=
    layerC_eq rfl rfl h4 h5 (wsliceOp 0 _ x9) (wsliceOp 0 _ x10) (bsliceOp 0 _ x11)
  have a1 : val_main_v134 (F := Ideal) x0 x1 x2 x3 x4 x5 x6 x7 x8 x9 x10 x11 = _ :=
    layerA_eq c0 a0 h2 h3 (wsliceOp 1 _ x6) (wsliceOp 1 _ x7) (bsliceOp 1 _ x8)
  have c1 : val_main_v139 (F := Ideal) x0 x1 x2 x3 x4 x5 x6 x7 x8 x9 x10 x11 = _ :=
    layerC_eq c0 a0 h4 h5 (wsliceOp 1 _ x9) (wsliceOp 1 _ x10) (bsliceOp 1 _ x11)
  have c2 : val_main_v209 (F := Ideal) x0 x1 x2 x3 x4 x5 x6 x7 x8 x9 x10 x11 = _ :=
    layerC_eq c1 a1 h4 h5 (wsliceOp 2 _ x9) (wsliceOp 2 _ x10) (bsliceOp 2 _ x11)
  simp only [Cert.Spec.refLayers, Cert.Spec.refLayer]
  exact c2

theorem ref_value (x0 : S100000x128.Idx → EReal) (x1 : S1000x128.Idx → EReal) (x2 x3 x4 x5 : IVec S1600000 32)
    (x6 x7 : S3x128x128.Idx → EReal) (x8 : S3x128.Idx → EReal) (x9 x10 : S3x128x128.Idx → EReal) (x11 : S3x128.Idx → EReal)
    (x12 : S128x1.Idx → EReal) (x13 : S1.Idx → EReal)
    (h2 : ∀ e : Fin 1600000, (x2 (ix1 e)).toNat < 100000) (h3 : ∀ e : Fin 1600000, (x3 (ix1 e)).toNat < 1000)
    (h4 : ∀ e : Fin 1600000, (x4 (ix1 e)).toNat < 1000) (h5 : ∀ e : Fin 1600000, (x5 (ix1 e)).toNat < 100000) :
    val_main_v214 (F := Ideal) x0 x1 x2 x3 x4 x5 x6 x7 x8 x9 x10 x11 x12 x13 = Cert.Spec.tailFn (Cert.Spec.refLayers (wordNat x2) (wordNat x3) (wordNat x4) (wordNat x5) h2 h4 x6 x7 x8 x9 x10 x11 x0 x1).1 x12 x13 := by
  funext i
  obtain ⟨r, rfl⟩ : ∃ r : Fin 100000, i = ix1 r := ⟨i 0, eq_ix1 i⟩
  have hl : ∀ k : Fin 128, lidx_main_v210 (idx_main_v214 (ix1 r)) k = ix2 r k := fun k => funext fun a => Fin.ext (by
    match a with
    | ⟨0, _⟩ => show r.val / 1 = r.val; omega
    | ⟨1, _⟩ => rfl)
  have hr : ∀ k : Fin 128, ridx_main_v210 (idx_main_v214 (ix1 r)) k = ix2 k 0 := fun k => funext fun a => Fin.ext (by
    match a with
    | ⟨0, _⟩ => rfl
    | ⟨1, _⟩ => rfl)
  have hb : idx_main_v211 (idx_main_v212 (idx_main_v214 (ix1 r))) = ix1 0 := funext fun a => Fin.ext (by
    match a with
    | ⟨0, _⟩ => rfl)
  rw [val_main_v214_apply, val_main_v213_apply, val_main_v210_apply, val_main_v212_apply, val_main_v211_apply,
    layers_eq x0 x1 x2 x3 x4 x5 x6 x7 x8 x9 x10 x11 h2 h3 h4 h5]
  simp only [hl, hr, hb]
  rfl

theorem ref_run (m : (ℓ : Loc nD τ sig) → Buf (Elt Ideal) ℓ) (ρ : Dev nD → PrngReg)
    (h2 : ∀ (c : Dev nD) (e : Fin 1600000), ((m ((c.tc : Thread nD τ).loc main_arg2) : IVec S1600000 32) (ix1 e)).toNat < 100000)
    (h3 : ∀ (c : Dev nD) (e : Fin 1600000), ((m ((c.tc : Thread nD τ).loc main_arg3) : IVec S1600000 32) (ix1 e)).toNat < 1000)
    (h4 : ∀ (c : Dev nD) (e : Fin 1600000), ((m ((c.tc : Thread nD τ).loc main_arg4) : IVec S1600000 32) (ix1 e)).toNat < 1000)
    (h5 : ∀ (c : Dev nD) (e : Fin 1600000), ((m ((c.tc : Thread nD τ).loc main_arg5) : IVec S1600000 32) (ix1 e)).toNat < 100000) :
    θ_run defs (onTc (τ := τ) (main (F := Ideal))) ⟨m, fun _ => 0, ρ⟩ fun r => ∀ c : Dev nD,
      r.2.mem ((c.tc : Thread nD τ).loc main_v214)
        = Cert.Spec.tailFn (Cert.Spec.refLayers (wordNat (m ((c.tc : Thread nD τ).loc main_arg2))) (wordNat (m ((c.tc : Thread nD τ).loc main_arg3))) (wordNat (m ((c.tc : Thread nD τ).loc main_arg4))) (wordNat (m ((c.tc : Thread nD τ).loc main_arg5))) (h2 c) (h4 c)
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg0)) (m ((c.tc : Thread nD τ).loc main_arg1))).1
          (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans ((val_main_v214_eq (F := Ideal) m c).trans
      (ref_value _ _ _ _ _ _ _ _ _ _ _ _ _ _ (h2 c) (h3 c) (h4 c) (h5 c))), (h c).2⟩)
    (Cert.ReferenceIdeal.Value.run (F := Ideal) m ρ)

end Cert.ReferenceIdeal.Val

end
-- ==== Proof.Val.PreDecode.lean ====
import proofs.«410443_j44109314130257_2_alg».proof.Defs
import proofs.«410443_j44109314130257_2_alg».proof.Proof.Spec
import Idealize.ShloMosaic.Lib.ReduceAll
import Idealize.ShloMosaic.Lib.ValueIdx
import Idealize.ShloMosaic.Lib.WordArith
import Mathlib.Data.EReal.Basic

set_option maxRecDepth 16384

noncomputable section

namespace Cert.Val

open Idealize.ShloMosaic Idealize.ShloMosaic.ValueIdx
open Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

-- |x| < ⊤ excludes both infinities.
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : BitVec.ofBool (decide (max x (-x) < Ideal.ofBits .f32 0x7F800000#32)) = 1#1 := h
  rw [inf_eq_top] at h'
  induction x using EReal.rec with
  | bot => simp at h'
  | coe r => exact ⟨r, rfl⟩
  | top => simp at h'

theorem andi_ix0 (x y : IVec S_ 1) : andi x y ix0 = 1#1 ↔ x ix0 = 1#1 ∧ y ix0 = 1#1 := IntOp.andi_eq_one

variable [Cert.Pre_finite_inputs.Facts]
open Cert.Pre_finite_inputs.Facts

abbrev AllOf {S : Shape} {axes : List (Fin S.rank)} (hr : S.ReducesTo axes S_) (p : IVec S 1) : Prop :=
  Host.reduce IntOp.andi p (constantI S_ 1 1#1) hr h_S_ ix0 = 1#1

abbrev ltInf {F : FTy → Type} [FloatOps F] {S : Shape} (hb : S_.BroadcastsInDim S (![] : Fin 0 → Fin S.rank))
    (x : FVec F S .f32) : IVec S 1 :=
  cmpf .olt (Host.absf x) (broadcastInDim S ![] hb (constant S_ .f32 0x7F800000#32))

abbrev bcE (w : BitVec 32) : IVec S1600000 32 := broadcastInDim S1600000 ![] bcast_S_S1600000 (constantI S_ 32 w)

-- A conjunction over all entries that is 1 has a 1 at every entry.
theorem fin_of_all {S : Shape} {axes : List (Fin S.rank)} (hb : S_.BroadcastsInDim S (![] : Fin 0 → Fin S.rank))
    (hr : S.ReducesTo axes S_) (x : FVec Ideal S .f32) (h : AllOf hr (ltInf (F := Ideal) hb x)) : Cert.Spec.Fin' x :=
  fun i => real_of_abs_lt (x i) (Host.reduce_andi_all _ _ hr h_S_ ix0 h i)

-- 0 ≤ w < N read signed, with N < 2³¹, gives w < N read unsigned.
theorem lt_of_all (x : IVec S1600000 32) (N : ℕ) (hN : N < 2 ^ 31)
    (h0 : AllOf reducesTo_S1600000_S_d0 (cmpi .sge x (bcE 0#32)))
    (h1 : AllOf reducesTo_S1600000_S_d0 (cmpi .slt x (bcE (BitVec.ofNat 32 N)))) :
    ∀ e : Fin 1600000, (x (ix1 e)).toNat < N :=
  fun e => WordArith.toNat_lt_of_zero_sle_of_slt_ofNat _ N hN
    ((WordArith.ofBool_eq_one_iff _).1 (Host.reduce_andi_all _ _ reducesTo_S1600000_S_d0 h_S_ ix0 h0 (ix1 e)))
    ((WordArith.ofBool_eq_one_iff _).1 (Host.reduce_andi_all _ _ reducesTo_S1600000_S_d0 h_S_ ix0 h1 (ix1 e)))

section Kernel
open Cert.KernelIdeal

structure PreFacts (m : (ℓ : Loc Cert.KernelIdeal.nD Cert.KernelIdeal.τ Cert.KernelIdeal.sig) → Buf (Elt Ideal) ℓ)
    (c : Dev Cert.KernelIdeal.nD) : Prop where
  fin0 : Cert.Spec.Fin' (S := Cert.Pre_finite_inputs.S100000x128) (m ((c.tc : Thread nD τ).loc main_arg0))
  fin1 : Cert.Spec.Fin' (S := Cert.Pre_finite_inputs.S1000x128) (m ((c.tc : Thread nD τ).loc main_arg1))
  fin6 : Cert.Spec.Fin' (S := Cert.Pre_finite_inputs.S3x128x128) (m ((c.tc : Thread nD τ).loc main_arg6))
  fin7 : Cert.Spec.Fin' (S := Cert.Pre_finite_inputs.S3x128x128) (m ((c.tc : Thread nD τ).loc main_arg7))
  fin8 : Cert.Spec.Fin' (S := Cert.Pre_finite_inputs.S3x128) (m ((c.tc : Thread nD τ).loc main_arg8))
  fin9 : Cert.Spec.Fin' (S := Cert.Pre_finite_inputs.S3x128x128) (m ((c.tc : Thread nD τ).loc main_arg9))
  fin10 : Cert.Spec.Fin' (S := Cert.Pre_finite_inputs.S3x128x128) (m ((c.tc : Thread nD τ).loc main_arg10))
  fin11 : Cert.Spec.Fin' (S := Cert.Pre_finite_inputs.S3x128) (m ((c.tc : Thread nD τ).loc main_arg11))
  fin12 : Cert.Spec.Fin' (S := Cert.Pre_finite_inputs.S128x1) (m ((c.tc : Thread nD τ).loc main_arg12))
  fin13 : Cert.Spec.Fin' (S := Cert.Pre_finite_inputs.S1) (m ((c.tc : Thread nD τ).loc main_arg13))
  lt2 : ∀ e : Fin 1600000, ((m ((c.tc : Thread nD τ).loc main_arg2) : IVec Cert.Pre_finite_inputs.S1600000 32) (ix1 e)).toNat < 100000
  lt3 : ∀ e : Fin 1600000, ((m ((c.tc : Thread nD τ).loc main_arg3) : IVec Cert.Pre_finite_inputs.S1600000 32) (ix1 e)).toNat < 1000
  lt4 : ∀ e : Fin 1600000, ((m ((c.tc : Thread nD τ).loc main_arg4) : IVec Cert.Pre_finite_inputs.S1600000 32) (ix1 e)).toNat < 1000
  lt5 : ∀ e : Fin 1600000, ((m ((c.tc : Thread nD τ).loc main_arg5) : IVec Cert.Pre_finite_inputs.S1600000 32) (ix1 e)).toNat < 100000

theorem pre_decode (m : (ℓ : Loc Cert.KernelIdeal.nD Cert.KernelIdeal.τ Cert.KernelIdeal.sig) → Buf (Elt Ideal) ℓ)
    (h : Cert.Pre_KernelIdeal m) (c : Dev Cert.KernelIdeal.nD) : PreFacts m c := by
  have h := congrFun (h c) ix0
  simp only [fn, fn_part1, fn_part2, fn_part3, fn_part4, andi_ix0] at h
  obtain ⟨⟨⟨⟨⟨⟨⟨⟨⟨⟨⟨⟨⟨⟨⟨⟨⟨h0, h1⟩, h6⟩, h7⟩, h8⟩, h9⟩, h10⟩, h11⟩, h12⟩, h13⟩, h2a⟩, h2b⟩, h3a⟩, h3b⟩, h4a⟩, h4b⟩, h5a⟩, h5b⟩ := h
  exact
    { fin0 := fin_of_all _ _ _ h0, fin1 := fin_of_all _ _ _ h1, fin6 := fin_of_all _ _ _ h6, fin7 := fin_of_all _ _ _ h7
      fin8 := fin_of_all _ _ _ h8, fin9 := fin_of_all _ _ _ h9, fin10 := fin_of_all _ _ _ h10, fin11 := fin_of_all _ _ _ h11
      fin12 := fin_of_all _ _ _ h12, fin13 := fin_of_all _ _ _ h13
      lt2 := lt_of_all _ 100000 (by norm_num) h2a h2b, lt3 := lt_of_all _ 1000 (by norm_num) h3a h3b
      lt4 := lt_of_all _ 1000 (by norm_num) h4a h4b, lt5 := lt_of_all _ 100000 (by norm_num) h5a h5b }

end Kernel

end Cert.Val

end
-- ==== Proof.Algebraic.lean ====
import proofs.«410443_j44109314130257_2_alg».proof.Defs
import proofs.«410443_j44109314130257_2_alg».proof.Proof.KI.Frame
import proofs.«410443_j44109314130257_2_alg».proof.Proof.Val.KernelValue
import proofs.«410443_j44109314130257_2_alg».proof.Proof.Val.HostAdj
import proofs.«410443_j44109314130257_2_alg».proof.Proof.Val.RefSpec
import proofs.«410443_j44109314130257_2_alg».proof.Proof.Val.Join
import proofs.«410443_j44109314130257_2_alg».proof.Proof.Val.PreDecode
import proofs.«410443_j44109314130257_2_alg».proof.Proof.Gen.Pre_finite_inputs

set_option maxRecDepth 16384

noncomputable section

namespace Cert.Proof

open Idealize.ShloMosaic Idealize.ShloMosaic.TcCoe Idealize.ShloMosaic.ValueIdx Idealize.SL.Sem Cert.Spec

-- Three kernel layers on the padded inputs, cut back to the first 100000 rows, are the reference's three layers.
theorem results_agree
    (x0 y0 : SXc0.Idx → EReal) (x1 y1 : SXa0.Idx → EReal)
    (x2 y2 x3 y3 x4 y4 x5 y5 : (⟨1, ![1600000]⟩ : Shape).Idx → BitVec 32)
    (x6 y6 x7 y7 : SW3.Idx → EReal) (x8 y8 : SB3.Idx → EReal) (x9 y9 x10 y10 : SW3.Idx → EReal) (x11 y11 : SB3.Idx → EReal)
    (x12 y12 : STW.Idx → EReal) (x13 y13 : STb.Idx → EReal)
    (e0 : y0 = x0) (e1 : y1 = x1) (e2 : y2 = x2) (e3 : y3 = x3) (e4 : y4 = x4) (e5 : y5 = x5) (e6 : y6 = x6) (e7 : y7 = x7)
    (e8 : y8 = x8) (e9 : y9 = x9) (e10 : y10 = x10) (e11 : y11 = x11) (e12 : y12 = x12) (e13 : y13 = x13)
    (f0 : Fin' x0) (f1 : Fin' x1) (f6 : Fin' x6) (f7 : Fin' x7) (f8 : Fin' x8) (f9 : Fin' x9) (f10 : Fin' x10) (f11 : Fin' x11)
    (k2 : ∀ e : Fin E, (x2 (ix1 e)).toNat < 100000) (k3 : ∀ e : Fin E, (x3 (ix1 e)).toNat < 1000)
    (k4 : ∀ e : Fin E, (x4 (ix1 e)).toNat < 1000) (k5 : ∀ e : Fin E, (x5 (ix1 e)).toNat < 100000)
    (h2 : ∀ e : Fin E, (y2 (ix1 e)).toNat < 100000) (h4 : ∀ e : Fin E, (y4 (ix1 e)).toNat < 1000) :
    tailFn (refLayers (fun e => (y2 (ix1 e)).toNat) (fun e => (y3 (ix1 e)).toNat) (fun e => (y4 (ix1 e)).toNat) (fun e => (y5 (ix1 e)).toNat)
        h2 h4 y6 y7 y8 y9 y10 y11 y0 y1).1 y12 y13
      = tailFn (fun i : SXc0.Idx => (kLayers (adjC (fun e => (x2 (ix1 e)).toNat) (fun e => (x3 (ix1 e)).toNat))
          (adjA (fun e => (x4 (ix1 e)).toNat) (fun e => (x5 (ix1 e)).toNat)) x6 x7 x8 x9 x10 x11 x0 x1).1
          (ix2 (⟨(i 0).val, Nat.lt_of_lt_of_le (idx2_lt0 i) (by decide)⟩ : Fin 100096) (i 1))) x12 x13 := by
  subst e0 e1 e2 e3 e4 e5 e6 e7 e8 e9 e10 e11 e12 e13
  rw [kLayers_eq _ _ _ _ h2 k3 h4 k5 _ _ _ _ _ _ f6 f7 f8 f9 f10 f11 _ _ f0 f1]
  dsimp only
  rw [unpadC]

open Cert.KernelIdeal.Hand in
theorem algebraic : Cert.algebraic_KernelIdeal_ReferenceIdeal := by
  intro m ρ m' ρ' hpre hagree
  have P := fun c => Cert.Val.pre_decode m hpre c
  have hm2 : ∀ (c : Dev Cert.ReferenceIdeal.nD) (e : Fin 1600000), ((m' ((c.tc : Thread Cert.ReferenceIdeal.nD Cert.ReferenceIdeal.τ).loc Cert.ReferenceIdeal.main_arg2) : IVec Cert.ReferenceIdeal.S1600000 32) (ix1 e)).toNat < 100000 :=
    fun c e => by rw [(hagree c).2.2.1]; exact (P c).lt2 e
  have hm4 : ∀ (c : Dev Cert.ReferenceIdeal.nD) (e : Fin 1600000), ((m' ((c.tc : Thread Cert.ReferenceIdeal.nD Cert.ReferenceIdeal.τ).loc Cert.ReferenceIdeal.main_arg4) : IVec Cert.ReferenceIdeal.S1600000 32) (ix1 e)).toNat < 1000 :=
    fun c e => by rw [(hagree c).2.2.2.2.1]; exact (P c).lt4 e
  refine ⟨fun c => Wend m c Cert.KernelIdeal.main_v120, run_value m ρ, ?_⟩
  refine (θ_run Cert.ReferenceIdeal.defs _ _).mono (fun r h c => ⟨(h c).1.trans ?_, (h c).2⟩)
    (Cert.ReferenceIdeal.Val.ref_run m' ρ' hm2 (fun c e => by rw [(hagree c).2.2.2.1]; exact (P c).lt3 e) hm4 (fun c e => by rw [(hagree c).2.2.2.2.2.1]; exact (P c).lt5 e))
  refine Eq.trans ?_ (Cert.KernelIdeal.Val.kernel_value m c (Cert.KernelIdeal.Val.adjC_read m c (P c).lt2 (P c).lt3) (Cert.KernelIdeal.Val.adjA_read m c (P c).lt5 (P c).lt4)).symm
  exact results_agree _ _ _ _ _ _ _ _ _ _ _ _ _ _ _ _ _ _ _ _ _ _ _ _ _ _ _ _
    (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2
    (P c).fin0 (P c).fin1 (P c).fin6 (P c).fin7 (P c).fin8 (P c).fin9 (P c).fin10 (P c).fin11
    (P c).lt2 (P c).lt3 (P c).lt4 (P c).lt5 (hm2 c) (hm4 c)

end Cert.Proof

end
-- ==== Proof.lean ====
-- Three layers of a bipartite GraphSAGE update: each program runs to the end with its arguments unchanged, and at the ideal instance
-- the kernel's block-wise products with its count-normalised adjacency are the reference's segment means.
import proofs.«410443_j44109314130257_2_alg».proof.Defs
import proofs.«410443_j44109314130257_2_alg».proof.Proof.KI.Frame
import proofs.«410443_j44109314130257_2_alg».proof.Proof.KB.Frame
import proofs.«410443_j44109314130257_2_alg».proof.Proof.RefGen
import proofs.«410443_j44109314130257_2_alg».proof.Proof.Algebraic
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Proof.algebraic⟩

end Cert.Proof

end
